-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg5 : IVec S600000 32) (main_v65 : IVec S_ 1) (main_v67 : IVec S600000 1) : IVec S_ 1 :=
  let main_c_26 : IVec S_ 32 := constantI S_ 32 50000#32
  let main_v68 : IVec S600000 32 := broadcastInDim S600000 ![] bcast_S_S600000 main_c_26
  let main_v69 : IVec S600000 1 := cmpi .slt main_arg5 main_v68
  let main_v70 : IVec S600000 1 := andi main_v67 main_v69
  let main_c_27 : IVec S_ 1 := constantI S_ 1 1#1
  let main_v71 : IVec S_ 1 := (fun x v => Host.reduce IntOp.andi x v reducesTo_S600000_S_d0 h_S_) main_v70 main_c_27
  let main_v72 : IVec S_ 1 := andi main_v65 main_v71
  main_v72

def fn_part3 {F : FTy → Type} [FloatOps F] (main_arg1 : IVec S600000 32) (main_arg5 : IVec S600000 32) (main_arg15 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S600000 32 := broadcastInDim S600000 ![] bcast_S_S600000 main_c_22
  let main_v60 : IVec S600000 1 := cmpi .sge main_arg1 main_v59
  let main_c_23 : IVec S_ 32 := constantI S_ 32 50000#32
  let main_v61 : IVec S600000 32 := broadcastInDim S600000 ![] bcast_S_S600000 main_c_23
  let main_v62 : IVec S600000 1 := cmpi .slt main_arg1 main_v61
  let main_v63 : IVec S600000 1 := andi main_v60 main_v62
  let main_c_24 : IVec S_ 1 := constantI S_ 1 1#1
  let main_v64 : IVec S_ 1 := (fun x v => Host.reduce IntOp.andi x v reducesTo_S600000_S_d0 h_S_) main_v63 main_c_24
  let main_v65 : IVec S_ 1 := andi main_v58 main_v64
  let main_c_25 : IVec S_ 32 := constantI S_ 32 0#32
  let main_v66 : IVec S600000 32 := broadcastInDim S600000 ![] bcast_S_S600000 main_c_25
  let main_v67 : IVec S600000 1 := cmpi .sge main_arg5 main_v66
  fn_part4 (F := F) main_arg5 main_v65 main_v67

def fn_part2 {F : FTy → Type} [FloatOps F] (main_arg1 : IVec S600000 32) (main_arg5 : IVec S600000 32) (main_arg11 : FVec F S64 .f32) (main_arg12 : FVec F S128x128 .f32) (main_arg13 : FVec F S128 .f32) (main_arg14 : FVec F S128x64 .f32) (main_arg15 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg14
  let main_cst_18 : FVec F S_ .f32 := constant S_ .f32 0x7F800000#32
  let main_v50 : FVec F S128x64 .f32 := broadcastInDim S128x64 ![] bcast_S_S128x64 main_cst_18
  fn_part3 (F := F) main_arg1 main_arg5 main_arg15 main_v48 main_v49 main_v50

def fn_part1 {F : FTy → Type} [FloatOps F] (main_arg1 : IVec S600000 32) (main_arg5 : IVec S600000 32) (main_arg8 : FVec F S128x128 .f32) (main_arg9 : FVec F S128 .f32) (main_arg10 : FVec F S128x64 .f32) (main_arg11 : FVec F S64 .f32) (main_arg12 : FVec F S128x128 .f32) (main_arg13 : FVec F S128 .f32) (main_arg14 : FVec F S128x64 .f32) (main_arg15 : FVec F S64 .f32) (main_v13 : IVec S_ 1) (main_v16 : IVec S600000 1) : IVec S_ 1 :=
  let main_c_5 : IVec S_ 1 := constantI S_ 1 1#1
  let main_v17 : IVec S_ 1 := (fun x v => Host.reduce IntOp.andi x v reducesTo_S600000_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg10
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg5 main_arg11 main_arg12 main_arg13 main_arg14 main_arg15 main_v33

def fn {F : FTy → Type} [FloatOps F] (main_arg0 : FVec F S50000x128 .f32) (main_arg1 : IVec S600000 32) (main_arg2 : IVec S600000 32) (main_arg3 : FVec F S600000 .f32) (main_arg4 : FVec F S50000x128 .f32) (main_arg5 : IVec S600000 32) (main_arg6 : IVec S600000 32) (main_arg7 : FVec F S600000 .f32) (main_arg8 : FVec F S128x128 .f32) (main_arg9 : FVec F S128 .f32) (main_arg10 : FVec F S128x64 .f32) (main_arg11 : FVec F S64 .f32) (main_arg12 : FVec F S128x128 .f32) (main_arg13 : FVec F S128 .f32) (main_arg14 : FVec F S128x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S50000x128 .f32 := Host.absf main_arg4
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S600000 .f32 := Host.absf main_arg7
  let main_cst_4 : FVec F S_ .f32 := constant S_ .f32 0x7F800000#32
  let main_v15 : FVec F S600000 .f32 := broadcastInDim S600000 ![] bcast_S_S600000 main_cst_4
  let main_v16 : IVec S600000 1 := cmpf .olt main_v14 main_v15
  fn_part1 (F := F) main_arg1 main_arg5 main_arg8 main_arg9 main_arg10 main_arg11 main_arg12 main_arg13 main_arg14 main_arg15 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S600064 : Shape := ⟨1, ![600064]⟩
abbrev S5000x128 : Shape := ⟨2, ![5000, 128]⟩
abbrev S51200x128 : Shape := ⟨2, ![51200, 128]⟩
abbrev S600064x128 : Shape := ⟨2, ![600064, 128]⟩
abbrev S2048 : Shape := ⟨1, ![2048]⟩
abbrev S2048x128 : Shape := ⟨2, ![2048, 128]⟩
abbrev S1x2048 : Shape := ⟨2, ![1, 2048]⟩
abbrev S2048x1 : Shape := ⟨2, ![2048, 1]⟩
abbrev S2048x2048 : Shape := ⟨2, ![2048, 2048]⟩
abbrev S1x128 : Shape := ⟨2, ![1, 128]⟩
abbrev S50000x64 : Shape := ⟨2, ![50000, 64]⟩
abbrev S5000x64 : Shape := ⟨2, ![5000, 64]⟩
abbrev S51200x64 : Shape := ⟨2, ![51200, 64]⟩
abbrev S600064x64 : Shape := ⟨2, ![600064, 64]⟩
abbrev S2048x64 : Shape := ⟨2, ![2048, 64]⟩
abbrev S1x64 : Shape := ⟨2, ![1, 64]⟩
abbrev S1x50000x64 : Shape := ⟨3, ![1, 50000, 64]⟩
abbrev S2x50000x64 : Shape := ⟨3, ![2, 50000, 64]⟩

abbrev nBuf : Space → Nat
  | .hbm => 75
  | .vmem => 88
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S50000x128, .f32⟩
  | .hbm, ⟨5, _⟩ => ⟨S600000, .i32⟩
  | .hbm, ⟨6, _⟩ => ⟨S600000, .i32⟩
  | .hbm, ⟨7, _⟩ => ⟨S600000, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S_, .i32⟩
  | .hbm, ⟨17, _⟩ => ⟨S_, .i32⟩
  | .hbm, ⟨18, _⟩ => ⟨S600064, .i32⟩
  | .hbm, ⟨19, _⟩ => ⟨S_, .i32⟩
  | .hbm, ⟨20, _⟩ => ⟨S_, .i32⟩
  | .hbm, ⟨21, _⟩ => ⟨S600064, .i32⟩
  | .hbm, ⟨22, _⟩ => ⟨S_, .i32⟩
  | .hbm, ⟨23, _⟩ => ⟨S_, .f32⟩
  | .hbm, ⟨24, _⟩ => ⟨S600064, .f32⟩
  | .hbm, ⟨25, _⟩ => ⟨S_, .i32⟩
  | .hbm, ⟨26, _⟩ => ⟨S_, .i32⟩
  | .hbm, ⟨27, _⟩ => ⟨S600064, .i32⟩
  | .hbm, ⟨28, _⟩ => ⟨S_, .i32⟩
  | .hbm, ⟨29, _⟩ => ⟨S_, .i32⟩
  | .hbm, ⟨30, _⟩ => ⟨S600064, .i32⟩
  | .hbm, ⟨31, _⟩ => ⟨S_, .i32⟩
  | .hbm, ⟨32, _⟩ => ⟨S_, .f32⟩
  | .hbm, ⟨33, _⟩ => ⟨S600064, .f32⟩
  | .hbm, ⟨34, _⟩ => ⟨S50000x128, .bf16⟩
  | .hbm, ⟨35, _⟩ => ⟨S_, .i32⟩
  | .hbm, ⟨36, _⟩ => ⟨S_, .bf16⟩
  | .hbm, ⟨37, _⟩ => ⟨S51200x128, .bf16⟩
  | .hbm, ⟨38, _⟩ => ⟨S600064x128, .bf16⟩
  | .hbm, ⟨39, _⟩ => ⟨S1x128, .f32⟩
  | .hbm, ⟨40, _⟩ => ⟨S51200x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S50000x64, .bf16⟩
  | .hbm, ⟨46, _⟩ => ⟨S_, .i32⟩
  | .hbm, ⟨47, _⟩ => ⟨S_, .bf16⟩
  | .hbm, ⟨48, _⟩ => ⟨S51200x64, .bf16⟩
  | .hbm, ⟨49, _⟩ => ⟨S600064x64, .bf16⟩
  | .hbm, ⟨50, _⟩ => ⟨S1x64, .f32⟩
  | .hbm, ⟨51, _⟩ => ⟨S51200x64, .f32⟩
  | .hbm, ⟨52, _⟩ => ⟨S50000x64, .f32⟩
  | .hbm, ⟨53, _⟩ => ⟨S50000x128, .bf16⟩
  | .hbm, ⟨54, _⟩ => ⟨S_, .i32⟩
  | .hbm, ⟨55, _⟩ => ⟨S_, .bf16⟩
  | .hbm, ⟨56, _⟩ => ⟨S51200x128, .bf16⟩
  | .hbm, ⟨57, _⟩ => ⟨S600064x128, .bf16⟩
  | .hbm, ⟨58, _⟩ => ⟨S1x128, .f32⟩
  | .hbm, ⟨59, _⟩ => ⟨S51200x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S50000x64, .bf16⟩
  | .hbm, ⟨65, _⟩ => ⟨S_, .i32⟩
  | .hbm, ⟨66, _⟩ => ⟨S_, .bf16⟩
  | .hbm, ⟨67, _⟩ => ⟨S51200x64, .bf16⟩
  | .hbm, ⟨68, _⟩ => ⟨S600064x64, .bf16⟩
  | .hbm, ⟨69, _⟩ => ⟨S1x64, .f32⟩
  | .hbm, ⟨70, _⟩ => ⟨S51200x64, .f32⟩
  | .hbm, ⟨71, _⟩ => ⟨S50000x64, .f32⟩
  | .hbm, ⟨72, _⟩ => ⟨S1x50000x64, .f32⟩
  | .hbm, ⟨73, _⟩ => ⟨S1x50000x64, .f32⟩
  | .hbm, ⟨74, _⟩ => ⟨S2x50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S2048, .i32⟩
  | .local _ .vmem, ⟨6, _⟩ => ⟨S2048, .i32⟩
  | .local _ .vmem, ⟨7, _⟩ => ⟨S2048, .f32⟩
  | .local _ .vmem, ⟨8, _⟩ => ⟨S2048, .f32⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .f32⟩
  | .local _ .vmem, ⟨14, _⟩ => ⟨S2048, .i32⟩
  | .local _ .vmem, ⟨15, _⟩ => ⟨S2048, .i32⟩
  | .local _ .vmem, ⟨16, _⟩ => ⟨S2048x128, .bf16⟩
  | .local _ .vmem, ⟨17, _⟩ => ⟨S2048x128, .bf16⟩
  | .local _ .vmem, ⟨18, _⟩ => ⟨S1x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S5000x64, .bf16⟩
  | .local _ .vmem, ⟨26, _⟩ => ⟨S5000x64, .bf16⟩
  | .local _ .vmem, ⟨27, _⟩ => ⟨S2048, .i32⟩
  | .local _ .vmem, ⟨28, _⟩ => ⟨S2048, .i32⟩
  | .local _ .vmem, ⟨29, _⟩ => ⟨S2048, .f32⟩
  | .local _ .vmem, ⟨30, _⟩ => ⟨S2048, .f32⟩
  | .local _ .vmem, ⟨31, _⟩ => ⟨S2048x64, .bf16⟩
  | .local _ .vmem, ⟨32, _⟩ => ⟨S2048x64, .bf16⟩
  | .local _ .vmem, ⟨33, _⟩ => ⟨S2048x64, .bf16⟩
  | .local _ .vmem, ⟨34, _⟩ => ⟨S2048x64, .bf16⟩
  | .local _ .vmem, ⟨35, _⟩ => ⟨S2048x64, .f32⟩
  | .local _ .vmem, ⟨36, _⟩ => ⟨S2048, .i32⟩
  | .local _ .vmem, ⟨37, _⟩ => ⟨S2048, .i32⟩
  | .local _ .vmem, ⟨38, _⟩ => ⟨S2048x64, .bf16⟩
  | .local _ .vmem, ⟨39, _⟩ => ⟨S2048x64, .bf16⟩
  | .local _ .vmem, ⟨40, _⟩ => ⟨S1x64, .f32⟩
  | .local _ .vmem, ⟨41, _⟩ => ⟨S2048x64, .f32⟩
  | .local _ .vmem, ⟨42, _⟩ => ⟨S2048x64, .f32⟩
  | .local _ .vmem, ⟨43, _⟩ => ⟨S2048x64, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S5000x128, .bf16⟩
  | .local _ .vmem, ⟨48, _⟩ => ⟨S5000x128, .bf16⟩
  | .local _ .vmem, ⟨49, _⟩ => ⟨S2048, .i32⟩
  | .local _ .vmem, ⟨50, _⟩ => ⟨S2048, .i32⟩
  | .local _ .vmem, ⟨51, _⟩ => ⟨S2048, .f32⟩
  | .local _ .vmem, ⟨52, _⟩ => ⟨S2048, .f32⟩
  | .local _ .vmem, ⟨53, _⟩ => ⟨S2048x128, .bf16⟩
  | .local _ .vmem, ⟨54, _⟩ => ⟨S2048x128, .bf16⟩
  | .local _ .vmem, ⟨55, _⟩ => ⟨S2048x128, .bf16⟩
  | .local _ .vmem, ⟨56, _⟩ => ⟨S2048x128, .bf16⟩
  | .local _ .vmem, ⟨57, _⟩ => ⟨S2048x128, .f32⟩
  | .local _ .vmem, ⟨58, _⟩ => ⟨S2048, .i32⟩
  | .local _ .vmem, ⟨59, _⟩ => ⟨S2048, .i32⟩
  | .local _ .vmem, ⟨60, _⟩ => ⟨S2048x128, .bf16⟩
  | .local _ .vmem, ⟨61, _⟩ => ⟨S2048x128, .bf16⟩
  | .local _ .vmem, ⟨62, _⟩ => ⟨S1x128, .f32⟩
  | .local _ .vmem, ⟨63, _⟩ => ⟨S2048x128, .f32⟩
  | .local _ .vmem, ⟨64, _⟩ => ⟨S2048x128, .f32⟩
  | .local _ .vmem, ⟨65, _⟩ => ⟨S2048x128, .f32⟩
  | .local _ .vmem, ⟨66, _⟩ => ⟨S5000x128, .f32⟩
  | .local _ .vmem, ⟨67, _⟩ => ⟨S5000x128, .f32⟩
  | .local _ .vmem, ⟨68, _⟩ => ⟨S128x64, .f32⟩
  | .local _ .vmem, ⟨69, _⟩ => ⟨S5000x64, .bf16⟩
  | .local _ .vmem, ⟨70, _⟩ => ⟨S5000x64, .bf16⟩
  | .local _ .vmem, ⟨71, _⟩ => ⟨S2048, .i32⟩
  | .local _ .vmem, ⟨72, _⟩ => ⟨S2048, .i32⟩
  | .local _ .vmem, ⟨73, _⟩ => ⟨S2048, .f32⟩
  | .local _ .vmem, ⟨74, _⟩ => ⟨S2048, .f32⟩
  | .local _ .vmem, ⟨75, _⟩ => ⟨S2048x64, .bf16⟩
  | .local _ .vmem, ⟨76, _⟩ => ⟨S2048x64, .bf16⟩
  | .local _ .vmem, ⟨77, _⟩ => ⟨S2048x64, .bf16⟩
  | .local _ .vmem, ⟨78, _⟩ => ⟨S2048x64, .bf16⟩
  | .local _ .vmem, ⟨79, _⟩ => ⟨S2048x64, .f32⟩
  | .local _ .vmem, ⟨80, _⟩ => ⟨S2048, .i32⟩
  | .local _ .vmem, ⟨81, _⟩ => ⟨S2048, .i32⟩
  | .local _ .vmem, ⟨82, _⟩ => ⟨S2048x64, .bf16⟩
  | .local _ .vmem, ⟨83, _⟩ => ⟨S2048x64, .bf16⟩
  | .local _ .vmem, ⟨84, _⟩ => ⟨S1x64, .f32⟩
  | .local _ .vmem, ⟨85, _⟩ => ⟨S2048x64, .f32⟩
  | .local _ .vmem, ⟨86, _⟩ => ⟨S2048x64, .f32⟩
  | .local _ .vmem, ⟨87, _⟩ => ⟨S2048x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_c_0 : Ref sig .tc := ⟨.hbm, 19, rfl⟩
abbrev main_call1_v0 : Ref sig .tc := ⟨.hbm, 20, rfl⟩
abbrev main_v1 : Ref sig .tc := ⟨.hbm, 21, rfl⟩
abbrev main_c_1 : Ref sig .tc := ⟨.hbm, 22, rfl⟩
abbrev main_call2_v0 : Ref sig .tc := ⟨.hbm, 23, rfl⟩
abbrev main_v2 : Ref sig .tc := ⟨.hbm, 24, rfl⟩
abbrev main_c_2 : Ref sig .tc := ⟨.hbm, 25, rfl⟩
abbrev main_call3_v0 : Ref sig .tc := ⟨.hbm, 26, rfl⟩
abbrev main_v3 : Ref sig .tc := ⟨.hbm, 27, rfl⟩
abbrev main_c_3 : Ref sig .tc := ⟨.hbm, 28, rfl⟩
abbrev main_call4_v0 : Ref sig .tc := ⟨.hbm, 29, rfl⟩
abbrev main_v4 : Ref sig .tc := ⟨.hbm, 30, rfl⟩
abbrev main_c_4 : Ref sig .tc := ⟨.hbm, 31, rfl⟩
abbrev main_call5_v0 : Ref sig .tc := ⟨.hbm, 32, rfl⟩
abbrev main_v5 : Ref sig .tc := ⟨.hbm, 33, rfl⟩
abbrev main_v6 : Ref sig .tc := ⟨.hbm, 34, rfl⟩
abbrev main_c_5 : Ref sig .tc := ⟨.hbm, 35, rfl⟩
abbrev main_call6_v0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_call7_cst : Ref sig .tc := ⟨.hbm, 42, rfl⟩
abbrev main_call7_v0 : Ref sig .tc := ⟨.hbm, 43, rfl⟩
abbrev main_v12 : Ref sig .tc := ⟨.hbm, 44, rfl⟩
abbrev main_v13 : Ref sig .tc := ⟨.hbm, 45, rfl⟩
abbrev main_c_6 : Ref sig .tc := ⟨.hbm, 46, rfl⟩
abbrev main_call8_v0 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_7 : Ref sig .tc := ⟨.hbm, 54, rfl⟩
abbrev main_call9_v0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_call10_cst : Ref sig .tc := ⟨.hbm, 61, rfl⟩
abbrev main_call10_v0 : Ref sig .tc := ⟨.hbm, 62, rfl⟩
abbrev main_v25 : Ref sig .tc := ⟨.hbm, 63, rfl⟩
abbrev main_v26 : Ref sig .tc := ⟨.hbm, 64, rfl⟩
abbrev main_c_8 : Ref sig .tc := ⟨.hbm, 65, rfl⟩
abbrev main_call11_v0 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc7_stg3_0 : Ref sig .tc := ⟨.vmem, 55, rfl⟩
abbrev cc7_stg3_1 : Ref sig .tc := ⟨.vmem, 56, rfl⟩
abbrev cc7_scratch0 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg1_1 : Ref sig .tc := ⟨.vmem, 61, rfl⟩
abbrev cc8_stg2_0 : Ref sig .tc := ⟨.vmem, 62, rfl⟩
abbrev cc8_stg3_0 : Ref sig .tc := ⟨.vmem, 63, rfl⟩
abbrev cc8_stg3_1 : Ref sig .tc := ⟨.vmem, 64, rfl⟩
abbrev cc8_scratch0 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg2_1 : Ref sig .tc := ⟨.vmem, 70, rfl⟩
abbrev cc10_stg0_0 : Ref sig .tc := ⟨.vmem, 71, rfl⟩
abbrev cc10_stg0_1 : Ref sig .tc := ⟨.vmem, 72, rfl⟩
abbrev cc10_stg1_0 : Ref sig .tc := ⟨.vmem, 73, rfl⟩
abbrev cc10_stg1_1 : Ref sig .tc := ⟨.vmem, 74, rfl⟩
abbrev cc10_stg2_0 : Ref sig .tc := ⟨.vmem, 75, rfl⟩
abbrev cc10_stg2_1 : Ref sig .tc := ⟨.vmem, 76, rfl⟩
abbrev cc10_stg3_0 : Ref sig .tc := ⟨.vmem, 77, rfl⟩
abbrev cc10_stg3_1 : Ref sig .tc := ⟨.vmem, 78, rfl⟩
abbrev cc10_scratch0 : Ref sig .tc := ⟨.vmem, 79, rfl⟩
abbrev cc11_stg0_0 : Ref sig .tc := ⟨.vmem, 80, rfl⟩
abbrev cc11_stg0_1 : Ref sig .tc := ⟨.vmem, 81, rfl⟩
abbrev cc11_stg1_0 : Ref sig .tc := ⟨.vmem, 82, rfl⟩
abbrev cc11_stg1_1 : Ref sig .tc := ⟨.vmem, 83, rfl⟩
abbrev cc11_stg2_0 : Ref sig .tc := ⟨.vmem, 84, rfl⟩
abbrev cc11_stg3_0 : Ref sig .tc := ⟨.vmem, 85, rfl⟩
abbrev cc11_stg3_1 : Ref sig .tc := ⟨.vmem, 86, rfl⟩
abbrev cc11_scratch0 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc7_sem3_0 : DmaSem sig := 51
abbrev cc7_sem3_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem3_0 : DmaSem sig := 58
abbrev cc8_sem3_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem2_1 : DmaSem sig := 64
abbrev cc10_sem0_0 : DmaSem sig := 65
abbrev cc10_sem0_1 : DmaSem sig := 66
abbrev cc10_sem1_0 : DmaSem sig := 67
abbrev cc10_sem1_1 : DmaSem sig := 68
abbrev cc10_sem2_0 : DmaSem sig := 69
abbrev cc10_sem2_1 : DmaSem sig := 70
abbrev cc10_sem3_0 : DmaSem sig := 71
abbrev cc10_sem3_1 : DmaSem sig := 72
abbrev cc11_sem0_0 : DmaSem sig := 73
abbrev cc11_sem0_1 : DmaSem sig := 74
abbrev cc11_sem1_0 : DmaSem sig := 75
abbrev cc11_sem1_1 : DmaSem sig := 76
abbrev cc11_sem2_0 : DmaSem sig := 77
abbrev cc11_sem3_0 : DmaSem sig := 78
abbrev cc11_sem3_1 : DmaSem sig := 79

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![293, 25], ![false, false]⟩

def k1_cond2 (i : grid1.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_7 : BitVec 32 := 0#32
  let v26 : BitVec 1 := Scalar.cmpi .ne v25 c0_i32_7
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![25, 293], ![false, false]⟩

def k2_cond2 (i : grid2.Coords) : BitVec 1 :=
  let arg1 : BitVec 32 := BitVec.ofNat 32 (i 1).val
  let c292_i32 : BitVec 32 := 292#32
  let v24 : BitVec 1 := Scalar.cmpi .eq arg1 c292_i32
  let v25 : BitVec 32 := Scalar.extui v24
  let c0_i32_7 : BitVec 32 := 0#32
  let v26 : BitVec 1 := Scalar.cmpi .ne v25 c0_i32_7
  v26

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![293, 25], ![false, false]⟩

def k4_cond2 (i : grid4.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_7 : BitVec 32 := 0#32
  let v26 : BitVec 1 := Scalar.cmpi .ne v25 c0_i32_7
  v26

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_1 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2048x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2048x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![25, 293], ![false, false]⟩

def k5_cond2 (i : grid5.Coords) : BitVec 1 :=
  let arg1 : BitVec 32 := BitVec.ofNat 32 (i 1).val
  let c292_i32 : BitVec 32 := 292#32
  let v24 : BitVec 1 := Scalar.cmpi .eq arg1 c292_i32
  let v25 : BitVec 32 := Scalar.extui v24
  let c0_i32_7 : BitVec 32 := 0#32
  let v26 : BitVec 1 := Scalar.cmpi .ne v25 c0_i32_7
  v26

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2048x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![293, 25], ![false, false]⟩

def k7_cond2 (i : grid7.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_7 : BitVec 32 := 0#32
  let v26 : BitVec 1 := Scalar.cmpi .ne v25 c0_i32_7
  v26

def cc7_transform_0 (i : grid7.Coords) : Fin 1 → Nat :=
  let arg0 : BitVec 32 := BitVec.ofNat 32 (i 0).val
  let arg1 : BitVec 32 := BitVec.ofNat 32 (i 1).val
  let c0_i32 : BitVec 32 := 0#32
  ![arg0.toNat]

def cc7_transform_1 (i : grid7.Coords) : Fin 1 → Nat :=
  let arg0 : BitVec 32 := BitVec.ofNat 32 (i 0).val
  let arg1 : BitVec 32 := BitVec.ofNat 32 (i 1).val
  let c0_i32 : BitVec 32 := 0#32
  ![arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S2048x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S2048x128 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![25, 293], ![false, false]⟩

def k8_cond2 (i : grid8.Coords) : BitVec 1 :=
  let arg1 : BitVec 32 := BitVec.ofNat 32 (i 1).val
  let c292_i32 : BitVec 32 := 292#32
  let v24 : BitVec 1 := Scalar.cmpi .eq arg1 c292_i32
  let v25 : BitVec 32 := Scalar.extui v24
  let c0_i32_7 : BitVec 32 := 0#32
  let v26 : BitVec 1 := Scalar.cmpi .ne v25 c0_i32_7
  v26

def cc8_transform_0 (i : grid8.Coords) : Fin 1 → Nat :=
  let arg0 : BitVec 32 := BitVec.ofNat 32 (i 0).val
  let arg1 : BitVec 32 := BitVec.ofNat 32 (i 1).val
  let c0_i32 : BitVec 32 := 0#32
  ![arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2048 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S2048x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S2048x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x64 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨2, ![293, 25], ![false, false]⟩

def k10_cond2 (i : grid10.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_7 : BitVec 32 := 0#32
  let v26 : BitVec 1 := Scalar.cmpi .ne v25 c0_i32_7
  v26

def cc10_transform_0 (i : grid10.Coords) : Fin 1 → Nat :=
  let arg0 : BitVec 32 := BitVec.ofNat 32 (i 0).val
  let arg1 : BitVec 32 := BitVec.ofNat 32 (i 1).val
  let c0_i32 : BitVec 32 := 0#32
  ![arg0.toNat]

def cc10_transform_1 (i : grid10.Coords) : Fin 1 → Nat :=
  let arg0 : BitVec 32 := BitVec.ofNat 32 (i 0).val
  let arg1 : BitVec 32 := BitVec.ofNat 32 (i 1).val
  let c0_i32 : BitVec 32 := 0#32
  ![arg0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S2048 .i32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S2048 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false]

abbrev stage10_2 : Fin 2 → Memref sig .tc .vmem S2048x64 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true]

abbrev stage10_3 : Fin 2 → Memref sig .tc .vmem S2048x64 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨2, ![25, 293], ![false, false]⟩

def k11_cond2 (i : grid11.Coords) : BitVec 1 :=
  let arg1 : BitVec 32 := BitVec.ofNat 32 (i 1).val
  let c292_i32 : BitVec 32 := 292#32
  let v24 : BitVec 1 := Scalar.cmpi .eq arg1 c292_i32
  let v25 : BitVec 32 := Scalar.extui v24
  let c0_i32_7 : BitVec 32 := 0#32
  let v26 : BitVec 1 := Scalar.cmpi .ne v25 c0_i32_7
  v26

def cc11_transform_0 (i : grid11.Coords) : Fin 1 → Nat :=
  let arg0 : BitVec 32 := BitVec.ofNat 32 (i 0).val
  let arg1 : BitVec 32 := BitVec.ofNat 32 (i 1).val
  let c0_i32 : BitVec 32 := 0#32
  ![arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S2048 .i32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![false, true]

abbrev stage11_1 : Fin 2 → Memref sig .tc .vmem S2048x64 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, false]

abbrev stage11_3 : Fin 2 → Memref sig .tc .vmem S2048x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

class Facts₀ : Prop where
  pads_S600000_S600064_0640 : S600000.Pads (![0] : Fin 1 → Nat) ![64] ![0] S600064
  h_S_ : 0 < S_.numel
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  pads_S50000x128_S51200x128_012000_000 : S50000x128.Pads (![0, 0] : Fin 2 → Nat) ![1200, 0] ![0, 0] S51200x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S1x2048_d1_w32 : S1x2048.Iotas .tc 32 [1]
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  broadcasts_S2048x1_S2048x2048 : S2048x1.Broadcasts S2048x2048
  broadcasts_S1x2048_S2048x2048 : S1x2048.Broadcasts S2048x2048
  natLt_1_32 : 1 < 32
  broadcasts_S2048x1_S2048x128 : S2048x1.Broadcasts S2048x128
  packedbf16_S2048x128_S2048x128_0_0 : (Rect.unit (s := S2048x128) ![0, 0] S2048x128.size inb_S2048x128_S2048x128_0_0).PackedRows (EltTy.packing .bf16)
  shapeCasts_S128_S1x128 : S128.ShapeCasts S1x128
  iota_S2048x1_d0_w32 : S2048x1.Iotas .tc 32 [0]
  shapeCasts_S2048_S1x2048 : S2048.ShapeCasts S1x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S51200x128_S50000x128_0_0 : S51200x128.Slices ![0, 0] S50000x128
  bcast_S_S50000x128 : S_.BroadcastsInDim S50000x128 (![] : Fin 0 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  pads_S50000x64_S51200x64_012000_000 : S50000x64.Pads (![0, 0] : Fin 2 → Nat) ![1200, 0] ![0, 0] S51200x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  packedbf16_S2048x64_S2048x64_0_0 : (Rect.unit (s := S2048x64) ![0, 0] S2048x64.size inb_S2048x64_S2048x64_0_0).PackedRows (EltTy.packing .bf16)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  slices_S51200x64_S50000x64_0_0 : S51200x64.Slices ![0, 0] S50000x64
  bcast_S50000x64_S1x50000x64_1_2 : S50000x64.BroadcastsInDim S1x50000x64 (![1, 2] : Fin 2 → Fin S1x50000x64.rank)
  concatenates_S1x50000x64_S1x50000x64_S2x50000x64_d0 : Shape.Concatenates [S1x50000x64, S1x50000x64] S2x50000x64 0
  dot_S5000x128_S128x128_S5000x128_1_0_0_1_n_n_wf : DotDims.WF S5000x128 S128x128 S5000x128 [1] [0] [0] [1] [] []
  dot_S2048x2048_S2048x128_S2048x128_1_0_0_1_n_n_wf : DotDims.WF S2048x2048 S2048x128 S2048x128 [1] [0] [0] [1] [] []
  dot_S5000x128_S128x64_S5000x64_1_0_0_1_n_n_wf : DotDims.WF S5000x128 S128x64 S5000x64 [1] [0] [0] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048.size a ≤ S600064.size a
  hwx1_0 : ∀ i : grid1.Coords, EltTy.bits .i32 = 32 ∨ (Rect.block (s := S600064) S2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048.size a ≤ S600064.size a
  hwx1_1 : ∀ i : grid1.Coords, EltTy.bits .f32 = 32 ∨ (Rect.block (s := S600064) S2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S51200x128.size a
  hwx1_2 : ∀ i : grid1.Coords, EltTy.bits .bf16 = 32 ∨ (Rect.block (s := S51200x128) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S600064x128.size a
  hwx1_3 : ∀ i : grid1.Coords, EltTy.bits .bf16 = 32 ∨ (Rect.block (s := S600064x128) S2048x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048.size a ≤ S600064.size a
  hwx2_0 : ∀ i : grid2.Coords, EltTy.bits .i32 = 32 ∨ (Rect.block (s := S600064) S2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S600064x128.size a
  hwx2_1 : ∀ i : grid2.Coords, EltTy.bits .bf16 = 32 ∨ (Rect.block (s := S600064x128) S2048x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S51200x128.size a
  hwx2_3 : ∀ i : grid2.Coords, EltTy.bits .f32 = 32 ∨ (Rect.block (s := S51200x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .bf16 = 32 ∨ (Rect.block (s := S50000x64) S5000x64.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048.size a ≤ S600064.size a
  hwx4_0 : ∀ i : grid4.Coords, EltTy.bits .i32 = 32 ∨ (Rect.block (s := S600064) S2048.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048.size a ≤ S600064.size a
  hwx4_1 : ∀ i : grid4.Coords, EltTy.bits .f32 = 32 ∨ (Rect.block (s := S600064) S2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S51200x64.size a
  hwx4_2 : ∀ i : grid4.Coords, EltTy.bits .bf16 = 32 ∨ (Rect.block (s := S51200x64) S2048x64.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x64.size a ≤ S600064x64.size a
  hwx4_3 : ∀ i : grid4.Coords, EltTy.bits .bf16 = 32 ∨ (Rect.block (s := S600064x64) S2048x64.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048.size a ≤ S600064.size a
  hwx5_0 : ∀ i : grid5.Coords, EltTy.bits .i32 = 32 ∨ (Rect.block (s := S600064) S2048.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x64.size a ≤ S600064x64.size a
  hwx5_1 : ∀ i : grid5.Coords, EltTy.bits .bf16 = 32 ∨ (Rect.block (s := S600064x64) S2048x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x64.size a ≤ S51200x64.size a
  hwx5_3 : ∀ i : grid5.Coords, EltTy.bits .f32 = 32 ∨ (Rect.block (s := S51200x64) S2048x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .bf16 = 32 ∨ (Rect.block (s := S50000x128) S5000x128.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048.size a ≤ S600064.size a
  hwx7_0 : ∀ i : grid7.Coords, EltTy.bits .i32 = 32 ∨ (Rect.block (s := S600064) S2048.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048.size a ≤ S600064.size a
  hwx7_1 : ∀ i : grid7.Coords, EltTy.bits .f32 = 32 ∨ (Rect.block (s := S600064) S2048.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x128.size a ≤ S51200x128.size a
  hwx7_2 : ∀ i : grid7.Coords, EltTy.bits .bf16 = 32 ∨ (Rect.block (s := S51200x128) S2048x128.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x128.size a ≤ S600064x128.size a
  hwx7_3 : ∀ i : grid7.Coords, EltTy.bits .bf16 = 32 ∨ (Rect.block (s := S600064x128) S2048x128.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048.size a ≤ S600064.size a
  hwx8_0 : ∀ i : grid8.Coords, EltTy.bits .i32 = 32 ∨ (Rect.block (s := S600064) S2048.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x128.size a ≤ S600064x128.size a
  hwx8_1 : ∀ i : grid8.Coords, EltTy.bits .bf16 = 32 ∨ (Rect.block (s := S600064x128) S2048x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048x128.size a ≤ S51200x128.size a
  hwx8_3 : ∀ i : grid8.Coords, EltTy.bits .f32 = 32 ∨ (Rect.block (s := S51200x128) S2048x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x64.size a ≤ S128x64.size a
  hwx9_1 : ∀ i : grid9.Coords, EltTy.bits .f32 = 32 ∨ (Rect.block (s := S128x64) S128x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S50000x64.size a
  hwx9_2 : ∀ i : grid9.Coords, EltTy.bits .bf16 = 32 ∨ (Rect.block (s := S50000x64) S5000x64.size (cc9_transform_2 i) (hinb9_2 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048.size a ≤ S600064.size a
  hwx10_0 : ∀ i : grid10.Coords, EltTy.bits .i32 = 32 ∨ (Rect.block (s := S600064) S2048.size (cc10_transform_0 i) (hinb10_0 i)).WholeWords (EltTy.packing .i32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2048.size a ≤ S600064.size a
  hwx10_1 : ∀ i : grid10.Coords, EltTy.bits .f32 = 32 ∨ (Rect.block (s := S600064) S2048.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2048x64.size a ≤ S51200x64.size a
  hwx10_2 : ∀ i : grid10.Coords, EltTy.bits .bf16 = 32 ∨ (Rect.block (s := S51200x64) S2048x64.size (cc10_transform_2 i) (hinb10_2 i)).WholeWords (EltTy.packing .bf16)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2048x64.size a ≤ S600064x64.size a
  hwx10_3 : ∀ i : grid10.Coords, EltTy.bits .bf16 = 32 ∨ (Rect.block (s := S600064x64) S2048x64.size (cc10_transform_3 i) (hinb10_3 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048.size a ≤ S600064.size a
  hwx11_0 : ∀ i : grid11.Coords, EltTy.bits .i32 = 32 ∨ (Rect.block (s := S600064) S2048.size (cc11_transform_0 i) (hinb11_0 i)).WholeWords (EltTy.packing .i32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2048x64.size a ≤ S600064x64.size a
  hwx11_1 : ∀ i : grid11.Coords, EltTy.bits .bf16 = 32 ∨ (Rect.block (s := S600064x64) S2048x64.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2048x64.size a ≤ S51200x64.size a
  hwx11_3 : ∀ i : grid11.Coords, EltTy.bits .f32 = 32 ∨ (Rect.block (s := S51200x64) S2048x64.size (cc11_transform_3 i) (hinb11_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1) S2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v12) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v0) S2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2) S2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S2048x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v15) S2048x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v1) S2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S2048x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v16) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v17) S2048x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_arg4) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v19) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v3) S2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v5) S2048.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v20) S2048x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v21) S2048x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v4) S2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v21) S2048x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v22) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v23) S2048x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v25) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S128x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v26) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v3) S2048.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v5) S2048.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v27) S2048x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v28) S2048x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v4) S2048.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v28) S2048x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v29) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v30) S2048x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩
abbrev S50000x64 : Shape := ⟨2, ![50000, 64]⟩
abbrev S600000x64 : Shape := ⟨2, ![600000, 64]⟩
abbrev S1x64 : Shape := ⟨2, ![1, 64]⟩
abbrev S1x50000x64 : Shape := ⟨3, ![1, 50000, 64]⟩
abbrev S2x50000x64 : Shape := ⟨3, ![2, 50000, 64]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S50000x128, .f32⟩
  | .hbm, ⟨5, _⟩ => ⟨S600000, .i32⟩
  | .hbm, ⟨6, _⟩ => ⟨S600000, .i32⟩
  | .hbm, ⟨7, _⟩ => ⟨S600000, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S50000x128, .f32⟩
  | .hbm, ⟨17, _⟩ => ⟨S600000x1, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S600000x128, .f32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x64, .f32⟩
  | .hbm, ⟨40, _⟩ => ⟨S600000x1, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x64, .f32⟩
  | .hbm, ⟨50, _⟩ => ⟨S600000x64, .f32⟩
  | .hbm, ⟨51, _⟩ => ⟨S600000x64, .f32⟩
  | .hbm, ⟨52, _⟩ => ⟨S_, .f32⟩
  | .hbm, ⟨53, _⟩ => ⟨S50000x64, .f32⟩
  | .hbm, ⟨54, _⟩ => ⟨S600000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S50000x128, .f32⟩
  | .hbm, ⟨60, _⟩ => ⟨S600000x1, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .f32⟩
  | .hbm, ⟨70, _⟩ => ⟨S600000x128, .f32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x64, .f32⟩
  | .hbm, ⟨83, _⟩ => ⟨S600000x1, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000x64, .f32⟩
  | .hbm, ⟨93, _⟩ => ⟨S600000x64, .f32⟩
  | .hbm, ⟨94, _⟩ => ⟨S600000x64, .f32⟩
  | .hbm, ⟨95, _⟩ => ⟨S_, .f32⟩
  | .hbm, ⟨96, _⟩ => ⟨S50000x64, .f32⟩
  | .hbm, ⟨97, _⟩ => ⟨S600000x1, .i32⟩
  | .hbm, ⟨98, _⟩ => ⟨S50000x64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S1x50000x64, .f32⟩
  | .hbm, ⟨103, _⟩ => ⟨S1x50000x64, .f32⟩
  | .hbm, ⟨104, _⟩ => ⟨S2x50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call0_cst : Ref sig .tc := ⟨.hbm, 36, rfl⟩
abbrev main_call0_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_1 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_4 : Ref sig .tc := ⟨.hbm, 61, rfl⟩
abbrev main_v37 : Ref sig .tc := ⟨.hbm, 62, rfl⟩
abbrev main_v38 : Ref sig .tc := ⟨.hbm, 63, rfl⟩
abbrev main_c_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_cst : Ref sig .tc := ⟨.hbm, 79, rfl⟩
abbrev main_call1_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_7 : Ref sig .tc := ⟨.hbm, 84, rfl⟩
abbrev main_v55 : Ref sig .tc := ⟨.hbm, 85, rfl⟩
abbrev main_v56 : Ref sig .tc := ⟨.hbm, 86, rfl⟩
abbrev main_c_8 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x64_S1x50000x64_1_2 : S50000x64.BroadcastsInDim S1x50000x64 (![1, 2] : Fin 2 → Fin S1x50000x64.rank)
  concatenates_S1x50000x64_S1x50000x64_S2x50000x64_d0 : Shape.Concatenates [S1x50000x64, S1x50000x64] S2x50000x64 0
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

class Facts : Prop extends Facts₀ where

variable [Facts]
-- ==== Proof.LibWhole.lean ====
import Idealize.ShloMosaic.Lib.Pipeline.FrameBody
import Idealize.ShloMosaic.Lib.Pipeline.Value

namespace Cert.Lib.Whole

open Idealize.ShloMosaic

/-- The zero offsets of a rank-one rectangle are the constant-zero function. -/
theorem zeros1 : (![0] : Fin 1 → ℕ) = fun _ => 0 := by funext a; fin_cases a; rfl

/-- The zero offsets of a rank-two rectangle are the constant-zero function. -/
theorem zeros2 : (![0, 0] : Fin 2 → ℕ) = fun _ => 0 := by funext a; fin_cases a <;> rfl

variable {Val : EltTy → Type} {sg : RefSig} {κ : Kind} {sp : Space} {e : EltTy}

/-- A load through the whole-shape rectangle reads what the view reads. -/
theorem readAt_whole (S : Shape) {off : Fin S.rank → ℕ} (h : off = fun _ => 0) (v : View sg κ sp S e)
    (f : v.ty.Contents Val) (inb : ∀ a, off a + S.size a ≤ S.size a) :
    View.readAt Val v (Rect.unit off S.size inb).toLoadRect f = v.read Val f :=
  View.ld_unit_zero h inb _

/-- After a last store through the whole-shape rectangle the view reads that store's payload, whatever came before. -/
theorem read_writes_whole [∀ e, Nonempty (Val e)] (S : Shape) {off : Fin S.rank → ℕ} (h : off = fun _ => 0)
    (v : View sg κ sp S e) (f : v.ty.Contents Val) (inb : ∀ a, off a + S.size a ≤ S.size a) (w : S.Idx → Val e)
    (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

end Cert.Lib.Whole
-- ==== Proof.K.Reg0.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.LibWhole
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.Kernel.Hand

open Cert.Kernel Cert.Kernel.Gen Cert.Lib.Whole
open Idealize.ShloMosaic Idealize.ShloMosaic.TcCoe Idealize.ShloMosaic.Tactic
open Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

local notation "𝕄" => MT nD τ sig Unit (Elt F) ℕ (UR sig nD τ) ℕ

-- A store through the whole rectangle covers the buffer, and a load through it reads the contents.
theorem sound_kernel0 (c : Dev nD) (E : Set ℕ) (i) (arg1) (harg1) (arg2) (harg2) (arg3) (harg3) (x0) (x1) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole S5000x128 zeros2, readAt_whole S5000x128 zeros2, readAt_whole S128x128 zeros2]

section Region
variable (V : (c : Dev nD) → (b : Ref sig .tc) → Buf (Elt F) ((c : Thread nD τ).loc b))

-- Block `t` of window `w`'s array at the region's entry.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xBlk0 (c : Dev nD) (t : Fin cfg0.N) : Vec F S5000x128 .f32 := iblk0 V c 0 t
abbrev wBlk0 (c : Dev nD) (t : Fin cfg0.N) : Vec F S128x128 .f32 := iblk0 V c 1 t

-- After the body: the inputs' blocks as they were, the output's the product payload of the two.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (xBlk0 V c t) (wBlk0 V c t)
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = k0_pay1 (xBlk0 V c t) (wBlk0 V c t) := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  sl_whnfR [defs₀, Defs.onTc]
  simp only [before0_0, before0_1]
  rw [show (dat0 V c).Φ t.succ = (dat0 V c).Φ t.castSucc from rfl,
    show (dat0 V c).owesAt () t.succ = (dat0 V c).owesAt () t.castSucc from rfl, after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]
  · iexists _; iexact H2
  iintro ⟨H0, H1, H2⟩
  iframe

end Region

end Cert.Kernel.Hand

end
-- ==== Proof.K.Body1.lean ====
import proofs.«410823_j40836549050565_1_alg».proof.Proof.Gen.Kernel.Launch
import proofs.«410823_j40836549050565_1_alg».proof.Proof.Gen.Kernel.Skeleton
import proofs.«410823_j40836549050565_1_alg».proof.Proof.LibWhole
import Idealize.ShloMosaic.Lib.Pipeline.TableIdle

noncomputable section

namespace Cert.Kernel.Hand

open Cert.Kernel.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c1_first (i : grid1.Coords) : BitVec 1 :=
  Scalar.cmpi .ne (Scalar.extui (Scalar.cmpi .eq (BitVec.ofNat 32 (i 1).val) 0#32)) 0#32

def acc1 (i : grid1.Coords) (x0 : Vec F S2048 .i32) (x2 : Vec F S2048x128 .bf16) (a : Vec F S2048x128 .f32) : Vec F S2048x128 .f32 :=
  k1_pay2 i x0 (if c1_first i = 1#1 then k1_pay1 else a) x2

def out1 (i : grid1.Coords) (x0 : Vec F S2048 .i32) (x1 : Vec F S2048 .f32) (x2 : Vec F S2048x128 .bf16) (a : Vec F S2048x128 .f32)
    (d : Vec F S2048x128 .bf16) : Vec F S2048x128 .bf16 :=
  if k1_cond2 i = 1#1 then k1_pay3 (acc1 i x0 x2 a) x1 else d

/-- Whichever way the two scalar tests fall, every store fills its memref, so the memref then reads the last payload stored. -/
theorem sound_kernel1 (c : Dev nD) (E : Set ℕ) (i : grid1.Coords)
    (arg2 : Memref sig .tc .vmem S2048 .i32) (harg2 : arg2.IsWhole) (arg3 : Memref sig .tc .vmem S2048 .f32) (harg3 : arg3.IsWhole)
    (arg4 : Memref sig .tc .vmem S2048x128 .bf16) (harg4 : arg4.IsWhole) (arg5 : Memref sig .tc .vmem S2048x128 .bf16) (harg5 : arg5.IsWhole)
    (arg6 : Memref sig .tc .vmem S2048x128 .f32) (harg6 : arg6.IsWhole)
    (x0 : Vec F S2048 .i32) (x1 : Vec F S2048 .f32) (x2 : Vec F S2048x128 .bf16) (d : Vec F S2048x128 .bf16) (a : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out1 i x0 x1 x2 a d) ∗ owns (c : Thread nD τ) arg6 fullShare (acc1 i x0 x2 a)) -∗ K ⟨⟩))
      ⊢ wp frame (wpE (defs₀ (F := F)) Variants.none c none) E (cc1__gather_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc1__gather_kernel_eq_skeleton]
  unfold cc1__gather_kernel_skel
  iintro ⟨H0, H1, H2, H3, H4, Hk⟩
  by_cases h1 : c1_first i = 1#1 <;> by_cases h2 : k1_cond2 i = 1#1 <;>
  · sl_exec (disch := first | exact h1 | exact h2)
    sl_step
    iapply Hk; iframe H0 H1 H2
    unfold owns out1 acc1
    isplitl [H3] <;>
    · iexists _; isplitr; swap; · iassumption
      ipureintro; sl_unfold_run_names
      simp only [read_writes_whole S2048x128 zeros2, View.readCov_cons_toLoadRect, readAt_whole S2048 zeros1,
        readAt_whole S2048x128 zeros2, View.read_rep, h1, h2, if_true, if_false]

end Cert.Kernel.Hand

end
-- ==== Proof.LibCarry.lean ====
namespace Cert.Lib

/-- If `step t` ignores its argument whenever `P ∣ t`, a fold `A` of `step` along `pt 0, pt 1, …` has `step t f = A t` for every `f` that is `A (t - 1)` unless `P ∣ t`. -/
theorem step_eq_fold {α : Type} {N : Nat} (P : Nat) (step : Fin N → α → α) (A : Nat → α) (a₀ : α) (pt : Nat → Fin N)
    (hpt : ∀ t : Fin N, pt t.val = t) (h0 : A 0 = step (pt 0) a₀) (hs : ∀ n, A (n + 1) = step (pt (n + 1)) (A n))
    (hfirst : ∀ t : Fin N, t.val % P = 0 → ∀ a a', step t a = step t a')
    (t : Fin N) (f : α) (hf : t.val % P ≠ 0 → f = A (t.val - 1)) : step t f = A t.val := by
  cases hn : t.val with
  | zero => rw [h0, ← hn, hpt]; exact hfirst t (by rw [hn]; exact Nat.zero_mod P) _ _
  | succ n =>
    rw [hs, ← hn, hpt]
    by_cases h : t.val % P = 0
    · exact hfirst t h _ _
    · rw [hf h, hn, Nat.add_sub_cancel]

end Cert.Lib
-- ==== Proof.K.Reg1.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.K.Body1
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev srcBlk1 (c : Dev nD) (t : Fin cfg1.N) : Vec F S2048 .i32 := iblk1 V c 0 t
abbrev valBlk1 (c : Dev nD) (t : Fin cfg1.N) : Vec F S2048 .f32 := iblk1 V c 1 t
abbrev tabBlk1 (c : Dev nD) (t : Fin cfg1.N) : Vec F S2048x128 .bf16 := iblk1 V c 2 t

def pt1 (n : ℕ) : Fin cfg1.N := ⟨n % cfg1.N, Nat.mod_lt _ (by decide)⟩

def accAt1 (c : Dev nD) : ℕ → Vec F S2048x128 .f32
  | 0 => acc1 (grid1.coords (pt1 0)) (srcBlk1 V c (pt1 0)) (tabBlk1 V c (pt1 0)) k1_pay1
  | n + 1 => acc1 (grid1.coords (pt1 (n + 1))) (srcBlk1 V c (pt1 (n + 1))) (tabBlk1 V c (pt1 (n + 1))) (accAt1 c n)

def Φ1 (c : Dev nD) (k : Fin (cfg1.N + 1)) : sProp 𝕄 :=
  iprop((∃ f : Vec F S2048x128 .f32, owns (c : Thread nD τ) (Memref.whole cc1_scratch0) fullShare f ∗ ⌜k.val % 25 ≠ 0 → f = accAt1 V c (k.val - 1)⌝)
    ∗ Pipeline.scopedRestBut (Ix := Unit) (Name := ℕ) (U := UR sig nD τ) (Lvl := ℕ) (Val := Elt F) spec1 c [cc1_scratch0]
    ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val) (valBlk1 V c t)
  Φ k := Φ1 V c k
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = k1_pay3 (accAt1 V c t.val) (valBlk1 V c t) := by dsimp only [dat1]

theorem c1_first_iff : ∀ t : Fin cfg1.N, c1_first (grid1.coords t) = 1#1 ↔ t.val % 25 = 0 :=
  (by decide +kernel : ∀ t : Fin grid1.N, c1_first (grid1.coords t) = 1#1 ↔ t.val % 25 = 0)

theorem k1_cond2_iff : ∀ t : Fin cfg1.N, k1_cond2 (grid1.coords t) = 1#1 ↔ t.val % 25 = 24 :=
  (by decide +kernel : ∀ t : Fin grid1.N, k1_cond2 (grid1.coords t) = 1#1 ↔ t.val % 25 = 24)

-- Every input block the body reads at a point is that point's block of the input array.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def step1 (c : Dev nD) (t : Fin cfg1.N) (a : Vec F S2048x128 .f32) : Vec F S2048x128 .f32 :=
  acc1 (grid1.coords t) (srcBlk1 V c t) (tabBlk1 V c t) a

-- One update over the partial sum of the point before (over anything where a new sum starts) is this point's partial sum.
theorem step1_eq_accAt1 (c : Dev nD) (t : Fin cfg1.N) (f : Vec F S2048x128 .f32) (hf : t.val % 25 ≠ 0 → f = accAt1 V c (t.val - 1)) :
    step1 V c t f = accAt1 V c t.val :=
  Cert.Lib.step_eq_fold 25 (step1 V c) (accAt1 V c) k1_pay1 pt1 (fun t => Fin.ext (Nat.mod_eq_of_lt t.isLt)) rfl (fun _ => rfl)
    (fun t h a a' => by unfold step1 acc1; rw [if_pos ((c1_first_iff t).mpr h), if_pos ((c1_first_iff t).mpr h)]) t f hf

theorem Φ1_in (c : Dev nD) : iprop((∃ r, prngReg c r) ∗ Pipeline.scopedRest (Ix := Unit) (Name := ℕ) (U := UR sig nD τ) (Lvl := ℕ) (Val := Elt F) spec1 c) ⊢ Φ1 V c 0 := by
  rw [scopedRest1_split]; unfold Φ1
  simp only [owns_whole]
  iintro ⟨Hg, ⟨%f, HS⟩, HR⟩
  iframe HR Hg
  iexists f; iframe HS
  ipureintro; exact fun h => absurd (Nat.zero_mod 25) h

theorem Φ1_out (c : Dev nD) : Φ1 V c (Fin.last cfg1.N) ⊢ iprop((∃ r, prngReg c r) ∗ Pipeline.scopedRest (Ix := Unit) (Name := ℕ) (U := UR sig nD τ) (Lvl := ℕ) (Val := Elt F) spec1 c) := by
  rw [scopedRest1_split]; unfold Φ1
  simp only [owns_whole]
  iintro ⟨⟨%f, HS, %_⟩, HR, Hg⟩
  iframe HR Hg
  iexists f; iexact HS

-- The output block after the body is the one the proof data names: the scaled sum where a sum ends, the block as found elsewhere.
theorem leaves1_3 (c : Dev nD) (t : Fin cfg1.N) (f : Vec F S2048x128 .f32) (d) (hf : t.val % 25 ≠ 0 → f = accAt1 V c (t.val - 1)) :
    owns (c : Thread nD τ) (st1_3 t) fullShare (out1 (grid1.coords t) (srcBlk1 V c t) (valBlk1 V c t) (tabBlk1 V c t) f ((dat1 V c).before 3 t d))
      ⊢ ((dat1 V c).leavesExact 3 t : sProp 𝕄) := by
  have hacc := step1_eq_accAt1 V c t f hf
  unfold step1 at hacc
  unfold out1
  by_cases h : k1_cond2 (grid1.coords t) = 1#1
  · unfold Dat.leavesExact
    rw [show cfg1.idle 3 (cfg1.grid.coords t) = false from (by show (!(k1_cond2 (grid1.coords t) == 1#1)) = false; rw [h]; rfl), if_pos h, after1_3, hacc]
  · rw [Dat.leavesExact_idle (dat1 V c) 3 t (by show (!(k1_cond2 (grid1.coords t) == 1#1)) = true; rw [Bool.not_eq_true', beq_eq_false_iff_ne]; exact h)
      (Bool.eq_false_iff.mpr fun e => h ((k1_cond2_iff t).mpr ((flush1_3 t).mp e))), if_neg h]
    iintro H; iexists d; iexact H

-- The body at any point takes the partial sum of the point before and leaves this point's.
theorem body_obligation1 (c : Dev nD) : BodyObligation (dat1 (F := F) V c) (defs₀ (F := F)) Variants.none () Set.univ := fun t => by
  rw [bigSep_W1, bigSep_W1]
  sl_whnfR [defs₀, Defs.onTc]
  simp only [before1_0, before1_1, before1_2, show ∀ k, (dat1 V c).Φ k = Φ1 V c k from fun _ => rfl, Φ1]
  rw [show (dat1 V c).owesAt () t.succ = (dat1 V c).owesAt () t.castSucc from rfl, show (dat1 V c).after 0 t = iblk1 V c 0 t from rfl,
    show (dat1 V c).after 1 t = iblk1 V c 1 t from rfl, show (dat1 V c).after 2 t = iblk1 V c 2 t from rfl]
  iintro ⟨⟨⟨%f, HS, %hf⟩, HR, Hg⟩, Ho, ⟨%d0, H0⟩, ⟨%d1, H1⟩, ⟨%d2, H2⟩, ⟨%d3, H3⟩⟩
  iapply sound_kernel1 (F := F) c Set.univ (grid1.coords t) (st1_0 t) (hstage1_0 _) (st1_1 t) (hstage1_1 _)
    (st1_2 t) (hstage1_2 _) (st1_3 t) (hstage1_3 _) _ (Memref.isWhole_whole cc1_scratch0)
    (srcBlk1 V c t) (valBlk1 V c t) (tabBlk1 V c t) ((dat1 V c).before 3 t d3) f
  iframe H0 H1 H2 H3 HS
  iintro ⟨H0, H1, H2, H3, HS⟩
  iframe HR Hg Ho H0 H1 H2
  isplitl [HS]
  · iexists _; iframe HS
    ipureintro; exact fun _ => step1_eq_accAt1 V c t f hf
  · iapply leaves1_3 V c t f d3 hf; iexact H3

end Region

end Cert.Kernel.Hand

end
-- ==== Proof.K.Body2.lean ====
import proofs.«410823_j40836549050565_1_alg».proof.Proof.Gen.Kernel.Launch
import proofs.«410823_j40836549050565_1_alg».proof.Proof.Gen.Kernel.Skeleton
import proofs.«410823_j40836549050565_1_alg».proof.Proof.LibWhole
import Idealize.ShloMosaic.Lib.Pipeline.TableIdle

noncomputable section

namespace Cert.Kernel.Hand

open Cert.Kernel.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c2_first (i : grid2.Coords) : BitVec 1 :=
  Scalar.cmpi .ne (Scalar.extui (Scalar.cmpi .eq (BitVec.ofNat 32 (i 1).val) 0#32)) 0#32

def acc2 (i : grid2.Coords) (x0 : Vec F S2048 .i32) (x1 : Vec F S2048x128 .bf16) (a : Vec F S2048x128 .f32) : Vec F S2048x128 .f32 :=
  k2_pay2 i x0 (if c2_first i = 1#1 then k2_pay1 else a) x1

def out2 (i : grid2.Coords) (x0 : Vec F S2048 .i32) (x1 : Vec F S2048x128 .bf16) (x2 : Vec F S1x128 .f32) (a : Vec F S2048x128 .f32)
    (d : Vec F S2048x128 .f32) : Vec F S2048x128 .f32 :=
  if k2_cond2 i = 1#1 then k2_pay3 (acc2 i x0 x1 a) x2 else d

/-- Whichever way the two scalar tests fall, every store fills its memref, so the memref then reads the last payload stored. -/
theorem sound_kernel2 (c : Dev nD) (E : Set ℕ) (i : grid2.Coords)
    (arg2 : Memref sig .tc .vmem S2048 .i32) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048 .i32) (x1 : Vec F S2048x128 .bf16) (x2 : Vec F S1x128 .f32) (d a : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out2 i x0 x1 x2 a d) ∗ owns (c : Thread nD τ) arg6 fullShare (acc2 i x0 x1 a)) -∗ K ⟨⟩))
      ⊢ wp frame (wpE (defs₀ (F := F)) Variants.none c none) E (cc2__scatter_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc2__scatter_kernel_eq_skeleton]
  unfold cc2__scatter_kernel_skel
  iintro ⟨H0, H1, H2, H3, H4, Hk⟩
  by_cases h1 : c2_first i = 1#1 <;> by_cases h2 : k2_cond2 i = 1#1 <;>
  · sl_exec (disch := first | exact h1 | exact h2)
    sl_step
    iapply Hk; iframe H0 H1 H2
    unfold owns out2 acc2
    isplitl [H3] <;>
    · iexists _; isplitr; swap; · iassumption
      ipureintro; sl_unfold_run_names
      simp only [read_writes_whole S2048x128 zeros2, View.readCov_cons_toLoadRect, readAt_whole S2048 zeros1,
        readAt_whole S2048x128 zeros2, readAt_whole S1x128 zeros2, View.read_rep, h1, h2, if_true, if_false]

end Cert.Kernel.Hand

end
-- ==== Proof.K.Reg2.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.K.Body2
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev idsBlk2 (c : Dev nD) (t : Fin cfg2.N) : Vec F S2048 .i32 := iblk2 V c 0 t
abbrev msgBlk2 (c : Dev nD) (t : Fin cfg2.N) : Vec F S2048x128 .bf16 := iblk2 V c 1 t
abbrev biasBlk2 (c : Dev nD) (t : Fin cfg2.N) : Vec F S1x128 .f32 := iblk2 V c 2 t

def pt2 (n : ℕ) : Fin cfg2.N := ⟨n % cfg2.N, Nat.mod_lt _ (by decide)⟩

def accAt2 (c : Dev nD) : ℕ → Vec F S2048x128 .f32
  | 0 => acc2 (grid2.coords (pt2 0)) (idsBlk2 V c (pt2 0)) (msgBlk2 V c (pt2 0)) k2_pay1
  | n + 1 => acc2 (grid2.coords (pt2 (n + 1))) (idsBlk2 V c (pt2 (n + 1))) (msgBlk2 V c (pt2 (n + 1))) (accAt2 c n)

def Φ2 (c : Dev nD) (k : Fin (cfg2.N + 1)) : sProp 𝕄 :=
  iprop((∃ f : Vec F S2048x128 .f32, owns (c : Thread nD τ) (Memref.whole cc2_scratch0) fullShare f ∗ ⌜k.val % 293 ≠ 0 → f = accAt2 V c (k.val - 1)⌝)
    ∗ Pipeline.scopedRestBut (Ix := Unit) (Name := ℕ) (U := UR sig nD τ) (Lvl := ℕ) (Val := Elt F) spec2 c [cc2_scratch0]
    ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val) (biasBlk2 V c t)
  Φ k := Φ2 V c k
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = k2_pay3 (accAt2 V c t.val) (biasBlk2 V c t) := by dsimp only [dat2]

theorem c2_first_iff : ∀ t : Fin cfg2.N, c2_first (grid2.coords t) = 1#1 ↔ t.val % 293 = 0 :=
  (by decide +kernel : ∀ t : Fin grid2.N, c2_first (grid2.coords t) = 1#1 ↔ t.val % 293 = 0)

theorem k2_cond2_iff : ∀ t : Fin cfg2.N, k2_cond2 (grid2.coords t) = 1#1 ↔ t.val % 293 = 292 :=
  (by decide +kernel : ∀ t : Fin grid2.N, k2_cond2 (grid2.coords t) = 1#1 ↔ t.val % 293 = 292)

-- Every input block the body reads at a point is that point's block of the input array.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def step2 (c : Dev nD) (t : Fin cfg2.N) (a : Vec F S2048x128 .f32) : Vec F S2048x128 .f32 :=
  acc2 (grid2.coords t) (idsBlk2 V c t) (msgBlk2 V c t) a

-- One update over the partial sum of the point before (over anything where a new sum starts) is this point's partial sum.
theorem step2_eq_accAt2 (c : Dev nD) (t : Fin cfg2.N) (f : Vec F S2048x128 .f32) (hf : t.val % 293 ≠ 0 → f = accAt2 V c (t.val - 1)) :
    step2 V c t f = accAt2 V c t.val :=
  Cert.Lib.step_eq_fold 293 (step2 V c) (accAt2 V c) k2_pay1 pt2 (fun t => Fin.ext (Nat.mod_eq_of_lt t.isLt)) rfl (fun _ => rfl)
    (fun t h a a' => by unfold step2 acc2; rw [if_pos ((c2_first_iff t).mpr h), if_pos ((c2_first_iff t).mpr h)]) t f hf

theorem Φ2_in (c : Dev nD) : iprop((∃ r, prngReg c r) ∗ Pipeline.scopedRest (Ix := Unit) (Name := ℕ) (U := UR sig nD τ) (Lvl := ℕ) (Val := Elt F) spec2 c) ⊢ Φ2 V c 0 := by
  rw [scopedRest2_split]; unfold Φ2
  simp only [owns_whole]
  iintro ⟨Hg, ⟨%f, HS⟩, HR⟩
  iframe HR Hg
  iexists f; iframe HS
  ipureintro; exact fun h => absurd (Nat.zero_mod 293) h

theorem Φ2_out (c : Dev nD) : Φ2 V c (Fin.last cfg2.N) ⊢ iprop((∃ r, prngReg c r) ∗ Pipeline.scopedRest (Ix := Unit) (Name := ℕ) (U := UR sig nD τ) (Lvl := ℕ) (Val := Elt F) spec2 c) := by
  rw [scopedRest2_split]; unfold Φ2
  simp only [owns_whole]
  iintro ⟨⟨%f, HS, %_⟩, HR, Hg⟩
  iframe HR Hg
  iexists f; iexact HS

-- The output block after the body is the one the proof data names: the sum plus the bias row where a sum ends, the block as found elsewhere.
theorem leaves2_3 (c : Dev nD) (t : Fin cfg2.N) (f : Vec F S2048x128 .f32) (d) (hf : t.val % 293 ≠ 0 → f = accAt2 V c (t.val - 1)) :
    owns (c : Thread nD τ) (st2_3 t) fullShare (out2 (grid2.coords t) (idsBlk2 V c t) (msgBlk2 V c t) (biasBlk2 V c t) f ((dat2 V c).before 3 t d))
      ⊢ ((dat2 V c).leavesExact 3 t : sProp 𝕄) := by
  have hacc := step2_eq_accAt2 V c t f hf
  unfold step2 at hacc
  unfold out2
  by_cases h : k2_cond2 (grid2.coords t) = 1#1
  · unfold Dat.leavesExact
    rw [show cfg2.idle 3 (cfg2.grid.coords t) = false from (by show (!(k2_cond2 (grid2.coords t) == 1#1)) = false; rw [h]; rfl), if_pos h, after2_3, hacc]
  · rw [Dat.leavesExact_idle (dat2 V c) 3 t (by show (!(k2_cond2 (grid2.coords t) == 1#1)) = true; rw [Bool.not_eq_true', beq_eq_false_iff_ne]; exact h)
      (Bool.eq_false_iff.mpr fun e => h ((k2_cond2_iff t).mpr ((flush2_3 t).mp e))), if_neg h]
    iintro H; iexists d; iexact H

-- The body at any point takes the partial sum of the point before and leaves this point's.
theorem body_obligation2 (c : Dev nD) : BodyObligation (dat2 (F := F) V c) (defs₀ (F := F)) Variants.none () Set.univ := fun t => by
  rw [bigSep_W2, bigSep_W2]
  sl_whnfR [defs₀, Defs.onTc]
  simp only [before2_0, before2_1, before2_2, show ∀ k, (dat2 V c).Φ k = Φ2 V c k from fun _ => rfl, Φ2]
  rw [show (dat2 V c).owesAt () t.succ = (dat2 V c).owesAt () t.castSucc from rfl, show (dat2 V c).after 0 t = iblk2 V c 0 t from rfl,
    show (dat2 V c).after 1 t = iblk2 V c 1 t from rfl, show (dat2 V c).after 2 t = iblk2 V c 2 t from rfl]
  iintro ⟨⟨⟨%f, HS, %hf⟩, HR, Hg⟩, Ho, ⟨%d0, H0⟩, ⟨%d1, H1⟩, ⟨%d2, H2⟩, ⟨%d3, H3⟩⟩
  iapply sound_kernel2 (F := F) c Set.univ (grid2.coords t) (st2_0 t) (hstage2_0 _) (st2_1 t) (hstage2_1 _)
    (st2_2 t) (hstage2_2 _) (st2_3 t) (hstage2_3 _) _ (Memref.isWhole_whole cc2_scratch0)
    (idsBlk2 V c t) (msgBlk2 V c t) (biasBlk2 V c t) ((dat2 V c).before 3 t d3) f
  iframe H0 H1 H2 H3 HS
  iintro ⟨H0, H1, H2, H3, HS⟩
  iframe HR Hg Ho H0 H1 H2
  isplitl [HS]
  · iexists _; iframe HS
    ipureintro; exact fun _ => step2_eq_accAt2 V c t f hf
  · iapply leaves2_3 V c t f d3 hf; iexact H3

end Region

end Cert.Kernel.Hand

end
-- ==== Proof.K.Reg3.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.LibWhole
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.Kernel.Hand

open Cert.Kernel Cert.Kernel.Gen Cert.Lib.Whole
open Idealize.ShloMosaic Idealize.ShloMosaic.TcCoe Idealize.ShloMosaic.Tactic
open Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

local notation "𝕄" => MT nD τ sig Unit (Elt F) ℕ (UR sig nD τ) ℕ

-- A store through the whole rectangle covers the buffer, and a load through it reads the contents.
theorem sound_kernel3 (c : Dev nD) (E : Set ℕ) (i) (arg1) (harg1) (arg2) (harg2) (arg3) (harg3) (x0) (x1) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay1 x0 x1)) -∗ K ⟨⟩))
      ⊢ wp frame (wpE (defs₀ (F := F)) Variants.none c none) E (cc3__dense_kernel i arg1 harg1 arg2 harg2 arg3 harg3) K := by
  simp only [cc3__dense_kernel_eq_skeleton]; unfold cc3__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole S5000x64 zeros2, readAt_whole S5000x128 zeros2, readAt_whole S128x64 zeros2]

section Region
variable (V : (c : Dev nD) → (b : Ref sig .tc) → Buf (Elt F) ((c : Thread nD τ).loc b))

-- Block `t` of window `w`'s array at the region's entry.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xBlk3 (c : Dev nD) (t : Fin cfg3.N) : Vec F S5000x128 .f32 := iblk3 V c 0 t
abbrev wBlk3 (c : Dev nD) (t : Fin cfg3.N) : Vec F S128x64 .f32 := iblk3 V c 1 t

-- After the body: the inputs' blocks as they were, the output's the product payload of the two.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (xBlk3 V c t) (wBlk3 V c t)
  Φ _ := Pipeline.ΦA spec3 c
  q _ := fullShare
  owed _ := 0

theorem A_eq3 (c : Dev nD) (w : Fin cfg3.W) : (dat3 V c).A w = V c (Pipeline.arrRef spec3 w) := rfl
theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = k3_pay1 (xBlk3 V c t) (wBlk3 V c t) := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  sl_whnfR [defs₀, Defs.onTc]
  simp only [before3_0, before3_1]
  rw [show (dat3 V c).Φ t.succ = (dat3 V c).Φ t.castSucc from rfl,
    show (dat3 V c).owesAt () t.succ = (dat3 V c).owesAt () t.castSucc from rfl, after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]
  · iexists _; iexact H2
  iintro ⟨H0, H1, H2⟩
  iframe

end Region

end Cert.Kernel.Hand

end
-- ==== Proof.K.Body4.lean ====
import proofs.«410823_j40836549050565_1_alg».proof.Proof.Gen.Kernel.Launch
import proofs.«410823_j40836549050565_1_alg».proof.Proof.Gen.Kernel.Skeleton
import proofs.«410823_j40836549050565_1_alg».proof.Proof.LibWhole
import Idealize.ShloMosaic.Lib.Pipeline.TableIdle

noncomputable section

namespace Cert.Kernel.Hand

open Cert.Kernel.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c4_first (i : grid4.Coords) : BitVec 1 :=
  Scalar.cmpi .ne (Scalar.extui (Scalar.cmpi .eq (BitVec.ofNat 32 (i 1).val) 0#32)) 0#32

def acc4 (i : grid4.Coords) (x0 : Vec F S2048 .i32) (x2 : Vec F S2048x64 .bf16) (a : Vec F S2048x64 .f32) : Vec F S2048x64 .f32 :=
  k4_pay2 i x0 (if c4_first i = 1#1 then k4_pay1 else a) x2

def out4 (i : grid4.Coords) (x0 : Vec F S2048 .i32) (x1 : Vec F S2048 .f32) (x2 : Vec F S2048x64 .bf16) (a : Vec F S2048x64 .f32)
    (d : Vec F S2048x64 .bf16) : Vec F S2048x64 .bf16 :=
  if k4_cond2 i = 1#1 then k4_pay3 (acc4 i x0 x2 a) x1 else d

/-- Whichever way the two scalar tests fall, every store fills its memref, so the memref then reads the last payload stored. -/
theorem sound_kernel4 (c : Dev nD) (E : Set ℕ) (i : grid4.Coords)
    (arg2 : Memref sig .tc .vmem S2048 .i32) (harg2 : arg2.IsWhole) (arg3 : Memref sig .tc .vmem S2048 .f32) (harg3 : arg3.IsWhole)
    (arg4 : Memref sig .tc .vmem S2048x64 .bf16) (harg4 : arg4.IsWhole) (arg5 : Memref sig .tc .vmem S2048x64 .bf16) (harg5 : arg5.IsWhole)
    (arg6 : Memref sig .tc .vmem S2048x64 .f32) (harg6 : arg6.IsWhole)
    (x0 : Vec F S2048 .i32) (x1 : Vec F S2048 .f32) (x2 : Vec F S2048x64 .bf16) (d : Vec F S2048x64 .bf16) (a : Vec F S2048x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out4 i x0 x1 x2 a d) ∗ owns (c : Thread nD τ) arg6 fullShare (acc4 i x0 x2 a)) -∗ K ⟨⟩))
      ⊢ wp frame (wpE (defs₀ (F := F)) Variants.none c none) E (cc4__gather_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc4__gather_kernel_eq_skeleton]
  unfold cc4__gather_kernel_skel
  iintro ⟨H0, H1, H2, H3, H4, Hk⟩
  by_cases h1 : c4_first i = 1#1 <;> by_cases h2 : k4_cond2 i = 1#1 <;>
  · sl_exec (disch := first | exact h1 | exact h2)
    sl_step
    iapply Hk; iframe H0 H1 H2
    unfold owns out4 acc4
    isplitl [H3] <;>
    · iexists _; isplitr; swap; · iassumption
      ipureintro; sl_unfold_run_names
      simp only [read_writes_whole S2048x64 zeros2, View.readCov_cons_toLoadRect, readAt_whole S2048 zeros1,
        readAt_whole S2048x64 zeros2, View.read_rep, h1, h2, if_true, if_false]

end Cert.Kernel.Hand

end
-- ==== Proof.K.Reg4.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.K.Body4
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev srcBlk4 (c : Dev nD) (t : Fin cfg4.N) : Vec F S2048 .i32 := iblk4 V c 0 t
abbrev valBlk4 (c : Dev nD) (t : Fin cfg4.N) : Vec F S2048 .f32 := iblk4 V c 1 t
abbrev tabBlk4 (c : Dev nD) (t : Fin cfg4.N) : Vec F S2048x64 .bf16 := iblk4 V c 2 t

def pt4 (n : ℕ) : Fin cfg4.N := ⟨n % cfg4.N, Nat.mod_lt _ (by decide)⟩

def accAt4 (c : Dev nD) : ℕ → Vec F S2048x64 .f32
  | 0 => acc4 (grid4.coords (pt4 0)) (srcBlk4 V c (pt4 0)) (tabBlk4 V c (pt4 0)) k4_pay1
  | n + 1 => acc4 (grid4.coords (pt4 (n + 1))) (srcBlk4 V c (pt4 (n + 1))) (tabBlk4 V c (pt4 (n + 1))) (accAt4 c n)

def Φ4 (c : Dev nD) (k : Fin (cfg4.N + 1)) : sProp 𝕄 :=
  iprop((∃ f : Vec F S2048x64 .f32, owns (c : Thread nD τ) (Memref.whole cc4_scratch0) fullShare f ∗ ⌜k.val % 25 ≠ 0 → f = accAt4 V c (k.val - 1)⌝)
    ∗ Pipeline.scopedRestBut (Ix := Unit) (Name := ℕ) (U := UR sig nD τ) (Lvl := ℕ) (Val := Elt F) spec4 c [cc4_scratch0]
    ∗ ∃ r, prngReg c r)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (accAt4 V c t.val) (valBlk4 V c t)
  Φ k := Φ4 V c k
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = k4_pay3 (accAt4 V c t.val) (valBlk4 V c t) := by dsimp only [dat4]

theorem c4_first_iff : ∀ t : Fin cfg4.N, c4_first (grid4.coords t) = 1#1 ↔ t.val % 25 = 0 :=
  (by decide +kernel : ∀ t : Fin grid4.N, c4_first (grid4.coords t) = 1#1 ↔ t.val % 25 = 0)

theorem k4_cond2_iff : ∀ t : Fin cfg4.N, k4_cond2 (grid4.coords t) = 1#1 ↔ t.val % 25 = 24 :=
  (by decide +kernel : ∀ t : Fin grid4.N, k4_cond2 (grid4.coords t) = 1#1 ↔ t.val % 25 = 24)

-- Every input block the body reads at a point is that point's block of the input array.
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

def step4 (c : Dev nD) (t : Fin cfg4.N) (a : Vec F S2048x64 .f32) : Vec F S2048x64 .f32 :=
  acc4 (grid4.coords t) (srcBlk4 V c t) (tabBlk4 V c t) a

-- One update over the partial sum of the point before (over anything where a new sum starts) is this point's partial sum.
theorem step4_eq_accAt4 (c : Dev nD) (t : Fin cfg4.N) (f : Vec F S2048x64 .f32) (hf : t.val % 25 ≠ 0 → f = accAt4 V c (t.val - 1)) :
    step4 V c t f = accAt4 V c t.val :=
  Cert.Lib.step_eq_fold 25 (step4 V c) (accAt4 V c) k4_pay1 pt4 (fun t => Fin.ext (Nat.mod_eq_of_lt t.isLt)) rfl (fun _ => rfl)
    (fun t h a a' => by unfold step4 acc4; rw [if_pos ((c4_first_iff t).mpr h), if_pos ((c4_first_iff t).mpr h)]) t f hf

theorem Φ4_in (c : Dev nD) : iprop((∃ r, prngReg c r) ∗ Pipeline.scopedRest (Ix := Unit) (Name := ℕ) (U := UR sig nD τ) (Lvl := ℕ) (Val := Elt F) spec4 c) ⊢ Φ4 V c 0 := by
  rw [scopedRest4_split]; unfold Φ4
  simp only [owns_whole]
  iintro ⟨Hg, ⟨%f, HS⟩, HR⟩
  iframe HR Hg
  iexists f; iframe HS
  ipureintro; exact fun h => absurd (Nat.zero_mod 25) h

theorem Φ4_out (c : Dev nD) : Φ4 V c (Fin.last cfg4.N) ⊢ iprop((∃ r, prngReg c r) ∗ Pipeline.scopedRest (Ix := Unit) (Name := ℕ) (U := UR sig nD τ) (Lvl := ℕ) (Val := Elt F) spec4 c) := by
  rw [scopedRest4_split]; unfold Φ4
  simp only [owns_whole]
  iintro ⟨⟨%f, HS, %_⟩, HR, Hg⟩
  iframe HR Hg
  iexists f; iexact HS

-- The output block after the body is the one the proof data names: the scaled sum where a sum ends, the block as found elsewhere.
theorem leaves4_3 (c : Dev nD) (t : Fin cfg4.N) (f : Vec F S2048x64 .f32) (d) (hf : t.val % 25 ≠ 0 → f = accAt4 V c (t.val - 1)) :
    owns (c : Thread nD τ) (st4_3 t) fullShare (out4 (grid4.coords t) (srcBlk4 V c t) (valBlk4 V c t) (tabBlk4 V c t) f ((dat4 V c).before 3 t d))
      ⊢ ((dat4 V c).leavesExact 3 t : sProp 𝕄) := by
  have hacc := step4_eq_accAt4 V c t f hf
  unfold step4 at hacc
  unfold out4
  by_cases h : k4_cond2 (grid4.coords t) = 1#1
  · unfold Dat.leavesExact
    rw [show cfg4.idle 3 (cfg4.grid.coords t) = false from (by show (!(k4_cond2 (grid4.coords t) == 1#1)) = false; rw [h]; rfl), if_pos h, after4_3, hacc]
  · rw [Dat.leavesExact_idle (dat4 V c) 3 t (by show (!(k4_cond2 (grid4.coords t) == 1#1)) = true; rw [Bool.not_eq_true', beq_eq_false_iff_ne]; exact h)
      (Bool.eq_false_iff.mpr fun e => h ((k4_cond2_iff t).mpr ((flush4_3 t).mp e))), if_neg h]
    iintro H; iexists d; iexact H

-- The body at any point takes the partial sum of the point before and leaves this point's.
theorem body_obligation4 (c : Dev nD) : BodyObligation (dat4 (F := F) V c) (defs₀ (F := F)) Variants.none () Set.univ := fun t => by
  rw [bigSep_W4, bigSep_W4]
  sl_whnfR [defs₀, Defs.onTc]
  simp only [before4_0, before4_1, before4_2, show ∀ k, (dat4 V c).Φ k = Φ4 V c k from fun _ => rfl, Φ4]
  rw [show (dat4 V c).owesAt () t.succ = (dat4 V c).owesAt () t.castSucc from rfl, show (dat4 V c).after 0 t = iblk4 V c 0 t from rfl,
    show (dat4 V c).after 1 t = iblk4 V c 1 t from rfl, show (dat4 V c).after 2 t = iblk4 V c 2 t from rfl]
  iintro ⟨⟨⟨%f, HS, %hf⟩, HR, Hg⟩, Ho, ⟨%d0, H0⟩, ⟨%d1, H1⟩, ⟨%d2, H2⟩, ⟨%d3, H3⟩⟩
  iapply sound_kernel4 (F := F) c Set.univ (grid4.coords t) (st4_0 t) (hstage4_0 _) (st4_1 t) (hstage4_1 _)
    (st4_2 t) (hstage4_2 _) (st4_3 t) (hstage4_3 _) _ (Memref.isWhole_whole cc4_scratch0)
    (srcBlk4 V c t) (valBlk4 V c t) (tabBlk4 V c t) ((dat4 V c).before 3 t d3) f
  iframe H0 H1 H2 H3 HS
  iintro ⟨H0, H1, H2, H3, HS⟩
  iframe HR Hg Ho H0 H1 H2
  isplitl [HS]
  · iexists _; iframe HS
    ipureintro; exact fun _ => step4_eq_accAt4 V c t f hf
  · iapply leaves4_3 V c t f d3 hf; iexact H3

end Region

end Cert.Kernel.Hand

end
-- ==== Proof.K.Body5.lean ====
import proofs.«410823_j40836549050565_1_alg».proof.Proof.Gen.Kernel.Launch
import proofs.«410823_j40836549050565_1_alg».proof.Proof.Gen.Kernel.Skeleton
import proofs.«410823_j40836549050565_1_alg».proof.Proof.LibWhole
import Idealize.ShloMosaic.Lib.Pipeline.TableIdle

noncomputable section

namespace Cert.Kernel.Hand

open Cert.Kernel.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c5_first (i : grid5.Coords) : BitVec 1 :=
  Scalar.cmpi .ne (Scalar.extui (Scalar.cmpi .eq (BitVec.ofNat 32 (i 1).val) 0#32)) 0#32

def acc5 (i : grid5.Coords) (x0 : Vec F S2048 .i32) (x1 : Vec F S2048x64 .bf16) (a : Vec F S2048x64 .f32) : Vec F S2048x64 .f32 :=
  k5_pay2 i x0 (if c5_first i = 1#1 then k5_pay1 else a) x1

def out5 (i : grid5.Coords) (x0 : Vec F S2048 .i32) (x1 : Vec F S2048x64 .bf16) (x2 : Vec F S1x64 .f32) (a : Vec F S2048x64 .f32)
    (d : Vec F S2048x64 .f32) : Vec F S2048x64 .f32 :=
  if k5_cond2 i = 1#1 then k5_pay3 (acc5 i x0 x1 a) x2 else d

/-- Whichever way the two scalar tests fall, every store fills its memref, so the memref then reads the last payload stored. -/
theorem sound_kernel5 (c : Dev nD) (E : Set ℕ) (i : grid5.Coords)
    (arg2 : Memref sig .tc .vmem S2048 .i32) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (x0 : Vec F S2048 .i32) (x1 : Vec F S2048x64 .bf16) (x2 : Vec F S1x64 .f32) (d a : Vec F S2048x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out5 i x0 x1 x2 a d) ∗ owns (c : Thread nD τ) arg6 fullShare (acc5 i x0 x1 a)) -∗ K ⟨⟩))
      ⊢ wp frame (wpE (defs₀ (F := F)) Variants.none c none) E (cc5__scatter_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc5__scatter_kernel_eq_skeleton]
  unfold cc5__scatter_kernel_skel
  iintro ⟨H0, H1, H2, H3, H4, Hk⟩
  by_cases h1 : c5_first i = 1#1 <;> by_cases h2 : k5_cond2 i = 1#1 <;>
  · sl_exec (disch := first | exact h1 | exact h2)
    sl_step
    iapply Hk; iframe H0 H1 H2
    unfold owns out5 acc5
    isplitl [H3] <;>
    · iexists _; isplitr; swap; · iassumption
      ipureintro; sl_unfold_run_names
      simp only [read_writes_whole S2048x64 zeros2, View.readCov_cons_toLoadRect, readAt_whole S2048 zeros1,
        readAt_whole S2048x64 zeros2, readAt_whole S1x64 zeros2, View.read_rep, h1, h2, if_true, if_false]

end Cert.Kernel.Hand

end
-- ==== Proof.K.Reg5.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.K.Body5
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev idsBlk5 (c : Dev nD) (t : Fin cfg5.N) : Vec F S2048 .i32 := iblk5 V c 0 t
abbrev msgBlk5 (c : Dev nD) (t : Fin cfg5.N) : Vec F S2048x64 .bf16 := iblk5 V c 1 t
abbrev biasBlk5 (c : Dev nD) (t : Fin cfg5.N) : Vec F S1x64 .f32 := iblk5 V c 2 t

def pt5 (n : ℕ) : Fin cfg5.N := ⟨n % cfg5.N, Nat.mod_lt _ (by decide)⟩

def accAt5 (c : Dev nD) : ℕ → Vec F S2048x64 .f32
  | 0 => acc5 (grid5.coords (pt5 0)) (idsBlk5 V c (pt5 0)) (msgBlk5 V c (pt5 0)) k5_pay1
  | n + 1 => acc5 (grid5.coords (pt5 (n + 1))) (idsBlk5 V c (pt5 (n + 1))) (msgBlk5 V c (pt5 (n + 1))) (accAt5 c n)

def Φ5 (c : Dev nD) (k : Fin (cfg5.N + 1)) : sProp 𝕄 :=
  iprop((∃ f : Vec F S2048x64 .f32, owns (c : Thread nD τ) (Memref.whole cc5_scratch0) fullShare f ∗ ⌜k.val % 293 ≠ 0 → f = accAt5 V c (k.val - 1)⌝)
    ∗ Pipeline.scopedRestBut (Ix := Unit) (Name := ℕ) (U := UR sig nD τ) (Lvl := ℕ) (Val := Elt F) spec5 c [cc5_scratch0]
    ∗ ∃ r, prngReg c r)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (accAt5 V c t.val) (biasBlk5 V c t)
  Φ k := Φ5 V c k
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) : (dat5 V c).after 3 t = k5_pay3 (accAt5 V c t.val) (biasBlk5 V c t) := by dsimp only [dat5]

theorem c5_first_iff : ∀ t : Fin cfg5.N, c5_first (grid5.coords t) = 1#1 ↔ t.val % 293 = 0 :=
  (by decide +kernel : ∀ t : Fin grid5.N, c5_first (grid5.coords t) = 1#1 ↔ t.val % 293 = 0)

theorem k5_cond2_iff : ∀ t : Fin cfg5.N, k5_cond2 (grid5.coords t) = 1#1 ↔ t.val % 293 = 292 :=
  (by decide +kernel : ∀ t : Fin grid5.N, k5_cond2 (grid5.coords t) = 1#1 ↔ t.val % 293 = 292)

-- Every input block the body reads at a point is that point's block of the input array.
theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

def step5 (c : Dev nD) (t : Fin cfg5.N) (a : Vec F S2048x64 .f32) : Vec F S2048x64 .f32 :=
  acc5 (grid5.coords t) (idsBlk5 V c t) (msgBlk5 V c t) a

-- One update over the partial sum of the point before (over anything where a new sum starts) is this point's partial sum.
theorem step5_eq_accAt5 (c : Dev nD) (t : Fin cfg5.N) (f : Vec F S2048x64 .f32) (hf : t.val % 293 ≠ 0 → f = accAt5 V c (t.val - 1)) :
    step5 V c t f = accAt5 V c t.val :=
  Cert.Lib.step_eq_fold 293 (step5 V c) (accAt5 V c) k5_pay1 pt5 (fun t => Fin.ext (Nat.mod_eq_of_lt t.isLt)) rfl (fun _ => rfl)
    (fun t h a a' => by unfold step5 acc5; rw [if_pos ((c5_first_iff t).mpr h), if_pos ((c5_first_iff t).mpr h)]) t f hf

theorem Φ5_in (c : Dev nD) : iprop((∃ r, prngReg c r) ∗ Pipeline.scopedRest (Ix := Unit) (Name := ℕ) (U := UR sig nD τ) (Lvl := ℕ) (Val := Elt F) spec5 c) ⊢ Φ5 V c 0 := by
  rw [scopedRest5_split]; unfold Φ5
  simp only [owns_whole]
  iintro ⟨Hg, ⟨%f, HS⟩, HR⟩
  iframe HR Hg
  iexists f; iframe HS
  ipureintro; exact fun h => absurd (Nat.zero_mod 293) h

theorem Φ5_out (c : Dev nD) : Φ5 V c (Fin.last cfg5.N) ⊢ iprop((∃ r, prngReg c r) ∗ Pipeline.scopedRest (Ix := Unit) (Name := ℕ) (U := UR sig nD τ) (Lvl := ℕ) (Val := Elt F) spec5 c) := by
  rw [scopedRest5_split]; unfold Φ5
  simp only [owns_whole]
  iintro ⟨⟨%f, HS, %_⟩, HR, Hg⟩
  iframe HR Hg
  iexists f; iexact HS

-- The output block after the body is the one the proof data names: the sum plus the bias row where a sum ends, the block as found elsewhere.
theorem leaves5_3 (c : Dev nD) (t : Fin cfg5.N) (f : Vec F S2048x64 .f32) (d) (hf : t.val % 293 ≠ 0 → f = accAt5 V c (t.val - 1)) :
    owns (c : Thread nD τ) (st5_3 t) fullShare (out5 (grid5.coords t) (idsBlk5 V c t) (msgBlk5 V c t) (biasBlk5 V c t) f ((dat5 V c).before 3 t d))
      ⊢ ((dat5 V c).leavesExact 3 t : sProp 𝕄) := by
  have hacc := step5_eq_accAt5 V c t f hf
  unfold step5 at hacc
  unfold out5
  by_cases h : k5_cond2 (grid5.coords t) = 1#1
  · unfold Dat.leavesExact
    rw [show cfg5.idle 3 (cfg5.grid.coords t) = false from (by show (!(k5_cond2 (grid5.coords t) == 1#1)) = false; rw [h]; rfl), if_pos h, after5_3, hacc]
  · rw [Dat.leavesExact_idle (dat5 V c) 3 t (by show (!(k5_cond2 (grid5.coords t) == 1#1)) = true; rw [Bool.not_eq_true', beq_eq_false_iff_ne]; exact h)
      (Bool.eq_false_iff.mpr fun e => h ((k5_cond2_iff t).mpr ((flush5_3 t).mp e))), if_neg h]
    iintro H; iexists d; iexact H

-- The body at any point takes the partial sum of the point before and leaves this point's.
theorem body_obligation5 (c : Dev nD) : BodyObligation (dat5 (F := F) V c) (defs₀ (F := F)) Variants.none () Set.univ := fun t => by
  rw [bigSep_W5, bigSep_W5]
  sl_whnfR [defs₀, Defs.onTc]
  simp only [before5_0, before5_1, before5_2, show ∀ k, (dat5 V c).Φ k = Φ5 V c k from fun _ => rfl, Φ5]
  rw [show (dat5 V c).owesAt () t.succ = (dat5 V c).owesAt () t.castSucc from rfl, show (dat5 V c).after 0 t = iblk5 V c 0 t from rfl,
    show (dat5 V c).after 1 t = iblk5 V c 1 t from rfl, show (dat5 V c).after 2 t = iblk5 V c 2 t from rfl]
  iintro ⟨⟨⟨%f, HS, %hf⟩, HR, Hg⟩, Ho, ⟨%d0, H0⟩, ⟨%d1, H1⟩, ⟨%d2, H2⟩, ⟨%d3, H3⟩⟩
  iapply sound_kernel5 (F := F) c Set.univ (grid5.coords t) (st5_0 t) (hstage5_0 _) (st5_1 t) (hstage5_1 _)
    (st5_2 t) (hstage5_2 _) (st5_3 t) (hstage5_3 _) _ (Memref.isWhole_whole cc5_scratch0)
    (idsBlk5 V c t) (msgBlk5 V c t) (biasBlk5 V c t) ((dat5 V c).before 3 t d3) f
  iframe H0 H1 H2 H3 HS
  iintro ⟨H0, H1, H2, H3, HS⟩
  iframe HR Hg Ho H0 H1 H2
  isplitl [HS]
  · iexists _; iframe HS
    ipureintro; exact fun _ => step5_eq_accAt5 V c t f hf
  · iapply leaves5_3 V c t f d3 hf; iexact H3

end Region

end Cert.Kernel.Hand

end
-- ==== Proof.K.Reg6.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.LibWhole
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.Kernel.Hand

open Cert.Kernel Cert.Kernel.Gen Cert.Lib.Whole
open Idealize.ShloMosaic Idealize.ShloMosaic.TcCoe Idealize.ShloMosaic.Tactic
open Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

local notation "𝕄" => MT nD τ sig Unit (Elt F) ℕ (UR sig nD τ) ℕ

-- A store through the whole rectangle covers the buffer, and a load through it reads the contents.
theorem sound_kernel6 (c : Dev nD) (E : Set ℕ) (i) (arg1) (harg1) (arg2) (harg2) (arg3) (harg3) (x0) (x1) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k6_pay1 x0 x1)) -∗ K ⟨⟩))
      ⊢ wp frame (wpE (defs₀ (F := F)) Variants.none c none) E (cc6__dense_kernel i arg1 harg1 arg2 harg2 arg3 harg3) K := by
  simp only [cc6__dense_kernel_eq_skeleton]; unfold cc6__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole S5000x128 zeros2, readAt_whole S5000x128 zeros2, readAt_whole S128x128 zeros2]

section Region
variable (V : (c : Dev nD) → (b : Ref sig .tc) → Buf (Elt F) ((c : Thread nD τ).loc b))

-- Block `t` of window `w`'s array at the region's entry.
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev xBlk6 (c : Dev nD) (t : Fin cfg6.N) : Vec F S5000x128 .f32 := iblk6 V c 0 t
abbrev wBlk6 (c : Dev nD) (t : Fin cfg6.N) : Vec F S128x128 .f32 := iblk6 V c 1 t

-- After the body: the inputs' blocks as they were, the output's the product payload of the two.
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (xBlk6 V c t) (wBlk6 V c t)
  Φ _ := Pipeline.ΦA spec6 c
  q _ := fullShare
  owed _ := 0

theorem A_eq6 (c : Dev nD) (w : Fin cfg6.W) : (dat6 V c).A w = V c (Pipeline.arrRef spec6 w) := rfl
theorem after6_0 (c : Dev nD) (t : Fin cfg6.N) : (dat6 V c).after 0 t = iblk6 V c 0 t := rfl
theorem after6_1 (c : Dev nD) (t : Fin cfg6.N) : (dat6 V c).after 1 t = iblk6 V c 1 t := rfl
theorem after6_2 (c : Dev nD) (t : Fin cfg6.N) : (dat6 V c).after 2 t = k6_pay1 (xBlk6 V c t) (wBlk6 V c t) := rfl

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  sl_whnfR [defs₀, Defs.onTc]
  simp only [before6_0, before6_1]
  rw [show (dat6 V c).Φ t.succ = (dat6 V c).Φ t.castSucc from rfl,
    show (dat6 V c).owesAt () t.succ = (dat6 V c).owesAt () t.castSucc from rfl, after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe H0 H1
  isplitl [H2]
  · iexists _; iexact H2
  iintro ⟨H0, H1, H2⟩
  iframe

end Region

end Cert.Kernel.Hand

end
-- ==== Proof.K.Body7.lean ====
import proofs.«410823_j40836549050565_1_alg».proof.Proof.Gen.Kernel.Launch
import proofs.«410823_j40836549050565_1_alg».proof.Proof.Gen.Kernel.Skeleton
import proofs.«410823_j40836549050565_1_alg».proof.Proof.LibWhole
import Idealize.ShloMosaic.Lib.Pipeline.TableIdle

noncomputable section

namespace Cert.Kernel.Hand

open Cert.Kernel.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c7_first (i : grid7.Coords) : BitVec 1 :=
  Scalar.cmpi .ne (Scalar.extui (Scalar.cmpi .eq (BitVec.ofNat 32 (i 1).val) 0#32)) 0#32

def acc7 (i : grid7.Coords) (x0 : Vec F S2048 .i32) (x2 : Vec F S2048x128 .bf16) (a : Vec F S2048x128 .f32) : Vec F S2048x128 .f32 :=
  k7_pay2 i x0 (if c7_first i = 1#1 then k7_pay1 else a) x2

def out7 (i : grid7.Coords) (x0 : Vec F S2048 .i32) (x1 : Vec F S2048 .f32) (x2 : Vec F S2048x128 .bf16) (a : Vec F S2048x128 .f32)
    (d : Vec F S2048x128 .bf16) : Vec F S2048x128 .bf16 :=
  if k7_cond2 i = 1#1 then k7_pay3 (acc7 i x0 x2 a) x1 else d

/-- Whichever way the two scalar tests fall, every store fills its memref, so the memref then reads the last payload stored. -/
theorem sound_kernel7 (c : Dev nD) (E : Set ℕ) (i : grid7.Coords)
    (arg2 : Memref sig .tc .vmem S2048 .i32) (harg2 : arg2.IsWhole) (arg3 : Memref sig .tc .vmem S2048 .f32) (harg3 : arg3.IsWhole)
    (arg4 : Memref sig .tc .vmem S2048x128 .bf16) (harg4 : arg4.IsWhole) (arg5 : Memref sig .tc .vmem S2048x128 .bf16) (harg5 : arg5.IsWhole)
    (arg6 : Memref sig .tc .vmem S2048x128 .f32) (harg6 : arg6.IsWhole)
    (x0 : Vec F S2048 .i32) (x1 : Vec F S2048 .f32) (x2 : Vec F S2048x128 .bf16) (d : Vec F S2048x128 .bf16) (a : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out7 i x0 x1 x2 a d) ∗ owns (c : Thread nD τ) arg6 fullShare (acc7 i x0 x2 a)) -∗ K ⟨⟩))
      ⊢ wp frame (wpE (defs₀ (F := F)) Variants.none c none) E (cc7__gather_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc7__gather_kernel_eq_skeleton]
  unfold cc7__gather_kernel_skel
  iintro ⟨H0, H1, H2, H3, H4, Hk⟩
  by_cases h1 : c7_first i = 1#1 <;> by_cases h2 : k7_cond2 i = 1#1 <;>
  · sl_exec (disch := first | exact h1 | exact h2)
    sl_step
    iapply Hk; iframe H0 H1 H2
    unfold owns out7 acc7
    isplitl [H3] <;>
    · iexists _; isplitr; swap; · iassumption
      ipureintro; sl_unfold_run_names
      simp only [read_writes_whole S2048x128 zeros2, View.readCov_cons_toLoadRect, readAt_whole S2048 zeros1,
        readAt_whole S2048x128 zeros2, View.read_rep, h1, h2, if_true, if_false]

end Cert.Kernel.Hand

end
-- ==== Proof.K.Reg7.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.K.Body7
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev srcBlk7 (c : Dev nD) (t : Fin cfg7.N) : Vec F S2048 .i32 := iblk7 V c 0 t
abbrev valBlk7 (c : Dev nD) (t : Fin cfg7.N) : Vec F S2048 .f32 := iblk7 V c 1 t
abbrev tabBlk7 (c : Dev nD) (t : Fin cfg7.N) : Vec F S2048x128 .bf16 := iblk7 V c 2 t

def pt7 (n : ℕ) : Fin cfg7.N := ⟨n % cfg7.N, Nat.mod_lt _ (by decide)⟩

def accAt7 (c : Dev nD) : ℕ → Vec F S2048x128 .f32
  | 0 => acc7 (grid7.coords (pt7 0)) (srcBlk7 V c (pt7 0)) (tabBlk7 V c (pt7 0)) k7_pay1
  | n + 1 => acc7 (grid7.coords (pt7 (n + 1))) (srcBlk7 V c (pt7 (n + 1))) (tabBlk7 V c (pt7 (n + 1))) (accAt7 c n)

def Φ7 (c : Dev nD) (k : Fin (cfg7.N + 1)) : sProp 𝕄 :=
  iprop((∃ f : Vec F S2048x128 .f32, owns (c : Thread nD τ) (Memref.whole cc7_scratch0) fullShare f ∗ ⌜k.val % 25 ≠ 0 → f = accAt7 V c (k.val - 1)⌝)
    ∗ Pipeline.scopedRestBut (Ix := Unit) (Name := ℕ) (U := UR sig nD τ) (Lvl := ℕ) (Val := Elt F) spec7 c [cc7_scratch0]
    ∗ ∃ r, prngReg c r)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k7_pay3 (accAt7 V c t.val) (valBlk7 V c t)
  Φ k := Φ7 V c k
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) : (dat7 V c).after 3 t = k7_pay3 (accAt7 V c t.val) (valBlk7 V c t) := by dsimp only [dat7]

theorem c7_first_iff : ∀ t : Fin cfg7.N, c7_first (grid7.coords t) = 1#1 ↔ t.val % 25 = 0 :=
  (by decide +kernel : ∀ t : Fin grid7.N, c7_first (grid7.coords t) = 1#1 ↔ t.val % 25 = 0)

theorem k7_cond2_iff : ∀ t : Fin cfg7.N, k7_cond2 (grid7.coords t) = 1#1 ↔ t.val % 25 = 24 :=
  (by decide +kernel : ∀ t : Fin grid7.N, k7_cond2 (grid7.coords t) = 1#1 ↔ t.val % 25 = 24)

-- Every input block the body reads at a point is that point's block of the input array.
theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d

def step7 (c : Dev nD) (t : Fin cfg7.N) (a : Vec F S2048x128 .f32) : Vec F S2048x128 .f32 :=
  acc7 (grid7.coords t) (srcBlk7 V c t) (tabBlk7 V c t) a

-- One update over the partial sum of the point before (over anything where a new sum starts) is this point's partial sum.
theorem step7_eq_accAt7 (c : Dev nD) (t : Fin cfg7.N) (f : Vec F S2048x128 .f32) (hf : t.val % 25 ≠ 0 → f = accAt7 V c (t.val - 1)) :
    step7 V c t f = accAt7 V c t.val :=
  Cert.Lib.step_eq_fold 25 (step7 V c) (accAt7 V c) k7_pay1 pt7 (fun t => Fin.ext (Nat.mod_eq_of_lt t.isLt)) rfl (fun _ => rfl)
    (fun t h a a' => by unfold step7 acc7; rw [if_pos ((c7_first_iff t).mpr h), if_pos ((c7_first_iff t).mpr h)]) t f hf

theorem Φ7_in (c : Dev nD) : iprop((∃ r, prngReg c r) ∗ Pipeline.scopedRest (Ix := Unit) (Name := ℕ) (U := UR sig nD τ) (Lvl := ℕ) (Val := Elt F) spec7 c) ⊢ Φ7 V c 0 := by
  rw [scopedRest7_split]; unfold Φ7
  simp only [owns_whole]
  iintro ⟨Hg, ⟨%f, HS⟩, HR⟩
  iframe HR Hg
  iexists f; iframe HS
  ipureintro; exact fun h => absurd (Nat.zero_mod 25) h

theorem Φ7_out (c : Dev nD) : Φ7 V c (Fin.last cfg7.N) ⊢ iprop((∃ r, prngReg c r) ∗ Pipeline.scopedRest (Ix := Unit) (Name := ℕ) (U := UR sig nD τ) (Lvl := ℕ) (Val := Elt F) spec7 c) := by
  rw [scopedRest7_split]; unfold Φ7
  simp only [owns_whole]
  iintro ⟨⟨%f, HS, %_⟩, HR, Hg⟩
  iframe HR Hg
  iexists f; iexact HS

-- The output block after the body is the one the proof data names: the scaled sum where a sum ends, the block as found elsewhere.
theorem leaves7_3 (c : Dev nD) (t : Fin cfg7.N) (f : Vec F S2048x128 .f32) (d) (hf : t.val % 25 ≠ 0 → f = accAt7 V c (t.val - 1)) :
    owns (c : Thread nD τ) (st7_3 t) fullShare (out7 (grid7.coords t) (srcBlk7 V c t) (valBlk7 V c t) (tabBlk7 V c t) f ((dat7 V c).before 3 t d))
      ⊢ ((dat7 V c).leavesExact 3 t : sProp 𝕄) := by
  have hacc := step7_eq_accAt7 V c t f hf
  unfold step7 at hacc
  unfold out7
  by_cases h : k7_cond2 (grid7.coords t) = 1#1
  · unfold Dat.leavesExact
    rw [show cfg7.idle 3 (cfg7.grid.coords t) = false from (by show (!(k7_cond2 (grid7.coords t) == 1#1)) = false; rw [h]; rfl), if_pos h, after7_3, hacc]
  · rw [Dat.leavesExact_idle (dat7 V c) 3 t (by show (!(k7_cond2 (grid7.coords t) == 1#1)) = true; rw [Bool.not_eq_true', beq_eq_false_iff_ne]; exact h)
      (Bool.eq_false_iff.mpr fun e => h ((k7_cond2_iff t).mpr ((flush7_3 t).mp e))), if_neg h]
    iintro H; iexists d; iexact H

-- The body at any point takes the partial sum of the point before and leaves this point's.
theorem body_obligation7 (c : Dev nD) : BodyObligation (dat7 (F := F) V c) (defs₀ (F := F)) Variants.none () Set.univ := fun t => by
  rw [bigSep_W7, bigSep_W7]
  sl_whnfR [defs₀, Defs.onTc]
  simp only [before7_0, before7_1, before7_2, show ∀ k, (dat7 V c).Φ k = Φ7 V c k from fun _ => rfl, Φ7]
  rw [show (dat7 V c).owesAt () t.succ = (dat7 V c).owesAt () t.castSucc from rfl, show (dat7 V c).after 0 t = iblk7 V c 0 t from rfl,
    show (dat7 V c).after 1 t = iblk7 V c 1 t from rfl, show (dat7 V c).after 2 t = iblk7 V c 2 t from rfl]
  iintro ⟨⟨⟨%f, HS, %hf⟩, HR, Hg⟩, Ho, ⟨%d0, H0⟩, ⟨%d1, H1⟩, ⟨%d2, H2⟩, ⟨%d3, H3⟩⟩
  iapply sound_kernel7 (F := F) c Set.univ (grid7.coords t) (st7_0 t) (hstage7_0 _) (st7_1 t) (hstage7_1 _)
    (st7_2 t) (hstage7_2 _) (st7_3 t) (hstage7_3 _) _ (Memref.isWhole_whole cc7_scratch0)
    (srcBlk7 V c t) (valBlk7 V c t) (tabBlk7 V c t) ((dat7 V c).before 3 t d3) f
  iframe H0 H1 H2 H3 HS
  iintro ⟨H0, H1, H2, H3, HS⟩
  iframe HR Hg Ho H0 H1 H2
  isplitl [HS]
  · iexists _; iframe HS
    ipureintro; exact fun _ => step7_eq_accAt7 V c t f hf
  · iapply leaves7_3 V c t f d3 hf; iexact H3

end Region

end Cert.Kernel.Hand

end
-- ==== Proof.K.Body8.lean ====
import proofs.«410823_j40836549050565_1_alg».proof.Proof.Gen.Kernel.Launch
import proofs.«410823_j40836549050565_1_alg».proof.Proof.Gen.Kernel.Skeleton
import proofs.«410823_j40836549050565_1_alg».proof.Proof.LibWhole
import Idealize.ShloMosaic.Lib.Pipeline.TableIdle

noncomputable section

namespace Cert.Kernel.Hand

open Cert.Kernel.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c8_first (i : grid8.Coords) : BitVec 1 :=
  Scalar.cmpi .ne (Scalar.extui (Scalar.cmpi .eq (BitVec.ofNat 32 (i 1).val) 0#32)) 0#32

def acc8 (i : grid8.Coords) (x0 : Vec F S2048 .i32) (x1 : Vec F S2048x128 .bf16) (a : Vec F S2048x128 .f32) : Vec F S2048x128 .f32 :=
  k8_pay2 i x0 (if c8_first i = 1#1 then k8_pay1 else a) x1

def out8 (i : grid8.Coords) (x0 : Vec F S2048 .i32) (x1 : Vec F S2048x128 .bf16) (x2 : Vec F S1x128 .f32) (a : Vec F S2048x128 .f32)
    (d : Vec F S2048x128 .f32) : Vec F S2048x128 .f32 :=
  if k8_cond2 i = 1#1 then k8_pay3 (acc8 i x0 x1 a) x2 else d

/-- Whichever way the two scalar tests fall, every store fills its memref, so the memref then reads the last payload stored. -/
theorem sound_kernel8 (c : Dev nD) (E : Set ℕ) (i : grid8.Coords)
    (arg2 : Memref sig .tc .vmem S2048 .i32) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048 .i32) (x1 : Vec F S2048x128 .bf16) (x2 : Vec F S1x128 .f32) (d a : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out8 i x0 x1 x2 a d) ∗ owns (c : Thread nD τ) arg6 fullShare (acc8 i x0 x1 a)) -∗ K ⟨⟩))
      ⊢ wp frame (wpE (defs₀ (F := F)) Variants.none c none) E (cc8__scatter_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc8__scatter_kernel_eq_skeleton]
  unfold cc8__scatter_kernel_skel
  iintro ⟨H0, H1, H2, H3, H4, Hk⟩
  by_cases h1 : c8_first i = 1#1 <;> by_cases h2 : k8_cond2 i = 1#1 <;>
  · sl_exec (disch := first | exact h1 | exact h2)
    sl_step
    iapply Hk; iframe H0 H1 H2
    unfold owns out8 acc8
    isplitl [H3] <;>
    · iexists _; isplitr; swap; · iassumption
      ipureintro; sl_unfold_run_names
      simp only [read_writes_whole S2048x128 zeros2, View.readCov_cons_toLoadRect, readAt_whole S2048 zeros1,
        readAt_whole S2048x128 zeros2, readAt_whole S1x128 zeros2, View.read_rep, h1, h2, if_true, if_false]

end Cert.Kernel.Hand

end
-- ==== Proof.K.Reg8.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.K.Body8
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev idsBlk8 (c : Dev nD) (t : Fin cfg8.N) : Vec F S2048 .i32 := iblk8 V c 0 t
abbrev msgBlk8 (c : Dev nD) (t : Fin cfg8.N) : Vec F S2048x128 .bf16 := iblk8 V c 1 t
abbrev biasBlk8 (c : Dev nD) (t : Fin cfg8.N) : Vec F S1x128 .f32 := iblk8 V c 2 t

def pt8 (n : ℕ) : Fin cfg8.N := ⟨n % cfg8.N, Nat.mod_lt _ (by decide)⟩

def accAt8 (c : Dev nD) : ℕ → Vec F S2048x128 .f32
  | 0 => acc8 (grid8.coords (pt8 0)) (idsBlk8 V c (pt8 0)) (msgBlk8 V c (pt8 0)) k8_pay1
  | n + 1 => acc8 (grid8.coords (pt8 (n + 1))) (idsBlk8 V c (pt8 (n + 1))) (msgBlk8 V c (pt8 (n + 1))) (accAt8 c n)

def Φ8 (c : Dev nD) (k : Fin (cfg8.N + 1)) : sProp 𝕄 :=
  iprop((∃ f : Vec F S2048x128 .f32, owns (c : Thread nD τ) (Memref.whole cc8_scratch0) fullShare f ∗ ⌜k.val % 293 ≠ 0 → f = accAt8 V c (k.val - 1)⌝)
    ∗ Pipeline.scopedRestBut (Ix := Unit) (Name := ℕ) (U := UR sig nD τ) (Lvl := ℕ) (Val := Elt F) spec8 c [cc8_scratch0]
    ∗ ∃ r, prngReg c r)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => k8_pay3 (accAt8 V c t.val) (biasBlk8 V c t)
  Φ k := Φ8 V c k
  q _ := fullShare
  owed _ := 0

theorem A_eq8 (c : Dev nD) (w : Fin cfg8.W) : (dat8 V c).A w = V c (Pipeline.arrRef spec8 w) := by
  dsimp only [dat8]

theorem after8_3 (c : Dev nD) (t : Fin cfg8.N) : (dat8 V c).after 3 t = k8_pay3 (accAt8 V c t.val) (biasBlk8 V c t) := by dsimp only [dat8]

theorem c8_first_iff : ∀ t : Fin cfg8.N, c8_first (grid8.coords t) = 1#1 ↔ t.val % 293 = 0 :=
  (by decide +kernel : ∀ t : Fin grid8.N, c8_first (grid8.coords t) = 1#1 ↔ t.val % 293 = 0)

theorem k8_cond2_iff : ∀ t : Fin cfg8.N, k8_cond2 (grid8.coords t) = 1#1 ↔ t.val % 293 = 292 :=
  (by decide +kernel : ∀ t : Fin grid8.N, k8_cond2 (grid8.coords t) = 1#1 ↔ t.val % 293 = 292)

-- Every input block the body reads at a point is that point's block of the input array.
theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d

def step8 (c : Dev nD) (t : Fin cfg8.N) (a : Vec F S2048x128 .f32) : Vec F S2048x128 .f32 :=
  acc8 (grid8.coords t) (idsBlk8 V c t) (msgBlk8 V c t) a

-- One update over the partial sum of the point before (over anything where a new sum starts) is this point's partial sum.
theorem step8_eq_accAt8 (c : Dev nD) (t : Fin cfg8.N) (f : Vec F S2048x128 .f32) (hf : t.val % 293 ≠ 0 → f = accAt8 V c (t.val - 1)) :
    step8 V c t f = accAt8 V c t.val :=
  Cert.Lib.step_eq_fold 293 (step8 V c) (accAt8 V c) k8_pay1 pt8 (fun t => Fin.ext (Nat.mod_eq_of_lt t.isLt)) rfl (fun _ => rfl)
    (fun t h a a' => by unfold step8 acc8; rw [if_pos ((c8_first_iff t).mpr h), if_pos ((c8_first_iff t).mpr h)]) t f hf

theorem Φ8_in (c : Dev nD) : iprop((∃ r, prngReg c r) ∗ Pipeline.scopedRest (Ix := Unit) (Name := ℕ) (U := UR sig nD τ) (Lvl := ℕ) (Val := Elt F) spec8 c) ⊢ Φ8 V c 0 := by
  rw [scopedRest8_split]; unfold Φ8
  simp only [owns_whole]
  iintro ⟨Hg, ⟨%f, HS⟩, HR⟩
  iframe HR Hg
  iexists f; iframe HS
  ipureintro; exact fun h => absurd (Nat.zero_mod 293) h

theorem Φ8_out (c : Dev nD) : Φ8 V c (Fin.last cfg8.N) ⊢ iprop((∃ r, prngReg c r) ∗ Pipeline.scopedRest (Ix := Unit) (Name := ℕ) (U := UR sig nD τ) (Lvl := ℕ) (Val := Elt F) spec8 c) := by
  rw [scopedRest8_split]; unfold Φ8
  simp only [owns_whole]
  iintro ⟨⟨%f, HS, %_⟩, HR, Hg⟩
  iframe HR Hg
  iexists f; iexact HS

-- The output block after the body is the one the proof data names: the sum plus the bias row where a sum ends, the block as found elsewhere.
theorem leaves8_3 (c : Dev nD) (t : Fin cfg8.N) (f : Vec F S2048x128 .f32) (d) (hf : t.val % 293 ≠ 0 → f = accAt8 V c (t.val - 1)) :
    owns (c : Thread nD τ) (st8_3 t) fullShare (out8 (grid8.coords t) (idsBlk8 V c t) (msgBlk8 V c t) (biasBlk8 V c t) f ((dat8 V c).before 3 t d))
      ⊢ ((dat8 V c).leavesExact 3 t : sProp 𝕄) := by
  have hacc := step8_eq_accAt8 V c t f hf
  unfold step8 at hacc
  unfold out8
  by_cases h : k8_cond2 (grid8.coords t) = 1#1
  · unfold Dat.leavesExact
    rw [show cfg8.idle 3 (cfg8.grid.coords t) = false from (by show (!(k8_cond2 (grid8.coords t) == 1#1)) = false; rw [h]; rfl), if_pos h, after8_3, hacc]
  · rw [Dat.leavesExact_idle (dat8 V c) 3 t (by show (!(k8_cond2 (grid8.coords t) == 1#1)) = true; rw [Bool.not_eq_true', beq_eq_false_iff_ne]; exact h)
      (Bool.eq_false_iff.mpr fun e => h ((k8_cond2_iff t).mpr ((flush8_3 t).mp e))), if_neg h]
    iintro H; iexists d; iexact H

-- The body at any point takes the partial sum of the point before and leaves this point's.
theorem body_obligation8 (c : Dev nD) : BodyObligation (dat8 (F := F) V c) (defs₀ (F := F)) Variants.none () Set.univ := fun t => by
  rw [bigSep_W8, bigSep_W8]
  sl_whnfR [defs₀, Defs.onTc]
  simp only [before8_0, before8_1, before8_2, show ∀ k, (dat8 V c).Φ k = Φ8 V c k from fun _ => rfl, Φ8]
  rw [show (dat8 V c).owesAt () t.succ = (dat8 V c).owesAt () t.castSucc from rfl, show (dat8 V c).after 0 t = iblk8 V c 0 t from rfl,
    show (dat8 V c).after 1 t = iblk8 V c 1 t from rfl, show (dat8 V c).after 2 t = iblk8 V c 2 t from rfl]
  iintro ⟨⟨⟨%f, HS, %hf⟩, HR, Hg⟩, Ho, ⟨%d0, H0⟩, ⟨%d1, H1⟩, ⟨%d2, H2⟩, ⟨%d3, H3⟩⟩
  iapply sound_kernel8 (F := F) c Set.univ (grid8.coords t) (st8_0 t) (hstage8_0 _) (st8_1 t) (hstage8_1 _)
    (st8_2 t) (hstage8_2 _) (st8_3 t) (hstage8_3 _) _ (Memref.isWhole_whole cc8_scratch0)
    (idsBlk8 V c t) (msgBlk8 V c t) (biasBlk8 V c t) ((dat8 V c).before 3 t d3) f
  iframe H0 H1 H2 H3 HS
  iintro ⟨H0, H1, H2, H3, HS⟩
  iframe HR Hg Ho H0 H1 H2
  isplitl [HS]
  · iexists _; iframe HS
    ipureintro; exact fun _ => step8_eq_accAt8 V c t f hf
  · iapply leaves8_3 V c t f d3 hf; iexact H3

end Region

end Cert.Kernel.Hand

end
-- ==== Proof.K.Reg9.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.LibWhole
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.Kernel.Hand

open Cert.Kernel Cert.Kernel.Gen Cert.Lib.Whole
open Idealize.ShloMosaic Idealize.ShloMosaic.TcCoe Idealize.ShloMosaic.Tactic
open Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

local notation "𝕄" => MT nD τ sig Unit (Elt F) ℕ (UR sig nD τ) ℕ

-- A store through the whole rectangle covers the buffer, and a load through it reads the contents.
theorem sound_kernel9 (c : Dev nD) (E : Set ℕ) (i) (arg1) (harg1) (arg2) (harg2) (arg3) (harg3) (x0) (x1) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k9_pay1 x0 x1)) -∗ K ⟨⟩))
      ⊢ wp frame (wpE (defs₀ (F := F)) Variants.none c none) E (cc9__dense_kernel i arg1 harg1 arg2 harg2 arg3 harg3) K := by
  simp only [cc9__dense_kernel_eq_skeleton]; unfold cc9__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole S5000x64 zeros2, readAt_whole S5000x128 zeros2, readAt_whole S128x64 zeros2]

section Region
variable (V : (c : Dev nD) → (b : Ref sig .tc) → Buf (Elt F) ((c : Thread nD τ).loc b))

-- Block `t` of window `w`'s array at the region's entry.
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev xBlk9 (c : Dev nD) (t : Fin cfg9.N) : Vec F S5000x128 .f32 := iblk9 V c 0 t
abbrev wBlk9 (c : Dev nD) (t : Fin cfg9.N) : Vec F S128x64 .f32 := iblk9 V c 1 t

-- After the body: the inputs' blocks as they were, the output's the product payload of the two.
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => k9_pay1 (xBlk9 V c t) (wBlk9 V c t)
  Φ _ := Pipeline.ΦA spec9 c
  q _ := fullShare
  owed _ := 0

theorem A_eq9 (c : Dev nD) (w : Fin cfg9.W) : (dat9 V c).A w = V c (Pipeline.arrRef spec9 w) := rfl
theorem after9_0 (c : Dev nD) (t : Fin cfg9.N) : (dat9 V c).after 0 t = iblk9 V c 0 t := rfl
theorem after9_1 (c : Dev nD) (t : Fin cfg9.N) : (dat9 V c).after 1 t = iblk9 V c 1 t := rfl
theorem after9_2 (c : Dev nD) (t : Fin cfg9.N) : (dat9 V c).after 2 t = k9_pay1 (xBlk9 V c t) (wBlk9 V c t) := rfl

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d

theorem body_obligation9 (c : Dev nD) : BodyObligation (dat9 (F := F) V c) (defs₀ (F := F)) Variants.none () Set.univ := fun t => by
  rw [bigSep_W9, bigSep_W9]
  sl_whnfR [defs₀, Defs.onTc]
  simp only [before9_0, before9_1]
  rw [show (dat9 V c).Φ t.succ = (dat9 V c).Φ t.castSucc from rfl,
    show (dat9 V c).owesAt () t.succ = (dat9 V c).owesAt () t.castSucc from rfl, after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  iframe H0 H1
  isplitl [H2]
  · iexists _; iexact H2
  iintro ⟨H0, H1, H2⟩
  iframe

end Region

end Cert.Kernel.Hand

end
-- ==== Proof.K.Body10.lean ====
import proofs.«410823_j40836549050565_1_alg».proof.Proof.Gen.Kernel.Launch
import proofs.«410823_j40836549050565_1_alg».proof.Proof.Gen.Kernel.Skeleton
import proofs.«410823_j40836549050565_1_alg».proof.Proof.LibWhole
import Idealize.ShloMosaic.Lib.Pipeline.TableIdle

noncomputable section

namespace Cert.Kernel.Hand

open Cert.Kernel.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c10_first (i : grid10.Coords) : BitVec 1 :=
  Scalar.cmpi .ne (Scalar.extui (Scalar.cmpi .eq (BitVec.ofNat 32 (i 1).val) 0#32)) 0#32

def acc10 (i : grid10.Coords) (x0 : Vec F S2048 .i32) (x2 : Vec F S2048x64 .bf16) (a : Vec F S2048x64 .f32) : Vec F S2048x64 .f32 :=
  k10_pay2 i x0 (if c10_first i = 1#1 then k10_pay1 else a) x2

def out10 (i : grid10.Coords) (x0 : Vec F S2048 .i32) (x1 : Vec F S2048 .f32) (x2 : Vec F S2048x64 .bf16) (a : Vec F S2048x64 .f32)
    (d : Vec F S2048x64 .bf16) : Vec F S2048x64 .bf16 :=
  if k10_cond2 i = 1#1 then k10_pay3 (acc10 i x0 x2 a) x1 else d

/-- Whichever way the two scalar tests fall, every store fills its memref, so the memref then reads the last payload stored. -/
theorem sound_kernel10 (c : Dev nD) (E : Set ℕ) (i : grid10.Coords)
    (arg2 : Memref sig .tc .vmem S2048 .i32) (harg2 : arg2.IsWhole) (arg3 : Memref sig .tc .vmem S2048 .f32) (harg3 : arg3.IsWhole)
    (arg4 : Memref sig .tc .vmem S2048x64 .bf16) (harg4 : arg4.IsWhole) (arg5 : Memref sig .tc .vmem S2048x64 .bf16) (harg5 : arg5.IsWhole)
    (arg6 : Memref sig .tc .vmem S2048x64 .f32) (harg6 : arg6.IsWhole)
    (x0 : Vec F S2048 .i32) (x1 : Vec F S2048 .f32) (x2 : Vec F S2048x64 .bf16) (d : Vec F S2048x64 .bf16) (a : Vec F S2048x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out10 i x0 x1 x2 a d) ∗ owns (c : Thread nD τ) arg6 fullShare (acc10 i x0 x2 a)) -∗ K ⟨⟩))
      ⊢ wp frame (wpE (defs₀ (F := F)) Variants.none c none) E (cc10__gather_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc10__gather_kernel_eq_skeleton]
  unfold cc10__gather_kernel_skel
  iintro ⟨H0, H1, H2, H3, H4, Hk⟩
  by_cases h1 : c10_first i = 1#1 <;> by_cases h2 : k10_cond2 i = 1#1 <;>
  · sl_exec (disch := first | exact h1 | exact h2)
    sl_step
    iapply Hk; iframe H0 H1 H2
    unfold owns out10 acc10
    isplitl [H3] <;>
    · iexists _; isplitr; swap; · iassumption
      ipureintro; sl_unfold_run_names
      simp only [read_writes_whole S2048x64 zeros2, View.readCov_cons_toLoadRect, readAt_whole S2048 zeros1,
        readAt_whole S2048x64 zeros2, View.read_rep, h1, h2, if_true, if_false]

end Cert.Kernel.Hand

end
-- ==== Proof.K.Reg10.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.K.Body10
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev srcBlk10 (c : Dev nD) (t : Fin cfg10.N) : Vec F S2048 .i32 := iblk10 V c 0 t
abbrev valBlk10 (c : Dev nD) (t : Fin cfg10.N) : Vec F S2048 .f32 := iblk10 V c 1 t
abbrev tabBlk10 (c : Dev nD) (t : Fin cfg10.N) : Vec F S2048x64 .bf16 := iblk10 V c 2 t

def pt10 (n : ℕ) : Fin cfg10.N := ⟨n % cfg10.N, Nat.mod_lt _ (by decide)⟩

def accAt10 (c : Dev nD) : ℕ → Vec F S2048x64 .f32
  | 0 => acc10 (grid10.coords (pt10 0)) (srcBlk10 V c (pt10 0)) (tabBlk10 V c (pt10 0)) k10_pay1
  | n + 1 => acc10 (grid10.coords (pt10 (n + 1))) (srcBlk10 V c (pt10 (n + 1))) (tabBlk10 V c (pt10 (n + 1))) (accAt10 c n)

def Φ10 (c : Dev nD) (k : Fin (cfg10.N + 1)) : sProp 𝕄 :=
  iprop((∃ f : Vec F S2048x64 .f32, owns (c : Thread nD τ) (Memref.whole cc10_scratch0) fullShare f ∗ ⌜k.val % 25 ≠ 0 → f = accAt10 V c (k.val - 1)⌝)
    ∗ Pipeline.scopedRestBut (Ix := Unit) (Name := ℕ) (U := UR sig nD τ) (Lvl := ℕ) (Val := Elt F) spec10 c [cc10_scratch0]
    ∗ ∃ r, prngReg c r)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => k10_pay3 (accAt10 V c t.val) (valBlk10 V c t)
  Φ k := Φ10 V c k
  q _ := fullShare
  owed _ := 0

theorem A_eq10 (c : Dev nD) (w : Fin cfg10.W) : (dat10 V c).A w = V c (Pipeline.arrRef spec10 w) := by
  dsimp only [dat10]

theorem after10_3 (c : Dev nD) (t : Fin cfg10.N) : (dat10 V c).after 3 t = k10_pay3 (accAt10 V c t.val) (valBlk10 V c t) := by dsimp only [dat10]

theorem c10_first_iff : ∀ t : Fin cfg10.N, c10_first (grid10.coords t) = 1#1 ↔ t.val % 25 = 0 :=
  (by decide +kernel : ∀ t : Fin grid10.N, c10_first (grid10.coords t) = 1#1 ↔ t.val % 25 = 0)

theorem k10_cond2_iff : ∀ t : Fin cfg10.N, k10_cond2 (grid10.coords t) = 1#1 ↔ t.val % 25 = 24 :=
  (by decide +kernel : ∀ t : Fin grid10.N, k10_cond2 (grid10.coords t) = 1#1 ↔ t.val % 25 = 24)

-- Every input block the body reads at a point is that point's block of the input array.
theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d
theorem before10_2 (c : Dev nD) (t : Fin cfg10.N) (d) : (dat10 V c).before 2 t d = iblk10 V c 2 t :=
  (dat10 V c).before_in_eq_fetched 2 rfl (fun _ => rfl) (fun _ _ _ => rfl) (fun _ => rfl) t d

def step10 (c : Dev nD) (t : Fin cfg10.N) (a : Vec F S2048x64 .f32) : Vec F S2048x64 .f32 :=
  acc10 (grid10.coords t) (srcBlk10 V c t) (tabBlk10 V c t) a

-- One update over the partial sum of the point before (over anything where a new sum starts) is this point's partial sum.
theorem step10_eq_accAt10 (c : Dev nD) (t : Fin cfg10.N) (f : Vec F S2048x64 .f32) (hf : t.val % 25 ≠ 0 → f = accAt10 V c (t.val - 1)) :
    step10 V c t f = accAt10 V c t.val :=
  Cert.Lib.step_eq_fold 25 (step10 V c) (accAt10 V c) k10_pay1 pt10 (fun t => Fin.ext (Nat.mod_eq_of_lt t.isLt)) rfl (fun _ => rfl)
    (fun t h a a' => by unfold step10 acc10; rw [if_pos ((c10_first_iff t).mpr h), if_pos ((c10_first_iff t).mpr h)]) t f hf

theorem Φ10_in (c : Dev nD) : iprop((∃ r, prngReg c r) ∗ Pipeline.scopedRest (Ix := Unit) (Name := ℕ) (U := UR sig nD τ) (Lvl := ℕ) (Val := Elt F) spec10 c) ⊢ Φ10 V c 0 := by
  rw [scopedRest10_split]; unfold Φ10
  simp only [owns_whole]
  iintro ⟨Hg, ⟨%f, HS⟩, HR⟩
  iframe HR Hg
  iexists f; iframe HS
  ipureintro; exact fun h => absurd (Nat.zero_mod 25) h

theorem Φ10_out (c : Dev nD) : Φ10 V c (Fin.last cfg10.N) ⊢ iprop((∃ r, prngReg c r) ∗ Pipeline.scopedRest (Ix := Unit) (Name := ℕ) (U := UR sig nD τ) (Lvl := ℕ) (Val := Elt F) spec10 c) := by
  rw [scopedRest10_split]; unfold Φ10
  simp only [owns_whole]
  iintro ⟨⟨%f, HS, %_⟩, HR, Hg⟩
  iframe HR Hg
  iexists f; iexact HS

-- The output block after the body is the one the proof data names: the scaled sum where a sum ends, the block as found elsewhere.
theorem leaves10_3 (c : Dev nD) (t : Fin cfg10.N) (f : Vec F S2048x64 .f32) (d) (hf : t.val % 25 ≠ 0 → f = accAt10 V c (t.val - 1)) :
    owns (c : Thread nD τ) (st10_3 t) fullShare (out10 (grid10.coords t) (srcBlk10 V c t) (valBlk10 V c t) (tabBlk10 V c t) f ((dat10 V c).before 3 t d))
      ⊢ ((dat10 V c).leavesExact 3 t : sProp 𝕄) := by
  have hacc := step10_eq_accAt10 V c t f hf
  unfold step10 at hacc
  unfold out10
  by_cases h : k10_cond2 (grid10.coords t) = 1#1
  · unfold Dat.leavesExact
    rw [show cfg10.idle 3 (cfg10.grid.coords t) = false from (by show (!(k10_cond2 (grid10.coords t) == 1#1)) = false; rw [h]; rfl), if_pos h, after10_3, hacc]
  · rw [Dat.leavesExact_idle (dat10 V c) 3 t (by show (!(k10_cond2 (grid10.coords t) == 1#1)) = true; rw [Bool.not_eq_true', beq_eq_false_iff_ne]; exact h)
      (Bool.eq_false_iff.mpr fun e => h ((k10_cond2_iff t).mpr ((flush10_3 t).mp e))), if_neg h]
    iintro H; iexists d; iexact H

-- The body at any point takes the partial sum of the point before and leaves this point's.
theorem body_obligation10 (c : Dev nD) : BodyObligation (dat10 (F := F) V c) (defs₀ (F := F)) Variants.none () Set.univ := fun t => by
  rw [bigSep_W10, bigSep_W10]
  sl_whnfR [defs₀, Defs.onTc]
  simp only [before10_0, before10_1, before10_2, show ∀ k, (dat10 V c).Φ k = Φ10 V c k from fun _ => rfl, Φ10]
  rw [show (dat10 V c).owesAt () t.succ = (dat10 V c).owesAt () t.castSucc from rfl, show (dat10 V c).after 0 t = iblk10 V c 0 t from rfl,
    show (dat10 V c).after 1 t = iblk10 V c 1 t from rfl, show (dat10 V c).after 2 t = iblk10 V c 2 t from rfl]
  iintro ⟨⟨⟨%f, HS, %hf⟩, HR, Hg⟩, Ho, ⟨%d0, H0⟩, ⟨%d1, H1⟩, ⟨%d2, H2⟩, ⟨%d3, H3⟩⟩
  iapply sound_kernel10 (F := F) c Set.univ (grid10.coords t) (st10_0 t) (hstage10_0 _) (st10_1 t) (hstage10_1 _)
    (st10_2 t) (hstage10_2 _) (st10_3 t) (hstage10_3 _) _ (Memref.isWhole_whole cc10_scratch0)
    (srcBlk10 V c t) (valBlk10 V c t) (tabBlk10 V c t) ((dat10 V c).before 3 t d3) f
  iframe H0 H1 H2 H3 HS
  iintro ⟨H0, H1, H2, H3, HS⟩
  iframe HR Hg Ho H0 H1 H2
  isplitl [HS]
  · iexists _; iframe HS
    ipureintro; exact fun _ => step10_eq_accAt10 V c t f hf
  · iapply leaves10_3 V c t f d3 hf; iexact H3

end Region

end Cert.Kernel.Hand

end
-- ==== Proof.K.Body11.lean ====
import proofs.«410823_j40836549050565_1_alg».proof.Proof.Gen.Kernel.Launch
import proofs.«410823_j40836549050565_1_alg».proof.Proof.Gen.Kernel.Skeleton
import proofs.«410823_j40836549050565_1_alg».proof.Proof.LibWhole
import Idealize.ShloMosaic.Lib.Pipeline.TableIdle

noncomputable section

namespace Cert.Kernel.Hand

open Cert.Kernel.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c11_first (i : grid11.Coords) : BitVec 1 :=
  Scalar.cmpi .ne (Scalar.extui (Scalar.cmpi .eq (BitVec.ofNat 32 (i 1).val) 0#32)) 0#32

def acc11 (i : grid11.Coords) (x0 : Vec F S2048 .i32) (x1 : Vec F S2048x64 .bf16) (a : Vec F S2048x64 .f32) : Vec F S2048x64 .f32 :=
  k11_pay2 i x0 (if c11_first i = 1#1 then k11_pay1 else a) x1

def out11 (i : grid11.Coords) (x0 : Vec F S2048 .i32) (x1 : Vec F S2048x64 .bf16) (x2 : Vec F S1x64 .f32) (a : Vec F S2048x64 .f32)
    (d : Vec F S2048x64 .f32) : Vec F S2048x64 .f32 :=
  if k11_cond2 i = 1#1 then k11_pay3 (acc11 i x0 x1 a) x2 else d

/-- Whichever way the two scalar tests fall, every store fills its memref, so the memref then reads the last payload stored. -/
theorem sound_kernel11 (c : Dev nD) (E : Set ℕ) (i : grid11.Coords)
    (arg2 : Memref sig .tc .vmem S2048 .i32) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (x0 : Vec F S2048 .i32) (x1 : Vec F S2048x64 .bf16) (x2 : Vec F S1x64 .f32) (d a : Vec F S2048x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out11 i x0 x1 x2 a d) ∗ owns (c : Thread nD τ) arg6 fullShare (acc11 i x0 x1 a)) -∗ K ⟨⟩))
      ⊢ wp frame (wpE (defs₀ (F := F)) Variants.none c none) E (cc11__scatter_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc11__scatter_kernel_eq_skeleton]
  unfold cc11__scatter_kernel_skel
  iintro ⟨H0, H1, H2, H3, H4, Hk⟩
  by_cases h1 : c11_first i = 1#1 <;> by_cases h2 : k11_cond2 i = 1#1 <;>
  · sl_exec (disch := first | exact h1 | exact h2)
    sl_step
    iapply Hk; iframe H0 H1 H2
    unfold owns out11 acc11
    isplitl [H3] <;>
    · iexists _; isplitr; swap; · iassumption
      ipureintro; sl_unfold_run_names
      simp only [read_writes_whole S2048x64 zeros2, View.readCov_cons_toLoadRect, readAt_whole S2048 zeros1,
        readAt_whole S2048x64 zeros2, readAt_whole S1x64 zeros2, View.read_rep, h1, h2, if_true, if_false]

end Cert.Kernel.Hand

end
-- ==== Proof.K.Reg11.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.K.Body11
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev idsBlk11 (c : Dev nD) (t : Fin cfg11.N) : Vec F S2048 .i32 := iblk11 V c 0 t
abbrev msgBlk11 (c : Dev nD) (t : Fin cfg11.N) : Vec F S2048x64 .bf16 := iblk11 V c 1 t
abbrev biasBlk11 (c : Dev nD) (t : Fin cfg11.N) : Vec F S1x64 .f32 := iblk11 V c 2 t

def pt11 (n : ℕ) : Fin cfg11.N := ⟨n % cfg11.N, Nat.mod_lt _ (by decide)⟩

def accAt11 (c : Dev nD) : ℕ → Vec F S2048x64 .f32
  | 0 => acc11 (grid11.coords (pt11 0)) (idsBlk11 V c (pt11 0)) (msgBlk11 V c (pt11 0)) k11_pay1
  | n + 1 => acc11 (grid11.coords (pt11 (n + 1))) (idsBlk11 V c (pt11 (n + 1))) (msgBlk11 V c (pt11 (n + 1))) (accAt11 c n)

def Φ11 (c : Dev nD) (k : Fin (cfg11.N + 1)) : sProp 𝕄 :=
  iprop((∃ f : Vec F S2048x64 .f32, owns (c : Thread nD τ) (Memref.whole cc11_scratch0) fullShare f ∗ ⌜k.val % 293 ≠ 0 → f = accAt11 V c (k.val - 1)⌝)
    ∗ Pipeline.scopedRestBut (Ix := Unit) (Name := ℕ) (U := UR sig nD τ) (Lvl := ℕ) (Val := Elt F) spec11 c [cc11_scratch0]
    ∗ ∃ r, prngReg c r)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => k11_pay3 (accAt11 V c t.val) (biasBlk11 V c t)
  Φ k := Φ11 V c k
  q _ := fullShare
  owed _ := 0

theorem A_eq11 (c : Dev nD) (w : Fin cfg11.W) : (dat11 V c).A w = V c (Pipeline.arrRef spec11 w) := by
  dsimp only [dat11]

theorem after11_3 (c : Dev nD) (t : Fin cfg11.N) : (dat11 V c).after 3 t = k11_pay3 (accAt11 V c t.val) (biasBlk11 V c t) := by dsimp only [dat11]

theorem c11_first_iff : ∀ t : Fin cfg11.N, c11_first (grid11.coords t) = 1#1 ↔ t.val % 293 = 0 :=
  (by decide +kernel : ∀ t : Fin grid11.N, c11_first (grid11.coords t) = 1#1 ↔ t.val % 293 = 0)

theorem k11_cond2_iff : ∀ t : Fin cfg11.N, k11_cond2 (grid11.coords t) = 1#1 ↔ t.val % 293 = 292 :=
  (by decide +kernel : ∀ t : Fin grid11.N, k11_cond2 (grid11.coords t) = 1#1 ↔ t.val % 293 = 292)

-- Every input block the body reads at a point is that point's block of the input array.
theorem before11_0 (c : Dev nD) (t : Fin cfg11.N) (d) : (dat11 V c).before 0 t d = iblk11 V c 0 t :=
  (dat11 V c).before_in_eq_fetched 0 rfl (fun _ => rfl) (fun _ _ _ => rfl) (fun _ => rfl) t d
theorem before11_1 (c : Dev nD) (t : Fin cfg11.N) (d) : (dat11 V c).before 1 t d = iblk11 V c 1 t :=
  (dat11 V c).before_in_eq_fetched 1 rfl (fun _ => rfl) (fun _ _ _ => rfl) (fun _ => rfl) t d
theorem before11_2 (c : Dev nD) (t : Fin cfg11.N) (d) : (dat11 V c).before 2 t d = iblk11 V c 2 t :=
  (dat11 V c).before_in_eq_fetched 2 rfl (fun _ => rfl) (fun _ _ _ => rfl) (fun _ => rfl) t d

def step11 (c : Dev nD) (t : Fin cfg11.N) (a : Vec F S2048x64 .f32) : Vec F S2048x64 .f32 :=
  acc11 (grid11.coords t) (idsBlk11 V c t) (msgBlk11 V c t) a

-- One update over the partial sum of the point before (over anything where a new sum starts) is this point's partial sum.
theorem step11_eq_accAt11 (c : Dev nD) (t : Fin cfg11.N) (f : Vec F S2048x64 .f32) (hf : t.val % 293 ≠ 0 → f = accAt11 V c (t.val - 1)) :
    step11 V c t f = accAt11 V c t.val :=
  Cert.Lib.step_eq_fold 293 (step11 V c) (accAt11 V c) k11_pay1 pt11 (fun t => Fin.ext (Nat.mod_eq_of_lt t.isLt)) rfl (fun _ => rfl)
    (fun t h a a' => by unfold step11 acc11; rw [if_pos ((c11_first_iff t).mpr h), if_pos ((c11_first_iff t).mpr h)]) t f hf

theorem Φ11_in (c : Dev nD) : iprop((∃ r, prngReg c r) ∗ Pipeline.scopedRest (Ix := Unit) (Name := ℕ) (U := UR sig nD τ) (Lvl := ℕ) (Val := Elt F) spec11 c) ⊢ Φ11 V c 0 := by
  rw [scopedRest11_split]; unfold Φ11
  simp only [owns_whole]
  iintro ⟨Hg, ⟨%f, HS⟩, HR⟩
  iframe HR Hg
  iexists f; iframe HS
  ipureintro; exact fun h => absurd (Nat.zero_mod 293) h

theorem Φ11_out (c : Dev nD) : Φ11 V c (Fin.last cfg11.N) ⊢ iprop((∃ r, prngReg c r) ∗ Pipeline.scopedRest (Ix := Unit) (Name := ℕ) (U := UR sig nD τ) (Lvl := ℕ) (Val := Elt F) spec11 c) := by
  rw [scopedRest11_split]; unfold Φ11
  simp only [owns_whole]
  iintro ⟨⟨%f, HS, %_⟩, HR, Hg⟩
  iframe HR Hg
  iexists f; iexact HS

-- The output block after the body is the one the proof data names: the sum plus the bias row where a sum ends, the block as found elsewhere.
theorem leaves11_3 (c : Dev nD) (t : Fin cfg11.N) (f : Vec F S2048x64 .f32) (d) (hf : t.val % 293 ≠ 0 → f = accAt11 V c (t.val - 1)) :
    owns (c : Thread nD τ) (st11_3 t) fullShare (out11 (grid11.coords t) (idsBlk11 V c t) (msgBlk11 V c t) (biasBlk11 V c t) f ((dat11 V c).before 3 t d))
      ⊢ ((dat11 V c).leavesExact 3 t : sProp 𝕄) := by
  have hacc := step11_eq_accAt11 V c t f hf
  unfold step11 at hacc
  unfold out11
  by_cases h : k11_cond2 (grid11.coords t) = 1#1
  · unfold Dat.leavesExact
    rw [show cfg11.idle 3 (cfg11.grid.coords t) = false from (by show (!(k11_cond2 (grid11.coords t) == 1#1)) = false; rw [h]; rfl), if_pos h, after11_3, hacc]
  · rw [Dat.leavesExact_idle (dat11 V c) 3 t (by show (!(k11_cond2 (grid11.coords t) == 1#1)) = true; rw [Bool.not_eq_true', beq_eq_false_iff_ne]; exact h)
      (Bool.eq_false_iff.mpr fun e => h ((k11_cond2_iff t).mpr ((flush11_3 t).mp e))), if_neg h]
    iintro H; iexists d; iexact H

-- The body at any point takes the partial sum of the point before and leaves this point's.
theorem body_obligation11 (c : Dev nD) : BodyObligation (dat11 (F := F) V c) (defs₀ (F := F)) Variants.none () Set.univ := fun t => by
  rw [bigSep_W11, bigSep_W11]
  sl_whnfR [defs₀, Defs.onTc]
  simp only [before11_0, before11_1, before11_2, show ∀ k, (dat11 V c).Φ k = Φ11 V c k from fun _ => rfl, Φ11]
  rw [show (dat11 V c).owesAt () t.succ = (dat11 V c).owesAt () t.castSucc from rfl, show (dat11 V c).after 0 t = iblk11 V c 0 t from rfl,
    show (dat11 V c).after 1 t = iblk11 V c 1 t from rfl, show (dat11 V c).after 2 t = iblk11 V c 2 t from rfl]
  iintro ⟨⟨⟨%f, HS, %hf⟩, HR, Hg⟩, Ho, ⟨%d0, H0⟩, ⟨%d1, H1⟩, ⟨%d2, H2⟩, ⟨%d3, H3⟩⟩
  iapply sound_kernel11 (F := F) c Set.univ (grid11.coords t) (st11_0 t) (hstage11_0 _) (st11_1 t) (hstage11_1 _)
    (st11_2 t) (hstage11_2 _) (st11_3 t) (hstage11_3 _) _ (Memref.isWhole_whole cc11_scratch0)
    (idsBlk11 V c t) (msgBlk11 V c t) (biasBlk11 V c t) ((dat11 V c).before 3 t d3) f
  iframe H0 H1 H2 H3 HS
  iintro ⟨H0, H1, H2, H3, HS⟩
  iframe HR Hg Ho H0 H1 H2
  isplitl [HS]
  · iexists _; iframe HS
    ipureintro; exact fun _ => step11_eq_accAt11 V c t f hf
  · iapply leaves11_3 V c t f d3 hf; iexact H3

end Region

end Cert.Kernel.Hand

end
-- ==== Proof.K.Outs.lean ====
import proofs.«410823_j40836549050565_1_alg».proof.Proof.K.RegionsP
import proofs.«410823_j40836549050565_1_alg».proof.Proof.K.Reg0
import proofs.«410823_j40836549050565_1_alg».proof.Proof.K.Reg1
import proofs.«410823_j40836549050565_1_alg».proof.Proof.K.Reg2
import proofs.«410823_j40836549050565_1_alg».proof.Proof.K.Reg3
import proofs.«410823_j40836549050565_1_alg».proof.Proof.K.Reg4
import proofs.«410823_j40836549050565_1_alg».proof.Proof.K.Reg5
import proofs.«410823_j40836549050565_1_alg».proof.Proof.K.Reg6
import proofs.«410823_j40836549050565_1_alg».proof.Proof.K.Reg7
import proofs.«410823_j40836549050565_1_alg».proof.Proof.K.Reg8
import proofs.«410823_j40836549050565_1_alg».proof.Proof.K.Reg9
import proofs.«410823_j40836549050565_1_alg».proof.Proof.K.Reg10
import proofs.«410823_j40836549050565_1_alg».proof.Proof.K.Reg11

set_option maxRecDepth 16384

noncomputable section

namespace Cert.Kernel.Hand

open Cert.Kernel Cert.Kernel.Gen Cert.Kernel.GenP
open Idealize.ShloMosaic Idealize.ShloMosaic.TcCoe
open Idealize.SL Idealize.SL.Sem

variable {F : FTy → Type} [FloatOps F]
variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

-- The launch contents with one buffer `r₀` replaced by `x`.
def put (r₀ : Ref sig .tc) (x : (c : Dev nD) → Buf (Elt F) ((c : Thread nD τ).loc r₀)) (r : Ref sig .tc) (c : Dev nD) :
    Buf (Elt F) ((c : Thread nD τ).loc r) :=
  if h : r = r₀ then h ▸ x c else m ((c : Thread nD τ).loc r)

theorem put_self (r₀ : Ref sig .tc) (x : (c : Dev nD) → Buf (Elt F) ((c : Thread nD τ).loc r₀)) (c : Dev nD) : put m r₀ x r₀ c = x c := by
  unfold put; rw [dif_pos rfl]

-- What item J leaves in each buffer, given what the earlier items left.
def step (prev : Outs (F := F)) (J : ℕ) : (r : Ref sig .tc) → (c : Dev nD) → Buf (Elt F) ((c : Thread nD τ).loc r) :=
  if J = 13 then put m main_v6 fun c => (dat0 (rd (V12 m)) c).arrAt 2 cfg0.N else
  if J = 16 then put m main_v8 fun c => (dat1 (rd (V15 m prev)) c).arrAt 3 cfg1.N else
  if J = 18 then put m main_v10 fun c => (dat2 (rd (V17 m prev)) c).arrAt 3 cfg2.N else
  if J = 21 then put m main_v13 fun c => (dat3 (rd (V20 m prev)) c).arrAt 2 cfg3.N else
  if J = 24 then put m main_v15 fun c => (dat4 (rd (V23 m prev)) c).arrAt 3 cfg4.N else
  if J = 26 then put m main_v17 fun c => (dat5 (rd (V25 m prev)) c).arrAt 3 cfg5.N else
  if J = 28 then put m main_v19 fun c => (dat6 (rd (V27 m prev)) c).arrAt 2 cfg6.N else
  if J = 31 then put m main_v21 fun c => (dat7 (rd (V30 m prev)) c).arrAt 3 cfg7.N else
  if J = 33 then put m main_v23 fun c => (dat8 (rd (V32 m prev)) c).arrAt 3 cfg8.N else
  if J = 36 then put m main_v26 fun c => (dat9 (rd (V35 m prev)) c).arrAt 2 cfg9.N else
  if J = 39 then put m main_v28 fun c => (dat10 (rd (V38 m prev)) c).arrAt 3 cfg10.N else
  if J = 41 then put m main_v30 fun c => (dat11 (rd (V40 m prev)) c).arrAt 3 cfg11.N else
  fun r c => m ((c : Thread nD τ).loc r)

def outsUpTo : ℕ → Outs (F := F)
  | 0 => fun _ r c => m ((c : Thread nD τ).loc r)
  | n + 1 => fun J => if J = n + 1 then step m (outsUpTo n) J else outsUpTo n J

def outsF : Outs (F := F) := outsUpTo m 41

-- Entry J of the table is settled at stage J.
theorem outsUpTo_stable (n J : ℕ) (h : J ≤ n) : outsUpTo m n J = outsUpTo m J J := by
  induction n with
  | zero => obtain rfl : J = 0 := Nat.le_zero.mp h; rfl
  | succ n ih =>
    rcases Nat.lt_or_eq_of_le h with h' | rfl
    · exact (if_neg (by omega) : outsUpTo m (n + 1) J = outsUpTo m n J).trans (ih (by omega))
    · rfl

theorem outsF_step (n J : ℕ) (hJ : J = n + 1) (h : n < 41) : outsF m J = step m (outsUpTo m n) J := by
  subst hJ; exact (outsUpTo_stable m 41 (n + 1) h).trans (if_pos rfl)

def AgreeTo (n : ℕ) (o o' : Outs (F := F)) : Prop := ∀ J, J ≤ n → o J = o' J

theorem AgreeTo.mono {n n' : ℕ} {o o' : Outs (F := F)} (h : AgreeTo n o o') (hn : n' ≤ n) : AgreeTo n' o o' := fun J hJ => h J (hJ.trans hn)

theorem agree (k n : ℕ) (hk : k ≤ n) (hn : n ≤ 41) : AgreeTo k (outsF m) (outsUpTo m n) := fun J hJ =>
  (outsUpTo_stable m 41 J ((hJ.trans hk).trans hn)).trans (outsUpTo_stable m n J (hJ.trans hk)).symm

theorem V15_congr (o o' : Outs (F := F)) (h : AgreeTo 13 o o') : V15 m o = V15 m o' := by
  funext c; unfold V15 V14 V13; rw [h 13 le_rfl]
theorem V17_congr (o o' : Outs (F := F)) (h : AgreeTo 16 o o') : V17 m o = V17 m o' := by
  funext c; unfold V17 V16; rw [V15_congr m o o' (h.mono (by decide)), h 16 le_rfl]
theorem V20_congr (o o' : Outs (F := F)) (h : AgreeTo 18 o o') : V20 m o = V20 m o' := by
  funext c; unfold V20 V19 V18; rw [V17_congr m o o' (h.mono (by decide)), h 18 le_rfl]
theorem V23_congr (o o' : Outs (F := F)) (h : AgreeTo 21 o o') : V23 m o = V23 m o' := by
  funext c; unfold V23 V22 V21; rw [V20_congr m o o' (h.mono (by decide)), h 21 le_rfl]
theorem V25_congr (o o' : Outs (F := F)) (h : AgreeTo 24 o o') : V25 m o = V25 m o' := by
  funext c; unfold V25 V24; rw [V23_congr m o o' (h.mono (by decide)), h 24 le_rfl]
theorem V27_congr (o o' : Outs (F := F)) (h : AgreeTo 26 o o') : V27 m o = V27 m o' := by
  funext c; unfold V27 V26; rw [V25_congr m o o' (h.mono (by decide)), h 26 le_rfl]
theorem V30_congr (o o' : Outs (F := F)) (h : AgreeTo 28 o o') : V30 m o = V30 m o' := by
  funext c; unfold V30 V29 V28; rw [V27_congr m o o' (h.mono (by decide)), h 28 le_rfl]
theorem V32_congr (o o' : Outs (F := F)) (h : AgreeTo 31 o o') : V32 m o = V32 m o' := by
  funext c; unfold V32 V31; rw [V30_congr m o o' (h.mono (by decide)), h 31 le_rfl]
theorem V35_congr (o o' : Outs (F := F)) (h : AgreeTo 33 o o') : V35 m o = V35 m o' := by
  funext c; unfold V35 V34 V33; rw [V32_congr m o o' (h.mono (by decide)), h 33 le_rfl]
theorem V38_congr (o o' : Outs (F := F)) (h : AgreeTo 36 o o') : V38 m o = V38 m o' := by
  funext c; unfold V38 V37 V36; rw [V35_congr m o o' (h.mono (by decide)), h 36 le_rfl]
theorem V40_congr (o o' : Outs (F := F)) (h : AgreeTo 39 o o') : V40 m o = V40 m o' := by
  funext c; unfold V40 V39; rw [V38_congr m o o' (h.mono (by decide)), h 39 le_rfl]
theorem outsF_13 (c : Dev nD) : outsF m 13 main_v6 c = (dat0 (rd (V12 m)) c).arrAt 2 cfg0.N := by
  rw [outsF_step m 12 13 rfl (by decide)]
  unfold step; rw [if_pos rfl]; exact put_self m _ _ c
theorem outsF_16 (c : Dev nD) : outsF m 16 main_v8 c = (dat1 (rd (V15 m (outsF m))) c).arrAt 3 cfg1.N := by
  rw [outsF_step m 15 16 rfl (by decide), V15_congr m _ _ (agree m 13 15 (by decide) (by decide))]
  unfold step; rw [if_neg (by decide), if_pos rfl]; exact put_self m _ _ c
theorem outsF_18 (c : Dev nD) : outsF m 18 main_v10 c = (dat2 (rd (V17 m (outsF m))) c).arrAt 3 cfg2.N := by
  rw [outsF_step m 17 18 rfl (by decide), V17_congr m _ _ (agree m 16 17 (by decide) (by decide))]
  unfold step; rw [if_neg (by decide), if_neg (by decide), if_pos rfl]; exact put_self m _ _ c
theorem outsF_21 (c : Dev nD) : outsF m 21 main_v13 c = (dat3 (rd (V20 m (outsF m))) c).arrAt 2 cfg3.N := by
  rw [outsF_step m 20 21 rfl (by decide), V20_congr m _ _ (agree m 18 20 (by decide) (by decide))]
  unfold step; rw [if_neg (by decide), if_neg (by decide), if_neg (by decide), if_pos rfl]; exact put_self m _ _ c
theorem outsF_24 (c : Dev nD) : outsF m 24 main_v15 c = (dat4 (rd (V23 m (outsF m))) c).arrAt 3 cfg4.N := by
  rw [outsF_step m 23 24 rfl (by decide), V23_congr m _ _ (agree m 21 23 (by decide) (by decide))]
  unfold step; rw [if_neg (by decide), if_neg (by decide), if_neg (by decide), if_neg (by decide), if_pos rfl]; exact put_self m _ _ c
theorem outsF_26 (c : Dev nD) : outsF m 26 main_v17 c = (dat5 (rd (V25 m (outsF m))) c).arrAt 3 cfg5.N := by
  rw [outsF_step m 25 26 rfl (by decide), V25_congr m _ _ (agree m 24 25 (by decide) (by decide))]
  unfold step; rw [if_neg (by decide), if_neg (by decide), if_neg (by decide), if_neg (by decide), if_neg (by decide), if_pos rfl]; exact put_self m _ _ c
theorem outsF_28 (c : Dev nD) : outsF m 28 main_v19 c = (dat6 (rd (V27 m (outsF m))) c).arrAt 2 cfg6.N := by
  rw [outsF_step m 27 28 rfl (by decide), V27_congr m _ _ (agree m 26 27 (by decide) (by decide))]
  unfold step; rw [if_neg (by decide), if_neg (by decide), if_neg (by decide), if_neg (by decide), if_neg (by decide), if_neg (by decide), if_pos rfl]; exact put_self m _ _ c
theorem outsF_31 (c : Dev nD) : outsF m 31 main_v21 c = (dat7 (rd (V30 m (outsF m))) c).arrAt 3 cfg7.N := by
  rw [outsF_step m 30 31 rfl (by decide), V30_congr m _ _ (agree m 28 30 (by decide) (by decide))]
  unfold step; rw [if_neg (by decide), if_neg (by decide), if_neg (by decide), if_neg (by decide), if_neg (by decide), if_neg (by decide), if_neg (by decide), if_pos rfl]; exact put_self m _ _ c
theorem outsF_33 (c : Dev nD) : outsF m 33 main_v23 c = (dat8 (rd (V32 m (outsF m))) c).arrAt 3 cfg8.N := by
  rw [outsF_step m 32 33 rfl (by decide), V32_congr m _ _ (agree m 31 32 (by decide) (by decide))]
  unfold step; rw [if_neg (by decide), if_neg (by decide), if_neg (by decide), if_neg (by decide), if_neg (by decide), if_neg (by decide), if_neg (by decide), if_neg (by decide), if_pos rfl]; exact put_self m _ _ c
theorem outsF_36 (c : Dev nD) : outsF m 36 main_v26 c = (dat9 (rd (V35 m (outsF m))) c).arrAt 2 cfg9.N := by
  rw [outsF_step m 35 36 rfl (by decide), V35_congr m _ _ (agree m 33 35 (by decide) (by decide))]
  unfold step; rw [if_neg (by decide), if_neg (by decide), if_neg (by decide), if_neg (by decide), if_neg (by decide), if_neg (by decide), if_neg (by decide), if_neg (by decide), if_neg (by decide), if_pos rfl]; exact put_self m _ _ c
theorem outsF_39 (c : Dev nD) : outsF m 39 main_v28 c = (dat10 (rd (V38 m (outsF m))) c).arrAt 3 cfg10.N := by
  rw [outsF_step m 38 39 rfl (by decide), V38_congr m _ _ (agree m 36 38 (by decide) (by decide))]
  unfold step; rw [if_neg (by decide), if_neg (by decide), if_neg (by decide), if_neg (by decide), if_neg (by decide), if_neg (by decide), if_neg (by decide), if_neg (by decide), if_neg (by decide), if_neg (by decide), if_pos rfl]; exact put_self m _ _ c
theorem outsF_41 (c : Dev nD) : outsF m 41 main_v30 c = (dat11 (rd (V40 m (outsF m))) c).arrAt 3 cfg11.N := by
  rw [outsF_step m 40 41 rfl (by decide), V40_congr m _ _ (agree m 39 40 (by decide) (by decide))]
  unfold step; rw [if_neg (by decide), if_neg (by decide), if_neg (by decide), if_neg (by decide), if_neg (by decide), if_neg (by decide), if_neg (by decide), if_neg (by decide), if_neg (by decide), if_neg (by decide), if_neg (by decide), if_pos rfl]; exact put_self m _ _ c

end Cert.Kernel.Hand

end
-- ==== Proof.K.Run.lean ====
import proofs.«410823_j40836549050565_1_alg».proof.Proof.Gen.Kernel.Launch
import proofs.«410823_j40836549050565_1_alg».proof.Proof.Gen.Kernel.Skeleton
import proofs.«410823_j40836549050565_1_alg».proof.Proof.Gen.Kernel.Points
import proofs.«410823_j40836549050565_1_alg».proof.Proof.K.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

def pdats : (p : Fin 12) → (c : Dev nD) → Dat τ (Elt F) Unit ℕ (UR sig nD τ) ℕ (cfgs p) c
  | ⟨0, _⟩ => fun c => dat0 (rd (V12 m)) c
  | ⟨1, _⟩ => fun c => dat1 (rd (V15 m (outsF m))) c
  | ⟨2, _⟩ => fun c => dat2 (rd (V17 m (outsF m))) c
  | ⟨3, _⟩ => fun c => dat3 (rd (V20 m (outsF m))) c
  | ⟨4, _⟩ => fun c => dat4 (rd (V23 m (outsF m))) c
  | ⟨5, _⟩ => fun c => dat5 (rd (V25 m (outsF m))) c
  | ⟨6, _⟩ => fun c => dat6 (rd (V27 m (outsF m))) c
  | ⟨7, _⟩ => fun c => dat7 (rd (V30 m (outsF m))) c
  | ⟨8, _⟩ => fun c => dat8 (rd (V32 m (outsF m))) c
  | ⟨9, _⟩ => fun c => dat9 (rd (V35 m (outsF m))) c
  | ⟨10, _⟩ => fun c => dat10 (rd (V38 m (outsF m))) c
  | ⟨11, _⟩ => fun c => dat11 (rd (V40 m (outsF m))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option maxHeartbeats 2000000

variable {p : Fin 12}

/-- Each array after the last point is read off the contents after the region: an input is never written and its buffer is kept; the output's is given. -/
theorem arrAt_end (lf : Pipeline.LaunchFacts (nD := nD) (τ := τ) cfgs p) {Vb Va : Dev nD → Valuation τ sig (Elt F)} (j : Fin (cfgs p).W) (c : Dev nD)
    (hA : ∀ w, (pdats m p c).A w = rd Vb c (Pipeline.arrRef (cfgs p).spec w))
    (hio : ∀ w, w ≠ j → ((cfgs p).win w).isOut = false)
    (hV : ∀ b : Ref sig .tc, b ∉ [Pipeline.arrRef (cfgs p).spec j] → Va c b = Vb c b)
    (hx : (pdats m p c).arrAt j (cfgs p).N = Va c (Pipeline.arrRef (cfgs p).spec j)) (w : Fin (cfgs p).W) :
    (pdats m p c).arrAt w (cfgs p).N = rd Va c (Pipeline.arrRef (cfgs p).spec w) := by
  by_cases hw : w = j
  · subst hw; exact hx
  · exact (((pdats m p c).arrAt_in w (hio w hw) _).trans (hA w)).trans (hV _ fun h => hw (lf.win.arr_inj (List.mem_singleton.mp h))).symm

/-- An invariant that is exactly what the region is entered with is entered from it and gives it back. -/
theorem ΦA_in {gr W : ℕ} (win : Fin W → Pipeline.WinSpec sig gr) (c : Dev nD) :
    (iprop((∃ r, prngReg c r) ∗ Pipeline.scopedRest (Ix := Unit) (Name := ℕ) (U := UR sig nD τ) (Lvl := ℕ) (Val := Elt F) win c) : sProp 𝕄) ⊢ Pipeline.ΦA win c := by
  unfold Pipeline.ΦA
  iintro ⟨Hp, Hr⟩
  isplitl [Hr]; · iexact Hr
  iexact Hp
theorem ΦA_out {gr W : ℕ} (win : Fin W → Pipeline.WinSpec sig gr) (c : Dev nD) :
    (Pipeline.ΦA win c : sProp 𝕄) ⊢ iprop((∃ r, prngReg c r) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  iexact Hr

/-- With nothing owed at any point, what a core owes at a point is nothing. -/
theorem owesAt_of {cfg : Cfg sig Λ₀} {c : Dev nD} (dat : Dat τ (Elt F) Unit ℕ (UR sig nD τ) ℕ cfg c) (t : Fin (cfg.N + 1)) (h0 : dat.owed t = 0) (hrec : ∀ x, x ∈ dat.recorded t) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr; · ipureintro; exact fun x _ => Or.inl (hrec x)
  iexact HO
theorem owes_of_owesAt {cfg : Cfg sig Λ₀} {c : Dev nD} (dat : Dat τ (Elt F) Unit ℕ (UR sig nD τ) ℕ cfg c) (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-- A table entry equal to `y` makes `y` the updated contents' value at the updated buffer. -/
theorem upd_at (V : Valuation τ sig (Elt F)) (o : Ref sig .tc) {x y : (Proc.devRef .tc o : DevRef τ sig).ty.Contents (Elt F)} (h : x = y) :
    y = Function.update V (Proc.devRef .tc o) x (Proc.devRef .tc o) :=
  h.symm.trans (Function.update_self (Proc.devRef .tc o : DevRef τ sig) x V).symm

theorem R_owes (c : Dev nD) : (R (F := F) c) ⊢ (iprop(∃ W, owes (c : Thread nD τ) (0 : CellTallies nD τ sig Unit) W) : sProp 𝕄) := by
  iintro ⟨-, H⟩; iexact H

set_option backward.isDefEq.respectTransparency.types false

/-- A region that owes nothing and writes the array of window `j` alone takes the buffers from `Vb` to `Va`, which differ there only. -/
def regOf (p : Fin 12) (lf : Pipeline.LaunchFacts (nD := nD) (τ := τ) cfgs p) (Vb Va : Dev nD → Valuation τ sig (Elt F)) (j : Fin (cfgs p).W)
    (hbody : ∀ c, BodyObligation (pdats m p c) (defs₀ (F := F)) 𝒱₀ () Set.univ)
    (hq : ∀ c w, (pdats m p c).q w = fullShare) (howed : ∀ c t, (pdats m p c).owed t = 0) (hrec : ∀ c t x, x ∈ (pdats m p c).recorded t)
    (hA : ∀ c w, (pdats m p c).A w = rd Vb c (Pipeline.arrRef (cfgs p).spec w))
    (hΦ₀ : ∀ c, (iprop((∃ r, prngReg c r) ∗ Pipeline.scopedRest (Ix := Unit) (Name := ℕ) (U := UR sig nD τ) (Lvl := ℕ) (Val := Elt F) (cfgs p).spec c) : sProp 𝕄) ⊢ (pdats m p c).Φ 0)
    (hΦₙ : ∀ c, (pdats m p c).Φ (Fin.last (cfgs p).N) ⊢ (iprop((∃ r, prngReg c r) ∗ Pipeline.scopedRest (Ix := Unit) (Name := ℕ) (U := UR sig nD τ) (Lvl := ℕ) (Val := Elt F) (cfgs p).spec c) : sProp 𝕄))
    (hio : ∀ w, w ≠ j → ((cfgs p).win w).isOut = false)
    (hV : ∀ c (b : Ref sig .tc), b ∉ [Pipeline.arrRef (cfgs p).spec j] → Va c b = Vb c b)
    (hx : ∀ c, (pdats m p c).arrAt j (cfgs p).N = Va c (Pipeline.arrRef (cfgs p).spec j)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vb c) ∗ R c)
  post c := iprop(StableHlo.held (c : Thread nD τ) (Pipeline.ucRefs τ sig) (Va c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Vb c)
  hentry c := by
    rw [Pipeline.ownSems0_none]
    have hsplit := Pipeline.arrays_of_unscopedBufs (p := p) (pcfgs (F := F)) adm (pdats m) lf.win lf.arr_whole c
      ((pdats m p c).share_full (hq c)) (rd Vb c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of (pdats m p c) 0 (howed c 0) (hrec c 0)); iexact HO
    isplitl [Hp]; · iexact Hp
    iexact Hrest
  hin c := by
    iintro ⟨Hp, -, Hr⟩
    iapply (hΦ₀ c)
    isplitl [Hp]; · iexact Hp
    iexact Hr
  hout c := by
    rw [Pipeline.ownSems0_none]
    iintro H
    ihave H' := (hΦₙ c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Vb c) (rd Va c) ((pdats m p c).arrAt · (cfgs p).N) (arrAt_end m lf j c (hA c) hio (hV c) (hx c))
      fun b hb => hV c b fun h => hb (Finset.mem_image.mpr ⟨j, Finset.mem_univ _, (List.mem_singleton.mp h).symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m p c) (Fin.last _) (howed c _)); iexact HO

def reg0 := regOf m 0 launch0 (V12 m) (V13 m (outsF m)) (2 : Fin 3) (body_obligation0 _) (fun _ _ => rfl) (fun _ _ => rfl) (fun _ _ _ => trivial)
  (A_eq0 _) (ΦA_in _) (ΦA_out _) (by decide) (V13_of m _) fun c => upd_at (V12 m c) main_v6 (outsF_13 m c)
def reg1 := regOf m 1 launch1 (V15 m (outsF m)) (V16 m (outsF m)) (3 : Fin 4) (body_obligation1 _) (fun _ _ => rfl) (fun _ _ => rfl) (fun _ _ _ => trivial)
  (A_eq1 _) (Φ1_in _) (Φ1_out _) (by decide) (V16_of m _) fun c => upd_at (V15 m (outsF m) c) main_v8 (outsF_16 m c)
def reg2 := regOf m 2 launch2 (V17 m (outsF m)) (V18 m (outsF m)) (3 : Fin 4) (body_obligation2 _) (fun _ _ => rfl) (fun _ _ => rfl) (fun _ _ _ => trivial)
  (A_eq2 _) (Φ2_in _) (Φ2_out _) (by decide) (V18_of m _) fun c => upd_at (V17 m (outsF m) c) main_v10 (outsF_18 m c)
def reg3 := regOf m 3 launch3 (V20 m (outsF m)) (V21 m (outsF m)) (2 : Fin 3) (body_obligation3 _) (fun _ _ => rfl) (fun _ _ => rfl) (fun _ _ _ => trivial)
  (A_eq3 _) (ΦA_in _) (ΦA_out _) (by decide) (V21_of m _) fun c => upd_at (V20 m (outsF m) c) main_v13 (outsF_21 m c)
def reg4 := regOf m 4 launch4 (V23 m (outsF m)) (V24 m (outsF m)) (3 : Fin 4) (body_obligation4 _) (fun _ _ => rfl) (fun _ _ => rfl) (fun _ _ _ => trivial)
  (A_eq4 _) (Φ4_in _) (Φ4_out _) (by decide) (V24_of m _) fun c => upd_at (V23 m (outsF m) c) main_v15 (outsF_24 m c)
def reg5 := regOf m 5 launch5 (V25 m (outsF m)) (V26 m (outsF m)) (3 : Fin 4) (body_obligation5 _) (fun _ _ => rfl) (fun _ _ => rfl) (fun _ _ _ => trivial)
  (A_eq5 _) (Φ5_in _) (Φ5_out _) (by decide) (V26_of m _) fun c => upd_at (V25 m (outsF m) c) main_v17 (outsF_26 m c)
def reg6 := regOf m 6 launch6 (V27 m (outsF m)) (V28 m (outsF m)) (2 : Fin 3) (body_obligation6 _) (fun _ _ => rfl) (fun _ _ => rfl) (fun _ _ _ => trivial)
  (A_eq6 _) (ΦA_in _) (ΦA_out _) (by decide) (V28_of m _) fun c => upd_at (V27 m (outsF m) c) main_v19 (outsF_28 m c)
def reg7 := regOf m 7 launch7 (V30 m (outsF m)) (V31 m (outsF m)) (3 : Fin 4) (body_obligation7 _) (fun _ _ => rfl) (fun _ _ => rfl) (fun _ _ _ => trivial)
  (A_eq7 _) (Φ7_in _) (Φ7_out _) (by decide) (V31_of m _) fun c => upd_at (V30 m (outsF m) c) main_v21 (outsF_31 m c)
def reg8 := regOf m 8 launch8 (V32 m (outsF m)) (V33 m (outsF m)) (3 : Fin 4) (body_obligation8 _) (fun _ _ => rfl) (fun _ _ => rfl) (fun _ _ _ => trivial)
  (A_eq8 _) (Φ8_in _) (Φ8_out _) (by decide) (V33_of m _) fun c => upd_at (V32 m (outsF m) c) main_v23 (outsF_33 m c)
def reg9 := regOf m 9 launch9 (V35 m (outsF m)) (V36 m (outsF m)) (2 : Fin 3) (body_obligation9 _) (fun _ _ => rfl) (fun _ _ => rfl) (fun _ _ _ => trivial)
  (A_eq9 _) (ΦA_in _) (ΦA_out _) (by decide) (V36_of m _) fun c => upd_at (V35 m (outsF m) c) main_v26 (outsF_36 m c)
def reg10 := regOf m 10 launch10 (V38 m (outsF m)) (V39 m (outsF m)) (3 : Fin 4) (body_obligation10 _) (fun _ _ => rfl) (fun _ _ => rfl) (fun _ _ _ => trivial)
  (A_eq10 _) (Φ10_in _) (Φ10_out _) (by decide) (V39_of m _) fun c => upd_at (V38 m (outsF m) c) main_v28 (outsF_39 m c)
def reg11 := regOf m 11 launch11 (V40 m (outsF m)) (V41 m (outsF m)) (3 : Fin 4) (body_obligation11 _) (fun _ _ => rfl) (fun _ _ => rfl) (fun _ _ _ => trivial)
  (A_eq11 _) (Φ11_in _) (Φ11_out _) (by decide) (V41_of m _) fun c => upd_at (V40 m (outsF m) c) main_v30 (outsF_41 m c)

theorem run_main (ρ : Dev nD → PrngReg) : θ_run defs (onTc (τ := τ) (main (F := F))) ⟨m, fun _ => 0, ρ⟩ (fun r => ∀ c : Dev nD,
      r.2.mem ((c.tc : Thread nD τ).loc main_v34) = V42 m (outsF m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm (pdats m) () cellOf_inj emb₁ defs₀ 𝒱₀ L lv m ρ main
    (segs m (outsF m) 𝒱₀ L lv (fun _ c => R c) () (pdats m) (reg0 m) (reg1 m) (reg2 m) (reg3 m) (reg4 m) (reg5 m) (reg6 m) (reg7 m) (reg8 m) (reg9 m) (reg10 m) (reg11 m))
    (fun c Q => by
      rewrite [main_chain c, Seg.run_eq_chain,
        show (segs m (outsF m) 𝒱₀ L lv (fun _ c => R c) () (pdats m) (reg0 m) (reg1 m) (reg2 m) (reg3 m) (reg4 m) (reg5 m) (reg6 m) (reg7 m) (reg8 m) (reg9 m) (reg10 m) (reg11 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          StableHlo.seq hostOps3_1,
          Prog.lift (.customCall (Pipeline.entry 3) ()),
          StableHlo.seq hostOps4,
          StableHlo.seq hostOps4_1,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          Prog.lift (.customCall (Pipeline.entry 7) ()),
          StableHlo.seq hostOps8,
          Prog.lift (.customCall (Pipeline.entry 8) ()),
          StableHlo.seq hostOps9,
          StableHlo.seq hostOps9_1,
          Prog.lift (.customCall (Pipeline.entry 9) ()),
          StableHlo.seq hostOps10,
          StableHlo.seq hostOps10_1,
          Prog.lift (.customCall (Pipeline.entry 10) ()),
          StableHlo.seq hostOps11,
          Prog.lift (.customCall (Pipeline.entry 11) ()),
          StableHlo.seq hostOps12 ] from rfl]
      with_reducible exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V42 m (outsF m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (R_owes c)⟩)
    (hinit := Pipeline.initEach L lv fun c => ?_) (QY := fun c s => s.mem ((c.tc : Thread nD τ).loc main_v34) = V42 m (outsF m) c main_v34 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15))
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨⟨Hub, -, HO, -, Hp, -⟩, -⟩
    imodintro
    isplitl [Hub]
    · iapply (Entails.of_eq (Pipeline.unscopedBufs_held (Ix := Unit) (Name := ℕ) (U := UR sig nD τ) (Lvl := ℕ) c (V0 m c)))
      iexact Hub
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V42 m (outsF m) c) s') $$ [Hh HSI]
    · isplitl [Hh] <;> iassumption
    icases Hr with ⟨%h, HSI⟩
    imodintro
    isplitr
    · ipureintro
      have g := fun (r : Ref sig .tc) (hr : ¬(Proc.devRef .tc r : DevRef τ sig).isScoped) => h _ (Finset.mem_filter.mpr ⟨StableHlo.devRef_mem_tcRefs r, hr⟩)
      exact ⟨g main_v34 (by decide), (g main_arg0 (by decide)).trans (V42_main_arg0 m _ c),
        (g main_arg1 (by decide)).trans (V42_main_arg1 m _ c),
        (g main_arg2 (by decide)).trans (V42_main_arg2 m _ c),
        (g main_arg3 (by decide)).trans (V42_main_arg3 m _ c),
        (g main_arg4 (by decide)).trans (V42_main_arg4 m _ c),
        (g main_arg5 (by decide)).trans (V42_main_arg5 m _ c),
        (g main_arg6 (by decide)).trans (V42_main_arg6 m _ c),
        (g main_arg7 (by decide)).trans (V42_main_arg7 m _ c),
        (g main_arg8 (by decide)).trans (V42_main_arg8 m _ c),
        (g main_arg9 (by decide)).trans (V42_main_arg9 m _ c),
        (g main_arg10 (by decide)).trans (V42_main_arg10 m _ c),
        (g main_arg11 (by decide)).trans (V42_main_arg11 m _ c),
        (g main_arg12 (by decide)).trans (V42_main_arg12 m _ c),
        (g main_arg13 (by decide)).trans (V42_main_arg13 m _ c),
        (g main_arg14 (by decide)).trans (V42_main_arg14 m _ c),
        (g main_arg15 (by decide)).trans (V42_main_arg15 m _ c)⟩
    · iexact HSI

end Cert.Kernel.Hand

end
-- ==== Proof.KI.Reg0.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.LibWhole
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.KernelIdeal.Hand

open Cert.KernelIdeal Cert.KernelIdeal.Gen Cert.Lib.Whole
open Idealize.ShloMosaic Idealize.ShloMosaic.TcCoe Idealize.ShloMosaic.Tactic
open Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

local notation "𝕄" => MT nD τ sig Unit (Elt F) ℕ (UR sig nD τ) ℕ

-- A store through the whole rectangle covers the buffer, and a load through it reads the contents.
theorem sound_kernel0 (c : Dev nD) (E : Set ℕ) (i) (arg1) (harg1) (arg2) (harg2) (arg3) (harg3) (x0) (x1) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole S5000x128 zeros2, readAt_whole S5000x128 zeros2, readAt_whole S128x128 zeros2]

section Region
variable (V : (c : Dev nD) → (b : Ref sig .tc) → Buf (Elt F) ((c : Thread nD τ).loc b))

-- Block `t` of window `w`'s array at the region's entry.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xBlk0 (c : Dev nD) (t : Fin cfg0.N) : Vec F S5000x128 .f32 := iblk0 V c 0 t
abbrev wBlk0 (c : Dev nD) (t : Fin cfg0.N) : Vec F S128x128 .f32 := iblk0 V c 1 t

-- After the body: the inputs' blocks as they were, the output's the product payload of the two.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (xBlk0 V c t) (wBlk0 V c t)
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = k0_pay1 (xBlk0 V c t) (wBlk0 V c t) := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  sl_whnfR [defs₀, Defs.onTc]
  simp only [before0_0, before0_1]
  rw [show (dat0 V c).Φ t.succ = (dat0 V c).Φ t.castSucc from rfl,
    show (dat0 V c).owesAt () t.succ = (dat0 V c).owesAt () t.castSucc from rfl, after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]
  · iexists _; iexact H2
  iintro ⟨H0, H1, H2⟩
  iframe

end Region

end Cert.KernelIdeal.Hand

end
-- ==== Proof.KI.Body1.lean ====
import proofs.«410823_j40836549050565_1_alg».proof.Proof.Gen.KernelIdeal.Launch
import proofs.«410823_j40836549050565_1_alg».proof.Proof.Gen.KernelIdeal.Skeleton
import proofs.«410823_j40836549050565_1_alg».proof.Proof.LibWhole
import Idealize.ShloMosaic.Lib.Pipeline.TableIdle

noncomputable section

namespace Cert.KernelIdeal.Hand

open Cert.KernelIdeal.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c1_first (i : grid1.Coords) : BitVec 1 :=
  Scalar.cmpi .ne (Scalar.extui (Scalar.cmpi .eq (BitVec.ofNat 32 (i 1).val) 0#32)) 0#32

def acc1 (i : grid1.Coords) (x0 : Vec F S2048 .i32) (x2 : Vec F S2048x128 .bf16) (a : Vec F S2048x128 .f32) : Vec F S2048x128 .f32 :=
  k1_pay2 i x0 (if c1_first i = 1#1 then k1_pay1 else a) x2

def out1 (i : grid1.Coords) (x0 : Vec F S2048 .i32) (x1 : Vec F S2048 .f32) (x2 : Vec F S2048x128 .bf16) (a : Vec F S2048x128 .f32)
    (d : Vec F S2048x128 .bf16) : Vec F S2048x128 .bf16 :=
  if k1_cond2 i = 1#1 then k1_pay3 (acc1 i x0 x2 a) x1 else d

/-- Whichever way the two scalar tests fall, every store fills its memref, so the memref then reads the last payload stored. -/
theorem sound_kernel1 (c : Dev nD) (E : Set ℕ) (i : grid1.Coords)
    (arg2 : Memref sig .tc .vmem S2048 .i32) (harg2 : arg2.IsWhole) (arg3 : Memref sig .tc .vmem S2048 .f32) (harg3 : arg3.IsWhole)
    (arg4 : Memref sig .tc .vmem S2048x128 .bf16) (harg4 : arg4.IsWhole) (arg5 : Memref sig .tc .vmem S2048x128 .bf16) (harg5 : arg5.IsWhole)
    (arg6 : Memref sig .tc .vmem S2048x128 .f32) (harg6 : arg6.IsWhole)
    (x0 : Vec F S2048 .i32) (x1 : Vec F S2048 .f32) (x2 : Vec F S2048x128 .bf16) (d : Vec F S2048x128 .bf16) (a : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out1 i x0 x1 x2 a d) ∗ owns (c : Thread nD τ) arg6 fullShare (acc1 i x0 x2 a)) -∗ K ⟨⟩))
      ⊢ wp frame (wpE (defs₀ (F := F)) Variants.none c none) E (cc1__gather_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc1__gather_kernel_eq_skeleton]
  unfold cc1__gather_kernel_skel
  iintro ⟨H0, H1, H2, H3, H4, Hk⟩
  by_cases h1 : c1_first i = 1#1 <;> by_cases h2 : k1_cond2 i = 1#1 <;>
  · sl_exec (disch := first | exact h1 | exact h2)
    sl_step
    iapply Hk; iframe H0 H1 H2
    unfold owns out1 acc1
    isplitl [H3] <;>
    · iexists _; isplitr; swap; · iassumption
      ipureintro; sl_unfold_run_names
      simp only [read_writes_whole S2048x128 zeros2, View.readCov_cons_toLoadRect, readAt_whole S2048 zeros1,
        readAt_whole S2048x128 zeros2, View.read_rep, h1, h2, if_true, if_false]

end Cert.KernelIdeal.Hand

end
-- ==== Proof.KI.Reg1.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.KI.Body1
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev srcBlk1 (c : Dev nD) (t : Fin cfg1.N) : Vec F S2048 .i32 := iblk1 V c 0 t
abbrev valBlk1 (c : Dev nD) (t : Fin cfg1.N) : Vec F S2048 .f32 := iblk1 V c 1 t
abbrev tabBlk1 (c : Dev nD) (t : Fin cfg1.N) : Vec F S2048x128 .bf16 := iblk1 V c 2 t

def pt1 (n : ℕ) : Fin cfg1.N := ⟨n % cfg1.N, Nat.mod_lt _ (by decide)⟩

def accAt1 (c : Dev nD) : ℕ → Vec F S2048x128 .f32
  | 0 => acc1 (grid1.coords (pt1 0)) (srcBlk1 V c (pt1 0)) (tabBlk1 V c (pt1 0)) k1_pay1
  | n + 1 => acc1 (grid1.coords (pt1 (n + 1))) (srcBlk1 V c (pt1 (n + 1))) (tabBlk1 V c (pt1 (n + 1))) (accAt1 c n)

def Φ1 (c : Dev nD) (k : Fin (cfg1.N + 1)) : sProp 𝕄 :=
  iprop((∃ f : Vec F S2048x128 .f32, owns (c : Thread nD τ) (Memref.whole cc1_scratch0) fullShare f ∗ ⌜k.val % 25 ≠ 0 → f = accAt1 V c (k.val - 1)⌝)
    ∗ Pipeline.scopedRestBut (Ix := Unit) (Name := ℕ) (U := UR sig nD τ) (Lvl := ℕ) (Val := Elt F) spec1 c [cc1_scratch0]
    ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val) (valBlk1 V c t)
  Φ k := Φ1 V c k
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = k1_pay3 (accAt1 V c t.val) (valBlk1 V c t) := by dsimp only [dat1]

theorem c1_first_iff : ∀ t : Fin cfg1.N, c1_first (grid1.coords t) = 1#1 ↔ t.val % 25 = 0 :=
  (by decide +kernel : ∀ t : Fin grid1.N, c1_first (grid1.coords t) = 1#1 ↔ t.val % 25 = 0)

theorem k1_cond2_iff : ∀ t : Fin cfg1.N, k1_cond2 (grid1.coords t) = 1#1 ↔ t.val % 25 = 24 :=
  (by decide +kernel : ∀ t : Fin grid1.N, k1_cond2 (grid1.coords t) = 1#1 ↔ t.val % 25 = 24)

-- Every input block the body reads at a point is that point's block of the input array.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def step1 (c : Dev nD) (t : Fin cfg1.N) (a : Vec F S2048x128 .f32) : Vec F S2048x128 .f32 :=
  acc1 (grid1.coords t) (srcBlk1 V c t) (tabBlk1 V c t) a

-- One update over the partial sum of the point before (over anything where a new sum starts) is this point's partial sum.
theorem step1_eq_accAt1 (c : Dev nD) (t : Fin cfg1.N) (f : Vec F S2048x128 .f32) (hf : t.val % 25 ≠ 0 → f = accAt1 V c (t.val - 1)) :
    step1 V c t f = accAt1 V c t.val :=
  Cert.Lib.step_eq_fold 25 (step1 V c) (accAt1 V c) k1_pay1 pt1 (fun t => Fin.ext (Nat.mod_eq_of_lt t.isLt)) rfl (fun _ => rfl)
    (fun t h a a' => by unfold step1 acc1; rw [if_pos ((c1_first_iff t).mpr h), if_pos ((c1_first_iff t).mpr h)]) t f hf

theorem Φ1_in (c : Dev nD) : iprop((∃ r, prngReg c r) ∗ Pipeline.scopedRest (Ix := Unit) (Name := ℕ) (U := UR sig nD τ) (Lvl := ℕ) (Val := Elt F) spec1 c) ⊢ Φ1 V c 0 := by
  rw [scopedRest1_split]; unfold Φ1
  simp only [owns_whole]
  iintro ⟨Hg, ⟨%f, HS⟩, HR⟩
  iframe HR Hg
  iexists f; iframe HS
  ipureintro; exact fun h => absurd (Nat.zero_mod 25) h

theorem Φ1_out (c : Dev nD) : Φ1 V c (Fin.last cfg1.N) ⊢ iprop((∃ r, prngReg c r) ∗ Pipeline.scopedRest (Ix := Unit) (Name := ℕ) (U := UR sig nD τ) (Lvl := ℕ) (Val := Elt F) spec1 c) := by
  rw [scopedRest1_split]; unfold Φ1
  simp only [owns_whole]
  iintro ⟨⟨%f, HS, %_⟩, HR, Hg⟩
  iframe HR Hg
  iexists f; iexact HS

-- The output block after the body is the one the proof data names: the scaled sum where a sum ends, the block as found elsewhere.
theorem leaves1_3 (c : Dev nD) (t : Fin cfg1.N) (f : Vec F S2048x128 .f32) (d) (hf : t.val % 25 ≠ 0 → f = accAt1 V c (t.val - 1)) :
    owns (c : Thread nD τ) (st1_3 t) fullShare (out1 (grid1.coords t) (srcBlk1 V c t) (valBlk1 V c t) (tabBlk1 V c t) f ((dat1 V c).before 3 t d))
      ⊢ ((dat1 V c).leavesExact 3 t : sProp 𝕄) := by
  have hacc := step1_eq_accAt1 V c t f hf
  unfold step1 at hacc
  unfold out1
  by_cases h : k1_cond2 (grid1.coords t) = 1#1
  · unfold Dat.leavesExact
    rw [show cfg1.idle 3 (cfg1.grid.coords t) = false from (by show (!(k1_cond2 (grid1.coords t) == 1#1)) = false; rw [h]; rfl), if_pos h, after1_3, hacc]
  · rw [Dat.leavesExact_idle (dat1 V c) 3 t (by show (!(k1_cond2 (grid1.coords t) == 1#1)) = true; rw [Bool.not_eq_true', beq_eq_false_iff_ne]; exact h)
      (Bool.eq_false_iff.mpr fun e => h ((k1_cond2_iff t).mpr ((flush1_3 t).mp e))), if_neg h]
    iintro H; iexists d; iexact H

-- The body at any point takes the partial sum of the point before and leaves this point's.
theorem body_obligation1 (c : Dev nD) : BodyObligation (dat1 (F := F) V c) (defs₀ (F := F)) Variants.none () Set.univ := fun t => by
  rw [bigSep_W1, bigSep_W1]
  sl_whnfR [defs₀, Defs.onTc]
  simp only [before1_0, before1_1, before1_2, show ∀ k, (dat1 V c).Φ k = Φ1 V c k from fun _ => rfl, Φ1]
  rw [show (dat1 V c).owesAt () t.succ = (dat1 V c).owesAt () t.castSucc from rfl, show (dat1 V c).after 0 t = iblk1 V c 0 t from rfl,
    show (dat1 V c).after 1 t = iblk1 V c 1 t from rfl, show (dat1 V c).after 2 t = iblk1 V c 2 t from rfl]
  iintro ⟨⟨⟨%f, HS, %hf⟩, HR, Hg⟩, Ho, ⟨%d0, H0⟩, ⟨%d1, H1⟩, ⟨%d2, H2⟩, ⟨%d3, H3⟩⟩
  iapply sound_kernel1 (F := F) c Set.univ (grid1.coords t) (st1_0 t) (hstage1_0 _) (st1_1 t) (hstage1_1 _)
    (st1_2 t) (hstage1_2 _) (st1_3 t) (hstage1_3 _) _ (Memref.isWhole_whole cc1_scratch0)
    (srcBlk1 V c t) (valBlk1 V c t) (tabBlk1 V c t) ((dat1 V c).before 3 t d3) f
  iframe H0 H1 H2 H3 HS
  iintro ⟨H0, H1, H2, H3, HS⟩
  iframe HR Hg Ho H0 H1 H2
  isplitl [HS]
  · iexists _; iframe HS
    ipureintro; exact fun _ => step1_eq_accAt1 V c t f hf
  · iapply leaves1_3 V c t f d3 hf; iexact H3

end Region

end Cert.KernelIdeal.Hand

end
-- ==== Proof.KI.Body2.lean ====
import proofs.«410823_j40836549050565_1_alg».proof.Proof.Gen.KernelIdeal.Launch
import proofs.«410823_j40836549050565_1_alg».proof.Proof.Gen.KernelIdeal.Skeleton
import proofs.«410823_j40836549050565_1_alg».proof.Proof.LibWhole
import Idealize.ShloMosaic.Lib.Pipeline.TableIdle

noncomputable section

namespace Cert.KernelIdeal.Hand

open Cert.KernelIdeal.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c2_first (i : grid2.Coords) : BitVec 1 :=
  Scalar.cmpi .ne (Scalar.extui (Scalar.cmpi .eq (BitVec.ofNat 32 (i 1).val) 0#32)) 0#32

def acc2 (i : grid2.Coords) (x0 : Vec F S2048 .i32) (x1 : Vec F S2048x128 .bf16) (a : Vec F S2048x128 .f32) : Vec F S2048x128 .f32 :=
  k2_pay2 i x0 (if c2_first i = 1#1 then k2_pay1 else a) x1

def out2 (i : grid2.Coords) (x0 : Vec F S2048 .i32) (x1 : Vec F S2048x128 .bf16) (x2 : Vec F S1x128 .f32) (a : Vec F S2048x128 .f32)
    (d : Vec F S2048x128 .f32) : Vec F S2048x128 .f32 :=
  if k2_cond2 i = 1#1 then k2_pay3 (acc2 i x0 x1 a) x2 else d

/-- Whichever way the two scalar tests fall, every store fills its memref, so the memref then reads the last payload stored. -/
theorem sound_kernel2 (c : Dev nD) (E : Set ℕ) (i : grid2.Coords)
    (arg2 : Memref sig .tc .vmem S2048 .i32) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048 .i32) (x1 : Vec F S2048x128 .bf16) (x2 : Vec F S1x128 .f32) (d a : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out2 i x0 x1 x2 a d) ∗ owns (c : Thread nD τ) arg6 fullShare (acc2 i x0 x1 a)) -∗ K ⟨⟩))
      ⊢ wp frame (wpE (defs₀ (F := F)) Variants.none c none) E (cc2__scatter_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc2__scatter_kernel_eq_skeleton]
  unfold cc2__scatter_kernel_skel
  iintro ⟨H0, H1, H2, H3, H4, Hk⟩
  by_cases h1 : c2_first i = 1#1 <;> by_cases h2 : k2_cond2 i = 1#1 <;>
  · sl_exec (disch := first | exact h1 | exact h2)
    sl_step
    iapply Hk; iframe H0 H1 H2
    unfold owns out2 acc2
    isplitl [H3] <;>
    · iexists _; isplitr; swap; · iassumption
      ipureintro; sl_unfold_run_names
      simp only [read_writes_whole S2048x128 zeros2, View.readCov_cons_toLoadRect, readAt_whole S2048 zeros1,
        readAt_whole S2048x128 zeros2, readAt_whole S1x128 zeros2, View.read_rep, h1, h2, if_true, if_false]

end Cert.KernelIdeal.Hand

end
-- ==== Proof.KI.Reg2.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.KI.Body2
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev idsBlk2 (c : Dev nD) (t : Fin cfg2.N) : Vec F S2048 .i32 := iblk2 V c 0 t
abbrev msgBlk2 (c : Dev nD) (t : Fin cfg2.N) : Vec F S2048x128 .bf16 := iblk2 V c 1 t
abbrev biasBlk2 (c : Dev nD) (t : Fin cfg2.N) : Vec F S1x128 .f32 := iblk2 V c 2 t

def pt2 (n : ℕ) : Fin cfg2.N := ⟨n % cfg2.N, Nat.mod_lt _ (by decide)⟩

def accAt2 (c : Dev nD) : ℕ → Vec F S2048x128 .f32
  | 0 => acc2 (grid2.coords (pt2 0)) (idsBlk2 V c (pt2 0)) (msgBlk2 V c (pt2 0)) k2_pay1
  | n + 1 => acc2 (grid2.coords (pt2 (n + 1))) (idsBlk2 V c (pt2 (n + 1))) (msgBlk2 V c (pt2 (n + 1))) (accAt2 c n)

def Φ2 (c : Dev nD) (k : Fin (cfg2.N + 1)) : sProp 𝕄 :=
  iprop((∃ f : Vec F S2048x128 .f32, owns (c : Thread nD τ) (Memref.whole cc2_scratch0) fullShare f ∗ ⌜k.val % 293 ≠ 0 → f = accAt2 V c (k.val - 1)⌝)
    ∗ Pipeline.scopedRestBut (Ix := Unit) (Name := ℕ) (U := UR sig nD τ) (Lvl := ℕ) (Val := Elt F) spec2 c [cc2_scratch0]
    ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val) (biasBlk2 V c t)
  Φ k := Φ2 V c k
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = k2_pay3 (accAt2 V c t.val) (biasBlk2 V c t) := by dsimp only [dat2]

theorem c2_first_iff : ∀ t : Fin cfg2.N, c2_first (grid2.coords t) = 1#1 ↔ t.val % 293 = 0 :=
  (by decide +kernel : ∀ t : Fin grid2.N, c2_first (grid2.coords t) = 1#1 ↔ t.val % 293 = 0)

theorem k2_cond2_iff : ∀ t : Fin cfg2.N, k2_cond2 (grid2.coords t) = 1#1 ↔ t.val % 293 = 292 :=
  (by decide +kernel : ∀ t : Fin grid2.N, k2_cond2 (grid2.coords t) = 1#1 ↔ t.val % 293 = 292)

-- Every input block the body reads at a point is that point's block of the input array.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def step2 (c : Dev nD) (t : Fin cfg2.N) (a : Vec F S2048x128 .f32) : Vec F S2048x128 .f32 :=
  acc2 (grid2.coords t) (idsBlk2 V c t) (msgBlk2 V c t) a

-- One update over the partial sum of the point before (over anything where a new sum starts) is this point's partial sum.
theorem step2_eq_accAt2 (c : Dev nD) (t : Fin cfg2.N) (f : Vec F S2048x128 .f32) (hf : t.val % 293 ≠ 0 → f = accAt2 V c (t.val - 1)) :
    step2 V c t f = accAt2 V c t.val :=
  Cert.Lib.step_eq_fold 293 (step2 V c) (accAt2 V c) k2_pay1 pt2 (fun t => Fin.ext (Nat.mod_eq_of_lt t.isLt)) rfl (fun _ => rfl)
    (fun t h a a' => by unfold step2 acc2; rw [if_pos ((c2_first_iff t).mpr h), if_pos ((c2_first_iff t).mpr h)]) t f hf

theorem Φ2_in (c : Dev nD) : iprop((∃ r, prngReg c r) ∗ Pipeline.scopedRest (Ix := Unit) (Name := ℕ) (U := UR sig nD τ) (Lvl := ℕ) (Val := Elt F) spec2 c) ⊢ Φ2 V c 0 := by
  rw [scopedRest2_split]; unfold Φ2
  simp only [owns_whole]
  iintro ⟨Hg, ⟨%f, HS⟩, HR⟩
  iframe HR Hg
  iexists f; iframe HS
  ipureintro; exact fun h => absurd (Nat.zero_mod 293) h

theorem Φ2_out (c : Dev nD) : Φ2 V c (Fin.last cfg2.N) ⊢ iprop((∃ r, prngReg c r) ∗ Pipeline.scopedRest (Ix := Unit) (Name := ℕ) (U := UR sig nD τ) (Lvl := ℕ) (Val := Elt F) spec2 c) := by
  rw [scopedRest2_split]; unfold Φ2
  simp only [owns_whole]
  iintro ⟨⟨%f, HS, %_⟩, HR, Hg⟩
  iframe HR Hg
  iexists f; iexact HS

-- The output block after the body is the one the proof data names: the sum plus the bias row where a sum ends, the block as found elsewhere.
theorem leaves2_3 (c : Dev nD) (t : Fin cfg2.N) (f : Vec F S2048x128 .f32) (d) (hf : t.val % 293 ≠ 0 → f = accAt2 V c (t.val - 1)) :
    owns (c : Thread nD τ) (st2_3 t) fullShare (out2 (grid2.coords t) (idsBlk2 V c t) (msgBlk2 V c t) (biasBlk2 V c t) f ((dat2 V c).before 3 t d))
      ⊢ ((dat2 V c).leavesExact 3 t : sProp 𝕄) := by
  have hacc := step2_eq_accAt2 V c t f hf
  unfold step2 at hacc
  unfold out2
  by_cases h : k2_cond2 (grid2.coords t) = 1#1
  · unfold Dat.leavesExact
    rw [show cfg2.idle 3 (cfg2.grid.coords t) = false from (by show (!(k2_cond2 (grid2.coords t) == 1#1)) = false; rw [h]; rfl), if_pos h, after2_3, hacc]
  · rw [Dat.leavesExact_idle (dat2 V c) 3 t (by show (!(k2_cond2 (grid2.coords t) == 1#1)) = true; rw [Bool.not_eq_true', beq_eq_false_iff_ne]; exact h)
      (Bool.eq_false_iff.mpr fun e => h ((k2_cond2_iff t).mpr ((flush2_3 t).mp e))), if_neg h]
    iintro H; iexists d; iexact H

-- The body at any point takes the partial sum of the point before and leaves this point's.
theorem body_obligation2 (c : Dev nD) : BodyObligation (dat2 (F := F) V c) (defs₀ (F := F)) Variants.none () Set.univ := fun t => by
  rw [bigSep_W2, bigSep_W2]
  sl_whnfR [defs₀, Defs.onTc]
  simp only [before2_0, before2_1, before2_2, show ∀ k, (dat2 V c).Φ k = Φ2 V c k from fun _ => rfl, Φ2]
  rw [show (dat2 V c).owesAt () t.succ = (dat2 V c).owesAt () t.castSucc from rfl, show (dat2 V c).after 0 t = iblk2 V c 0 t from rfl,
    show (dat2 V c).after 1 t = iblk2 V c 1 t from rfl, show (dat2 V c).after 2 t = iblk2 V c 2 t from rfl]
  iintro ⟨⟨⟨%f, HS, %hf⟩, HR, Hg⟩, Ho, ⟨%d0, H0⟩, ⟨%d1, H1⟩, ⟨%d2, H2⟩, ⟨%d3, H3⟩⟩
  iapply sound_kernel2 (F := F) c Set.univ (grid2.coords t) (st2_0 t) (hstage2_0 _) (st2_1 t) (hstage2_1 _)
    (st2_2 t) (hstage2_2 _) (st2_3 t) (hstage2_3 _) _ (Memref.isWhole_whole cc2_scratch0)
    (idsBlk2 V c t) (msgBlk2 V c t) (biasBlk2 V c t) ((dat2 V c).before 3 t d3) f
  iframe H0 H1 H2 H3 HS
  iintro ⟨H0, H1, H2, H3, HS⟩
  iframe HR Hg Ho H0 H1 H2
  isplitl [HS]
  · iexists _; iframe HS
    ipureintro; exact fun _ => step2_eq_accAt2 V c t f hf
  · iapply leaves2_3 V c t f d3 hf; iexact H3

end Region

end Cert.KernelIdeal.Hand

end
-- ==== Proof.KI.Reg3.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.LibWhole
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.KernelIdeal.Hand

open Cert.KernelIdeal Cert.KernelIdeal.Gen Cert.Lib.Whole
open Idealize.ShloMosaic Idealize.ShloMosaic.TcCoe Idealize.ShloMosaic.Tactic
open Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

local notation "𝕄" => MT nD τ sig Unit (Elt F) ℕ (UR sig nD τ) ℕ

-- A store through the whole rectangle covers the buffer, and a load through it reads the contents.
theorem sound_kernel3 (c : Dev nD) (E : Set ℕ) (i) (arg1) (harg1) (arg2) (harg2) (arg3) (harg3) (x0) (x1) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay1 x0 x1)) -∗ K ⟨⟩))
      ⊢ wp frame (wpE (defs₀ (F := F)) Variants.none c none) E (cc3__dense_kernel i arg1 harg1 arg2 harg2 arg3 harg3) K := by
  simp only [cc3__dense_kernel_eq_skeleton]; unfold cc3__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole S5000x64 zeros2, readAt_whole S5000x128 zeros2, readAt_whole S128x64 zeros2]

section Region
variable (V : (c : Dev nD) → (b : Ref sig .tc) → Buf (Elt F) ((c : Thread nD τ).loc b))

-- Block `t` of window `w`'s array at the region's entry.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xBlk3 (c : Dev nD) (t : Fin cfg3.N) : Vec F S5000x128 .f32 := iblk3 V c 0 t
abbrev wBlk3 (c : Dev nD) (t : Fin cfg3.N) : Vec F S128x64 .f32 := iblk3 V c 1 t

-- After the body: the inputs' blocks as they were, the output's the product payload of the two.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (xBlk3 V c t) (wBlk3 V c t)
  Φ _ := Pipeline.ΦA spec3 c
  q _ := fullShare
  owed _ := 0

theorem A_eq3 (c : Dev nD) (w : Fin cfg3.W) : (dat3 V c).A w = V c (Pipeline.arrRef spec3 w) := rfl
theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = k3_pay1 (xBlk3 V c t) (wBlk3 V c t) := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  sl_whnfR [defs₀, Defs.onTc]
  simp only [before3_0, before3_1]
  rw [show (dat3 V c).Φ t.succ = (dat3 V c).Φ t.castSucc from rfl,
    show (dat3 V c).owesAt () t.succ = (dat3 V c).owesAt () t.castSucc from rfl, after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]
  · iexists _; iexact H2
  iintro ⟨H0, H1, H2⟩
  iframe

end Region

end Cert.KernelIdeal.Hand

end
-- ==== Proof.KI.Body4.lean ====
import proofs.«410823_j40836549050565_1_alg».proof.Proof.Gen.KernelIdeal.Launch
import proofs.«410823_j40836549050565_1_alg».proof.Proof.Gen.KernelIdeal.Skeleton
import proofs.«410823_j40836549050565_1_alg».proof.Proof.LibWhole
import Idealize.ShloMosaic.Lib.Pipeline.TableIdle

noncomputable section

namespace Cert.KernelIdeal.Hand

open Cert.KernelIdeal.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c4_first (i : grid4.Coords) : BitVec 1 :=
  Scalar.cmpi .ne (Scalar.extui (Scalar.cmpi .eq (BitVec.ofNat 32 (i 1).val) 0#32)) 0#32

def acc4 (i : grid4.Coords) (x0 : Vec F S2048 .i32) (x2 : Vec F S2048x64 .bf16) (a : Vec F S2048x64 .f32) : Vec F S2048x64 .f32 :=
  k4_pay2 i x0 (if c4_first i = 1#1 then k4_pay1 else a) x2

def out4 (i : grid4.Coords) (x0 : Vec F S2048 .i32) (x1 : Vec F S2048 .f32) (x2 : Vec F S2048x64 .bf16) (a : Vec F S2048x64 .f32)
    (d : Vec F S2048x64 .bf16) : Vec F S2048x64 .bf16 :=
  if k4_cond2 i = 1#1 then k4_pay3 (acc4 i x0 x2 a) x1 else d

/-- Whichever way the two scalar tests fall, every store fills its memref, so the memref then reads the last payload stored. -/
theorem sound_kernel4 (c : Dev nD) (E : Set ℕ) (i : grid4.Coords)
    (arg2 : Memref sig .tc .vmem S2048 .i32) (harg2 : arg2.IsWhole) (arg3 : Memref sig .tc .vmem S2048 .f32) (harg3 : arg3.IsWhole)
    (arg4 : Memref sig .tc .vmem S2048x64 .bf16) (harg4 : arg4.IsWhole) (arg5 : Memref sig .tc .vmem S2048x64 .bf16) (harg5 : arg5.IsWhole)
    (arg6 : Memref sig .tc .vmem S2048x64 .f32) (harg6 : arg6.IsWhole)
    (x0 : Vec F S2048 .i32) (x1 : Vec F S2048 .f32) (x2 : Vec F S2048x64 .bf16) (d : Vec F S2048x64 .bf16) (a : Vec F S2048x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out4 i x0 x1 x2 a d) ∗ owns (c : Thread nD τ) arg6 fullShare (acc4 i x0 x2 a)) -∗ K ⟨⟩))
      ⊢ wp frame (wpE (defs₀ (F := F)) Variants.none c none) E (cc4__gather_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc4__gather_kernel_eq_skeleton]
  unfold cc4__gather_kernel_skel
  iintro ⟨H0, H1, H2, H3, H4, Hk⟩
  by_cases h1 : c4_first i = 1#1 <;> by_cases h2 : k4_cond2 i = 1#1 <;>
  · sl_exec (disch := first | exact h1 | exact h2)
    sl_step
    iapply Hk; iframe H0 H1 H2
    unfold owns out4 acc4
    isplitl [H3] <;>
    · iexists _; isplitr; swap; · iassumption
      ipureintro; sl_unfold_run_names
      simp only [read_writes_whole S2048x64 zeros2, View.readCov_cons_toLoadRect, readAt_whole S2048 zeros1,
        readAt_whole S2048x64 zeros2, View.read_rep, h1, h2, if_true, if_false]

end Cert.KernelIdeal.Hand

end
-- ==== Proof.KI.Reg4.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.KI.Body4
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev srcBlk4 (c : Dev nD) (t : Fin cfg4.N) : Vec F S2048 .i32 := iblk4 V c 0 t
abbrev valBlk4 (c : Dev nD) (t : Fin cfg4.N) : Vec F S2048 .f32 := iblk4 V c 1 t
abbrev tabBlk4 (c : Dev nD) (t : Fin cfg4.N) : Vec F S2048x64 .bf16 := iblk4 V c 2 t

def pt4 (n : ℕ) : Fin cfg4.N := ⟨n % cfg4.N, Nat.mod_lt _ (by decide)⟩

def accAt4 (c : Dev nD) : ℕ → Vec F S2048x64 .f32
  | 0 => acc4 (grid4.coords (pt4 0)) (srcBlk4 V c (pt4 0)) (tabBlk4 V c (pt4 0)) k4_pay1
  | n + 1 => acc4 (grid4.coords (pt4 (n + 1))) (srcBlk4 V c (pt4 (n + 1))) (tabBlk4 V c (pt4 (n + 1))) (accAt4 c n)

def Φ4 (c : Dev nD) (k : Fin (cfg4.N + 1)) : sProp 𝕄 :=
  iprop((∃ f : Vec F S2048x64 .f32, owns (c : Thread nD τ) (Memref.whole cc4_scratch0) fullShare f ∗ ⌜k.val % 25 ≠ 0 → f = accAt4 V c (k.val - 1)⌝)
    ∗ Pipeline.scopedRestBut (Ix := Unit) (Name := ℕ) (U := UR sig nD τ) (Lvl := ℕ) (Val := Elt F) spec4 c [cc4_scratch0]
    ∗ ∃ r, prngReg c r)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (accAt4 V c t.val) (valBlk4 V c t)
  Φ k := Φ4 V c k
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = k4_pay3 (accAt4 V c t.val) (valBlk4 V c t) := by dsimp only [dat4]

theorem c4_first_iff : ∀ t : Fin cfg4.N, c4_first (grid4.coords t) = 1#1 ↔ t.val % 25 = 0 :=
  (by decide +kernel : ∀ t : Fin grid4.N, c4_first (grid4.coords t) = 1#1 ↔ t.val % 25 = 0)

theorem k4_cond2_iff : ∀ t : Fin cfg4.N, k4_cond2 (grid4.coords t) = 1#1 ↔ t.val % 25 = 24 :=
  (by decide +kernel : ∀ t : Fin grid4.N, k4_cond2 (grid4.coords t) = 1#1 ↔ t.val % 25 = 24)

-- Every input block the body reads at a point is that point's block of the input array.
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

def step4 (c : Dev nD) (t : Fin cfg4.N) (a : Vec F S2048x64 .f32) : Vec F S2048x64 .f32 :=
  acc4 (grid4.coords t) (srcBlk4 V c t) (tabBlk4 V c t) a

-- One update over the partial sum of the point before (over anything where a new sum starts) is this point's partial sum.
theorem step4_eq_accAt4 (c : Dev nD) (t : Fin cfg4.N) (f : Vec F S2048x64 .f32) (hf : t.val % 25 ≠ 0 → f = accAt4 V c (t.val - 1)) :
    step4 V c t f = accAt4 V c t.val :=
  Cert.Lib.step_eq_fold 25 (step4 V c) (accAt4 V c) k4_pay1 pt4 (fun t => Fin.ext (Nat.mod_eq_of_lt t.isLt)) rfl (fun _ => rfl)
    (fun t h a a' => by unfold step4 acc4; rw [if_pos ((c4_first_iff t).mpr h), if_pos ((c4_first_iff t).mpr h)]) t f hf

theorem Φ4_in (c : Dev nD) : iprop((∃ r, prngReg c r) ∗ Pipeline.scopedRest (Ix := Unit) (Name := ℕ) (U := UR sig nD τ) (Lvl := ℕ) (Val := Elt F) spec4 c) ⊢ Φ4 V c 0 := by
  rw [scopedRest4_split]; unfold Φ4
  simp only [owns_whole]
  iintro ⟨Hg, ⟨%f, HS⟩, HR⟩
  iframe HR Hg
  iexists f; iframe HS
  ipureintro; exact fun h => absurd (Nat.zero_mod 25) h

theorem Φ4_out (c : Dev nD) : Φ4 V c (Fin.last cfg4.N) ⊢ iprop((∃ r, prngReg c r) ∗ Pipeline.scopedRest (Ix := Unit) (Name := ℕ) (U := UR sig nD τ) (Lvl := ℕ) (Val := Elt F) spec4 c) := by
  rw [scopedRest4_split]; unfold Φ4
  simp only [owns_whole]
  iintro ⟨⟨%f, HS, %_⟩, HR, Hg⟩
  iframe HR Hg
  iexists f; iexact HS

-- The output block after the body is the one the proof data names: the scaled sum where a sum ends, the block as found elsewhere.
theorem leaves4_3 (c : Dev nD) (t : Fin cfg4.N) (f : Vec F S2048x64 .f32) (d) (hf : t.val % 25 ≠ 0 → f = accAt4 V c (t.val - 1)) :
    owns (c : Thread nD τ) (st4_3 t) fullShare (out4 (grid4.coords t) (srcBlk4 V c t) (valBlk4 V c t) (tabBlk4 V c t) f ((dat4 V c).before 3 t d))
      ⊢ ((dat4 V c).leavesExact 3 t : sProp 𝕄) := by
  have hacc := step4_eq_accAt4 V c t f hf
  unfold step4 at hacc
  unfold out4
  by_cases h : k4_cond2 (grid4.coords t) = 1#1
  · unfold Dat.leavesExact
    rw [show cfg4.idle 3 (cfg4.grid.coords t) = false from (by show (!(k4_cond2 (grid4.coords t) == 1#1)) = false; rw [h]; rfl), if_pos h, after4_3, hacc]
  · rw [Dat.leavesExact_idle (dat4 V c) 3 t (by show (!(k4_cond2 (grid4.coords t) == 1#1)) = true; rw [Bool.not_eq_true', beq_eq_false_iff_ne]; exact h)
      (Bool.eq_false_iff.mpr fun e => h ((k4_cond2_iff t).mpr ((flush4_3 t).mp e))), if_neg h]
    iintro H; iexists d; iexact H

-- The body at any point takes the partial sum of the point before and leaves this point's.
theorem body_obligation4 (c : Dev nD) : BodyObligation (dat4 (F := F) V c) (defs₀ (F := F)) Variants.none () Set.univ := fun t => by
  rw [bigSep_W4, bigSep_W4]
  sl_whnfR [defs₀, Defs.onTc]
  simp only [before4_0, before4_1, before4_2, show ∀ k, (dat4 V c).Φ k = Φ4 V c k from fun _ => rfl, Φ4]
  rw [show (dat4 V c).owesAt () t.succ = (dat4 V c).owesAt () t.castSucc from rfl, show (dat4 V c).after 0 t = iblk4 V c 0 t from rfl,
    show (dat4 V c).after 1 t = iblk4 V c 1 t from rfl, show (dat4 V c).after 2 t = iblk4 V c 2 t from rfl]
  iintro ⟨⟨⟨%f, HS, %hf⟩, HR, Hg⟩, Ho, ⟨%d0, H0⟩, ⟨%d1, H1⟩, ⟨%d2, H2⟩, ⟨%d3, H3⟩⟩
  iapply sound_kernel4 (F := F) c Set.univ (grid4.coords t) (st4_0 t) (hstage4_0 _) (st4_1 t) (hstage4_1 _)
    (st4_2 t) (hstage4_2 _) (st4_3 t) (hstage4_3 _) _ (Memref.isWhole_whole cc4_scratch0)
    (srcBlk4 V c t) (valBlk4 V c t) (tabBlk4 V c t) ((dat4 V c).before 3 t d3) f
  iframe H0 H1 H2 H3 HS
  iintro ⟨H0, H1, H2, H3, HS⟩
  iframe HR Hg Ho H0 H1 H2
  isplitl [HS]
  · iexists _; iframe HS
    ipureintro; exact fun _ => step4_eq_accAt4 V c t f hf
  · iapply leaves4_3 V c t f d3 hf; iexact H3

end Region

end Cert.KernelIdeal.Hand

end
-- ==== Proof.KI.Body5.lean ====
import proofs.«410823_j40836549050565_1_alg».proof.Proof.Gen.KernelIdeal.Launch
import proofs.«410823_j40836549050565_1_alg».proof.Proof.Gen.KernelIdeal.Skeleton
import proofs.«410823_j40836549050565_1_alg».proof.Proof.LibWhole
import Idealize.ShloMosaic.Lib.Pipeline.TableIdle

noncomputable section

namespace Cert.KernelIdeal.Hand

open Cert.KernelIdeal.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c5_first (i : grid5.Coords) : BitVec 1 :=
  Scalar.cmpi .ne (Scalar.extui (Scalar.cmpi .eq (BitVec.ofNat 32 (i 1).val) 0#32)) 0#32

def acc5 (i : grid5.Coords) (x0 : Vec F S2048 .i32) (x1 : Vec F S2048x64 .bf16) (a : Vec F S2048x64 .f32) : Vec F S2048x64 .f32 :=
  k5_pay2 i x0 (if c5_first i = 1#1 then k5_pay1 else a) x1

def out5 (i : grid5.Coords) (x0 : Vec F S2048 .i32) (x1 : Vec F S2048x64 .bf16) (x2 : Vec F S1x64 .f32) (a : Vec F S2048x64 .f32)
    (d : Vec F S2048x64 .f32) : Vec F S2048x64 .f32 :=
  if k5_cond2 i = 1#1 then k5_pay3 (acc5 i x0 x1 a) x2 else d

/-- Whichever way the two scalar tests fall, every store fills its memref, so the memref then reads the last payload stored. -/
theorem sound_kernel5 (c : Dev nD) (E : Set ℕ) (i : grid5.Coords)
    (arg2 : Memref sig .tc .vmem S2048 .i32) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (x0 : Vec F S2048 .i32) (x1 : Vec F S2048x64 .bf16) (x2 : Vec F S1x64 .f32) (d a : Vec F S2048x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out5 i x0 x1 x2 a d) ∗ owns (c : Thread nD τ) arg6 fullShare (acc5 i x0 x1 a)) -∗ K ⟨⟩))
      ⊢ wp frame (wpE (defs₀ (F := F)) Variants.none c none) E (cc5__scatter_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc5__scatter_kernel_eq_skeleton]
  unfold cc5__scatter_kernel_skel
  iintro ⟨H0, H1, H2, H3, H4, Hk⟩
  by_cases h1 : c5_first i = 1#1 <;> by_cases h2 : k5_cond2 i = 1#1 <;>
  · sl_exec (disch := first | exact h1 | exact h2)
    sl_step
    iapply Hk; iframe H0 H1 H2
    unfold owns out5 acc5
    isplitl [H3] <;>
    · iexists _; isplitr; swap; · iassumption
      ipureintro; sl_unfold_run_names
      simp only [read_writes_whole S2048x64 zeros2, View.readCov_cons_toLoadRect, readAt_whole S2048 zeros1,
        readAt_whole S2048x64 zeros2, readAt_whole S1x64 zeros2, View.read_rep, h1, h2, if_true, if_false]

end Cert.KernelIdeal.Hand

end
-- ==== Proof.KI.Reg5.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.KI.Body5
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev idsBlk5 (c : Dev nD) (t : Fin cfg5.N) : Vec F S2048 .i32 := iblk5 V c 0 t
abbrev msgBlk5 (c : Dev nD) (t : Fin cfg5.N) : Vec F S2048x64 .bf16 := iblk5 V c 1 t
abbrev biasBlk5 (c : Dev nD) (t : Fin cfg5.N) : Vec F S1x64 .f32 := iblk5 V c 2 t

def pt5 (n : ℕ) : Fin cfg5.N := ⟨n % cfg5.N, Nat.mod_lt _ (by decide)⟩

def accAt5 (c : Dev nD) : ℕ → Vec F S2048x64 .f32
  | 0 => acc5 (grid5.coords (pt5 0)) (idsBlk5 V c (pt5 0)) (msgBlk5 V c (pt5 0)) k5_pay1
  | n + 1 => acc5 (grid5.coords (pt5 (n + 1))) (idsBlk5 V c (pt5 (n + 1))) (msgBlk5 V c (pt5 (n + 1))) (accAt5 c n)

def Φ5 (c : Dev nD) (k : Fin (cfg5.N + 1)) : sProp 𝕄 :=
  iprop((∃ f : Vec F S2048x64 .f32, owns (c : Thread nD τ) (Memref.whole cc5_scratch0) fullShare f ∗ ⌜k.val % 293 ≠ 0 → f = accAt5 V c (k.val - 1)⌝)
    ∗ Pipeline.scopedRestBut (Ix := Unit) (Name := ℕ) (U := UR sig nD τ) (Lvl := ℕ) (Val := Elt F) spec5 c [cc5_scratch0]
    ∗ ∃ r, prngReg c r)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (accAt5 V c t.val) (biasBlk5 V c t)
  Φ k := Φ5 V c k
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) : (dat5 V c).after 3 t = k5_pay3 (accAt5 V c t.val) (biasBlk5 V c t) := by dsimp only [dat5]

theorem c5_first_iff : ∀ t : Fin cfg5.N, c5_first (grid5.coords t) = 1#1 ↔ t.val % 293 = 0 :=
  (by decide +kernel : ∀ t : Fin grid5.N, c5_first (grid5.coords t) = 1#1 ↔ t.val % 293 = 0)

theorem k5_cond2_iff : ∀ t : Fin cfg5.N, k5_cond2 (grid5.coords t) = 1#1 ↔ t.val % 293 = 292 :=
  (by decide +kernel : ∀ t : Fin grid5.N, k5_cond2 (grid5.coords t) = 1#1 ↔ t.val % 293 = 292)

-- Every input block the body reads at a point is that point's block of the input array.
theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

def step5 (c : Dev nD) (t : Fin cfg5.N) (a : Vec F S2048x64 .f32) : Vec F S2048x64 .f32 :=
  acc5 (grid5.coords t) (idsBlk5 V c t) (msgBlk5 V c t) a

-- One update over the partial sum of the point before (over anything where a new sum starts) is this point's partial sum.
theorem step5_eq_accAt5 (c : Dev nD) (t : Fin cfg5.N) (f : Vec F S2048x64 .f32) (hf : t.val % 293 ≠ 0 → f = accAt5 V c (t.val - 1)) :
    step5 V c t f = accAt5 V c t.val :=
  Cert.Lib.step_eq_fold 293 (step5 V c) (accAt5 V c) k5_pay1 pt5 (fun t => Fin.ext (Nat.mod_eq_of_lt t.isLt)) rfl (fun _ => rfl)
    (fun t h a a' => by unfold step5 acc5; rw [if_pos ((c5_first_iff t).mpr h), if_pos ((c5_first_iff t).mpr h)]) t f hf

theorem Φ5_in (c : Dev nD) : iprop((∃ r, prngReg c r) ∗ Pipeline.scopedRest (Ix := Unit) (Name := ℕ) (U := UR sig nD τ) (Lvl := ℕ) (Val := Elt F) spec5 c) ⊢ Φ5 V c 0 := by
  rw [scopedRest5_split]; unfold Φ5
  simp only [owns_whole]
  iintro ⟨Hg, ⟨%f, HS⟩, HR⟩
  iframe HR Hg
  iexists f; iframe HS
  ipureintro; exact fun h => absurd (Nat.zero_mod 293) h

theorem Φ5_out (c : Dev nD) : Φ5 V c (Fin.last cfg5.N) ⊢ iprop((∃ r, prngReg c r) ∗ Pipeline.scopedRest (Ix := Unit) (Name := ℕ) (U := UR sig nD τ) (Lvl := ℕ) (Val := Elt F) spec5 c) := by
  rw [scopedRest5_split]; unfold Φ5
  simp only [owns_whole]
  iintro ⟨⟨%f, HS, %_⟩, HR, Hg⟩
  iframe HR Hg
  iexists f; iexact HS

-- The output block after the body is the one the proof data names: the sum plus the bias row where a sum ends, the block as found elsewhere.
theorem leaves5_3 (c : Dev nD) (t : Fin cfg5.N) (f : Vec F S2048x64 .f32) (d) (hf : t.val % 293 ≠ 0 → f = accAt5 V c (t.val - 1)) :
    owns (c : Thread nD τ) (st5_3 t) fullShare (out5 (grid5.coords t) (idsBlk5 V c t) (msgBlk5 V c t) (biasBlk5 V c t) f ((dat5 V c).before 3 t d))
      ⊢ ((dat5 V c).leavesExact 3 t : sProp 𝕄) := by
  have hacc := step5_eq_accAt5 V c t f hf
  unfold step5 at hacc
  unfold out5
  by_cases h : k5_cond2 (grid5.coords t) = 1#1
  · unfold Dat.leavesExact
    rw [show cfg5.idle 3 (cfg5.grid.coords t) = false from (by show (!(k5_cond2 (grid5.coords t) == 1#1)) = false; rw [h]; rfl), if_pos h, after5_3, hacc]
  · rw [Dat.leavesExact_idle (dat5 V c) 3 t (by show (!(k5_cond2 (grid5.coords t) == 1#1)) = true; rw [Bool.not_eq_true', beq_eq_false_iff_ne]; exact h)
      (Bool.eq_false_iff.mpr fun e => h ((k5_cond2_iff t).mpr ((flush5_3 t).mp e))), if_neg h]
    iintro H; iexists d; iexact H

-- The body at any point takes the partial sum of the point before and leaves this point's.
theorem body_obligation5 (c : Dev nD) : BodyObligation (dat5 (F := F) V c) (defs₀ (F := F)) Variants.none () Set.univ := fun t => by
  rw [bigSep_W5, bigSep_W5]
  sl_whnfR [defs₀, Defs.onTc]
  simp only [before5_0, before5_1, before5_2, show ∀ k, (dat5 V c).Φ k = Φ5 V c k from fun _ => rfl, Φ5]
  rw [show (dat5 V c).owesAt () t.succ = (dat5 V c).owesAt () t.castSucc from rfl, show (dat5 V c).after 0 t = iblk5 V c 0 t from rfl,
    show (dat5 V c).after 1 t = iblk5 V c 1 t from rfl, show (dat5 V c).after 2 t = iblk5 V c 2 t from rfl]
  iintro ⟨⟨⟨%f, HS, %hf⟩, HR, Hg⟩, Ho, ⟨%d0, H0⟩, ⟨%d1, H1⟩, ⟨%d2, H2⟩, ⟨%d3, H3⟩⟩
  iapply sound_kernel5 (F := F) c Set.univ (grid5.coords t) (st5_0 t) (hstage5_0 _) (st5_1 t) (hstage5_1 _)
    (st5_2 t) (hstage5_2 _) (st5_3 t) (hstage5_3 _) _ (Memref.isWhole_whole cc5_scratch0)
    (idsBlk5 V c t) (msgBlk5 V c t) (biasBlk5 V c t) ((dat5 V c).before 3 t d3) f
  iframe H0 H1 H2 H3 HS
  iintro ⟨H0, H1, H2, H3, HS⟩
  iframe HR Hg Ho H0 H1 H2
  isplitl [HS]
  · iexists _; iframe HS
    ipureintro; exact fun _ => step5_eq_accAt5 V c t f hf
  · iapply leaves5_3 V c t f d3 hf; iexact H3

end Region

end Cert.KernelIdeal.Hand

end
-- ==== Proof.KI.Reg6.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.LibWhole
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.KernelIdeal.Hand

open Cert.KernelIdeal Cert.KernelIdeal.Gen Cert.Lib.Whole
open Idealize.ShloMosaic Idealize.ShloMosaic.TcCoe Idealize.ShloMosaic.Tactic
open Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

local notation "𝕄" => MT nD τ sig Unit (Elt F) ℕ (UR sig nD τ) ℕ

-- A store through the whole rectangle covers the buffer, and a load through it reads the contents.
theorem sound_kernel6 (c : Dev nD) (E : Set ℕ) (i) (arg1) (harg1) (arg2) (harg2) (arg3) (harg3) (x0) (x1) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k6_pay1 x0 x1)) -∗ K ⟨⟩))
      ⊢ wp frame (wpE (defs₀ (F := F)) Variants.none c none) E (cc6__dense_kernel i arg1 harg1 arg2 harg2 arg3 harg3) K := by
  simp only [cc6__dense_kernel_eq_skeleton]; unfold cc6__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole S5000x128 zeros2, readAt_whole S5000x128 zeros2, readAt_whole S128x128 zeros2]

section Region
variable (V : (c : Dev nD) → (b : Ref sig .tc) → Buf (Elt F) ((c : Thread nD τ).loc b))

-- Block `t` of window `w`'s array at the region's entry.
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev xBlk6 (c : Dev nD) (t : Fin cfg6.N) : Vec F S5000x128 .f32 := iblk6 V c 0 t
abbrev wBlk6 (c : Dev nD) (t : Fin cfg6.N) : Vec F S128x128 .f32 := iblk6 V c 1 t

-- After the body: the inputs' blocks as they were, the output's the product payload of the two.
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (xBlk6 V c t) (wBlk6 V c t)
  Φ _ := Pipeline.ΦA spec6 c
  q _ := fullShare
  owed _ := 0

theorem A_eq6 (c : Dev nD) (w : Fin cfg6.W) : (dat6 V c).A w = V c (Pipeline.arrRef spec6 w) := rfl
theorem after6_0 (c : Dev nD) (t : Fin cfg6.N) : (dat6 V c).after 0 t = iblk6 V c 0 t := rfl
theorem after6_1 (c : Dev nD) (t : Fin cfg6.N) : (dat6 V c).after 1 t = iblk6 V c 1 t := rfl
theorem after6_2 (c : Dev nD) (t : Fin cfg6.N) : (dat6 V c).after 2 t = k6_pay1 (xBlk6 V c t) (wBlk6 V c t) := rfl

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  sl_whnfR [defs₀, Defs.onTc]
  simp only [before6_0, before6_1]
  rw [show (dat6 V c).Φ t.succ = (dat6 V c).Φ t.castSucc from rfl,
    show (dat6 V c).owesAt () t.succ = (dat6 V c).owesAt () t.castSucc from rfl, after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe H0 H1
  isplitl [H2]
  · iexists _; iexact H2
  iintro ⟨H0, H1, H2⟩
  iframe

end Region

end Cert.KernelIdeal.Hand

end
-- ==== Proof.KI.Body7.lean ====
import proofs.«410823_j40836549050565_1_alg».proof.Proof.Gen.KernelIdeal.Launch
import proofs.«410823_j40836549050565_1_alg».proof.Proof.Gen.KernelIdeal.Skeleton
import proofs.«410823_j40836549050565_1_alg».proof.Proof.LibWhole
import Idealize.ShloMosaic.Lib.Pipeline.TableIdle

noncomputable section

namespace Cert.KernelIdeal.Hand

open Cert.KernelIdeal.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c7_first (i : grid7.Coords) : BitVec 1 :=
  Scalar.cmpi .ne (Scalar.extui (Scalar.cmpi .eq (BitVec.ofNat 32 (i 1).val) 0#32)) 0#32

def acc7 (i : grid7.Coords) (x0 : Vec F S2048 .i32) (x2 : Vec F S2048x128 .bf16) (a : Vec F S2048x128 .f32) : Vec F S2048x128 .f32 :=
  k7_pay2 i x0 (if c7_first i = 1#1 then k7_pay1 else a) x2

def out7 (i : grid7.Coords) (x0 : Vec F S2048 .i32) (x1 : Vec F S2048 .f32) (x2 : Vec F S2048x128 .bf16) (a : Vec F S2048x128 .f32)
    (d : Vec F S2048x128 .bf16) : Vec F S2048x128 .bf16 :=
  if k7_cond2 i = 1#1 then k7_pay3 (acc7 i x0 x2 a) x1 else d

/-- Whichever way the two scalar tests fall, every store fills its memref, so the memref then reads the last payload stored. -/
theorem sound_kernel7 (c : Dev nD) (E : Set ℕ) (i : grid7.Coords)
    (arg2 : Memref sig .tc .vmem S2048 .i32) (harg2 : arg2.IsWhole) (arg3 : Memref sig .tc .vmem S2048 .f32) (harg3 : arg3.IsWhole)
    (arg4 : Memref sig .tc .vmem S2048x128 .bf16) (harg4 : arg4.IsWhole) (arg5 : Memref sig .tc .vmem S2048x128 .bf16) (harg5 : arg5.IsWhole)
    (arg6 : Memref sig .tc .vmem S2048x128 .f32) (harg6 : arg6.IsWhole)
    (x0 : Vec F S2048 .i32) (x1 : Vec F S2048 .f32) (x2 : Vec F S2048x128 .bf16) (d : Vec F S2048x128 .bf16) (a : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out7 i x0 x1 x2 a d) ∗ owns (c : Thread nD τ) arg6 fullShare (acc7 i x0 x2 a)) -∗ K ⟨⟩))
      ⊢ wp frame (wpE (defs₀ (F := F)) Variants.none c none) E (cc7__gather_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc7__gather_kernel_eq_skeleton]
  unfold cc7__gather_kernel_skel
  iintro ⟨H0, H1, H2, H3, H4, Hk⟩
  by_cases h1 : c7_first i = 1#1 <;> by_cases h2 : k7_cond2 i = 1#1 <;>
  · sl_exec (disch := first | exact h1 | exact h2)
    sl_step
    iapply Hk; iframe H0 H1 H2
    unfold owns out7 acc7
    isplitl [H3] <;>
    · iexists _; isplitr; swap; · iassumption
      ipureintro; sl_unfold_run_names
      simp only [read_writes_whole S2048x128 zeros2, View.readCov_cons_toLoadRect, readAt_whole S2048 zeros1,
        readAt_whole S2048x128 zeros2, View.read_rep, h1, h2, if_true, if_false]

end Cert.KernelIdeal.Hand

end
-- ==== Proof.KI.Reg7.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.KI.Body7
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev srcBlk7 (c : Dev nD) (t : Fin cfg7.N) : Vec F S2048 .i32 := iblk7 V c 0 t
abbrev valBlk7 (c : Dev nD) (t : Fin cfg7.N) : Vec F S2048 .f32 := iblk7 V c 1 t
abbrev tabBlk7 (c : Dev nD) (t : Fin cfg7.N) : Vec F S2048x128 .bf16 := iblk7 V c 2 t

def pt7 (n : ℕ) : Fin cfg7.N := ⟨n % cfg7.N, Nat.mod_lt _ (by decide)⟩

def accAt7 (c : Dev nD) : ℕ → Vec F S2048x128 .f32
  | 0 => acc7 (grid7.coords (pt7 0)) (srcBlk7 V c (pt7 0)) (tabBlk7 V c (pt7 0)) k7_pay1
  | n + 1 => acc7 (grid7.coords (pt7 (n + 1))) (srcBlk7 V c (pt7 (n + 1))) (tabBlk7 V c (pt7 (n + 1))) (accAt7 c n)

def Φ7 (c : Dev nD) (k : Fin (cfg7.N + 1)) : sProp 𝕄 :=
  iprop((∃ f : Vec F S2048x128 .f32, owns (c : Thread nD τ) (Memref.whole cc7_scratch0) fullShare f ∗ ⌜k.val % 25 ≠ 0 → f = accAt7 V c (k.val - 1)⌝)
    ∗ Pipeline.scopedRestBut (Ix := Unit) (Name := ℕ) (U := UR sig nD τ) (Lvl := ℕ) (Val := Elt F) spec7 c [cc7_scratch0]
    ∗ ∃ r, prngReg c r)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k7_pay3 (accAt7 V c t.val) (valBlk7 V c t)
  Φ k := Φ7 V c k
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) : (dat7 V c).after 3 t = k7_pay3 (accAt7 V c t.val) (valBlk7 V c t) := by dsimp only [dat7]

theorem c7_first_iff : ∀ t : Fin cfg7.N, c7_first (grid7.coords t) = 1#1 ↔ t.val % 25 = 0 :=
  (by decide +kernel : ∀ t : Fin grid7.N, c7_first (grid7.coords t) = 1#1 ↔ t.val % 25 = 0)

theorem k7_cond2_iff : ∀ t : Fin cfg7.N, k7_cond2 (grid7.coords t) = 1#1 ↔ t.val % 25 = 24 :=
  (by decide +kernel : ∀ t : Fin grid7.N, k7_cond2 (grid7.coords t) = 1#1 ↔ t.val % 25 = 24)

-- Every input block the body reads at a point is that point's block of the input array.
theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d

def step7 (c : Dev nD) (t : Fin cfg7.N) (a : Vec F S2048x128 .f32) : Vec F S2048x128 .f32 :=
  acc7 (grid7.coords t) (srcBlk7 V c t) (tabBlk7 V c t) a

-- One update over the partial sum of the point before (over anything where a new sum starts) is this point's partial sum.
theorem step7_eq_accAt7 (c : Dev nD) (t : Fin cfg7.N) (f : Vec F S2048x128 .f32) (hf : t.val % 25 ≠ 0 → f = accAt7 V c (t.val - 1)) :
    step7 V c t f = accAt7 V c t.val :=
  Cert.Lib.step_eq_fold 25 (step7 V c) (accAt7 V c) k7_pay1 pt7 (fun t => Fin.ext (Nat.mod_eq_of_lt t.isLt)) rfl (fun _ => rfl)
    (fun t h a a' => by unfold step7 acc7; rw [if_pos ((c7_first_iff t).mpr h), if_pos ((c7_first_iff t).mpr h)]) t f hf

theorem Φ7_in (c : Dev nD) : iprop((∃ r, prngReg c r) ∗ Pipeline.scopedRest (Ix := Unit) (Name := ℕ) (U := UR sig nD τ) (Lvl := ℕ) (Val := Elt F) spec7 c) ⊢ Φ7 V c 0 := by
  rw [scopedRest7_split]; unfold Φ7
  simp only [owns_whole]
  iintro ⟨Hg, ⟨%f, HS⟩, HR⟩
  iframe HR Hg
  iexists f; iframe HS
  ipureintro; exact fun h => absurd (Nat.zero_mod 25) h

theorem Φ7_out (c : Dev nD) : Φ7 V c (Fin.last cfg7.N) ⊢ iprop((∃ r, prngReg c r) ∗ Pipeline.scopedRest (Ix := Unit) (Name := ℕ) (U := UR sig nD τ) (Lvl := ℕ) (Val := Elt F) spec7 c) := by
  rw [scopedRest7_split]; unfold Φ7
  simp only [owns_whole]
  iintro ⟨⟨%f, HS, %_⟩, HR, Hg⟩
  iframe HR Hg
  iexists f; iexact HS

-- The output block after the body is the one the proof data names: the scaled sum where a sum ends, the block as found elsewhere.
theorem leaves7_3 (c : Dev nD) (t : Fin cfg7.N) (f : Vec F S2048x128 .f32) (d) (hf : t.val % 25 ≠ 0 → f = accAt7 V c (t.val - 1)) :
    owns (c : Thread nD τ) (st7_3 t) fullShare (out7 (grid7.coords t) (srcBlk7 V c t) (valBlk7 V c t) (tabBlk7 V c t) f ((dat7 V c).before 3 t d))
      ⊢ ((dat7 V c).leavesExact 3 t : sProp 𝕄) := by
  have hacc := step7_eq_accAt7 V c t f hf
  unfold step7 at hacc
  unfold out7
  by_cases h : k7_cond2 (grid7.coords t) = 1#1
  · unfold Dat.leavesExact
    rw [show cfg7.idle 3 (cfg7.grid.coords t) = false from (by show (!(k7_cond2 (grid7.coords t) == 1#1)) = false; rw [h]; rfl), if_pos h, after7_3, hacc]
  · rw [Dat.leavesExact_idle (dat7 V c) 3 t (by show (!(k7_cond2 (grid7.coords t) == 1#1)) = true; rw [Bool.not_eq_true', beq_eq_false_iff_ne]; exact h)
      (Bool.eq_false_iff.mpr fun e => h ((k7_cond2_iff t).mpr ((flush7_3 t).mp e))), if_neg h]
    iintro H; iexists d; iexact H

-- The body at any point takes the partial sum of the point before and leaves this point's.
theorem body_obligation7 (c : Dev nD) : BodyObligation (dat7 (F := F) V c) (defs₀ (F := F)) Variants.none () Set.univ := fun t => by
  rw [bigSep_W7, bigSep_W7]
  sl_whnfR [defs₀, Defs.onTc]
  simp only [before7_0, before7_1, before7_2, show ∀ k, (dat7 V c).Φ k = Φ7 V c k from fun _ => rfl, Φ7]
  rw [show (dat7 V c).owesAt () t.succ = (dat7 V c).owesAt () t.castSucc from rfl, show (dat7 V c).after 0 t = iblk7 V c 0 t from rfl,
    show (dat7 V c).after 1 t = iblk7 V c 1 t from rfl, show (dat7 V c).after 2 t = iblk7 V c 2 t from rfl]
  iintro ⟨⟨⟨%f, HS, %hf⟩, HR, Hg⟩, Ho, ⟨%d0, H0⟩, ⟨%d1, H1⟩, ⟨%d2, H2⟩, ⟨%d3, H3⟩⟩
  iapply sound_kernel7 (F := F) c Set.univ (grid7.coords t) (st7_0 t) (hstage7_0 _) (st7_1 t) (hstage7_1 _)
    (st7_2 t) (hstage7_2 _) (st7_3 t) (hstage7_3 _) _ (Memref.isWhole_whole cc7_scratch0)
    (srcBlk7 V c t) (valBlk7 V c t) (tabBlk7 V c t) ((dat7 V c).before 3 t d3) f
  iframe H0 H1 H2 H3 HS
  iintro ⟨H0, H1, H2, H3, HS⟩
  iframe HR Hg Ho H0 H1 H2
  isplitl [HS]
  · iexists _; iframe HS
    ipureintro; exact fun _ => step7_eq_accAt7 V c t f hf
  · iapply leaves7_3 V c t f d3 hf; iexact H3

end Region

end Cert.KernelIdeal.Hand

end
-- ==== Proof.KI.Body8.lean ====
import proofs.«410823_j40836549050565_1_alg».proof.Proof.Gen.KernelIdeal.Launch
import proofs.«410823_j40836549050565_1_alg».proof.Proof.Gen.KernelIdeal.Skeleton
import proofs.«410823_j40836549050565_1_alg».proof.Proof.LibWhole
import Idealize.ShloMosaic.Lib.Pipeline.TableIdle

noncomputable section

namespace Cert.KernelIdeal.Hand

open Cert.KernelIdeal.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c8_first (i : grid8.Coords) : BitVec 1 :=
  Scalar.cmpi .ne (Scalar.extui (Scalar.cmpi .eq (BitVec.ofNat 32 (i 1).val) 0#32)) 0#32

def acc8 (i : grid8.Coords) (x0 : Vec F S2048 .i32) (x1 : Vec F S2048x128 .bf16) (a : Vec F S2048x128 .f32) : Vec F S2048x128 .f32 :=
  k8_pay2 i x0 (if c8_first i = 1#1 then k8_pay1 else a) x1

def out8 (i : grid8.Coords) (x0 : Vec F S2048 .i32) (x1 : Vec F S2048x128 .bf16) (x2 : Vec F S1x128 .f32) (a : Vec F S2048x128 .f32)
    (d : Vec F S2048x128 .f32) : Vec F S2048x128 .f32 :=
  if k8_cond2 i = 1#1 then k8_pay3 (acc8 i x0 x1 a) x2 else d

/-- Whichever way the two scalar tests fall, every store fills its memref, so the memref then reads the last payload stored. -/
theorem sound_kernel8 (c : Dev nD) (E : Set ℕ) (i : grid8.Coords)
    (arg2 : Memref sig .tc .vmem S2048 .i32) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048 .i32) (x1 : Vec F S2048x128 .bf16) (x2 : Vec F S1x128 .f32) (d a : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out8 i x0 x1 x2 a d) ∗ owns (c : Thread nD τ) arg6 fullShare (acc8 i x0 x1 a)) -∗ K ⟨⟩))
      ⊢ wp frame (wpE (defs₀ (F := F)) Variants.none c none) E (cc8__scatter_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc8__scatter_kernel_eq_skeleton]
  unfold cc8__scatter_kernel_skel
  iintro ⟨H0, H1, H2, H3, H4, Hk⟩
  by_cases h1 : c8_first i = 1#1 <;> by_cases h2 : k8_cond2 i = 1#1 <;>
  · sl_exec (disch := first | exact h1 | exact h2)
    sl_step
    iapply Hk; iframe H0 H1 H2
    unfold owns out8 acc8
    isplitl [H3] <;>
    · iexists _; isplitr; swap; · iassumption
      ipureintro; sl_unfold_run_names
      simp only [read_writes_whole S2048x128 zeros2, View.readCov_cons_toLoadRect, readAt_whole S2048 zeros1,
        readAt_whole S2048x128 zeros2, readAt_whole S1x128 zeros2, View.read_rep, h1, h2, if_true, if_false]

end Cert.KernelIdeal.Hand

end
-- ==== Proof.KI.Reg8.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.KI.Body8
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev idsBlk8 (c : Dev nD) (t : Fin cfg8.N) : Vec F S2048 .i32 := iblk8 V c 0 t
abbrev msgBlk8 (c : Dev nD) (t : Fin cfg8.N) : Vec F S2048x128 .bf16 := iblk8 V c 1 t
abbrev biasBlk8 (c : Dev nD) (t : Fin cfg8.N) : Vec F S1x128 .f32 := iblk8 V c 2 t

def pt8 (n : ℕ) : Fin cfg8.N := ⟨n % cfg8.N, Nat.mod_lt _ (by decide)⟩

def accAt8 (c : Dev nD) : ℕ → Vec F S2048x128 .f32
  | 0 => acc8 (grid8.coords (pt8 0)) (idsBlk8 V c (pt8 0)) (msgBlk8 V c (pt8 0)) k8_pay1
  | n + 1 => acc8 (grid8.coords (pt8 (n + 1))) (idsBlk8 V c (pt8 (n + 1))) (msgBlk8 V c (pt8 (n + 1))) (accAt8 c n)

def Φ8 (c : Dev nD) (k : Fin (cfg8.N + 1)) : sProp 𝕄 :=
  iprop((∃ f : Vec F S2048x128 .f32, owns (c : Thread nD τ) (Memref.whole cc8_scratch0) fullShare f ∗ ⌜k.val % 293 ≠ 0 → f = accAt8 V c (k.val - 1)⌝)
    ∗ Pipeline.scopedRestBut (Ix := Unit) (Name := ℕ) (U := UR sig nD τ) (Lvl := ℕ) (Val := Elt F) spec8 c [cc8_scratch0]
    ∗ ∃ r, prngReg c r)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => k8_pay3 (accAt8 V c t.val) (biasBlk8 V c t)
  Φ k := Φ8 V c k
  q _ := fullShare
  owed _ := 0

theorem A_eq8 (c : Dev nD) (w : Fin cfg8.W) : (dat8 V c).A w = V c (Pipeline.arrRef spec8 w) := by
  dsimp only [dat8]

theorem after8_3 (c : Dev nD) (t : Fin cfg8.N) : (dat8 V c).after 3 t = k8_pay3 (accAt8 V c t.val) (biasBlk8 V c t) := by dsimp only [dat8]

theorem c8_first_iff : ∀ t : Fin cfg8.N, c8_first (grid8.coords t) = 1#1 ↔ t.val % 293 = 0 :=
  (by decide +kernel : ∀ t : Fin grid8.N, c8_first (grid8.coords t) = 1#1 ↔ t.val % 293 = 0)

theorem k8_cond2_iff : ∀ t : Fin cfg8.N, k8_cond2 (grid8.coords t) = 1#1 ↔ t.val % 293 = 292 :=
  (by decide +kernel : ∀ t : Fin grid8.N, k8_cond2 (grid8.coords t) = 1#1 ↔ t.val % 293 = 292)

-- Every input block the body reads at a point is that point's block of the input array.
theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d

def step8 (c : Dev nD) (t : Fin cfg8.N) (a : Vec F S2048x128 .f32) : Vec F S2048x128 .f32 :=
  acc8 (grid8.coords t) (idsBlk8 V c t) (msgBlk8 V c t) a

-- One update over the partial sum of the point before (over anything where a new sum starts) is this point's partial sum.
theorem step8_eq_accAt8 (c : Dev nD) (t : Fin cfg8.N) (f : Vec F S2048x128 .f32) (hf : t.val % 293 ≠ 0 → f = accAt8 V c (t.val - 1)) :
    step8 V c t f = accAt8 V c t.val :=
  Cert.Lib.step_eq_fold 293 (step8 V c) (accAt8 V c) k8_pay1 pt8 (fun t => Fin.ext (Nat.mod_eq_of_lt t.isLt)) rfl (fun _ => rfl)
    (fun t h a a' => by unfold step8 acc8; rw [if_pos ((c8_first_iff t).mpr h), if_pos ((c8_first_iff t).mpr h)]) t f hf

theorem Φ8_in (c : Dev nD) : iprop((∃ r, prngReg c r) ∗ Pipeline.scopedRest (Ix := Unit) (Name := ℕ) (U := UR sig nD τ) (Lvl := ℕ) (Val := Elt F) spec8 c) ⊢ Φ8 V c 0 := by
  rw [scopedRest8_split]; unfold Φ8
  simp only [owns_whole]
  iintro ⟨Hg, ⟨%f, HS⟩, HR⟩
  iframe HR Hg
  iexists f; iframe HS
  ipureintro; exact fun h => absurd (Nat.zero_mod 293) h

theorem Φ8_out (c : Dev nD) : Φ8 V c (Fin.last cfg8.N) ⊢ iprop((∃ r, prngReg c r) ∗ Pipeline.scopedRest (Ix := Unit) (Name := ℕ) (U := UR sig nD τ) (Lvl := ℕ) (Val := Elt F) spec8 c) := by
  rw [scopedRest8_split]; unfold Φ8
  simp only [owns_whole]
  iintro ⟨⟨%f, HS, %_⟩, HR, Hg⟩
  iframe HR Hg
  iexists f; iexact HS

-- The output block after the body is the one the proof data names: the sum plus the bias row where a sum ends, the block as found elsewhere.
theorem leaves8_3 (c : Dev nD) (t : Fin cfg8.N) (f : Vec F S2048x128 .f32) (d) (hf : t.val % 293 ≠ 0 → f = accAt8 V c (t.val - 1)) :
    owns (c : Thread nD τ) (st8_3 t) fullShare (out8 (grid8.coords t) (idsBlk8 V c t) (msgBlk8 V c t) (biasBlk8 V c t) f ((dat8 V c).before 3 t d))
      ⊢ ((dat8 V c).leavesExact 3 t : sProp 𝕄) := by
  have hacc := step8_eq_accAt8 V c t f hf
  unfold step8 at hacc
  unfold out8
  by_cases h : k8_cond2 (grid8.coords t) = 1#1
  · unfold Dat.leavesExact
    rw [show cfg8.idle 3 (cfg8.grid.coords t) = false from (by show (!(k8_cond2 (grid8.coords t) == 1#1)) = false; rw [h]; rfl), if_pos h, after8_3, hacc]
  · rw [Dat.leavesExact_idle (dat8 V c) 3 t (by show (!(k8_cond2 (grid8.coords t) == 1#1)) = true; rw [Bool.not_eq_true', beq_eq_false_iff_ne]; exact h)
      (Bool.eq_false_iff.mpr fun e => h ((k8_cond2_iff t).mpr ((flush8_3 t).mp e))), if_neg h]
    iintro H; iexists d; iexact H

-- The body at any point takes the partial sum of the point before and leaves this point's.
theorem body_obligation8 (c : Dev nD) : BodyObligation (dat8 (F := F) V c) (defs₀ (F := F)) Variants.none () Set.univ := fun t => by
  rw [bigSep_W8, bigSep_W8]
  sl_whnfR [defs₀, Defs.onTc]
  simp only [before8_0, before8_1, before8_2, show ∀ k, (dat8 V c).Φ k = Φ8 V c k from fun _ => rfl, Φ8]
  rw [show (dat8 V c).owesAt () t.succ = (dat8 V c).owesAt () t.castSucc from rfl, show (dat8 V c).after 0 t = iblk8 V c 0 t from rfl,
    show (dat8 V c).after 1 t = iblk8 V c 1 t from rfl, show (dat8 V c).after 2 t = iblk8 V c 2 t from rfl]
  iintro ⟨⟨⟨%f, HS, %hf⟩, HR, Hg⟩, Ho, ⟨%d0, H0⟩, ⟨%d1, H1⟩, ⟨%d2, H2⟩, ⟨%d3, H3⟩⟩
  iapply sound_kernel8 (F := F) c Set.univ (grid8.coords t) (st8_0 t) (hstage8_0 _) (st8_1 t) (hstage8_1 _)
    (st8_2 t) (hstage8_2 _) (st8_3 t) (hstage8_3 _) _ (Memref.isWhole_whole cc8_scratch0)
    (idsBlk8 V c t) (msgBlk8 V c t) (biasBlk8 V c t) ((dat8 V c).before 3 t d3) f
  iframe H0 H1 H2 H3 HS
  iintro ⟨H0, H1, H2, H3, HS⟩
  iframe HR Hg Ho H0 H1 H2
  isplitl [HS]
  · iexists _; iframe HS
    ipureintro; exact fun _ => step8_eq_accAt8 V c t f hf
  · iapply leaves8_3 V c t f d3 hf; iexact H3

end Region

end Cert.KernelIdeal.Hand

end
-- ==== Proof.KI.Reg9.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.LibWhole
import Idealize.ShloMosaic.Lib.Pipeline.RegionsLoop
import Idealize.ShloMosaic.Lib.Pipeline.FrameSuffix
import Idealize.ShloMosaic.Lib.Pipeline.Value
import Idealize.ShloMosaic.Lib.Ring

noncomputable section

namespace Cert.KernelIdeal.Hand

open Cert.KernelIdeal Cert.KernelIdeal.Gen Cert.Lib.Whole
open Idealize.ShloMosaic Idealize.ShloMosaic.TcCoe Idealize.ShloMosaic.Tactic
open Idealize.SL Idealize.SL.RA Idealize.SL.BI Idealize.SL.BI.BIBase Idealize.SL.Sem Idealize.SL.ProofMode
open scoped Idealize.SL.BI
open Idealize.ShloMosaic.Pipeline (Dat BodyObligation)

variable {F : FTy → Type} [FloatOps F]

local notation "𝕄" => MT nD τ sig Unit (Elt F) ℕ (UR sig nD τ) ℕ

-- A store through the whole rectangle covers the buffer, and a load through it reads the contents.
theorem sound_kernel9 (c : Dev nD) (E : Set ℕ) (i) (arg1) (harg1) (arg2) (harg2) (arg3) (harg3) (x0) (x1) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k9_pay1 x0 x1)) -∗ K ⟨⟩))
      ⊢ wp frame (wpE (defs₀ (F := F)) Variants.none c none) E (cc9__dense_kernel i arg1 harg1 arg2 harg2 arg3 harg3) K := by
  simp only [cc9__dense_kernel_eq_skeleton]; unfold cc9__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_writes_whole S5000x64 zeros2, readAt_whole S5000x128 zeros2, readAt_whole S128x64 zeros2]

section Region
variable (V : (c : Dev nD) → (b : Ref sig .tc) → Buf (Elt F) ((c : Thread nD τ).loc b))

-- Block `t` of window `w`'s array at the region's entry.
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev xBlk9 (c : Dev nD) (t : Fin cfg9.N) : Vec F S5000x128 .f32 := iblk9 V c 0 t
abbrev wBlk9 (c : Dev nD) (t : Fin cfg9.N) : Vec F S128x64 .f32 := iblk9 V c 1 t

-- After the body: the inputs' blocks as they were, the output's the product payload of the two.
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => k9_pay1 (xBlk9 V c t) (wBlk9 V c t)
  Φ _ := Pipeline.ΦA spec9 c
  q _ := fullShare
  owed _ := 0

theorem A_eq9 (c : Dev nD) (w : Fin cfg9.W) : (dat9 V c).A w = V c (Pipeline.arrRef spec9 w) := rfl
theorem after9_0 (c : Dev nD) (t : Fin cfg9.N) : (dat9 V c).after 0 t = iblk9 V c 0 t := rfl
theorem after9_1 (c : Dev nD) (t : Fin cfg9.N) : (dat9 V c).after 1 t = iblk9 V c 1 t := rfl
theorem after9_2 (c : Dev nD) (t : Fin cfg9.N) : (dat9 V c).after 2 t = k9_pay1 (xBlk9 V c t) (wBlk9 V c t) := rfl

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d

theorem body_obligation9 (c : Dev nD) : BodyObligation (dat9 (F := F) V c) (defs₀ (F := F)) Variants.none () Set.univ := fun t => by
  rw [bigSep_W9, bigSep_W9]
  sl_whnfR [defs₀, Defs.onTc]
  simp only [before9_0, before9_1]
  rw [show (dat9 V c).Φ t.succ = (dat9 V c).Φ t.castSucc from rfl,
    show (dat9 V c).owesAt () t.succ = (dat9 V c).owesAt () t.castSucc from rfl, after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  iframe H0 H1
  isplitl [H2]
  · iexists _; iexact H2
  iintro ⟨H0, H1, H2⟩
  iframe

end Region

end Cert.KernelIdeal.Hand

end
-- ==== Proof.KI.Body10.lean ====
import proofs.«410823_j40836549050565_1_alg».proof.Proof.Gen.KernelIdeal.Launch
import proofs.«410823_j40836549050565_1_alg».proof.Proof.Gen.KernelIdeal.Skeleton
import proofs.«410823_j40836549050565_1_alg».proof.Proof.LibWhole
import Idealize.ShloMosaic.Lib.Pipeline.TableIdle

noncomputable section

namespace Cert.KernelIdeal.Hand

open Cert.KernelIdeal.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c10_first (i : grid10.Coords) : BitVec 1 :=
  Scalar.cmpi .ne (Scalar.extui (Scalar.cmpi .eq (BitVec.ofNat 32 (i 1).val) 0#32)) 0#32

def acc10 (i : grid10.Coords) (x0 : Vec F S2048 .i32) (x2 : Vec F S2048x64 .bf16) (a : Vec F S2048x64 .f32) : Vec F S2048x64 .f32 :=
  k10_pay2 i x0 (if c10_first i = 1#1 then k10_pay1 else a) x2

def out10 (i : grid10.Coords) (x0 : Vec F S2048 .i32) (x1 : Vec F S2048 .f32) (x2 : Vec F S2048x64 .bf16) (a : Vec F S2048x64 .f32)
    (d : Vec F S2048x64 .bf16) : Vec F S2048x64 .bf16 :=
  if k10_cond2 i = 1#1 then k10_pay3 (acc10 i x0 x2 a) x1 else d

/-- Whichever way the two scalar tests fall, every store fills its memref, so the memref then reads the last payload stored. -/
theorem sound_kernel10 (c : Dev nD) (E : Set ℕ) (i : grid10.Coords)
    (arg2 : Memref sig .tc .vmem S2048 .i32) (harg2 : arg2.IsWhole) (arg3 : Memref sig .tc .vmem S2048 .f32) (harg3 : arg3.IsWhole)
    (arg4 : Memref sig .tc .vmem S2048x64 .bf16) (harg4 : arg4.IsWhole) (arg5 : Memref sig .tc .vmem S2048x64 .bf16) (harg5 : arg5.IsWhole)
    (arg6 : Memref sig .tc .vmem S2048x64 .f32) (harg6 : arg6.IsWhole)
    (x0 : Vec F S2048 .i32) (x1 : Vec F S2048 .f32) (x2 : Vec F S2048x64 .bf16) (d : Vec F S2048x64 .bf16) (a : Vec F S2048x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out10 i x0 x1 x2 a d) ∗ owns (c : Thread nD τ) arg6 fullShare (acc10 i x0 x2 a)) -∗ K ⟨⟩))
      ⊢ wp frame (wpE (defs₀ (F := F)) Variants.none c none) E (cc10__gather_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc10__gather_kernel_eq_skeleton]
  unfold cc10__gather_kernel_skel
  iintro ⟨H0, H1, H2, H3, H4, Hk⟩
  by_cases h1 : c10_first i = 1#1 <;> by_cases h2 : k10_cond2 i = 1#1 <;>
  · sl_exec (disch := first | exact h1 | exact h2)
    sl_step
    iapply Hk; iframe H0 H1 H2
    unfold owns out10 acc10
    isplitl [H3] <;>
    · iexists _; isplitr; swap; · iassumption
      ipureintro; sl_unfold_run_names
      simp only [read_writes_whole S2048x64 zeros2, View.readCov_cons_toLoadRect, readAt_whole S2048 zeros1,
        readAt_whole S2048x64 zeros2, View.read_rep, h1, h2, if_true, if_false]

end Cert.KernelIdeal.Hand

end
-- ==== Proof.KI.Reg10.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.KI.Body10
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev srcBlk10 (c : Dev nD) (t : Fin cfg10.N) : Vec F S2048 .i32 := iblk10 V c 0 t
abbrev valBlk10 (c : Dev nD) (t : Fin cfg10.N) : Vec F S2048 .f32 := iblk10 V c 1 t
abbrev tabBlk10 (c : Dev nD) (t : Fin cfg10.N) : Vec F S2048x64 .bf16 := iblk10 V c 2 t

def pt10 (n : ℕ) : Fin cfg10.N := ⟨n % cfg10.N, Nat.mod_lt _ (by decide)⟩

def accAt10 (c : Dev nD) : ℕ → Vec F S2048x64 .f32
  | 0 => acc10 (grid10.coords (pt10 0)) (srcBlk10 V c (pt10 0)) (tabBlk10 V c (pt10 0)) k10_pay1
  | n + 1 => acc10 (grid10.coords (pt10 (n + 1))) (srcBlk10 V c (pt10 (n + 1))) (tabBlk10 V c (pt10 (n + 1))) (accAt10 c n)

def Φ10 (c : Dev nD) (k : Fin (cfg10.N + 1)) : sProp 𝕄 :=
  iprop((∃ f : Vec F S2048x64 .f32, owns (c : Thread nD τ) (Memref.whole cc10_scratch0) fullShare f ∗ ⌜k.val % 25 ≠ 0 → f = accAt10 V c (k.val - 1)⌝)
    ∗ Pipeline.scopedRestBut (Ix := Unit) (Name := ℕ) (U := UR sig nD τ) (Lvl := ℕ) (Val := Elt F) spec10 c [cc10_scratch0]
    ∗ ∃ r, prngReg c r)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => k10_pay3 (accAt10 V c t.val) (valBlk10 V c t)
  Φ k := Φ10 V c k
  q _ := fullShare
  owed _ := 0

theorem A_eq10 (c : Dev nD) (w : Fin cfg10.W) : (dat10 V c).A w = V c (Pipeline.arrRef spec10 w) := by
  dsimp only [dat10]

theorem after10_3 (c : Dev nD) (t : Fin cfg10.N) : (dat10 V c).after 3 t = k10_pay3 (accAt10 V c t.val) (valBlk10 V c t) := by dsimp only [dat10]

theorem c10_first_iff : ∀ t : Fin cfg10.N, c10_first (grid10.coords t) = 1#1 ↔ t.val % 25 = 0 :=
  (by decide +kernel : ∀ t : Fin grid10.N, c10_first (grid10.coords t) = 1#1 ↔ t.val % 25 = 0)

theorem k10_cond2_iff : ∀ t : Fin cfg10.N, k10_cond2 (grid10.coords t) = 1#1 ↔ t.val % 25 = 24 :=
  (by decide +kernel : ∀ t : Fin grid10.N, k10_cond2 (grid10.coords t) = 1#1 ↔ t.val % 25 = 24)

-- Every input block the body reads at a point is that point's block of the input array.
theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d
theorem before10_2 (c : Dev nD) (t : Fin cfg10.N) (d) : (dat10 V c).before 2 t d = iblk10 V c 2 t :=
  (dat10 V c).before_in_eq_fetched 2 rfl (fun _ => rfl) (fun _ _ _ => rfl) (fun _ => rfl) t d

def step10 (c : Dev nD) (t : Fin cfg10.N) (a : Vec F S2048x64 .f32) : Vec F S2048x64 .f32 :=
  acc10 (grid10.coords t) (srcBlk10 V c t) (tabBlk10 V c t) a

-- One update over the partial sum of the point before (over anything where a new sum starts) is this point's partial sum.
theorem step10_eq_accAt10 (c : Dev nD) (t : Fin cfg10.N) (f : Vec F S2048x64 .f32) (hf : t.val % 25 ≠ 0 → f = accAt10 V c (t.val - 1)) :
    step10 V c t f = accAt10 V c t.val :=
  Cert.Lib.step_eq_fold 25 (step10 V c) (accAt10 V c) k10_pay1 pt10 (fun t => Fin.ext (Nat.mod_eq_of_lt t.isLt)) rfl (fun _ => rfl)
    (fun t h a a' => by unfold step10 acc10; rw [if_pos ((c10_first_iff t).mpr h), if_pos ((c10_first_iff t).mpr h)]) t f hf

theorem Φ10_in (c : Dev nD) : iprop((∃ r, prngReg c r) ∗ Pipeline.scopedRest (Ix := Unit) (Name := ℕ) (U := UR sig nD τ) (Lvl := ℕ) (Val := Elt F) spec10 c) ⊢ Φ10 V c 0 := by
  rw [scopedRest10_split]; unfold Φ10
  simp only [owns_whole]
  iintro ⟨Hg, ⟨%f, HS⟩, HR⟩
  iframe HR Hg
  iexists f; iframe HS
  ipureintro; exact fun h => absurd (Nat.zero_mod 25) h

theorem Φ10_out (c : Dev nD) : Φ10 V c (Fin.last cfg10.N) ⊢ iprop((∃ r, prngReg c r) ∗ Pipeline.scopedRest (Ix := Unit) (Name := ℕ) (U := UR sig nD τ) (Lvl := ℕ) (Val := Elt F) spec10 c) := by
  rw [scopedRest10_split]; unfold Φ10
  simp only [owns_whole]
  iintro ⟨⟨%f, HS, %_⟩, HR, Hg⟩
  iframe HR Hg
  iexists f; iexact HS

-- The output block after the body is the one the proof data names: the scaled sum where a sum ends, the block as found elsewhere.
theorem leaves10_3 (c : Dev nD) (t : Fin cfg10.N) (f : Vec F S2048x64 .f32) (d) (hf : t.val % 25 ≠ 0 → f = accAt10 V c (t.val - 1)) :
    owns (c : Thread nD τ) (st10_3 t) fullShare (out10 (grid10.coords t) (srcBlk10 V c t) (valBlk10 V c t) (tabBlk10 V c t) f ((dat10 V c).before 3 t d))
      ⊢ ((dat10 V c).leavesExact 3 t : sProp 𝕄) := by
  have hacc := step10_eq_accAt10 V c t f hf
  unfold step10 at hacc
  unfold out10
  by_cases h : k10_cond2 (grid10.coords t) = 1#1
  · unfold Dat.leavesExact
    rw [show cfg10.idle 3 (cfg10.grid.coords t) = false from (by show (!(k10_cond2 (grid10.coords t) == 1#1)) = false; rw [h]; rfl), if_pos h, after10_3, hacc]
  · rw [Dat.leavesExact_idle (dat10 V c) 3 t (by show (!(k10_cond2 (grid10.coords t) == 1#1)) = true; rw [Bool.not_eq_true', beq_eq_false_iff_ne]; exact h)
      (Bool.eq_false_iff.mpr fun e => h ((k10_cond2_iff t).mpr ((flush10_3 t).mp e))), if_neg h]
    iintro H; iexists d; iexact H

-- The body at any point takes the partial sum of the point before and leaves this point's.
theorem body_obligation10 (c : Dev nD) : BodyObligation (dat10 (F := F) V c) (defs₀ (F := F)) Variants.none () Set.univ := fun t => by
  rw [bigSep_W10, bigSep_W10]
  sl_whnfR [defs₀, Defs.onTc]
  simp only [before10_0, before10_1, before10_2, show ∀ k, (dat10 V c).Φ k = Φ10 V c k from fun _ => rfl, Φ10]
  rw [show (dat10 V c).owesAt () t.succ = (dat10 V c).owesAt () t.castSucc from rfl, show (dat10 V c).after 0 t = iblk10 V c 0 t from rfl,
    show (dat10 V c).after 1 t = iblk10 V c 1 t from rfl, show (dat10 V c).after 2 t = iblk10 V c 2 t from rfl]
  iintro ⟨⟨⟨%f, HS, %hf⟩, HR, Hg⟩, Ho, ⟨%d0, H0⟩, ⟨%d1, H1⟩, ⟨%d2, H2⟩, ⟨%d3, H3⟩⟩
  iapply sound_kernel10 (F := F) c Set.univ (grid10.coords t) (st10_0 t) (hstage10_0 _) (st10_1 t) (hstage10_1 _)
    (st10_2 t) (hstage10_2 _) (st10_3 t) (hstage10_3 _) _ (Memref.isWhole_whole cc10_scratch0)
    (srcBlk10 V c t) (valBlk10 V c t) (tabBlk10 V c t) ((dat10 V c).before 3 t d3) f
  iframe H0 H1 H2 H3 HS
  iintro ⟨H0, H1, H2, H3, HS⟩
  iframe HR Hg Ho H0 H1 H2
  isplitl [HS]
  · iexists _; iframe HS
    ipureintro; exact fun _ => step10_eq_accAt10 V c t f hf
  · iapply leaves10_3 V c t f d3 hf; iexact H3

end Region

end Cert.KernelIdeal.Hand

end
-- ==== Proof.KI.Body11.lean ====
import proofs.«410823_j40836549050565_1_alg».proof.Proof.Gen.KernelIdeal.Launch
import proofs.«410823_j40836549050565_1_alg».proof.Proof.Gen.KernelIdeal.Skeleton
import proofs.«410823_j40836549050565_1_alg».proof.Proof.LibWhole
import Idealize.ShloMosaic.Lib.Pipeline.TableIdle

noncomputable section

namespace Cert.KernelIdeal.Hand

open Cert.KernelIdeal.Gen Cert.Lib.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def c11_first (i : grid11.Coords) : BitVec 1 :=
  Scalar.cmpi .ne (Scalar.extui (Scalar.cmpi .eq (BitVec.ofNat 32 (i 1).val) 0#32)) 0#32

def acc11 (i : grid11.Coords) (x0 : Vec F S2048 .i32) (x1 : Vec F S2048x64 .bf16) (a : Vec F S2048x64 .f32) : Vec F S2048x64 .f32 :=
  k11_pay2 i x0 (if c11_first i = 1#1 then k11_pay1 else a) x1

def out11 (i : grid11.Coords) (x0 : Vec F S2048 .i32) (x1 : Vec F S2048x64 .bf16) (x2 : Vec F S1x64 .f32) (a : Vec F S2048x64 .f32)
    (d : Vec F S2048x64 .f32) : Vec F S2048x64 .f32 :=
  if k11_cond2 i = 1#1 then k11_pay3 (acc11 i x0 x1 a) x2 else d

/-- Whichever way the two scalar tests fall, every store fills its memref, so the memref then reads the last payload stored. -/
theorem sound_kernel11 (c : Dev nD) (E : Set ℕ) (i : grid11.Coords)
    (arg2 : Memref sig .tc .vmem S2048 .i32) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (x0 : Vec F S2048 .i32) (x1 : Vec F S2048x64 .bf16) (x2 : Vec F S1x64 .f32) (d a : Vec F S2048x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out11 i x0 x1 x2 a d) ∗ owns (c : Thread nD τ) arg6 fullShare (acc11 i x0 x1 a)) -∗ K ⟨⟩))
      ⊢ wp frame (wpE (defs₀ (F := F)) Variants.none c none) E (cc11__scatter_kernel i arg2 harg2 arg3 harg3 arg4 harg4 arg5 harg5 arg6 harg6) K := by
  rw [owns_eq_rep (c : Thread nD τ) arg2, owns_eq_rep (c : Thread nD τ) arg3, owns_eq_rep (c : Thread nD τ) arg4,
    owns_eq_rep (c : Thread nD τ) arg5 _ d, owns_eq_rep (c : Thread nD τ) arg6 _ a, cc11__scatter_kernel_eq_skeleton]
  unfold cc11__scatter_kernel_skel
  iintro ⟨H0, H1, H2, H3, H4, Hk⟩
  by_cases h1 : c11_first i = 1#1 <;> by_cases h2 : k11_cond2 i = 1#1 <;>
  · sl_exec (disch := first | exact h1 | exact h2)
    sl_step
    iapply Hk; iframe H0 H1 H2
    unfold owns out11 acc11
    isplitl [H3] <;>
    · iexists _; isplitr; swap; · iassumption
      ipureintro; sl_unfold_run_names
      simp only [read_writes_whole S2048x64 zeros2, View.readCov_cons_toLoadRect, readAt_whole S2048 zeros1,
        readAt_whole S2048x64 zeros2, readAt_whole S1x64 zeros2, View.read_rep, h1, h2, if_true, if_false]

end Cert.KernelIdeal.Hand

end
-- ==== Proof.KI.Reg11.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.KI.Body11
import proofs.«410823_j40836549050565_1_alg».proof.Proof.LibCarry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev idsBlk11 (c : Dev nD) (t : Fin cfg11.N) : Vec F S2048 .i32 := iblk11 V c 0 t
abbrev msgBlk11 (c : Dev nD) (t : Fin cfg11.N) : Vec F S2048x64 .bf16 := iblk11 V c 1 t
abbrev biasBlk11 (c : Dev nD) (t : Fin cfg11.N) : Vec F S1x64 .f32 := iblk11 V c 2 t

def pt11 (n : ℕ) : Fin cfg11.N := ⟨n % cfg11.N, Nat.mod_lt _ (by decide)⟩

def accAt11 (c : Dev nD) : ℕ → Vec F S2048x64 .f32
  | 0 => acc11 (grid11.coords (pt11 0)) (idsBlk11 V c (pt11 0)) (msgBlk11 V c (pt11 0)) k11_pay1
  | n + 1 => acc11 (grid11.coords (pt11 (n + 1))) (idsBlk11 V c (pt11 (n + 1))) (msgBlk11 V c (pt11 (n + 1))) (accAt11 c n)

def Φ11 (c : Dev nD) (k : Fin (cfg11.N + 1)) : sProp 𝕄 :=
  iprop((∃ f : Vec F S2048x64 .f32, owns (c : Thread nD τ) (Memref.whole cc11_scratch0) fullShare f ∗ ⌜k.val % 293 ≠ 0 → f = accAt11 V c (k.val - 1)⌝)
    ∗ Pipeline.scopedRestBut (Ix := Unit) (Name := ℕ) (U := UR sig nD τ) (Lvl := ℕ) (Val := Elt F) spec11 c [cc11_scratch0]
    ∗ ∃ r, prngReg c r)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => k11_pay3 (accAt11 V c t.val) (biasBlk11 V c t)
  Φ k := Φ11 V c k
  q _ := fullShare
  owed _ := 0

theorem A_eq11 (c : Dev nD) (w : Fin cfg11.W) : (dat11 V c).A w = V c (Pipeline.arrRef spec11 w) := by
  dsimp only [dat11]

theorem after11_3 (c : Dev nD) (t : Fin cfg11.N) : (dat11 V c).after 3 t = k11_pay3 (accAt11 V c t.val) (biasBlk11 V c t) := by dsimp only [dat11]

theorem c11_first_iff : ∀ t : Fin cfg11.N, c11_first (grid11.coords t) = 1#1 ↔ t.val % 293 = 0 :=
  (by decide +kernel : ∀ t : Fin grid11.N, c11_first (grid11.coords t) = 1#1 ↔ t.val % 293 = 0)

theorem k11_cond2_iff : ∀ t : Fin cfg11.N, k11_cond2 (grid11.coords t) = 1#1 ↔ t.val % 293 = 292 :=
  (by decide +kernel : ∀ t : Fin grid11.N, k11_cond2 (grid11.coords t) = 1#1 ↔ t.val % 293 = 292)

-- Every input block the body reads at a point is that point's block of the input array.
theorem before11_0 (c : Dev nD) (t : Fin cfg11.N) (d) : (dat11 V c).before 0 t d = iblk11 V c 0 t :=
  (dat11 V c).before_in_eq_fetched 0 rfl (fun _ => rfl) (fun _ _ _ => rfl) (fun _ => rfl) t d
theorem before11_1 (c : Dev nD) (t : Fin cfg11.N) (d) : (dat11 V c).before 1 t d = iblk11 V c 1 t :=
  (dat11 V c).before_in_eq_fetched 1 rfl (fun _ => rfl) (fun _ _ _ => rfl) (fun _ => rfl) t d
theorem before11_2 (c : Dev nD) (t : Fin cfg11.N) (d) : (dat11 V c).before 2 t d = iblk11 V c 2 t :=
  (dat11 V c).before_in_eq_fetched 2 rfl (fun _ => rfl) (fun _ _ _ => rfl) (fun _ => rfl) t d

def step11 (c : Dev nD) (t : Fin cfg11.N) (a : Vec F S2048x64 .f32) : Vec F S2048x64 .f32 :=
  acc11 (grid11.coords t) (idsBlk11 V c t) (msgBlk11 V c t) a

-- One update over the partial sum of the point before (over anything where a new sum starts) is this point's partial sum.
theorem step11_eq_accAt11 (c : Dev nD) (t : Fin cfg11.N) (f : Vec F S2048x64 .f32) (hf : t.val % 293 ≠ 0 → f = accAt11 V c (t.val - 1)) :
    step11 V c t f = accAt11 V c t.val :=
  Cert.Lib.step_eq_fold 293 (step11 V c) (accAt11 V c) k11_pay1 pt11 (fun t => Fin.ext (Nat.mod_eq_of_lt t.isLt)) rfl (fun _ => rfl)
    (fun t h a a' => by unfold step11 acc11; rw [if_pos ((c11_first_iff t).mpr h), if_pos ((c11_first_iff t).mpr h)]) t f hf

theorem Φ11_in (c : Dev nD) : iprop((∃ r, prngReg c r) ∗ Pipeline.scopedRest (Ix := Unit) (Name := ℕ) (U := UR sig nD τ) (Lvl := ℕ) (Val := Elt F) spec11 c) ⊢ Φ11 V c 0 := by
  rw [scopedRest11_split]; unfold Φ11
  simp only [owns_whole]
  iintro ⟨Hg, ⟨%f, HS⟩, HR⟩
  iframe HR Hg
  iexists f; iframe HS
  ipureintro; exact fun h => absurd (Nat.zero_mod 293) h

theorem Φ11_out (c : Dev nD) : Φ11 V c (Fin.last cfg11.N) ⊢ iprop((∃ r, prngReg c r) ∗ Pipeline.scopedRest (Ix := Unit) (Name := ℕ) (U := UR sig nD τ) (Lvl := ℕ) (Val := Elt F) spec11 c) := by
  rw [scopedRest11_split]; unfold Φ11
  simp only [owns_whole]
  iintro ⟨⟨%f, HS, %_⟩, HR, Hg⟩
  iframe HR Hg
  iexists f; iexact HS

-- The output block after the body is the one the proof data names: the sum plus the bias row where a sum ends, the block as found elsewhere.
theorem leaves11_3 (c : Dev nD) (t : Fin cfg11.N) (f : Vec F S2048x64 .f32) (d) (hf : t.val % 293 ≠ 0 → f = accAt11 V c (t.val - 1)) :
    owns (c : Thread nD τ) (st11_3 t) fullShare (out11 (grid11.coords t) (idsBlk11 V c t) (msgBlk11 V c t) (biasBlk11 V c t) f ((dat11 V c).before 3 t d))
      ⊢ ((dat11 V c).leavesExact 3 t : sProp 𝕄) := by
  have hacc := step11_eq_accAt11 V c t f hf
  unfold step11 at hacc
  unfold out11
  by_cases h : k11_cond2 (grid11.coords t) = 1#1
  · unfold Dat.leavesExact
    rw [show cfg11.idle 3 (cfg11.grid.coords t) = false from (by show (!(k11_cond2 (grid11.coords t) == 1#1)) = false; rw [h]; rfl), if_pos h, after11_3, hacc]
  · rw [Dat.leavesExact_idle (dat11 V c) 3 t (by show (!(k11_cond2 (grid11.coords t) == 1#1)) = true; rw [Bool.not_eq_true', beq_eq_false_iff_ne]; exact h)
      (Bool.eq_false_iff.mpr fun e => h ((k11_cond2_iff t).mpr ((flush11_3 t).mp e))), if_neg h]
    iintro H; iexists d; iexact H

-- The body at any point takes the partial sum of the point before and leaves this point's.
theorem body_obligation11 (c : Dev nD) : BodyObligation (dat11 (F := F) V c) (defs₀ (F := F)) Variants.none () Set.univ := fun t => by
  rw [bigSep_W11, bigSep_W11]
  sl_whnfR [defs₀, Defs.onTc]
  simp only [before11_0, before11_1, before11_2, show ∀ k, (dat11 V c).Φ k = Φ11 V c k from fun _ => rfl, Φ11]
  rw [show (dat11 V c).owesAt () t.succ = (dat11 V c).owesAt () t.castSucc from rfl, show (dat11 V c).after 0 t = iblk11 V c 0 t from rfl,
    show (dat11 V c).after 1 t = iblk11 V c 1 t from rfl, show (dat11 V c).after 2 t = iblk11 V c 2 t from rfl]
  iintro ⟨⟨⟨%f, HS, %hf⟩, HR, Hg⟩, Ho, ⟨%d0, H0⟩, ⟨%d1, H1⟩, ⟨%d2, H2⟩, ⟨%d3, H3⟩⟩
  iapply sound_kernel11 (F := F) c Set.univ (grid11.coords t) (st11_0 t) (hstage11_0 _) (st11_1 t) (hstage11_1 _)
    (st11_2 t) (hstage11_2 _) (st11_3 t) (hstage11_3 _) _ (Memref.isWhole_whole cc11_scratch0)
    (idsBlk11 V c t) (msgBlk11 V c t) (biasBlk11 V c t) ((dat11 V c).before 3 t d3) f
  iframe H0 H1 H2 H3 HS
  iintro ⟨H0, H1, H2, H3, HS⟩
  iframe HR Hg Ho H0 H1 H2
  isplitl [HS]
  · iexists _; iframe HS
    ipureintro; exact fun _ => step11_eq_accAt11 V c t f hf
  · iapply leaves11_3 V c t f d3 hf; iexact H3

end Region

end Cert.KernelIdeal.Hand

end
-- ==== Proof.KI.Outs.lean ====
import proofs.«410823_j40836549050565_1_alg».proof.Proof.KI.RegionsP
import proofs.«410823_j40836549050565_1_alg».proof.Proof.KI.Reg0
import proofs.«410823_j40836549050565_1_alg».proof.Proof.KI.Reg1
import proofs.«410823_j40836549050565_1_alg».proof.Proof.KI.Reg2
import proofs.«410823_j40836549050565_1_alg».proof.Proof.KI.Reg3
import proofs.«410823_j40836549050565_1_alg».proof.Proof.KI.Reg4
import proofs.«410823_j40836549050565_1_alg».proof.Proof.KI.Reg5
import proofs.«410823_j40836549050565_1_alg».proof.Proof.KI.Reg6
import proofs.«410823_j40836549050565_1_alg».proof.Proof.KI.Reg7
import proofs.«410823_j40836549050565_1_alg».proof.Proof.KI.Reg8
import proofs.«410823_j40836549050565_1_alg».proof.Proof.KI.Reg9
import proofs.«410823_j40836549050565_1_alg».proof.Proof.KI.Reg10
import proofs.«410823_j40836549050565_1_alg».proof.Proof.KI.Reg11

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.Sem

variable {F : FTy → Type} [FloatOps F]
variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

-- The launch contents with one buffer `r₀` replaced by `x`.
def put (r₀ : Ref sig .tc) (x : (c : Dev nD) → Buf (Elt F) ((c : Thread nD τ).loc r₀)) (r : Ref sig .tc) (c : Dev nD) :
    Buf (Elt F) ((c : Thread nD τ).loc r) :=
  if h : r = r₀ then h ▸ x c else m ((c : Thread nD τ).loc r)

theorem put_self (r₀ : Ref sig .tc) (x : (c : Dev nD) → Buf (Elt F) ((c : Thread nD τ).loc r₀)) (c : Dev nD) : put m r₀ x r₀ c = x c := by
  unfold put; rw [dif_pos rfl]

-- What item J leaves in each buffer, given what the earlier items left.
def step (prev : Outs (F := F)) (J : ℕ) : (r : Ref sig .tc) → (c : Dev nD) → Buf (Elt F) ((c : Thread nD τ).loc r) :=
  if J = 13 then put m main_v6 fun c => (dat0 (rd (V12 m)) c).arrAt 2 cfg0.N else
  if J = 16 then put m main_v8 fun c => (dat1 (rd (V15 m prev)) c).arrAt 3 cfg1.N else
  if J = 18 then put m main_v10 fun c => (dat2 (rd (V17 m prev)) c).arrAt 3 cfg2.N else
  if J = 21 then put m main_v13 fun c => (dat3 (rd (V20 m prev)) c).arrAt 2 cfg3.N else
  if J = 24 then put m main_v15 fun c => (dat4 (rd (V23 m prev)) c).arrAt 3 cfg4.N else
  if J = 26 then put m main_v17 fun c => (dat5 (rd (V25 m prev)) c).arrAt 3 cfg5.N else
  if J = 28 then put m main_v19 fun c => (dat6 (rd (V27 m prev)) c).arrAt 2 cfg6.N else
  if J = 31 then put m main_v21 fun c => (dat7 (rd (V30 m prev)) c).arrAt 3 cfg7.N else
  if J = 33 then put m main_v23 fun c => (dat8 (rd (V32 m prev)) c).arrAt 3 cfg8.N else
  if J = 36 then put m main_v26 fun c => (dat9 (rd (V35 m prev)) c).arrAt 2 cfg9.N else
  if J = 39 then put m main_v28 fun c => (dat10 (rd (V38 m prev)) c).arrAt 3 cfg10.N else
  if J = 41 then put m main_v30 fun c => (dat11 (rd (V40 m prev)) c).arrAt 3 cfg11.N else
  fun r c => m ((c : Thread nD τ).loc r)

def outsUpTo : ℕ → Outs (F := F)
  | 0 => fun _ r c => m ((c : Thread nD τ).loc r)
  | n + 1 => fun J => if J = n + 1 then step m (outsUpTo n) J else outsUpTo n J

def outsF : Outs (F := F) := outsUpTo m 41

-- Entry J of the table is settled at stage J.
theorem outsUpTo_stable (n J : ℕ) (h : J ≤ n) : outsUpTo m n J = outsUpTo m J J := by
  induction n with
  | zero => obtain rfl : J = 0 := Nat.le_zero.mp h; rfl
  | succ n ih =>
    rcases Nat.lt_or_eq_of_le h with h' | rfl
    · exact (if_neg (by omega) : outsUpTo m (n + 1) J = outsUpTo m n J).trans (ih (by omega))
    · rfl

theorem outsF_step (n J : ℕ) (hJ : J = n + 1) (h : n < 41) : outsF m J = step m (outsUpTo m n) J := by
  subst hJ; exact (outsUpTo_stable m 41 (n + 1) h).trans (if_pos rfl)

def AgreeTo (n : ℕ) (o o' : Outs (F := F)) : Prop := ∀ J, J ≤ n → o J = o' J

theorem AgreeTo.mono {n n' : ℕ} {o o' : Outs (F := F)} (h : AgreeTo n o o') (hn : n' ≤ n) : AgreeTo n' o o' := fun J hJ => h J (hJ.trans hn)

theorem agree (k n : ℕ) (hk : k ≤ n) (hn : n ≤ 41) : AgreeTo k (outsF m) (outsUpTo m n) := fun J hJ =>
  (outsUpTo_stable m 41 J ((hJ.trans hk).trans hn)).trans (outsUpTo_stable m n J (hJ.trans hk)).symm

theorem V15_congr (o o' : Outs (F := F)) (h : AgreeTo 13 o o') : V15 m o = V15 m o' := by
  funext c; unfold V15 V14 V13; rw [h 13 le_rfl]
theorem V17_congr (o o' : Outs (F := F)) (h : AgreeTo 16 o o') : V17 m o = V17 m o' := by
  funext c; unfold V17 V16; rw [V15_congr m o o' (h.mono (by decide)), h 16 le_rfl]
theorem V20_congr (o o' : Outs (F := F)) (h : AgreeTo 18 o o') : V20 m o = V20 m o' := by
  funext c; unfold V20 V19 V18; rw [V17_congr m o o' (h.mono (by decide)), h 18 le_rfl]
theorem V23_congr (o o' : Outs (F := F)) (h : AgreeTo 21 o o') : V23 m o = V23 m o' := by
  funext c; unfold V23 V22 V21; rw [V20_congr m o o' (h.mono (by decide)), h 21 le_rfl]
theorem V25_congr (o o' : Outs (F := F)) (h : AgreeTo 24 o o') : V25 m o = V25 m o' := by
  funext c; unfold V25 V24; rw [V23_congr m o o' (h.mono (by decide)), h 24 le_rfl]
theorem V27_congr (o o' : Outs (F := F)) (h : AgreeTo 26 o o') : V27 m o = V27 m o' := by
  funext c; unfold V27 V26; rw [V25_congr m o o' (h.mono (by decide)), h 26 le_rfl]
theorem V30_congr (o o' : Outs (F := F)) (h : AgreeTo 28 o o') : V30 m o = V30 m o' := by
  funext c; unfold V30 V29 V28; rw [V27_congr m o o' (h.mono (by decide)), h 28 le_rfl]
theorem V32_congr (o o' : Outs (F := F)) (h : AgreeTo 31 o o') : V32 m o = V32 m o' := by
  funext c; unfold V32 V31; rw [V30_congr m o o' (h.mono (by decide)), h 31 le_rfl]
theorem V35_congr (o o' : Outs (F := F)) (h : AgreeTo 33 o o') : V35 m o = V35 m o' := by
  funext c; unfold V35 V34 V33; rw [V32_congr m o o' (h.mono (by decide)), h 33 le_rfl]
theorem V38_congr (o o' : Outs (F := F)) (h : AgreeTo 36 o o') : V38 m o = V38 m o' := by
  funext c; unfold V38 V37 V36; rw [V35_congr m o o' (h.mono (by decide)), h 36 le_rfl]
theorem V40_congr (o o' : Outs (F := F)) (h : AgreeTo 39 o o') : V40 m o = V40 m o' := by
  funext c; unfold V40 V39; rw [V38_congr m o o' (h.mono (by decide)), h 39 le_rfl]
theorem outsF_13 (c : Dev nD) : outsF m 13 main_v6 c = (dat0 (rd (V12 m)) c).arrAt 2 cfg0.N := by
  rw [outsF_step m 12 13 rfl (by decide)]
  unfold step; rw [if_pos rfl]; exact put_self m _ _ c
theorem outsF_16 (c : Dev nD) : outsF m 16 main_v8 c = (dat1 (rd (V15 m (outsF m))) c).arrAt 3 cfg1.N := by
  rw [outsF_step m 15 16 rfl (by decide), V15_congr m _ _ (agree m 13 15 (by decide) (by decide))]
  unfold step; rw [if_neg (by decide), if_pos rfl]; exact put_self m _ _ c
theorem outsF_18 (c : Dev nD) : outsF m 18 main_v10 c = (dat2 (rd (V17 m (outsF m))) c).arrAt 3 cfg2.N := by
  rw [outsF_step m 17 18 rfl (by decide), V17_congr m _ _ (agree m 16 17 (by decide) (by decide))]
  unfold step; rw [if_neg (by decide), if_neg (by decide), if_pos rfl]; exact put_self m _ _ c
theorem outsF_21 (c : Dev nD) : outsF m 21 main_v13 c = (dat3 (rd (V20 m (outsF m))) c).arrAt 2 cfg3.N := by
  rw [outsF_step m 20 21 rfl (by decide), V20_congr m _ _ (agree m 18 20 (by decide) (by decide))]
  unfold step; rw [if_neg (by decide), if_neg (by decide), if_neg (by decide), if_pos rfl]; exact put_self m _ _ c
theorem outsF_24 (c : Dev nD) : outsF m 24 main_v15 c = (dat4 (rd (V23 m (outsF m))) c).arrAt 3 cfg4.N := by
  rw [outsF_step m 23 24 rfl (by decide), V23_congr m _ _ (agree m 21 23 (by decide) (by decide))]
  unfold step; rw [if_neg (by decide), if_neg (by decide), if_neg (by decide), if_neg (by decide), if_pos rfl]; exact put_self m _ _ c
theorem outsF_26 (c : Dev nD) : outsF m 26 main_v17 c = (dat5 (rd (V25 m (outsF m))) c).arrAt 3 cfg5.N := by
  rw [outsF_step m 25 26 rfl (by decide), V25_congr m _ _ (agree m 24 25 (by decide) (by decide))]
  unfold step; rw [if_neg (by decide), if_neg (by decide), if_neg (by decide), if_neg (by decide), if_neg (by decide), if_pos rfl]; exact put_self m _ _ c
theorem outsF_28 (c : Dev nD) : outsF m 28 main_v19 c = (dat6 (rd (V27 m (outsF m))) c).arrAt 2 cfg6.N := by
  rw [outsF_step m 27 28 rfl (by decide), V27_congr m _ _ (agree m 26 27 (by decide) (by decide))]
  unfold step; rw [if_neg (by decide), if_neg (by decide), if_neg (by decide), if_neg (by decide), if_neg (by decide), if_neg (by decide), if_pos rfl]; exact put_self m _ _ c
theorem outsF_31 (c : Dev nD) : outsF m 31 main_v21 c = (dat7 (rd (V30 m (outsF m))) c).arrAt 3 cfg7.N := by
  rw [outsF_step m 30 31 rfl (by decide), V30_congr m _ _ (agree m 28 30 (by decide) (by decide))]
  unfold step; rw [if_neg (by decide), if_neg (by decide), if_neg (by decide), if_neg (by decide), if_neg (by decide), if_neg (by decide), if_neg (by decide), if_pos rfl]; exact put_self m _ _ c
theorem outsF_33 (c : Dev nD) : outsF m 33 main_v23 c = (dat8 (rd (V32 m (outsF m))) c).arrAt 3 cfg8.N := by
  rw [outsF_step m 32 33 rfl (by decide), V32_congr m _ _ (agree m 31 32 (by decide) (by decide))]
  unfold step; rw [if_neg (by decide), if_neg (by decide), if_neg (by decide), if_neg (by decide), if_neg (by decide), if_neg (by decide), if_neg (by decide), if_neg (by decide), if_pos rfl]; exact put_self m _ _ c
theorem outsF_36 (c : Dev nD) : outsF m 36 main_v26 c = (dat9 (rd (V35 m (outsF m))) c).arrAt 2 cfg9.N := by
  rw [outsF_step m 35 36 rfl (by decide), V35_congr m _ _ (agree m 33 35 (by decide) (by decide))]
  unfold step; rw [if_neg (by decide), if_neg (by decide), if_neg (by decide), if_neg (by decide), if_neg (by decide), if_neg (by decide), if_neg (by decide), if_neg (by decide), if_neg (by decide), if_pos rfl]; exact put_self m _ _ c
theorem outsF_39 (c : Dev nD) : outsF m 39 main_v28 c = (dat10 (rd (V38 m (outsF m))) c).arrAt 3 cfg10.N := by
  rw [outsF_step m 38 39 rfl (by decide), V38_congr m _ _ (agree m 36 38 (by decide) (by decide))]
  unfold step; rw [if_neg (by decide), if_neg (by decide), if_neg (by decide), if_neg (by decide), if_neg (by decide), if_neg (by decide), if_neg (by decide), if_neg (by decide), if_neg (by decide), if_neg (by decide), if_pos rfl]; exact put_self m _ _ c
theorem outsF_41 (c : Dev nD) : outsF m 41 main_v30 c = (dat11 (rd (V40 m (outsF m))) c).arrAt 3 cfg11.N := by
  rw [outsF_step m 40 41 rfl (by decide), V40_congr m _ _ (agree m 39 40 (by decide) (by decide))]
  unfold step; rw [if_neg (by decide), if_neg (by decide), if_neg (by decide), if_neg (by decide), if_neg (by decide), if_neg (by decide), if_neg (by decide), if_neg (by decide), if_neg (by decide), if_neg (by decide), if_neg (by decide), if_pos rfl]; exact put_self m _ _ c

end Cert.KernelIdeal.Hand

end
-- ==== Proof.KI.Run.lean ====
import proofs.«410823_j40836549050565_1_alg».proof.Proof.Gen.KernelIdeal.Launch
import proofs.«410823_j40836549050565_1_alg».proof.Proof.Gen.KernelIdeal.Skeleton
import proofs.«410823_j40836549050565_1_alg».proof.Proof.Gen.KernelIdeal.Points
import proofs.«410823_j40836549050565_1_alg».proof.Proof.KI.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

def pdats : (p : Fin 12) → (c : Dev nD) → Dat τ (Elt F) Unit ℕ (UR sig nD τ) ℕ (cfgs p) c
  | ⟨0, _⟩ => fun c => dat0 (rd (V12 m)) c
  | ⟨1, _⟩ => fun c => dat1 (rd (V15 m (outsF m))) c
  | ⟨2, _⟩ => fun c => dat2 (rd (V17 m (outsF m))) c
  | ⟨3, _⟩ => fun c => dat3 (rd (V20 m (outsF m))) c
  | ⟨4, _⟩ => fun c => dat4 (rd (V23 m (outsF m))) c
  | ⟨5, _⟩ => fun c => dat5 (rd (V25 m (outsF m))) c
  | ⟨6, _⟩ => fun c => dat6 (rd (V27 m (outsF m))) c
  | ⟨7, _⟩ => fun c => dat7 (rd (V30 m (outsF m))) c
  | ⟨8, _⟩ => fun c => dat8 (rd (V32 m (outsF m))) c
  | ⟨9, _⟩ => fun c => dat9 (rd (V35 m (outsF m))) c
  | ⟨10, _⟩ => fun c => dat10 (rd (V38 m (outsF m))) c
  | ⟨11, _⟩ => fun c => dat11 (rd (V40 m (outsF m))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option maxHeartbeats 2000000

variable {p : Fin 12}

/-- Each array after the last point is read off the contents after the region: an input is never written and its buffer is kept; the output's is given. -/
theorem arrAt_end (lf : Pipeline.LaunchFacts (nD := nD) (τ := τ) cfgs p) {Vb Va : Dev nD → Valuation τ sig (Elt F)} (j : Fin (cfgs p).W) (c : Dev nD)
    (hA : ∀ w, (pdats m p c).A w = rd Vb c (Pipeline.arrRef (cfgs p).spec w))
    (hio : ∀ w, w ≠ j → ((cfgs p).win w).isOut = false)
    (hV : ∀ b : Ref sig .tc, b ∉ [Pipeline.arrRef (cfgs p).spec j] → Va c b = Vb c b)
    (hx : (pdats m p c).arrAt j (cfgs p).N = Va c (Pipeline.arrRef (cfgs p).spec j)) (w : Fin (cfgs p).W) :
    (pdats m p c).arrAt w (cfgs p).N = rd Va c (Pipeline.arrRef (cfgs p).spec w) := by
  by_cases hw : w = j
  · subst hw; exact hx
  · exact (((pdats m p c).arrAt_in w (hio w hw) _).trans (hA w)).trans (hV _ fun h => hw (lf.win.arr_inj (List.mem_singleton.mp h))).symm

/-- An invariant that is exactly what the region is entered with is entered from it and gives it back. -/
theorem ΦA_in {gr W : ℕ} (win : Fin W → Pipeline.WinSpec sig gr) (c : Dev nD) :
    (iprop((∃ r, prngReg c r) ∗ Pipeline.scopedRest (Ix := Unit) (Name := ℕ) (U := UR sig nD τ) (Lvl := ℕ) (Val := Elt F) win c) : sProp 𝕄) ⊢ Pipeline.ΦA win c := by
  unfold Pipeline.ΦA
  iintro ⟨Hp, Hr⟩
  isplitl [Hr]; · iexact Hr
  iexact Hp
theorem ΦA_out {gr W : ℕ} (win : Fin W → Pipeline.WinSpec sig gr) (c : Dev nD) :
    (Pipeline.ΦA win c : sProp 𝕄) ⊢ iprop((∃ r, prngReg c r) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  iexact Hr

/-- With nothing owed at any point, what a core owes at a point is nothing. -/
theorem owesAt_of {cfg : Cfg sig Λ₀} {c : Dev nD} (dat : Dat τ (Elt F) Unit ℕ (UR sig nD τ) ℕ cfg c) (t : Fin (cfg.N + 1)) (h0 : dat.owed t = 0) (hrec : ∀ x, x ∈ dat.recorded t) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr; · ipureintro; exact fun x _ => Or.inl (hrec x)
  iexact HO
theorem owes_of_owesAt {cfg : Cfg sig Λ₀} {c : Dev nD} (dat : Dat τ (Elt F) Unit ℕ (UR sig nD τ) ℕ cfg c) (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-- A table entry equal to `y` makes `y` the updated contents' value at the updated buffer. -/
theorem upd_at (V : Valuation τ sig (Elt F)) (o : Ref sig .tc) {x y : (Proc.devRef .tc o : DevRef τ sig).ty.Contents (Elt F)} (h : x = y) :
    y = Function.update V (Proc.devRef .tc o) x (Proc.devRef .tc o) :=
  h.symm.trans (Function.update_self (Proc.devRef .tc o : DevRef τ sig) x V).symm

theorem R_owes (c : Dev nD) : (R (F := F) c) ⊢ (iprop(∃ W, owes (c : Thread nD τ) (0 : CellTallies nD τ sig Unit) W) : sProp 𝕄) := by
  iintro ⟨-, H⟩; iexact H

set_option backward.isDefEq.respectTransparency.types false

/-- A region that owes nothing and writes the array of window `j` alone takes the buffers from `Vb` to `Va`, which differ there only. -/
def regOf (p : Fin 12) (lf : Pipeline.LaunchFacts (nD := nD) (τ := τ) cfgs p) (Vb Va : Dev nD → Valuation τ sig (Elt F)) (j : Fin (cfgs p).W)
    (hbody : ∀ c, BodyObligation (pdats m p c) (defs₀ (F := F)) 𝒱₀ () Set.univ)
    (hq : ∀ c w, (pdats m p c).q w = fullShare) (howed : ∀ c t, (pdats m p c).owed t = 0) (hrec : ∀ c t x, x ∈ (pdats m p c).recorded t)
    (hA : ∀ c w, (pdats m p c).A w = rd Vb c (Pipeline.arrRef (cfgs p).spec w))
    (hΦ₀ : ∀ c, (iprop((∃ r, prngReg c r) ∗ Pipeline.scopedRest (Ix := Unit) (Name := ℕ) (U := UR sig nD τ) (Lvl := ℕ) (Val := Elt F) (cfgs p).spec c) : sProp 𝕄) ⊢ (pdats m p c).Φ 0)
    (hΦₙ : ∀ c, (pdats m p c).Φ (Fin.last (cfgs p).N) ⊢ (iprop((∃ r, prngReg c r) ∗ Pipeline.scopedRest (Ix := Unit) (Name := ℕ) (U := UR sig nD τ) (Lvl := ℕ) (Val := Elt F) (cfgs p).spec c) : sProp 𝕄))
    (hio : ∀ w, w ≠ j → ((cfgs p).win w).isOut = false)
    (hV : ∀ c (b : Ref sig .tc), b ∉ [Pipeline.arrRef (cfgs p).spec j] → Va c b = Vb c b)
    (hx : ∀ c, (pdats m p c).arrAt j (cfgs p).N = Va c (Pipeline.arrRef (cfgs p).spec j)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vb c) ∗ R c)
  post c := iprop(StableHlo.held (c : Thread nD τ) (Pipeline.ucRefs τ sig) (Va c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Vb c)
  hentry c := by
    rw [Pipeline.ownSems0_none]
    have hsplit := Pipeline.arrays_of_unscopedBufs (p := p) (pcfgs (F := F)) adm (pdats m) lf.win lf.arr_whole c
      ((pdats m p c).share_full (hq c)) (rd Vb c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of (pdats m p c) 0 (howed c 0) (hrec c 0)); iexact HO
    isplitl [Hp]; · iexact Hp
    iexact Hrest
  hin c := by
    iintro ⟨Hp, -, Hr⟩
    iapply (hΦ₀ c)
    isplitl [Hp]; · iexact Hp
    iexact Hr
  hout c := by
    rw [Pipeline.ownSems0_none]
    iintro H
    ihave H' := (hΦₙ c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd Vb c) (rd Va c) ((pdats m p c).arrAt · (cfgs p).N) (arrAt_end m lf j c (hA c) hio (hV c) (hx c))
      fun b hb => hV c b fun h => hb (Finset.mem_image.mpr ⟨j, Finset.mem_univ _, (List.mem_singleton.mp h).symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m p c) (Fin.last _) (howed c _)); iexact HO

def reg0 := regOf m 0 launch0 (V12 m) (V13 m (outsF m)) (2 : Fin 3) (body_obligation0 _) (fun _ _ => rfl) (fun _ _ => rfl) (fun _ _ _ => trivial)
  (A_eq0 _) (ΦA_in _) (ΦA_out _) (by decide) (V13_of m _) fun c => upd_at (V12 m c) main_v6 (outsF_13 m c)
def reg1 := regOf m 1 launch1 (V15 m (outsF m)) (V16 m (outsF m)) (3 : Fin 4) (body_obligation1 _) (fun _ _ => rfl) (fun _ _ => rfl) (fun _ _ _ => trivial)
  (A_eq1 _) (Φ1_in _) (Φ1_out _) (by decide) (V16_of m _) fun c => upd_at (V15 m (outsF m) c) main_v8 (outsF_16 m c)
def reg2 := regOf m 2 launch2 (V17 m (outsF m)) (V18 m (outsF m)) (3 : Fin 4) (body_obligation2 _) (fun _ _ => rfl) (fun _ _ => rfl) (fun _ _ _ => trivial)
  (A_eq2 _) (Φ2_in _) (Φ2_out _) (by decide) (V18_of m _) fun c => upd_at (V17 m (outsF m) c) main_v10 (outsF_18 m c)
def reg3 := regOf m 3 launch3 (V20 m (outsF m)) (V21 m (outsF m)) (2 : Fin 3) (body_obligation3 _) (fun _ _ => rfl) (fun _ _ => rfl) (fun _ _ _ => trivial)
  (A_eq3 _) (ΦA_in _) (ΦA_out _) (by decide) (V21_of m _) fun c => upd_at (V20 m (outsF m) c) main_v13 (outsF_21 m c)
def reg4 := regOf m 4 launch4 (V23 m (outsF m)) (V24 m (outsF m)) (3 : Fin 4) (body_obligation4 _) (fun _ _ => rfl) (fun _ _ => rfl) (fun _ _ _ => trivial)
  (A_eq4 _) (Φ4_in _) (Φ4_out _) (by decide) (V24_of m _) fun c => upd_at (V23 m (outsF m) c) main_v15 (outsF_24 m c)
def reg5 := regOf m 5 launch5 (V25 m (outsF m)) (V26 m (outsF m)) (3 : Fin 4) (body_obligation5 _) (fun _ _ => rfl) (fun _ _ => rfl) (fun _ _ _ => trivial)
  (A_eq5 _) (Φ5_in _) (Φ5_out _) (by decide) (V26_of m _) fun c => upd_at (V25 m (outsF m) c) main_v17 (outsF_26 m c)
def reg6 := regOf m 6 launch6 (V27 m (outsF m)) (V28 m (outsF m)) (2 : Fin 3) (body_obligation6 _) (fun _ _ => rfl) (fun _ _ => rfl) (fun _ _ _ => trivial)
  (A_eq6 _) (ΦA_in _) (ΦA_out _) (by decide) (V28_of m _) fun c => upd_at (V27 m (outsF m) c) main_v19 (outsF_28 m c)
def reg7 := regOf m 7 launch7 (V30 m (outsF m)) (V31 m (outsF m)) (3 : Fin 4) (body_obligation7 _) (fun _ _ => rfl) (fun _ _ => rfl) (fun _ _ _ => trivial)
  (A_eq7 _) (Φ7_in _) (Φ7_out _) (by decide) (V31_of m _) fun c => upd_at (V30 m (outsF m) c) main_v21 (outsF_31 m c)
def reg8 := regOf m 8 launch8 (V32 m (outsF m)) (V33 m (outsF m)) (3 : Fin 4) (body_obligation8 _) (fun _ _ => rfl) (fun _ _ => rfl) (fun _ _ _ => trivial)
  (A_eq8 _) (Φ8_in _) (Φ8_out _) (by decide) (V33_of m _) fun c => upd_at (V32 m (outsF m) c) main_v23 (outsF_33 m c)
def reg9 := regOf m 9 launch9 (V35 m (outsF m)) (V36 m (outsF m)) (2 : Fin 3) (body_obligation9 _) (fun _ _ => rfl) (fun _ _ => rfl) (fun _ _ _ => trivial)
  (A_eq9 _) (ΦA_in _) (ΦA_out _) (by decide) (V36_of m _) fun c => upd_at (V35 m (outsF m) c) main_v26 (outsF_36 m c)
def reg10 := regOf m 10 launch10 (V38 m (outsF m)) (V39 m (outsF m)) (3 : Fin 4) (body_obligation10 _) (fun _ _ => rfl) (fun _ _ => rfl) (fun _ _ _ => trivial)
  (A_eq10 _) (Φ10_in _) (Φ10_out _) (by decide) (V39_of m _) fun c => upd_at (V38 m (outsF m) c) main_v28 (outsF_39 m c)
def reg11 := regOf m 11 launch11 (V40 m (outsF m)) (V41 m (outsF m)) (3 : Fin 4) (body_obligation11 _) (fun _ _ => rfl) (fun _ _ => rfl) (fun _ _ _ => trivial)
  (A_eq11 _) (Φ11_in _) (Φ11_out _) (by decide) (V41_of m _) fun c => upd_at (V40 m (outsF m) c) main_v30 (outsF_41 m c)

theorem run_main (ρ : Dev nD → PrngReg) : θ_run defs (onTc (τ := τ) (main (F := F))) ⟨m, fun _ => 0, ρ⟩ (fun r => ∀ c : Dev nD,
      r.2.mem ((c.tc : Thread nD τ).loc main_v34) = V42 m (outsF m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm (pdats m) () cellOf_inj emb₁ defs₀ 𝒱₀ L lv m ρ main
    (segs m (outsF m) 𝒱₀ L lv (fun _ c => R c) () (pdats m) (reg0 m) (reg1 m) (reg2 m) (reg3 m) (reg4 m) (reg5 m) (reg6 m) (reg7 m) (reg8 m) (reg9 m) (reg10 m) (reg11 m))
    (fun c Q => by
      rewrite [main_chain c, Seg.run_eq_chain,
        show (segs m (outsF m) 𝒱₀ L lv (fun _ c => R c) () (pdats m) (reg0 m) (reg1 m) (reg2 m) (reg3 m) (reg4 m) (reg5 m) (reg6 m) (reg7 m) (reg8 m) (reg9 m) (reg10 m) (reg11 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          StableHlo.seq hostOps3_1,
          Prog.lift (.customCall (Pipeline.entry 3) ()),
          StableHlo.seq hostOps4,
          StableHlo.seq hostOps4_1,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          Prog.lift (.customCall (Pipeline.entry 7) ()),
          StableHlo.seq hostOps8,
          Prog.lift (.customCall (Pipeline.entry 8) ()),
          StableHlo.seq hostOps9,
          StableHlo.seq hostOps9_1,
          Prog.lift (.customCall (Pipeline.entry 9) ()),
          StableHlo.seq hostOps10,
          StableHlo.seq hostOps10_1,
          Prog.lift (.customCall (Pipeline.entry 10) ()),
          StableHlo.seq hostOps11,
          Prog.lift (.customCall (Pipeline.entry 11) ()),
          StableHlo.seq hostOps12 ] from rfl]
      with_reducible exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V42 m (outsF m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (R_owes c)⟩)
    (hinit := Pipeline.initEach L lv fun c => ?_) (QY := fun c s => s.mem ((c.tc : Thread nD τ).loc main_v34) = V42 m (outsF m) c main_v34 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15))
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨⟨Hub, -, HO, -, Hp, -⟩, -⟩
    imodintro
    isplitl [Hub]
    · iapply (Entails.of_eq (Pipeline.unscopedBufs_held (Ix := Unit) (Name := ℕ) (U := UR sig nD τ) (Lvl := ℕ) c (V0 m c)))
      iexact Hub
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V42 m (outsF m) c) s') $$ [Hh HSI]
    · isplitl [Hh] <;> iassumption
    icases Hr with ⟨%h, HSI⟩
    imodintro
    isplitr
    · ipureintro
      have g := fun (r : Ref sig .tc) (hr : ¬(Proc.devRef .tc r : DevRef τ sig).isScoped) => h _ (Finset.mem_filter.mpr ⟨StableHlo.devRef_mem_tcRefs r, hr⟩)
      exact ⟨g main_v34 (by decide), (g main_arg0 (by decide)).trans (V42_main_arg0 m _ c),
        (g main_arg1 (by decide)).trans (V42_main_arg1 m _ c),
        (g main_arg2 (by decide)).trans (V42_main_arg2 m _ c),
        (g main_arg3 (by decide)).trans (V42_main_arg3 m _ c),
        (g main_arg4 (by decide)).trans (V42_main_arg4 m _ c),
        (g main_arg5 (by decide)).trans (V42_main_arg5 m _ c),
        (g main_arg6 (by decide)).trans (V42_main_arg6 m _ c),
        (g main_arg7 (by decide)).trans (V42_main_arg7 m _ c),
        (g main_arg8 (by decide)).trans (V42_main_arg8 m _ c),
        (g main_arg9 (by decide)).trans (V42_main_arg9 m _ c),
        (g main_arg10 (by decide)).trans (V42_main_arg10 m _ c),
        (g main_arg11 (by decide)).trans (V42_main_arg11 m _ c),
        (g main_arg12 (by decide)).trans (V42_main_arg12 m _ c),
        (g main_arg13 (by decide)).trans (V42_main_arg13 m _ c),
        (g main_arg14 (by decide)).trans (V42_main_arg14 m _ c),
        (g main_arg15 (by decide)).trans (V42_main_arg15 m _ c)⟩
    · iexact HSI

end Cert.KernelIdeal.Hand

end
-- ==== Proof.KI.Persist.lean ====
import proofs.«410823_j40836549050565_1_alg».proof.Proof.KI.RegionsP

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.Sem

variable {F : FTy → Type} [FloatOps F]
variable (m : (ℓ : Loc nD τ sig) → Buf (Elt F) ℓ) (o : Outs (F := F)) (c : Dev nD) (r : Ref sig .tc)

-- A buffer that items j to 11 do not write holds after item 11 what it held before item j.
abbrev unw10 (r : Ref sig .tc) : Prop := r ∉ hostOps0_10_W ∧ r ∉ hostOps0_11_W
theorem since10 (h : unw10 r) : V12 m c r = V10 m c r :=
  (V12_of m c r h.2).trans (V11_of m c r h.1)
abbrev unw8 (r : Ref sig .tc) : Prop := unw10 r ∧ r ∉ hostOps0_8_W ∧ r ∉ hostOps0_9_W
theorem since8 (h : unw8 r) : V12 m c r = V8 m c r :=
  (since10 m c r h.1).trans <| (V10_of m c r h.2.2).trans (V9_of m c r h.2.1)
abbrev unw6 (r : Ref sig .tc) : Prop := unw8 r ∧ r ∉ hostOps0_6_W ∧ r ∉ hostOps0_7_W
theorem since6 (h : unw6 r) : V12 m c r = V6 m c r :=
  (since8 m c r h.1).trans <| (V8_of m c r h.2.2).trans (V7_of m c r h.2.1)
abbrev unw4 (r : Ref sig .tc) : Prop := unw6 r ∧ r ∉ hostOps0_4_W ∧ r ∉ hostOps0_5_W
theorem since4 (h : unw4 r) : V12 m c r = V4 m c r :=
  (since6 m c r h.1).trans <| (V6_of m c r h.2.2).trans (V5_of m c r h.2.1)
abbrev unw2 (r : Ref sig .tc) : Prop := unw4 r ∧ r ∉ hostOps0_2_W ∧ r ∉ hostOps0_3_W
theorem since2 (h : unw2 r) : V12 m c r = V2 m c r :=
  (since4 m c r h.1).trans <| (V4_of m c r h.2.2).trans (V3_of m c r h.2.1)
abbrev unw0 (r : Ref sig .tc) : Prop := unw2 r ∧ r ∉ hostOps0_W ∧ r ∉ hostOps0_1_W
theorem since0 (h : unw0 r) : V12 m c r = m ((c : Thread nD τ).loc r) :=
  (since2 m c r h.1).trans <| (V2_of m c r h.2.2).trans (V1_of m c r h.2.1)

-- A buffer that items 12 to e−1 do not write holds before item e what it held before item 12.
abbrev unw15 (r : Ref sig .tc) : Prop := r ∉ [main_v6] ∧ r ∉ hostOps1_W ∧ r ∉ hostOps1_1_W
theorem keep15 (h : unw15 r) : V15 m o c r = V12 m c r :=
  (V15_of m o c r h.2.2).trans <| (V14_of m o c r h.2.1).trans <| (V13_of m o c r h.1)
abbrev unw17 (r : Ref sig .tc) : Prop := unw15 r ∧ r ∉ [main_v8] ∧ r ∉ hostOps2_W
theorem keep17 (h : unw17 r) : V17 m o c r = V12 m c r :=
  (V17_of m o c r h.2.2).trans <| (V16_of m o c r h.2.1).trans <| (keep15 m o c r h.1)
abbrev unw20 (r : Ref sig .tc) : Prop := unw17 r ∧ r ∉ [main_v10] ∧ r ∉ hostOps3_W ∧ r ∉ hostOps3_1_W
theorem keep20 (h : unw20 r) : V20 m o c r = V12 m c r :=
  (V20_of m o c r h.2.2.2).trans <| (V19_of m o c r h.2.2.1).trans <| (V18_of m o c r h.2.1).trans <| (keep17 m o c r h.1)
abbrev unw23 (r : Ref sig .tc) : Prop := unw20 r ∧ r ∉ [main_v13] ∧ r ∉ hostOps4_W ∧ r ∉ hostOps4_1_W
theorem keep23 (h : unw23 r) : V23 m o c r = V12 m c r :=
  (V23_of m o c r h.2.2.2).trans <| (V22_of m o c r h.2.2.1).trans <| (V21_of m o c r h.2.1).trans <| (keep20 m o c r h.1)
abbrev unw25 (r : Ref sig .tc) : Prop := unw23 r ∧ r ∉ [main_v15] ∧ r ∉ hostOps5_W
theorem keep25 (h : unw25 r) : V25 m o c r = V12 m c r :=
  (V25_of m o c r h.2.2).trans <| (V24_of m o c r h.2.1).trans <| (keep23 m o c r h.1)
abbrev unw27 (r : Ref sig .tc) : Prop := unw25 r ∧ r ∉ [main_v17] ∧ r ∉ hostOps6_W
theorem keep27 (h : unw27 r) : V27 m o c r = V12 m c r :=
  (V27_of m o c r h.2.2).trans <| (V26_of m o c r h.2.1).trans <| (keep25 m o c r h.1)

-- The same from item 27 on.
abbrev unw30 (r : Ref sig .tc) : Prop := r ∉ [main_v19] ∧ r ∉ hostOps7_W ∧ r ∉ hostOps7_1_W
theorem keep30 (h : unw30 r) : V30 m o c r = V27 m o c r :=
  (V30_of m o c r h.2.2).trans <| (V29_of m o c r h.2.1).trans <| (V28_of m o c r h.1)
abbrev unw32 (r : Ref sig .tc) : Prop := unw30 r ∧ r ∉ [main_v21] ∧ r ∉ hostOps8_W
theorem keep32 (h : unw32 r) : V32 m o c r = V27 m o c r :=
  (V32_of m o c r h.2.2).trans <| (V31_of m o c r h.2.1).trans <| (keep30 m o c r h.1)
abbrev unw35 (r : Ref sig .tc) : Prop := unw32 r ∧ r ∉ [main_v23] ∧ r ∉ hostOps9_W ∧ r ∉ hostOps9_1_W
theorem keep35 (h : unw35 r) : V35 m o c r = V27 m o c r :=
  (V35_of m o c r h.2.2.2).trans <| (V34_of m o c r h.2.2.1).trans <| (V33_of m o c r h.2.1).trans <| (keep32 m o c r h.1)
abbrev unw38 (r : Ref sig .tc) : Prop := unw35 r ∧ r ∉ [main_v26] ∧ r ∉ hostOps10_W ∧ r ∉ hostOps10_1_W
theorem keep38 (h : unw38 r) : V38 m o c r = V27 m o c r :=
  (V38_of m o c r h.2.2.2).trans <| (V37_of m o c r h.2.2.1).trans <| (V36_of m o c r h.2.1).trans <| (keep35 m o c r h.1)
abbrev unw40 (r : Ref sig .tc) : Prop := unw38 r ∧ r ∉ [main_v28] ∧ r ∉ hostOps11_W
theorem keep40 (h : unw40 r) : V40 m o c r = V27 m o c r :=
  (V40_of m o c r h.2.2).trans <| (V39_of m o c r h.2.1).trans <| (keep38 m o c r h.1)
abbrev unw41 (r : Ref sig .tc) : Prop := unw40 r ∧ r ∉ [main_v30]
theorem keep41 (h : unw41 r) : V41 m o c r = V27 m o c r :=
  (V41_of m o c r h.2).trans <| (keep40 m o c r h.1)

-- What a region left in its output is still there when the next region is entered.
theorem pers_v8_17 : V17 m o c main_v8 = o 16 main_v8 c := (V17_of m o c main_v8 (by decide)).trans (Function.update_self ..)
theorem pers_v15_25 : V25 m o c main_v15 = o 24 main_v15 c := (V25_of m o c main_v15 (by decide)).trans (Function.update_self ..)
theorem pers_v21_32 : V32 m o c main_v21 = o 31 main_v21 c := (V32_of m o c main_v21 (by decide)).trans (Function.update_self ..)
theorem pers_v28_40 : V40 m o c main_v28 = o 39 main_v28 c := (V40_of m o c main_v28 (by decide)).trans (Function.update_self ..)

end Cert.KernelIdeal.Hand

end
-- ==== Proof.LibGraphRead.lean ====
import Idealize.ShloMosaic.PureOps.Ideal
import Idealize.ShloMosaic.Lib.ValueIdx

noncomputable section

namespace Cert.GcnLib

open Idealize.ShloMosaic Idealize.ShloMosaic.ValueIdx

/-- The updates whose index word, read signed, is row `v`. -/
def landing {N n : ℕ} (idx : IVec ⟨2, ![n, 1]⟩ 32) (v : Fin N) : Finset (Fin n) :=
  Finset.univ.filter fun e : Fin n => (idx (ix2 e 0)).toInt = (v.val : Int)

/-- An update lands on `i` exactly when on every axis its start plus its window coordinate is `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq, funext_iff]
    exact forall_congr' fun a => by rw [Fin.ext_iff]; have := (h a).1; show Int.toNat _ = _ ↔ _; omega
  · next h =>
    exact ⟨fun e => (nomatch e), fun hall => (h fun a => by rw [hall a]; exact ⟨Int.natCast_nonneg _, by exact_mod_cast (i a).isLt⟩).elim⟩

/-- A scatter-add of rows through a column of index words, at `(v, j)`: the operand's entry plus entry `j` of the rows landing on `v`. -/
theorem scatterAdd_rows_apply {N n C : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ 32) (u : (⟨2, ![n, C]⟩ : Shape).Idx → EReal)
    (v : Fin N) (j : Fin C) :
    Ideal.hostScatterAdd d x idx u (ix2 v j) = x (ix2 v j) + ∑ e ∈ landing idx v, u (ix2 e j) := by
  obtain ⟨_, _, _, _, wf⟩ := d
  subst huw hiw hsd hiv
  let D : ScatterDims ⟨2, ![N, C]⟩ ⟨2, ![n, 1]⟩ ⟨2, ![n, C]⟩ := ⟨[1], [0], [0], 1, wf⟩
  have hiff : ∀ t, D.resultIdx? t idx = some (ix2 v j) ↔ (idx (ix2 (t 0) 0)).toInt = (v.val : Int) ∧ t 1 = j := by
    intro t
    have h0 : D.start t idx 0 + (D.window t 0 : Int) = (idx (ix2 (t 0) 0)).toInt := by
      show (idx _).toInt + ((0 : ℕ) : Int) = _
      rw [Nat.cast_zero, add_zero]
      congr 2; funext b; match b with | ⟨0, _⟩ => rfl | ⟨1, _⟩ => rfl
    have h1 : D.start t idx 1 + (D.window t 1 : Int) = ((t 1).val : Int) := zero_add _
    rw [resultIdx?_eq_some_iff, Fin.forall_fin_two, h0, h1]
    exact and_congr Iff.rfl (Int.natCast_inj.trans Fin.ext_iff.symm)
  show _ + ∑ t ∈ Finset.univ.filter (fun t => D.resultIdx? t idx = some (ix2 v j)), u t = _
  refine congrArg _ (Finset.sum_bij' (fun t _ => t 0) (fun e _ => ix2 e j) ?_ ?_ ?_ (fun _ _ => rfl) ?_)
  · exact fun t ht => Finset.mem_filter.2 ⟨Finset.mem_univ _, ((hiff t).1 (Finset.mem_filter.1 ht).2).1⟩
  · exact fun e he => Finset.mem_filter.2 ⟨Finset.mem_univ _, (hiff (ix2 e j)).2 ⟨(Finset.mem_filter.1 he).2, rfl⟩⟩
  · exact fun t ht => (((hiff t).1 (Finset.mem_filter.1 ht).2).2 ▸ eq_ix2 t).symm
  · exact fun t ht => congrArg u (((hiff t).1 (Finset.mem_filter.1 ht).2).2 ▸ eq_ix2 t)

/-- The row a gather reads for index word `w`: read signed, clamped into [0, N − 1]. -/
def clampRow (N : ℕ) (hN : 0 < N) (w : BitVec 32) : Fin N := ⟨min w.toInt.toNat (N - 1), by omega⟩

/-- A gather of rows of an [N × C] operand through a column of index words, read at `(e, j)`. -/
theorem gather_rows_apply {α : Type} {N n C : ℕ} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ 32) (e : Fin n) (j : Fin C) :
    Host.gather d x idx (ix2 e j) = x (ix2 (clampRow N hN (idx (ix2 e 0))) j) := by
  obtain ⟨_, _, _, _, _, _, _, wf⟩ := d
  subst hoff hcoll hob hsb hsim hivd hss
  let D : GatherDims ⟨2, ![N, C]⟩ ⟨2, ![n, 1]⟩ ⟨2, ![n, C]⟩ := ⟨[1], [0], [], [], [0], 1, ![1, C], wf⟩
  have hs : ix2 e 0 = D.siIdx (ix2 e j) ⟨0, Nat.one_pos⟩ := by
    funext b; match b with | ⟨0, _⟩ => rfl | ⟨1, _⟩ => rfl
  rw [hs]
  refine congrArg x (funext fun a => Fin.ext ?_)
  match a with
  | ⟨0, _⟩ => rfl
  | ⟨1, _⟩ => exact Nat.zero_add _

/-- The wrap of a negative index word: `select (w < 0) (w + N) w`, on one word. -/
def wrapWord (N : BitVec 32) (w : BitVec 32) : BitVec 32 :=
  Scalar.select (Scalar.cmpi .slt w 0#32) (IntOp.addi w N) w

/-- A word that, read signed, is row `v` is left alone by the wrap and by the clamp. -/
theorem clampRow_wrapWord_of_lands {N : ℕ} (hN : 0 < N) (hN31 : N < 2 ^ 31) (w : BitVec 32) (v : Fin N)
    (h : w.toInt = (v.val : Int)) : clampRow N hN (wrapWord (BitVec.ofNat 32 N) w) = v := by
  have hslt : w.slt 0#32 = false := by simp [BitVec.slt, h]
  have hw : wrapWord (BitVec.ofNat 32 N) w = w := by
    unfold wrapWord Scalar.cmpi IntOp.cmpi
    simp only [hslt]
    exact select_zero _ _
  rw [hw]
  apply Fin.ext
  show min w.toInt.toNat (N - 1) = v.val
  rw [h]
  have := v.isLt
  simp only [Int.toNat_natCast]
  omega

end Cert.GcnLib

end
-- ==== Proof.Spec.lean ====
import Idealize.ShloMosaic.PureOps.Ideal
import Idealize.ShloMosaic.Lib.ValueIdx
import proofs.«410823_j40836549050565_1_alg».proof.Proof.LibGraphRead

noncomputable section

namespace Cert.Spec

open Idealize.ShloMosaic Idealize.ShloMosaic.ValueIdx Cert.GcnLib

abbrev Mat (r c : ℕ) := (⟨2, ![r, c]⟩ : Shape).Idx → EReal
abbrev Row (n : ℕ) := (⟨1, ![n]⟩ : Shape).Idx → EReal
abbrev Ids (n : ℕ) := (⟨1, ![n]⟩ : Shape).Idx → BitVec 32

/-- The matrix product x · W. -/
def mm {N K C : ℕ} (x : Mat N K) (W : Mat K C) : Mat N C := fun j => ∑ q : Fin K, x (ix2 (j 0) q) * W (ix2 q (j 1))

/-- The table row an index word names: a negative word wraps by 50000, then the word is clamped into the table. -/
def rowOf (w : BitVec 32) : Fin 50000 := clampRow 50000 (by decide) (wrapWord (BitVec.ofNat 32 50000) w)

/-- One graph convolution: node v sums weight · source row of h over the edges whose destination word, read signed, is v, plus the bias. -/
def conv {C : ℕ} (h : Mat 50000 C) (b : Row C) (src dst : Ids 600000) (vals : Row 600000) : Mat 50000 C :=
  fun j => (∑ e ∈ Finset.univ.filter (fun e : Fin 600000 => (dst (ix1 e)).toInt = ((j 0).val : ℤ)),
      vals (ix1 e) * h (ix2 (rowOf (src (ix1 e))) (j 1))) + b (ix1 (j 1))

def relu {r c : ℕ} (x : Mat r c) : Mat r c := fun j => max (x j) 0

/-- One embedding: two graph convolutions over the same edges, a ReLU between. -/
def gcn (x : Mat 50000 128) (src dst : Ids 600000) (vals : Row 600000) (W0 : Mat 128 128) (b0 : Row 128) (W1 : Mat 128 64) (b1 : Row 64) :
    Mat 50000 64 :=
  conv (mm (relu (conv (mm x W0) b0 src dst vals)) W1) b1 src dst vals

/-- The two embeddings stacked. -/
def result (x1 : Mat 50000 128) (src1 dst1 : Ids 600000) (vals1 : Row 600000) (x2 : Mat 50000 128) (src2 dst2 : Ids 600000) (vals2 : Row 600000)
    (W1_0 : Mat 128 128) (b1_0 : Row 128) (W1_1 : Mat 128 64) (b1_1 : Row 64) (W2_0 : Mat 128 128) (b2_0 : Row 128) (W2_1 : Mat 128 64) (b2_1 : Row 64) :
    (⟨3, ![2, 50000, 64]⟩ : Shape).Idx → EReal :=
  fun j => if (j 0).val = 0 then gcn x1 src1 dst1 vals1 W1_0 b1_0 W1_1 b1_1 (ix2 (j 1) (j 2))
    else gcn x2 src2 dst2 vals2 W2_0 b2_0 W2_1 b2_1 (ix2 (j 1) (j 2))

/-- Entry (ε, f): the one-hot sum over the 51200 table rows of the row whose word is edge ε's source word, times the weight of ε. -/
def gatherVal {C : ℕ} (src : Ids 600064) (vals : Row 600064) (tab : Mat 51200 C) : Mat 600064 C :=
  fun j => (∑ ν : Fin 51200, if src (ix1 (j 0)) = BitVec.ofNat 32 ν.val then tab (ix2 ν (j 1)) else 0) * vals (ix1 (j 0))

/-- Entry (ν, f): the sum over the 600064 edges whose destination word is ν's word of the message's entry, plus the bias. -/
def scatterVal {C : ℕ} (dst : Ids 600064) (msg : Mat 600064 C) (bias : Mat 1 C) : Mat 51200 C :=
  fun j => (∑ ε : Fin 600064, if BitVec.ofNat 32 (j 0).val = dst (ix1 ε) then msg (ix2 ε (j 1)) else 0) + bias (ix2 0 (j 1))

/-- Zero padding of index words, weights and table rows; the first 50000 rows of a table; a bias as a one-row matrix. -/
def padIds (v : Ids 600000) : Ids 600064 := fun j => if h : (j 0).val < 600000 then v (ix1 ⟨(j 0).val, h⟩) else 0#32
def padRow (v : Row 600000) : Row 600064 := fun j => if h : (j 0).val < 600000 then v (ix1 ⟨(j 0).val, h⟩) else 0
def padRows {C : ℕ} (x : Mat 50000 C) : Mat 51200 C := fun j => if h : (j 0).val < 50000 then x (ix2 ⟨(j 0).val, h⟩ (j 1)) else 0
def topRows {C : ℕ} (x : Mat 51200 C) : Mat 50000 C := fun j => x (ix2 ⟨(j 0).val, Nat.lt_trans (idx2_lt0 j) (by decide)⟩ (j 1))
def asRow {C : ℕ} (b : Row C) : Mat 1 C := fun j => b (ix1 (j 1))

/-- One graph convolution as dense product, zero padding, one-hot gather, one-hot scatter with the bias, first 50000 rows. -/
def kconv {K C : ℕ} (x : Mat 50000 K) (W : Mat K C) (b : Row C) (src dst : Ids 600000) (vals : Row 600000) : Mat 50000 C :=
  topRows (scatterVal (padIds dst) (gatherVal (padIds src) (padRow vals) (padRows (mm x W))) (asRow b))

def kgcn (x : Mat 50000 128) (src dst : Ids 600000) (vals : Row 600000) (W0 : Mat 128 128) (b0 : Row 128) (W1 : Mat 128 64) (b1 : Row 64) :
    Mat 50000 64 :=
  kconv (relu (kconv x W0 b0 src dst vals)) W1 b1 src dst vals

end Cert.Spec

end
-- ==== Proof.KI.Glue.lean ====
import proofs.«410823_j40836549050565_1_alg».proof.Proof.Gen.KernelIdeal.Launch
import proofs.«410823_j40836549050565_1_alg».proof.Proof.KI.RegionsP
import proofs.«410823_j40836549050565_1_alg».proof.Proof.KI.Persist
import proofs.«410823_j40836549050565_1_alg».proof.Proof.Spec
import Idealize.ShloMosaic.Lib.StableHlo.Run
import Idealize.ShloMosaic.Lib.Pipeline.Value
import Idealize.ShloMosaic.Lib.KernelVsHost
import Idealize.ShloMosaic.Lib.ValueIdx
import Idealize.ShloMosaic.Lib.ValueLayout
import Idealize.ShloMosaic.Lib.IdealHost

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Cert.Spec

section Forms
variable {C : ℕ}

-- A vector of 600000 entries padded behind with 64 copies of a scalar.
theorem pad1_apply {α : Type} (x : S600000.Idx → α) (v : S_.Idx → α) (j : S600064.Idx) :
    pad S600064 ![0] ![64] ![0] x v pads_S600000_S600064_0640 h_S_ j
      = if h : (j 0).val < 600000 then x (ix1 ⟨(j 0).val, h⟩) else v (Shape.Idx.first h_S_) := by
  by_cases h : (j 0).val < 600000
  · rw [dif_pos h]
    exact pad_apply_of_inside _ _ _ _ _ _ _ j (ix1 ⟨(j 0).val, h⟩) (fun a => by
      match a with
      | ⟨0, _⟩ => show (j 0).val = 0 + (j 0).val * (0 + 1); omega)
  · rw [dif_neg h]
    exact pad_apply_of_not_inside _ _ _ _ _ _ _ j 0 (fun hh => h (by
      have h3 : ((j 0).val - 0) / (0 + 1) < 600000 := hh.2.2
      simpa using h3))

theorem pad_eq_padIds (x : Ids 600000) (v : S_.Idx → BitVec 32) (hv : v (Shape.Idx.first h_S_) = 0#32) :
    pad S600064 ![0] ![64] ![0] x v pads_S600000_S600064_0640 h_S_ = padIds x := by
  funext j; rw [pad1_apply, hv]; rfl

theorem pad_eq_padRow (x : Row 600000) (v : S_.Idx → EReal) (hv : v (Shape.Idx.first h_S_) = 0) :
    pad S600064 ![0] ![64] ![0] x v pads_S600000_S600064_0640 h_S_ = padRow x := by
  funext j; rw [pad1_apply, hv]; rfl

-- A table of 50000 rows padded below with 1200 rows of a scalar that is zero.
theorem pad_eq_padRows (hp : (⟨2, ![50000, C]⟩ : Shape).Pads (![0, 0] : Fin 2 → ℕ) ![1200, 0] ![0, 0] ⟨2, ![51200, C]⟩)
    (x : Mat 50000 C) (v : S_.Idx → EReal) (hv : v (Shape.Idx.first h_S_) = 0) :
    pad ⟨2, ![51200, C]⟩ ![0, 0] ![1200, 0] ![0, 0] x v hp h_S_ = padRows x := by
  funext j
  unfold padRows
  by_cases h : (j 0).val < 50000
  · rw [dif_pos h]
    exact pad_apply_of_inside _ _ _ _ _ _ _ j (ix2 ⟨(j 0).val, h⟩ (j 1)) (fun a => by
      match a with
      | ⟨0, _⟩ => show (j 0).val = 0 + (j 0).val * (0 + 1); omega
      | ⟨1, _⟩ => show (j 1).val = 0 + (j 1).val * (0 + 1); omega)
  · rw [dif_neg h, pad_apply_of_not_inside _ _ _ _ _ _ _ j 0 (fun hh => h (by
      have h3 : ((j 0).val - 0) / (0 + 1) < 50000 := hh.2.2
      simpa using h3))]
    exact hv

theorem slice_eq_topRows (hs : (⟨2, ![51200, C]⟩ : Shape).Slices ![0, 0] ⟨2, ![50000, C]⟩) (x : Mat 51200 C) :
    extractStridedSlice ⟨2, ![50000, C]⟩ ![0, 0] x hs = topRows x := by
  funext j
  exact (congrArg _ (eq_ix2 j)).trans (slice2_axis0_apply 0 x hs (j 0) (j 1) _ (Nat.zero_add _).symm)

theorem shapeCast_eq_asRow (hc : (⟨1, ![C]⟩ : Shape).ShapeCasts ⟨2, ![1, C]⟩) (b : Row C) :
    shapeCast ⟨2, ![1, C]⟩ b hc = asRow b := by
  funext j
  exact (congrArg (shapeCast ⟨2, ![1, C]⟩ b hc) (eq_ix2 j)).trans (shapeCast_a_1a_apply b hc (j 0) (j 1))

theorem maximumf_zero_eq_relu {r : ℕ} (hb : S_.BroadcastsInDim ⟨2, ![r, C]⟩ (![] : Fin 0 → Fin 2)) (x : Mat r C) :
    maximumf (F := Ideal) (s := ⟨2, ![r, C]⟩) (φ := .f32) x (broadcastInDim ⟨2, ![r, C]⟩ ![] hb (constant S_ .f32 0x00000000#32)) = relu x := by
  funext j
  unfold relu
  rw [maximumf_apply, broadcastInDim_scalar_apply, constant_apply, Ideal.ofBits_zero_f32]

theorem sitofp_zero_first (φ : FTy) :
    (sitofp φ (constantI S_ 32 0#32) : FVec Ideal S_ φ) (Shape.Idx.first h_S_) = 0 := sitofp_zero (φ := φ)

-- The first 50000 rows of a table, given a leading unit axis, read at (u, a, b).
theorem bcast_slice_apply (x : S51200x64.Idx → Ideal .f32) (u : Fin 1) (a : Fin 50000) (b : Fin 64) :
    broadcastInDim S1x50000x64 ![1, 2] bcast_S50000x64_S1x50000x64_1_2
      (extractStridedSlice S50000x64 ![0, 0] x slices_S51200x64_S50000x64_0_0) (ix3 u a b) = topRows x (ix2 a b) := by
  rw [slice_eq_topRows]
  exact broadcastInDim_apply _ _ _ _ (ix2 a b) (fun d => by
    match d with
    | ⟨0, _⟩ => show a.val = if (50000 : ℕ) = 1 then 0 else a.val; rw [if_neg (by decide)]
    | ⟨1, _⟩ => show b.val = if (64 : ℕ) = 1 then 0 else b.val; rw [if_neg (by decide)])

-- Two tables' first 50000 rows stacked along a new leading axis.
theorem stack_topRows (x y : S51200x64.Idx → Ideal .f32) :
    concatenate S2x50000x64 0
      [⟨S1x50000x64, broadcastInDim S1x50000x64 ![1, 2] bcast_S50000x64_S1x50000x64_1_2
          (extractStridedSlice S50000x64 ![0, 0] x slices_S51200x64_S50000x64_0_0)⟩,
       ⟨S1x50000x64, broadcastInDim S1x50000x64 ![1, 2] bcast_S50000x64_S1x50000x64_1_2
          (extractStridedSlice S50000x64 ![0, 0] y slices_S51200x64_S50000x64_0_0)⟩]
      concatenates_S1x50000x64_S1x50000x64_S2x50000x64_d0
      = fun j => if (j 0).val = 0 then topRows x (ix2 (j 1) (j 2)) else topRows y (ix2 (j 1) (j 2)) := by
  funext j
  have hj2 : (j 0).val < 2 := (j 0).isLt
  by_cases h0 : (j 0).val = 0
  · rw [if_pos h0]
    refine (concatenate_pair_apply_left (t := S2x50000x64) (s₁ := S1x50000x64) (s₂ := S1x50000x64) (0 : Fin 3) _ _ _ j rfl
      (ix3 (⟨0, Nat.one_pos⟩ : Fin 1) (j 1) (j 2) : S1x50000x64.Idx) (fun b => ?_)).trans
      (bcast_slice_apply _ _ _ _)
    match b with
    | ⟨0, _⟩ => exact h0.symm
    | ⟨1, _⟩ => rfl
    | ⟨2, _⟩ => rfl
  · rw [if_neg h0]
    refine (concatenate_pair_apply_right (t := S2x50000x64) (s₁ := S1x50000x64) (s₂ := S1x50000x64) (0 : Fin 3) _ _ _ j rfl rfl
      (ix3 (⟨0, Nat.one_pos⟩ : Fin 1) (j 1) (j 2) : S1x50000x64.Idx) (fun b hb => ?_) ?_).trans
      (bcast_slice_apply _ _ _ _)
    · match b with
      | ⟨0, _⟩ => exact absurd rfl hb
      | ⟨1, _⟩ => rfl
      | ⟨2, _⟩ => rfl
    · show 0 + 1 = (j 0).val; omega

end Forms

variable (m : (ℓ : Loc nD τ sig) → Buf (Elt Ideal) ℓ) (o : Outs (F := Ideal)) (c : Dev nD)

theorem glue_v0 : V12 m c main_v0 = padIds (m ((c : Thread nD τ).loc main_arg1)) := by
  rw [since2 m c main_v0 (by decide)]; unfold V2; after_results; exact pad_eq_padIds _ _ rfl
theorem glue_v1 : V12 m c main_v1 = padIds (m ((c : Thread nD τ).loc main_arg2)) := by
  rw [since4 m c main_v1 (by decide)]; unfold V4; after_results; exact pad_eq_padIds _ _ rfl
theorem glue_v2 : V12 m c main_v2 = padRow (m ((c : Thread nD τ).loc main_arg3)) := by
  rw [since6 m c main_v2 (by decide)]; unfold V6; after_results; exact pad_eq_padRow _ _ (sitofp_zero_first .f32)
theorem glue_v3 : V12 m c main_v3 = padIds (m ((c : Thread nD τ).loc main_arg5)) := by
  rw [since8 m c main_v3 (by decide)]; unfold V8; after_results; exact pad_eq_padIds _ _ rfl
theorem glue_v4 : V12 m c main_v4 = padIds (m ((c : Thread nD τ).loc main_arg6)) := by
  rw [since10 m c main_v4 (by decide)]; unfold V10; after_results; exact pad_eq_padIds _ _ rfl
theorem glue_v5 : V12 m c main_v5 = padRow (m ((c : Thread nD τ).loc main_arg7)) := by
  unfold V12; after_results; exact pad_eq_padRow _ _ (sitofp_zero_first .f32)
theorem glue_v7 : V15 m o c main_v7 = padRows (C := 128) (o 13 main_v6 c) := by
  unfold V15; after_results
  show pad S51200x128 ![0, 0] ![1200, 0] ![0, 0] (V13 m o c main_v6 : S50000x128.Idx → Ideal .bf16)
    (sitofp .bf16 (constantI S_ 32 0#32) : FVec Ideal S_ .bf16) pads_S50000x128_S51200x128_012000_000 h_S_ = _
  rw [show V13 m o c main_v6 = o 13 main_v6 c from Function.update_self ..]
  exact pad_eq_padRows _ _ _ (sitofp_zero_first .bf16)
theorem glue_v9 : V17 m o c main_v9 = asRow (m ((c : Thread nD τ).loc main_arg9)) := by
  unfold V17; after_results
  show shapeCast S1x128 (V16 m o c main_arg9 : S128.Idx → Ideal .f32) shapeCasts_S128_S1x128 = _
  rw [V16_of m o c main_arg9 (by decide), keep15 m o c main_arg9 (by decide), since0 m c main_arg9 (by decide)]
  exact shapeCast_eq_asRow _ _
theorem glue_v12 : V20 m o c main_v12 = relu (topRows (o 18 main_v10 c)) := by
  unfold V20; after_results
  show maximumf (extractStridedSlice S50000x128 ![0, 0] (V18 m o c main_v10 : S51200x128.Idx → Ideal .f32) slices_S51200x128_S50000x128_0_0)
      (broadcastInDim S50000x128 ![] bcast_S_S50000x128 (constant S_ .f32 0x00000000#32 : FVec Ideal S_ .f32)) = _
  rw [show V18 m o c main_v10 = o 18 main_v10 c from Function.update_self .., slice_eq_topRows]
  exact maximumf_zero_eq_relu _ _
theorem glue_v14 : V23 m o c main_v14 = padRows (C := 64) (o 21 main_v13 c) := by
  unfold V23; after_results
  show pad S51200x64 ![0, 0] ![1200, 0] ![0, 0] (V21 m o c main_v13 : S50000x64.Idx → Ideal .bf16)
    (sitofp .bf16 (constantI S_ 32 0#32) : FVec Ideal S_ .bf16) pads_S50000x64_S51200x64_012000_000 h_S_ = _
  rw [show V21 m o c main_v13 = o 21 main_v13 c from Function.update_self ..]
  exact pad_eq_padRows _ _ _ (sitofp_zero_first .bf16)
theorem glue_v16 : V25 m o c main_v16 = asRow (m ((c : Thread nD τ).loc main_arg11)) := by
  unfold V25; after_results
  show shapeCast S1x64 (V24 m o c main_arg11 : S64.Idx → Ideal .f32) shapeCasts_S64_S1x64 = _
  rw [V24_of m o c main_arg11 (by decide), keep23 m o c main_arg11 (by decide), since0 m c main_arg11 (by decide)]
  exact shapeCast_eq_asRow _ _

end Cert.KernelIdeal.Hand

end
-- ==== Proof.KI.Glue2.lean ====
import proofs.«410823_j40836549050565_1_alg».proof.Proof.KI.Glue

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Cert.Spec

variable (m : (ℓ : Loc nD τ sig) → Buf (Elt Ideal) ℓ) (o : Outs (F := Ideal)) (c : Dev nD)

theorem glue_v20 : V30 m o c main_v20 = padRows (C := 128) (o 28 main_v19 c) := by
  unfold V30; after_results
  show pad S51200x128 ![0, 0] ![1200, 0] ![0, 0] (V28 m o c main_v19 : S50000x128.Idx → Ideal .bf16)
    (sitofp .bf16 (constantI S_ 32 0#32) : FVec Ideal S_ .bf16) pads_S50000x128_S51200x128_012000_000 h_S_ = _
  rw [show V28 m o c main_v19 = o 28 main_v19 c from Function.update_self ..]
  exact pad_eq_padRows _ _ _ (sitofp_zero_first .bf16)
theorem glue_v22 : V32 m o c main_v22 = asRow (m ((c : Thread nD τ).loc main_arg13)) := by
  unfold V32; after_results
  show shapeCast S1x128 (V31 m o c main_arg13 : S128.Idx → Ideal .f32) shapeCasts_S128_S1x128 = _
  rw [V31_of m o c main_arg13 (by decide), keep30 m o c main_arg13 (by decide), keep27 m o c main_arg13 (by decide), since0 m c main_arg13 (by decide)]
  exact shapeCast_eq_asRow _ _
theorem glue_v25 : V35 m o c main_v25 = relu (topRows (o 33 main_v23 c)) := by
  unfold V35; after_results
  show maximumf (extractStridedSlice S50000x128 ![0, 0] (V33 m o c main_v23 : S51200x128.Idx → Ideal .f32) slices_S51200x128_S50000x128_0_0)
      (broadcastInDim S50000x128 ![] bcast_S_S50000x128 (constant S_ .f32 0x00000000#32 : FVec Ideal S_ .f32)) = _
  rw [show V33 m o c main_v23 = o 33 main_v23 c from Function.update_self .., slice_eq_topRows]
  exact maximumf_zero_eq_relu _ _
theorem glue_v27 : V38 m o c main_v27 = padRows (C := 64) (o 36 main_v26 c) := by
  unfold V38; after_results
  show pad S51200x64 ![0, 0] ![1200, 0] ![0, 0] (V36 m o c main_v26 : S50000x64.Idx → Ideal .bf16)
    (sitofp .bf16 (constantI S_ 32 0#32) : FVec Ideal S_ .bf16) pads_S50000x64_S51200x64_012000_000 h_S_ = _
  rw [show V36 m o c main_v26 = o 36 main_v26 c from Function.update_self ..]
  exact pad_eq_padRows _ _ _ (sitofp_zero_first .bf16)
theorem glue_v29 : V40 m o c main_v29 = asRow (m ((c : Thread nD τ).loc main_arg15)) := by
  unfold V40; after_results
  show shapeCast S1x64 (V39 m o c main_arg15 : S64.Idx → Ideal .f32) shapeCasts_S64_S1x64 = _
  rw [V39_of m o c main_arg15 (by decide), keep38 m o c main_arg15 (by decide), keep27 m o c main_arg15 (by decide), since0 m c main_arg15 (by decide)]
  exact shapeCast_eq_asRow _ _
theorem glue_v34 : V42 m o c main_v34 = fun j => if (j 0).val = 0 then topRows (o 26 main_v17 c) (ix2 (j 1) (j 2))
    else topRows (o 41 main_v30 c) (ix2 (j 1) (j 2)) := by
  have e18 : (V41 m o c main_v18 : S50000x64.Idx → Ideal .f32)
      = extractStridedSlice S50000x64 ![0, 0] (o 26 main_v17 c : S51200x64.Idx → Ideal .f32) slices_S51200x64_S50000x64_0_0 := by
    rw [keep41 m o c main_v18 (by decide)]; unfold V27; after_results
    show extractStridedSlice S50000x64 ![0, 0] (V26 m o c main_v17 : S51200x64.Idx → Ideal .f32) slices_S51200x64_S50000x64_0_0 = _
    rw [show V26 m o c main_v17 = o 26 main_v17 c from Function.update_self ..]
  unfold V42; after_results
  show concatenate S2x50000x64 0
      [⟨S1x50000x64, broadcastInDim S1x50000x64 ![1, 2] bcast_S50000x64_S1x50000x64_1_2 (V41 m o c main_v18 : S50000x64.Idx → Ideal .f32)⟩,
       ⟨S1x50000x64, broadcastInDim S1x50000x64 ![1, 2] bcast_S50000x64_S1x50000x64_1_2
          (extractStridedSlice S50000x64 ![0, 0] (V41 m o c main_v30 : S51200x64.Idx → Ideal .f32) slices_S51200x64_S50000x64_0_0)⟩]
      concatenates_S1x50000x64_S1x50000x64_S2x50000x64_d0 = _
  rw [e18, show V41 m o c main_v30 = o 41 main_v30 c from Function.update_self ..]
  exact stack_topRows _ _

end Cert.KernelIdeal.Hand

end
-- ==== Proof.LibDotRowsCols.lean ====
import Idealize.ShloMosaic.Lib.StackMember

noncomputable section

namespace Cert.Lib.DotRowsCols

open Idealize.ShloMosaic Idealize.ShloMosaic.ValueIdx

variable {n K c : Nat}

/-- The dimension numbers of the plain product [n, K] × [K, c] → [n, c]. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- A record with these six lists is the plain product's record. -/
theorem RowsCols.eq_plain (h : RowsCols d) : d = DotDims.plain n K c := by
  obtain ⟨_, _, _, _, _, _, _⟩ := d
  obtain ⟨rfl, rfl, rfl, rfl, rfl, rfl⟩ := h
  rfl

/-- The host's product at an entry is the sum over the shared axis. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) := by
  rw [h.eq_plain, eq_ix2 j]
  exact StackMember.dotGeneral_plain_apply prec l w (j 0) (j 1)

/-- So is the product accumulated into zeros. -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (congrFun (matmul_zero_eq_dotGeneral d prec l w) j).trans (h.dotGeneral_apply prec l w j)

end Cert.Lib.DotRowsCols

end
-- ==== Proof.KI.Val0.lean ====
import proofs.«410823_j40836549050565_1_alg».proof.Proof.KI.Reg0
import proofs.«410823_j40836549050565_1_alg».proof.Proof.LibDotRowsCols
import proofs.«410823_j40836549050565_1_alg».proof.Proof.Spec

open scoped BigOperators

namespace Cert.KernelIdeal.Hand

open Cert.KernelIdeal Cert.KernelIdeal.Gen
open Idealize.ShloMosaic Idealize.ShloMosaic.TcCoe Idealize.ShloMosaic.ValueIdx

-- At the ideal values the roundings are the identity and the product accumulates from zero: entry (r, v) is ∑ q, x0 (r, q) · x1 (q, v).
theorem pay0_apply (x0) (x1) (j) : k0_pay1 (F := Ideal) x0 x1 j = ∑ q : Fin 128, x0 (ix2 (j 0) q) * x1 (ix2 q (j 1)) := by
  simp only [k0_pay1, shapeCast_self]
  exact Cert.Lib.DotRowsCols.RowsCols.matmul_zero_apply ⟨rfl, rfl, rfl, rfl, rfl, rfl⟩ (φ₁ := .bf16) (φ₂ := .bf16) none x0 x1 j

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- Row r of block t, of x as of the product, is row 5000·t + r, and W's one block is W: the blocks' product is block t of x · W.
theorem flushed_core0 (X : Cert.Spec.Mat 50000 128) (W : Cert.Spec.Mat 128 128) (t : Fin cfg0.N) (j : S5000x128.Idx) :
    k0_pay1 (F := Ideal) (fun y => X (((cfg0.win 0).blk t).view.emb y)) (fun y => W (((cfg0.win 1).blk t).view.emb y)) j
      = Cert.Spec.mm X W (((cfg0.win 2).blk t).view.emb j) := by
  obtain ⟨e0, e1, e2, e3, e4, e5⟩ := idx_facts0 t
  rw [pay0_apply]
  unfold Cert.Spec.mm
  refine Finset.sum_congr rfl fun q _ => congrArg₂ (· * ·) (congrArg X (funext fun a => Fin.ext ?_)) (congrArg W (funext fun a => Fin.ext ?_))
  · match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * q.val = q.val; omega
  · match a with
    | ⟨0, _⟩ => show win0_1.index t (0 : Fin 2) * 128 + 1 * q.val = q.val; omega
    | ⟨1, _⟩ => show win0_1.index t (1 : Fin 2) * 128 + 1 * (j 1).val = win0_2.index t (1 : Fin 2) * 128 + 1 * (j 1).val; omega

section Region
variable (V : (c : Dev nD) → (b : Ref sig .tc) → Buf (Elt Ideal) ((c : Thread nD τ).loc b))

-- Row ρ lies in block ρ / 5000.
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by rw [show cfg0.N = 10 from N_0]; omega
  obtain ⟨-, -, -, -, e4, e5⟩ := idx_facts0 ⟨(i 0).val / 5000, ht⟩
  refine ⟨⟨(i 0).val / 5000, ht⟩, flush0_2 _, ?_⟩
  show i ∈ ((View.whole main_v6).slice (win0_2.rect ⟨(i 0).val / 5000, ht⟩)).set
  rw [View.set_slice_whole, Rect.mem_set_unit]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

-- The ten row blocks tile the rows, and block t ends as block t of the product: the array ends as the product.
theorem dense_arr0 (c : Dev nD) : (dat0 (F := Ideal) V c).arrAt 2 cfg0.N
    = Cert.Spec.mm (N := 50000) (K := 128) (C := 128) (V c main_arg0) (V c main_arg8) :=
  (dat0 V c).arrAt_eq_of_cover 2 _ (fun t _ => funext (flushed_core0 (V c main_arg0) (V c main_arg8) t)) cover0

end Region

end Cert.KernelIdeal.Hand
-- ==== Proof.LibOneHot.lean ====
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Lib.OneHot

open Idealize.ShloMosaic Idealize.ShloMosaic.ValueIdx

/-- An equality test of two words, widened and converted: 1 where the words are equal, 0 elsewhere. -/
theorem hot_word (a b : BitVec 32) :
    FloatOps.sitofp (F := Ideal) .f32 ((IntOp.cmpi .eq a b).setWidth 32) = if a = b then 1 else 0 := by
  show (((((IntOp.cmpi .eq a b).setWidth 32).toInt : ℝ)) : EReal) = _
  unfold IntOp.cmpi
  by_cases h : a = b
  · subst h; simp
  · rw [if_neg h]
    have : (a == b) = false := by simpa using h
    simp [this]

/-- The word of m·n + r is that product and sum computed in 32-bit words. -/
theorem word_mul_add (m n r : ℕ) :
    BitVec.ofNat 32 n * BitVec.ofNat 32 m + BitVec.ofNat 32 r = BitVec.ofNat 32 (m * n + r) := by
  rw [← BitVec.ofNat_mul, ← BitVec.ofNat_add, Nat.mul_comm]

/-- A vector viewed as one column reads, at (p, 0), the vector at p. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

/-- One column broadcast over many reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rank-one index is named by its coordinate. -/
theorem ix1_of_val {a : ℕ} {j : (⟨1, ![a]⟩ : Shape).Idx} {p : Fin a} (h : (j 0).val = p.val) : j = ix1 p :=
  (eq_ix1 j).trans (congrArg ix1 (Fin.ext h))

/-- A rank-two index is named by its two coordinates. -/
theorem ix2_of_val {a b : ℕ} {j : (⟨2, ![a, b]⟩ : Shape).Idx} {p : Fin a} {q : Fin b}
    (h0 : (j 0).val = p.val) (h1 : (j 1).val = q.val) : j = ix2 p q :=
  (eq_ix2 j).trans (congrArg₂ ix2 (Fin.ext h0) (Fin.ext h1))

section Sums
variable {M : Type*} [AddCommMonoid M] {n : ℕ}

/-- A family over the first n numbers, continued by zero. -/
def ext0 (g : Fin n → M) (k : ℕ) : M := if h : k < n then g ⟨k, h⟩ else 0

/-- At the number of k it is the family at k. -/
theorem ext0_eq (g : Fin n → M) (k : Fin n) (m : ℕ) (hm : m = k.val) : ext0 g m = g k := by
  subst hm; exact dif_pos k.isLt

/-- Summed over the numbers below n it is the family's sum. -/
theorem sum_ext0 (g : Fin n → M) : ∑ k ∈ Finset.range n, ext0 g k = ∑ k : Fin n, g k := by
  rw [Finset.sum_range]
  exact Finset.sum_congr rfl fun k _ => ext0_eq g k k.val rfl

/-- A sum restarted every B steps and fed W terms a step is, after step i of a run, the sum of the first W·(i + 1) terms. -/
theorem restartSum (B W o : ℕ) (acc : ℕ → M) (T : ℕ → M)
    (h : ∀ i, i < B → acc (B * o + i)
      = (if i = 0 then 0 else acc (B * o + i - 1)) + ∑ q ∈ Finset.range W, T (W * i + q)) :
    ∀ i, i < B → acc (B * o + i) = ∑ k ∈ Finset.range (W * (i + 1)), T k
  | 0, hi => by
    rw [h 0 hi, if_pos rfl, zero_add]
    simp only [Nat.mul_zero, Nat.zero_add, Nat.mul_one]
  | i + 1, hi => by
    rw [h (i + 1) hi, if_neg (Nat.succ_ne_zero i), Nat.add_succ_sub_one,
      restartSum B W o acc T h i (Nat.lt_of_succ_lt hi), Nat.mul_succ W (i + 1), Finset.sum_range_add]

end Sums

end Cert.Lib.OneHot

end
-- ==== Proof.KI.Val1a.lean ====
import proofs.«410823_j40836549050565_1_alg».proof.Proof.Gen.KernelIdeal.Skeleton
import proofs.«410823_j40836549050565_1_alg».proof.Proof.LibDotRowsCols
import proofs.«410823_j40836549050565_1_alg».proof.Proof.LibOneHot

noncomputable section

open scoped BigOperators

namespace Cert.KernelIdeal.Hand

open Cert.KernelIdeal Cert.KernelIdeal.Gen
open Idealize.ShloMosaic Idealize.ShloMosaic.ValueIdx
open Cert.Lib.DotRowsCols Cert.Lib.OneHot

theorem k1_pay1_apply (j : S2048x128.Idx) : k1_pay1 (F := Ideal) j = 0 := by
  unfold k1_pay1
  rw [shapeCast_self]
  exact Ideal.ofBits_zero_f32

/-- The one-hot entry (r, q) is 1 exactly where row r's source id is the word 2048·n + q, and 1 · x = x, 0 · x = 0. -/
theorem k1_pay2_apply (i : grid1.Coords) (x0 : IVec S2048 32) (a : FVec Ideal S2048x128 .f32) (x2 : FVec Ideal S2048x128 .bf16)
    (r : Fin 2048) (f : Fin 128) :
    k1_pay2 (F := Ideal) i x0 a x2 (ix2 r f)
      = a (ix2 r f) + ∑ q : Fin 2048, if x0 (ix1 r) = BitVec.ofNat 32 (2048 * (i 1).val + q.val) then x2 (ix2 q f) else 0 := by
  unfold k1_pay2
  dsimp only
  simp only [shapeCast_self]
  rw [addf_apply]
  refine congrArg (a (ix2 r f) + ·) ?_
  refine (RowsCols.matmul_zero_apply ⟨rfl, rfl, rfl, rfl, rfl, rfl⟩ none _ _ (ix2 r f)).trans ?_
  refine Finset.sum_congr rfl fun q _ => ?_
  show FloatOps.sitofp (F := Ideal) .f32 ((IntOp.cmpi .eq (broadcastTo S2048x2048 (shapeCast S2048x1 x0 shapeCasts_S2048_S2048x1) broadcasts_S2048x1_S2048x2048 (ix2 r q))
      (broadcastTo S2048x2048 _ broadcasts_S1x2048_S2048x2048 (ix2 r q))).setWidth 32) * x2 (ix2 q f) = _
  rw [hot_word, broadcastTo_a1_ab_apply, shapeCast_a_a1_apply, broadcastTo_1b_ab_apply]
  show (if x0 (ix1 r) = IntOp.addi (IntOp.muli (BitVec.ofNat 32 (i 1).val) 2048#32) (iota .tc S1x2048 32 [1] iota_S1x2048_d1_w32 (ix2 (0 : Fin 1) q)) then (1 : EReal) else 0) * _ = _
  rw [iota_single_apply]
  show (if x0 (ix1 r) = BitVec.ofNat 32 (i 1).val * BitVec.ofNat 32 2048 + BitVec.ofNat 32 q.val then (1 : EReal) else 0) * _ = _
  rw [word_mul_add, ite_mul, one_mul, zero_mul]

theorem k1_pay3_apply (a : FVec Ideal S2048x128 .f32) (v : FVec Ideal S2048 .f32) (r : Fin 2048) (f : Fin 128) :
    k1_pay3 (F := Ideal) a v (ix2 r f) = a (ix2 r f) * v (ix1 r) := by
  unfold k1_pay3
  simp only [shapeCast_self]
  rw [truncf_apply, mulf_apply]
  refine congrArg (a (ix2 r f) * ·) ?_
  rw [broadcastTo_a1_ab_apply, shapeCast_a_a1_apply]

end Cert.KernelIdeal.Hand

end
-- ==== Proof.KI.Val1b.lean ====
import proofs.«410823_j40836549050565_1_alg».proof.Proof.KI.Reg1
import proofs.«410823_j40836549050565_1_alg».proof.Proof.KI.Val1a
import proofs.«410823_j40836549050565_1_alg».proof.Proof.Spec

noncomputable section

open scoped BigOperators

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.Lib.OneHot

/-- The index maps at point t = 25·e + n, decided once over the grid. -/
theorem idx_facts1 : ∀ t : Fin cfg1.N, win1_0.index t (0 : Fin 1) = t.val / 25 ∧ win1_1.index t (0 : Fin 1) = t.val / 25
    ∧ win1_2.index t (0 : Fin 2) = t.val % 25 ∧ win1_2.index t (1 : Fin 2) = 0
    ∧ win1_3.index t (0 : Fin 2) = t.val / 25 ∧ win1_3.index t (1 : Fin 2) = 0
    ∧ ((grid1.coords t) 1).val = t.val % 25 :=
  (by decide +kernel : ∀ t : Fin grid1.N, _)

section Region
variable (V : (c : Dev nD) → (b : Ref sig .tc) → Buf (Elt Ideal) ((c : Thread nD τ).loc b))
  (c : Dev nD) (t : Fin cfg1.N) (r : Fin 2048) (f : Fin 128)

/-- A block's coordinate in its array is block index × block size + the coordinate inside the block. -/
theorem srcBlk1_apply (k : Fin 600064) (hk : k.val = 2048 * (t.val / 25) + r.val) :
    srcBlk1 (F := Ideal) V c t (ix1 r) = V c main_v0 (ix1 k) := by
  show V c main_v0 (((cfg1.win 0).blk t).view.emb (ix1 r)) = _
  exact congrArg (V c main_v0) (ix1_of_val
    (show win1_0.index t (0 : Fin 1) * 2048 + 1 * r.val = k.val by rw [(idx_facts1 t).1, hk]; omega))

theorem valBlk1_apply (k : Fin 600064) (hk : k.val = 2048 * (t.val / 25) + r.val) :
    valBlk1 (F := Ideal) V c t (ix1 r) = V c main_v2 (ix1 k) := by
  show V c main_v2 (((cfg1.win 1).blk t).view.emb (ix1 r)) = _
  exact congrArg (V c main_v2) (ix1_of_val
    (show win1_1.index t (0 : Fin 1) * 2048 + 1 * r.val = k.val by rw [(idx_facts1 t).2.1, hk]; omega))

theorem tabBlk1_apply (q : Fin 2048) (k : Fin 51200) (hk : k.val = 2048 * (t.val % 25) + q.val) :
    tabBlk1 (F := Ideal) V c t (ix2 q f) = V c main_v7 (ix2 k f) := by
  show V c main_v7 (((cfg1.win 2).blk t).view.emb (ix2 q f)) = _
  exact congrArg (V c main_v7) (ix2_of_val
    (show win1_2.index t (0 : Fin 2) * 2048 + 1 * q.val = k.val by rw [(idx_facts1 t).2.2.1, hk]; omega)
    (show win1_2.index t (1 : Fin 2) * 128 + 1 * f.val = f.val by rw [(idx_facts1 t).2.2.2.1]; omega))

/-- Row k's entry where the word w is the word of k, zero elsewhere and past the table. -/
abbrev hit1 (w : BitVec 32) (tab : FVec Ideal S51200x128 .bf16) (f : Fin 128) : ℕ → EReal :=
  ext0 fun ν : Fin 51200 => if w = BitVec.ofNat 32 ν.val then tab (ix2 ν f) else 0

/-- Point 25·e + n restarts the sum at n = 0 and adds the hits among node block n's 2048 rows. -/
theorem accAt1_step (e n : ℕ) (hn : n < 25) (ht : 25 * e + n < cfg1.N) (k : Fin 600064) (hk : k.val = 2048 * e + r.val) :
    accAt1 (F := Ideal) V c (25 * e + n) (ix2 r f)
      = (if n = 0 then 0 else accAt1 (F := Ideal) V c (25 * e + n - 1) (ix2 r f))
        + ∑ q ∈ Finset.range 2048, hit1 (V c main_v0 (ix1 k)) (V c main_v7) f (2048 * n + q) := by
  obtain ⟨t, htv⟩ : ∃ t : Fin cfg1.N, t.val = 25 * e + n := ⟨⟨_, ht⟩, rfl⟩
  have hm : t.val % 25 = n := by omega
  have hd : t.val / 25 = e := by omega
  rw [← htv, ← step1_eq_accAt1 V c t (accAt1 V c (t.val - 1)) fun _ => rfl]
  unfold step1 acc1
  rw [k1_pay2_apply, srcBlk1_apply V c t r k (by rw [hd]; exact hk), (idx_facts1 t).2.2.2.2.2.2, hm, Finset.sum_range]
  congr 1
  · by_cases h : n = 0
    · rw [if_pos ((c1_first_iff t).mpr (hm.trans h)), if_pos h, k1_pay1_apply]
    · rw [if_neg fun e' => h (hm.symm.trans ((c1_first_iff t).mp e')), if_neg h]
  · refine Finset.sum_congr rfl fun q _ => ?_
    have hq : 2048 * n + q.val < 51200 := by have := q.isLt; omega
    rw [tabBlk1_apply V c t f q ⟨_, hq⟩ (by rw [hm])]
    symm
    exact ext0_eq _ ⟨_, hq⟩ _ rfl

/-- After the last node block (n = 24) all 51200 rows of the table have been seen. -/
theorem accAt1_last (ht : t.val % 25 = 24) (k : Fin 600064) (hk : k.val = 2048 * (t.val / 25) + r.val) :
    accAt1 (F := Ideal) V c t.val (ix2 r f)
      = (∑ ν : Fin 51200, if V c main_v0 (ix1 k) = BitVec.ofNat 32 ν.val then V c main_v7 (ix2 ν f) else 0 : EReal) := by
  have h := restartSum (M := EReal) 25 2048 (t.val / 25) (fun m => accAt1 (F := Ideal) V c m (ix2 r f)) (hit1 (V c main_v0 (ix1 k)) (V c main_v7) f)
    (fun n hn => accAt1_step V c r f _ n hn (by have := t.isLt; omega) k hk) 24 (by decide)
  rw [show 25 * (t.val / 25) + 24 = t.val from by omega] at h
  exact h.trans (sum_ext0 _)

theorem flushed1_eq (hf : (cfg1.win 3).flush t = true) :
    (dat1 (F := Ideal) V c).flushed 3 t
      = ((cfg1.win 3).blk t).view.read (Elt Ideal) (Cert.Spec.gatherVal (C := 128) (V c main_v0) (V c main_v2) (V c main_v7)) := by
  show (cfg1.win 3).cut (grid1.coords t) ((dat1 (F := Ideal) V c).after 3 t) = _
  rw [after1_3]
  funext y
  obtain ⟨r, f, rfl⟩ : ∃ (r : Fin 2048) (f : Fin 128), y = ix2 r f := ⟨y 0, y 1, eq_ix2 y⟩
  have hk : 2048 * (t.val / 25) + r.val < 600064 := by
    have h1 : t.val < 7325 := t.isLt.trans_eq N_1
    have h2 := r.isLt
    omega
  show k1_pay3 (F := Ideal) (accAt1 V c t.val) (valBlk1 V c t) (ix2 r f)
    = Cert.Spec.gatherVal (C := 128) (V c main_v0) (V c main_v2) (V c main_v7) (((cfg1.win 3).blk t).view.emb (ix2 r f))
  rw [show ((cfg1.win 3).blk t).view.emb (ix2 r f) = (ix2 ⟨_, hk⟩ f : S600064x128.Idx) from ix2_of_val
      (show win1_3.index t (0 : Fin 2) * 2048 + 1 * r.val = 2048 * (t.val / 25) + r.val by rw [(idx_facts1 t).2.2.2.2.1]; omega)
      (show win1_3.index t (1 : Fin 2) * 128 + 1 * f.val = f.val by rw [(idx_facts1 t).2.2.2.2.2.1]; omega),
    k1_pay3_apply, valBlk1_apply V c t r ⟨_, hk⟩ rfl, accAt1_last V c t r f ((flush1_3 t).mp hf) ⟨_, hk⟩ rfl]
  rfl

/-- Every output row ρ is covered by the block of point 25·(ρ / 2048) + 24. -/
theorem cover1 (i : S600064x128.Idx) : ∃ t : Fin cfg1.N, (cfg1.win 3).flush t = true ∧ i ∈ ((cfg1.win 3).blk t).view.set := by
  have hi0 : (i 0).val < 600064 := (i 0).isLt
  have hi1 : (i 1).val < 128 := (i 1).isLt
  obtain ⟨t, ht⟩ : ∃ t : Fin cfg1.N, t.val = 25 * ((i 0).val / 2048) + 24 := ⟨⟨25 * ((i 0).val / 2048) + 24, by rw [show cfg1.N = 7325 from N_1]; omega⟩, rfl⟩
  obtain ⟨-, -, -, -, e4, e5, -⟩ := idx_facts1 t
  refine ⟨t, (flush1_3 t).mpr (by rw [ht]; omega), ?_⟩
  show i ∈ ((View.whole main_v8).slice (win1_3.rect t)).set
  rw [View.set_slice_whole, Rect.mem_set_unit]
  intro a
  match a with
  | ⟨0, _⟩ =>
    show win1_3.index t (0 : Fin 2) * 2048 ≤ (i 0).val ∧ (i 0).val < win1_3.index t (0 : Fin 2) * 2048 + 2048
    rw [e4, ht]; omega
  | ⟨1, _⟩ =>
    show win1_3.index t (1 : Fin 2) * 128 ≤ (i 1).val ∧ (i 1).val < win1_3.index t (1 : Fin 2) * 128 + 128
    rw [e5]; omega

theorem gather_arr1 :
    (dat1 (F := Ideal) V c).arrAt 3 cfg1.N = Cert.Spec.gatherVal (C := 128) (V c main_v0) (V c main_v2) (V c main_v7) :=
  (dat1 (F := Ideal) V c).arrAt_eq_of_cover 3 _ (flushed1_eq V c) cover1

end Region

end Cert.KernelIdeal.Hand

end
-- ==== Proof.KI.ValScatter.lean ====
import proofs.«410823_j40836549050565_1_alg».proof.Proof.Gen.KernelIdeal
import proofs.«410823_j40836549050565_1_alg».proof.Proof.Spec
import proofs.«410823_j40836549050565_1_alg».proof.Proof.LibOneHot

noncomputable section

open scoped BigOperators

namespace Cert.KernelIdeal.Hand

open Cert.KernelIdeal Cert.KernelIdeal.Gen
open Idealize.ShloMosaic Idealize.ShloMosaic.ValueIdx
open Cert.Lib.OneHot

/-- Entry (r, q) of the one-hot matrix of node block nb is 1 exactly where the word 2048·nb + r is column q's word. -/
theorem hot_apply (nb : ℕ) (x0 : IVec S2048 32) (r q : Fin 2048) :
    (truncf .bf16 (sitofp .f32 (extui 32 (cmpi .eq
        (broadcastTo S2048x2048 (addi (broadcast S2048x1 (Scalar.muli (BitVec.ofNat 32 nb) 2048#32)) (iota .tc S2048x1 32 [0] iota_S2048x1_d0_w32))
          broadcasts_S2048x1_S2048x2048)
        (broadcastTo S2048x2048 (shapeCast S1x2048 x0 shapeCasts_S2048_S1x2048) broadcasts_S1x2048_S2048x2048)) natLt_1_32)) bitsLt_bf16_f32
      : FVec Ideal S2048x2048 .bf16) (ix2 r q) = if BitVec.ofNat 32 (2048 * nb + r.val) = x0 (ix1 q) then 1 else 0 := by
  rw [truncf_apply, sitofp_apply, extui_apply,
    show ∀ (x y : IVec S2048x2048 32) (k : S2048x2048.Idx), cmpi .eq x y k = IntOp.cmpi .eq (x k) (y k) from fun _ _ _ => rfl]
  rw [broadcastTo_a1_ab_apply, broadcastTo_1b_ab_apply, shapeCast_a_1a_apply]
  rw [show ∀ (x y : IVec S2048x1 32) (k : S2048x1.Idx), addi x y k = IntOp.addi (x k) (y k) from fun _ _ _ => rfl,
    broadcast_apply, iota_single_apply, ← word_mul_add]
  exact hot_word _ _

/-- Edge n's message entry where the word ν is its destination word; zero elsewhere and past the last edge. -/
abbrev edgeTerm {C : ℕ} (dst : Cert.Spec.Ids 600064) (msg : Cert.Spec.Mat 600064 C) (ν : ℕ) (f : Fin C) : ℕ → EReal :=
  ext0 fun ε : Fin 600064 => if BitVec.ofNat 32 ν = dst (ix1 ε) then msg (ix2 ε f) else 0

/-- The scatter's entry as a sum over all numbers below the edge count. -/
theorem scatterVal_entry {C : ℕ} (dst : Cert.Spec.Ids 600064) (msg : Cert.Spec.Mat 600064 C) (bias : Cert.Spec.Mat 1 C)
    (j : (⟨2, ![51200, C]⟩ : Shape).Idx) :
    Cert.Spec.scatterVal dst msg bias j
      = (∑ n ∈ Finset.range 600064, edgeTerm dst msg (j 0).val (j 1) n) + bias (ix2 0 (j 1)) := by
  rw [sum_ext0]; rfl

end Cert.KernelIdeal.Hand

end
-- ==== Proof.KI.Val2.lean ====
import proofs.«410823_j40836549050565_1_alg».proof.Proof.KI.Reg2
import proofs.«410823_j40836549050565_1_alg».proof.Proof.KI.ValScatter
import proofs.«410823_j40836549050565_1_alg».proof.Proof.LibDotRowsCols

noncomputable section

open scoped BigOperators

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.Lib.DotRowsCols Cert.Lib.OneHot

theorem rowsCols2 : RowsCols dot_S2048x2048_S2048x128_S2048x128_1_0_0_1_n_n := ⟨rfl, rfl, rfl, rfl, rfl, rfl⟩

/-- The one-hot matrix times the messages adds, at row r, the columns whose destination word is the row's word. -/
theorem k2_pay2_apply (i : grid2.Coords) (x0 : Vec Ideal S2048 .i32) (a : Vec Ideal S2048x128 .f32) (x1 : Vec Ideal S2048x128 .bf16)
    (r : Fin 2048) (f : Fin 128) :
    k2_pay2 i x0 a x1 (ix2 r f)
      = a (ix2 r f) + ∑ q : Fin 2048, (if BitVec.ofNat 32 (2048 * (i 0).val + r.val) = x0 (ix1 q) then x1 (ix2 q f) else 0) := by
  unfold k2_pay2
  simp only [shapeCast_self]
  rw [addf_apply, rowsCols2.matmul_zero_apply]
  congr 1
  refine Finset.sum_congr rfl fun q _ => ?_
  refine (congrArg (· * x1 (ix2 q f)) (hot_apply (i 0).val x0 r q)).trans ?_
  split
  · exact one_mul _
  · exact zero_mul _

theorem k2_pay1_apply (j : S2048x128.Idx) : (k2_pay1 (F := Ideal)) j = 0 := by
  unfold k2_pay1
  simp only [shapeCast_self]
  exact Ideal.ofBits_zero_f32

theorem k2_pay3_apply (a : Vec Ideal S2048x128 .f32) (b : Vec Ideal S1x128 .f32) (r : Fin 2048) (f : Fin 128) :
    k2_pay3 a b (ix2 r f) = a (ix2 r f) + b (ix2 0 f) := by
  unfold k2_pay3
  simp only [shapeCast_self]
  rw [addf_apply]
  congr 1
  exact broadcastTo_1b_ab_apply _ _ _ _

/-- The index maps at point t = 293·nb + e, decided once over the grid. -/
theorem idx_facts2 : ∀ t : Fin cfg2.N,
    (grid2.coords t 0).val = t.val / 293
    ∧ win2_0.index t 0 = t.val % 293
    ∧ win2_1.index t 0 = t.val % 293 ∧ win2_1.index t 1 = 0
    ∧ win2_2.index t 0 = 0 ∧ win2_2.index t 1 = 0
    ∧ win2_3.index t 0 = t.val / 293 ∧ win2_3.index t 1 = 0 :=
  (by decide +kernel : ∀ t : Fin grid2.N, _)

section Region
variable (V : (c : Dev nD) → (b : Ref sig .tc) → Buf (Elt Ideal) ((c : Thread nD τ).loc b))
  (c : Dev nD) (t : Fin cfg2.N) (r : Fin 2048) (f : Fin 128)

/-- A block's coordinate in its array is block index × block size + the coordinate inside the block. -/
theorem idsBlk2_apply (q : Fin 2048) (k : Fin 600064) (hk : k.val = 2048 * (t.val % 293) + q.val) :
    idsBlk2 (F := Ideal) V c t (ix1 q) = V c main_v1 (ix1 k) := by
  show V c main_v1 (((cfg2.win 0).blk t).view.emb (ix1 q)) = _
  exact congrArg (V c main_v1) (ix1_of_val
    (show win2_0.index t 0 * 2048 + 1 * q.val = k.val by rw [(idx_facts2 t).2.1, hk]; omega))

theorem msgBlk2_apply (q : Fin 2048) (k : Fin 600064) (hk : k.val = 2048 * (t.val % 293) + q.val) :
    msgBlk2 (F := Ideal) V c t (ix2 q f) = V c main_v8 (ix2 k f) := by
  show V c main_v8 (((cfg2.win 1).blk t).view.emb (ix2 q f)) = _
  exact congrArg (V c main_v8) (ix2_of_val
    (show win2_1.index t 0 * 2048 + 1 * q.val = k.val by rw [(idx_facts2 t).2.2.1, hk]; omega)
    (show win2_1.index t 1 * 128 + 1 * f.val = f.val by rw [(idx_facts2 t).2.2.2.1]; omega))

theorem biasBlk2_apply : biasBlk2 (F := Ideal) V c t (ix2 0 f) = V c main_v9 (ix2 0 f) := by
  show V c main_v9 (((cfg2.win 2).blk t).view.emb (ix2 (0 : Fin 1) f)) = _
  exact congrArg (V c main_v9) (ix2_of_val
    (show win2_2.index t 0 * 1 + 1 * 0 = 0 by rw [(idx_facts2 t).2.2.2.2.1])
    (show win2_2.index t 1 * 128 + 1 * f.val = f.val by rw [(idx_facts2 t).2.2.2.2.2.1]; omega))

/-- Point 293·nb + e restarts the sum at e = 0 and adds edge block e's 2048 contributions to row 2048·nb + r. -/
theorem accAt2_step (nb e : ℕ) (he : e < 293) (ht : 293 * nb + e < cfg2.N) :
    accAt2 (F := Ideal) V c (293 * nb + e) (ix2 r f)
      = (if e = 0 then 0 else accAt2 (F := Ideal) V c (293 * nb + e - 1) (ix2 r f))
        + ∑ q ∈ Finset.range 2048, edgeTerm (V c main_v1) (V c main_v8) (2048 * nb + r.val) f (2048 * e + q) := by
  obtain ⟨t, htv⟩ : ∃ t : Fin cfg2.N, t.val = 293 * nb + e := ⟨⟨_, ht⟩, rfl⟩
  have hm : t.val % 293 = e := by omega
  have hd : t.val / 293 = nb := by omega
  rw [← htv, ← step2_eq_accAt2 V c t (accAt2 V c (t.val - 1)) fun _ => rfl]
  unfold step2 acc2
  rw [k2_pay2_apply, (idx_facts2 t).1, hd, Finset.sum_range]
  congr 1
  · by_cases h : e = 0
    · rw [if_pos ((c2_first_iff t).mpr (hm.trans h)), if_pos h, k2_pay1_apply]
    · rw [if_neg fun e' => h (hm.symm.trans ((c2_first_iff t).mp e')), if_neg h]
  · refine Finset.sum_congr rfl fun q _ => ?_
    have hq : 2048 * e + q.val < 600064 := by have := q.isLt; omega
    rw [idsBlk2_apply V c t q ⟨_, hq⟩ (by rw [hm]), msgBlk2_apply V c t f q ⟨_, hq⟩ (by rw [hm])]
    symm
    exact ext0_eq _ ⟨_, hq⟩ _ rfl

/-- After the last edge block (e = 292) all 600064 edges have been seen. -/
theorem accAt2_last (ht : t.val % 293 = 292) :
    accAt2 (F := Ideal) V c t.val (ix2 r f)
      = ∑ n ∈ Finset.range 600064, edgeTerm (V c main_v1) (V c main_v8) (2048 * (t.val / 293) + r.val) f n := by
  have h := restartSum (M := EReal) 293 2048 (t.val / 293) (fun m => accAt2 (F := Ideal) V c m (ix2 r f))
    (edgeTerm (V c main_v1) (V c main_v8) (2048 * (t.val / 293) + r.val) f)
    (fun e he => accAt2_step V c r f _ e he (by have := t.isLt; omega)) 292 (by decide)
  rw [show 293 * (t.val / 293) + 292 = t.val from by omega] at h
  exact h

theorem flushed2_eq (hf : (cfg2.win 3).flush t = true) :
    (dat2 (F := Ideal) V c).flushed 3 t
      = ((cfg2.win 3).blk t).view.read (Elt Ideal) (Cert.Spec.scatterVal (C := 128) (V c main_v1) (V c main_v8) (V c main_v9)) := by
  show (cfg2.win 3).cut (grid2.coords t) ((dat2 (F := Ideal) V c).after 3 t) = _
  rw [after2_3]
  funext y
  obtain ⟨r, f, rfl⟩ : ∃ (r : Fin 2048) (f : Fin 128), y = ix2 r f := ⟨y 0, y 1, eq_ix2 y⟩
  have hk : 2048 * (t.val / 293) + r.val < 51200 := by
    have h1 : t.val < 7325 := t.isLt.trans_eq N_2
    have h2 := r.isLt
    omega
  show k2_pay3 (accAt2 V c t.val) (biasBlk2 V c t) (ix2 r f)
    = Cert.Spec.scatterVal (C := 128) (V c main_v1) (V c main_v8) (V c main_v9) (((cfg2.win 3).blk t).view.emb (ix2 r f))
  rw [show ((cfg2.win 3).blk t).view.emb (ix2 r f) = (ix2 ⟨_, hk⟩ f : S51200x128.Idx) from ix2_of_val
      (show win2_3.index t 0 * 2048 + 1 * r.val = 2048 * (t.val / 293) + r.val by rw [(idx_facts2 t).2.2.2.2.2.2.1]; omega)
      (show win2_3.index t 1 * 128 + 1 * f.val = f.val by rw [(idx_facts2 t).2.2.2.2.2.2.2]; omega),
    k2_pay3_apply, biasBlk2_apply, accAt2_last V c t r f ((flush2_3 t).mp hf), scatterVal_entry]

/-- Every output row ν is covered by the block of point 293·(ν / 2048) + 292. -/
theorem cover2 (i : S51200x128.Idx) : ∃ t : Fin cfg2.N, (cfg2.win 3).flush t = true ∧ i ∈ ((cfg2.win 3).blk t).view.set := by
  have hi0 : (i 0).val < 51200 := idx2_lt0 i
  have hi1 : (i 1).val < 128 := idx2_lt1 i
  obtain ⟨t, ht⟩ : ∃ t : Fin cfg2.N, t.val = 293 * ((i 0).val / 2048) + 292 := ⟨⟨293 * ((i 0).val / 2048) + 292, by rw [show cfg2.N = 7325 from N_2]; omega⟩, rfl⟩
  obtain ⟨-, -, -, -, -, -, e0, e1⟩ := idx_facts2 t
  refine ⟨t, (flush2_3 t).mpr (by rw [ht]; omega), ?_⟩
  show i ∈ ((View.whole main_v10).slice (win2_3.rect t)).set
  rw [View.set_slice_whole, Rect.mem_set_unit]
  intro a
  match a with
  | ⟨0, _⟩ =>
    show win2_3.index t 0 * 2048 ≤ (i 0).val ∧ (i 0).val < win2_3.index t 0 * 2048 + 2048
    rw [e0, ht]; omega
  | ⟨1, _⟩ =>
    show win2_3.index t 1 * 128 ≤ (i 1).val ∧ (i 1).val < win2_3.index t 1 * 128 + 128
    rw [e1]; omega

theorem scatter_arr2 :
    (dat2 (F := Ideal) V c).arrAt 3 cfg2.N = Cert.Spec.scatterVal (C := 128) (V c main_v1) (V c main_v8) (V c main_v9) :=
  (dat2 V c).arrAt_eq_of_cover 3 _ (flushed2_eq V c) cover2

end Region

end Cert.KernelIdeal.Hand

end
-- ==== Proof.KI.Val3.lean ====
import proofs.«410823_j40836549050565_1_alg».proof.Proof.KI.Reg3
import proofs.«410823_j40836549050565_1_alg».proof.Proof.LibDotRowsCols
import proofs.«410823_j40836549050565_1_alg».proof.Proof.Spec

open scoped BigOperators

namespace Cert.KernelIdeal.Hand

open Cert.KernelIdeal Cert.KernelIdeal.Gen
open Idealize.ShloMosaic Idealize.ShloMosaic.TcCoe Idealize.ShloMosaic.ValueIdx

-- At the ideal values the roundings are the identity and the product accumulates from zero: entry (r, v) is ∑ q, x0 (r, q) · x1 (q, v).
theorem pay3_apply (x0) (x1) (j) : k3_pay1 (F := Ideal) x0 x1 j = ∑ q : Fin 128, x0 (ix2 (j 0) q) * x1 (ix2 q (j 1)) := by
  simp only [k3_pay1, shapeCast_self]
  exact Cert.Lib.DotRowsCols.RowsCols.matmul_zero_apply ⟨rfl, rfl, rfl, rfl, rfl, rfl⟩ (φ₁ := .bf16) (φ₂ := .bf16) none x0 x1 j

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

-- Row r of block t, of x as of the product, is row 5000·t + r, and W's one block is W: the blocks' product is block t of x · W.
theorem flushed_core3 (X : Cert.Spec.Mat 50000 128) (W : Cert.Spec.Mat 128 64) (t : Fin cfg3.N) (j : S5000x64.Idx) :
    k3_pay1 (F := Ideal) (fun y => X (((cfg3.win 0).blk t).view.emb y)) (fun y => W (((cfg3.win 1).blk t).view.emb y)) j
      = Cert.Spec.mm X W (((cfg3.win 2).blk t).view.emb j) := by
  obtain ⟨e0, e1, e2, e3, e4, e5⟩ := idx_facts3 t
  rw [pay3_apply]
  unfold Cert.Spec.mm
  refine Finset.sum_congr rfl fun q _ => congrArg₂ (· * ·) (congrArg X (funext fun a => Fin.ext ?_)) (congrArg W (funext fun a => Fin.ext ?_))
  · match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * q.val = q.val; omega
  · match a with
    | ⟨0, _⟩ => show win3_1.index t (0 : Fin 2) * 128 + 1 * q.val = q.val; omega
    | ⟨1, _⟩ => show win3_1.index t (1 : Fin 2) * 64 + 1 * (j 1).val = win3_2.index t (1 : Fin 2) * 64 + 1 * (j 1).val; omega

section Region
variable (V : (c : Dev nD) → (b : Ref sig .tc) → Buf (Elt Ideal) ((c : Thread nD τ).loc b))

-- Row ρ lies in block ρ / 5000.
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have ht : (i 0).val / 5000 < cfg3.N := by rw [show cfg3.N = 10 from N_3]; omega
  obtain ⟨-, -, -, -, e4, e5⟩ := idx_facts3 ⟨(i 0).val / 5000, ht⟩
  refine ⟨⟨(i 0).val / 5000, ht⟩, flush3_2 _, ?_⟩
  show i ∈ ((View.whole main_v13).slice (win3_2.rect ⟨(i 0).val / 5000, ht⟩)).set
  rw [View.set_slice_whole, Rect.mem_set_unit]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e5]; omega

-- The ten row blocks tile the rows, and block t ends as block t of the product: the array ends as the product.
theorem dense_arr3 (c : Dev nD) : (dat3 (F := Ideal) V c).arrAt 2 cfg3.N
    = Cert.Spec.mm (N := 50000) (K := 128) (C := 64) (V c main_v12) (V c main_arg10) :=
  (dat3 V c).arrAt_eq_of_cover 2 _ (fun t _ => funext (flushed_core3 (V c main_v12) (V c main_arg10) t)) cover3

end Region

end Cert.KernelIdeal.Hand
-- ==== Proof.KI.Val4a.lean ====
import proofs.«410823_j40836549050565_1_alg».proof.Proof.Gen.KernelIdeal.Skeleton
import proofs.«410823_j40836549050565_1_alg».proof.Proof.LibDotRowsCols
import proofs.«410823_j40836549050565_1_alg».proof.Proof.LibOneHot

noncomputable section

open scoped BigOperators

namespace Cert.KernelIdeal.Hand

open Cert.KernelIdeal Cert.KernelIdeal.Gen
open Idealize.ShloMosaic Idealize.ShloMosaic.ValueIdx
open Cert.Lib.DotRowsCols Cert.Lib.OneHot

theorem k4_pay1_apply (j : S2048x64.Idx) : k4_pay1 (F := Ideal) j = 0 := by
  unfold k4_pay1
  rw [shapeCast_self]
  exact Ideal.ofBits_zero_f32

/-- The one-hot entry (r, q) is 1 exactly where row r's source id is the word 2048·n + q, and 1 · x = x, 0 · x = 0. -/
theorem k4_pay2_apply (i : grid4.Coords) (x0 : IVec S2048 32) (a : FVec Ideal S2048x64 .f32) (x2 : FVec Ideal S2048x64 .bf16)
    (r : Fin 2048) (f : Fin 64) :
    k4_pay2 (F := Ideal) i x0 a x2 (ix2 r f)
      = a (ix2 r f) + ∑ q : Fin 2048, if x0 (ix1 r) = BitVec.ofNat 32 (2048 * (i 1).val + q.val) then x2 (ix2 q f) else 0 := by
  unfold k4_pay2
  dsimp only
  simp only [shapeCast_self]
  rw [addf_apply]
  refine congrArg (a (ix2 r f) + ·) ?_
  refine (RowsCols.matmul_zero_apply ⟨rfl, rfl, rfl, rfl, rfl, rfl⟩ none _ _ (ix2 r f)).trans ?_
  refine Finset.sum_congr rfl fun q _ => ?_
  show FloatOps.sitofp (F := Ideal) .f32 ((IntOp.cmpi .eq (broadcastTo S2048x2048 (shapeCast S2048x1 x0 shapeCasts_S2048_S2048x1) broadcasts_S2048x1_S2048x2048 (ix2 r q))
      (broadcastTo S2048x2048 _ broadcasts_S1x2048_S2048x2048 (ix2 r q))).setWidth 32) * x2 (ix2 q f) = _
  rw [hot_word, broadcastTo_a1_ab_apply, shapeCast_a_a1_apply, broadcastTo_1b_ab_apply]
  show (if x0 (ix1 r) = IntOp.addi (IntOp.muli (BitVec.ofNat 32 (i 1).val) 2048#32) (iota .tc S1x2048 32 [1] iota_S1x2048_d1_w32 (ix2 (0 : Fin 1) q)) then (1 : EReal) else 0) * _ = _
  rw [iota_single_apply]
  show (if x0 (ix1 r) = BitVec.ofNat 32 (i 1).val * BitVec.ofNat 32 2048 + BitVec.ofNat 32 q.val then (1 : EReal) else 0) * _ = _
  rw [word_mul_add, ite_mul, one_mul, zero_mul]

theorem k4_pay3_apply (a : FVec Ideal S2048x64 .f32) (v : FVec Ideal S2048 .f32) (r : Fin 2048) (f : Fin 64) :
    k4_pay3 (F := Ideal) a v (ix2 r f) = a (ix2 r f) * v (ix1 r) := by
  unfold k4_pay3
  simp only [shapeCast_self]
  rw [truncf_apply, mulf_apply]
  refine congrArg (a (ix2 r f) * ·) ?_
  rw [broadcastTo_a1_ab_apply, shapeCast_a_a1_apply]

end Cert.KernelIdeal.Hand

end
-- ==== Proof.KI.Val4b.lean ====
import proofs.«410823_j40836549050565_1_alg».proof.Proof.KI.Reg4
import proofs.«410823_j40836549050565_1_alg».proof.Proof.KI.Val4a
import proofs.«410823_j40836549050565_1_alg».proof.Proof.Spec

noncomputable section

open scoped BigOperators

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.Lib.OneHot

/-- The index maps at point t = 25·e + n, decided once over the grid. -/
theorem idx_facts4 : ∀ t : Fin cfg4.N, win4_0.index t (0 : Fin 1) = t.val / 25 ∧ win4_1.index t (0 : Fin 1) = t.val / 25
    ∧ win4_2.index t (0 : Fin 2) = t.val % 25 ∧ win4_2.index t (1 : Fin 2) = 0
    ∧ win4_3.index t (0 : Fin 2) = t.val / 25 ∧ win4_3.index t (1 : Fin 2) = 0
    ∧ ((grid4.coords t) 1).val = t.val % 25 :=
  (by decide +kernel : ∀ t : Fin grid4.N, _)

section Region
variable (V : (c : Dev nD) → (b : Ref sig .tc) → Buf (Elt Ideal) ((c : Thread nD τ).loc b))
  (c : Dev nD) (t : Fin cfg4.N) (r : Fin 2048) (f : Fin 64)

/-- A block's coordinate in its array is block index × block size + the coordinate inside the block. -/
theorem srcBlk4_apply (k : Fin 600064) (hk : k.val = 2048 * (t.val / 25) + r.val) :
    srcBlk4 (F := Ideal) V c t (ix1 r) = V c main_v0 (ix1 k) := by
  show V c main_v0 (((cfg4.win 0).blk t).view.emb (ix1 r)) = _
  exact congrArg (V c main_v0) (ix1_of_val
    (show win4_0.index t (0 : Fin 1) * 2048 + 1 * r.val = k.val by rw [(idx_facts4 t).1, hk]; omega))

theorem valBlk4_apply (k : Fin 600064) (hk : k.val = 2048 * (t.val / 25) + r.val) :
    valBlk4 (F := Ideal) V c t (ix1 r) = V c main_v2 (ix1 k) := by
  show V c main_v2 (((cfg4.win 1).blk t).view.emb (ix1 r)) = _
  exact congrArg (V c main_v2) (ix1_of_val
    (show win4_1.index t (0 : Fin 1) * 2048 + 1 * r.val = k.val by rw [(idx_facts4 t).2.1, hk]; omega))

theorem tabBlk4_apply (q : Fin 2048) (k : Fin 51200) (hk : k.val = 2048 * (t.val % 25) + q.val) :
    tabBlk4 (F := Ideal) V c t (ix2 q f) = V c main_v14 (ix2 k f) := by
  show V c main_v14 (((cfg4.win 2).blk t).view.emb (ix2 q f)) = _
  exact congrArg (V c main_v14) (ix2_of_val
    (show win4_2.index t (0 : Fin 2) * 2048 + 1 * q.val = k.val by rw [(idx_facts4 t).2.2.1, hk]; omega)
    (show win4_2.index t (1 : Fin 2) * 64 + 1 * f.val = f.val by rw [(idx_facts4 t).2.2.2.1]; omega))

/-- Row k's entry where the word w is the word of k, zero elsewhere and past the table. -/
abbrev hit4 (w : BitVec 32) (tab : FVec Ideal S51200x64 .bf16) (f : Fin 64) : ℕ → EReal :=
  ext0 fun ν : Fin 51200 => if w = BitVec.ofNat 32 ν.val then tab (ix2 ν f) else 0

/-- Point 25·e + n restarts the sum at n = 0 and adds the hits among node block n's 2048 rows. -/
theorem accAt4_step (e n : ℕ) (hn : n < 25) (ht : 25 * e + n < cfg4.N) (k : Fin 600064) (hk : k.val = 2048 * e + r.val) :
    accAt4 (F := Ideal) V c (25 * e + n) (ix2 r f)
      = (if n = 0 then 0 else accAt4 (F := Ideal) V c (25 * e + n - 1) (ix2 r f))
        + ∑ q ∈ Finset.range 2048, hit4 (V c main_v0 (ix1 k)) (V c main_v14) f (2048 * n + q) := by
  obtain ⟨t, htv⟩ : ∃ t : Fin cfg4.N, t.val = 25 * e + n := ⟨⟨_, ht⟩, rfl⟩
  have hm : t.val % 25 = n := by omega
  have hd : t.val / 25 = e := by omega
  rw [← htv, ← step4_eq_accAt4 V c t (accAt4 V c (t.val - 1)) fun _ => rfl]
  unfold step4 acc4
  rw [k4_pay2_apply, srcBlk4_apply V c t r k (by rw [hd]; exact hk), (idx_facts4 t).2.2.2.2.2.2, hm, Finset.sum_range]
  congr 1
  · by_cases h : n = 0
    · rw [if_pos ((c4_first_iff t).mpr (hm.trans h)), if_pos h, k4_pay1_apply]
    · rw [if_neg fun e' => h (hm.symm.trans ((c4_first_iff t).mp e')), if_neg h]
  · refine Finset.sum_congr rfl fun q _ => ?_
    have hq : 2048 * n + q.val < 51200 := by have := q.isLt; omega
    rw [tabBlk4_apply V c t f q ⟨_, hq⟩ (by rw [hm])]
    symm
    exact ext0_eq _ ⟨_, hq⟩ _ rfl

/-- After the last node block (n = 24) all 51200 rows of the table have been seen. -/
theorem accAt4_last (ht : t.val % 25 = 24) (k : Fin 600064) (hk : k.val = 2048 * (t.val / 25) + r.val) :
    accAt4 (F := Ideal) V c t.val (ix2 r f)
      = (∑ ν : Fin 51200, if V c main_v0 (ix1 k) = BitVec.ofNat 32 ν.val then V c main_v14 (ix2 ν f) else 0 : EReal) := by
  have h := restartSum (M := EReal) 25 2048 (t.val / 25) (fun m => accAt4 (F := Ideal) V c m (ix2 r f)) (hit4 (V c main_v0 (ix1 k)) (V c main_v14) f)
    (fun n hn => accAt4_step V c r f _ n hn (by have := t.isLt; omega) k hk) 24 (by decide)
  rw [show 25 * (t.val / 25) + 24 = t.val from by omega] at h
  exact h.trans (sum_ext0 _)

theorem flushed4_eq (hf : (cfg4.win 3).flush t = true) :
    (dat4 (F := Ideal) V c).flushed 3 t
      = ((cfg4.win 3).blk t).view.read (Elt Ideal) (Cert.Spec.gatherVal (C := 64) (V c main_v0) (V c main_v2) (V c main_v14)) := by
  show (cfg4.win 3).cut (grid4.coords t) ((dat4 (F := Ideal) V c).after 3 t) = _
  rw [after4_3]
  funext y
  obtain ⟨r, f, rfl⟩ : ∃ (r : Fin 2048) (f : Fin 64), y = ix2 r f := ⟨y 0, y 1, eq_ix2 y⟩
  have hk : 2048 * (t.val / 25) + r.val < 600064 := by
    have h1 : t.val < 7325 := t.isLt.trans_eq N_4
    have h2 := r.isLt
    omega
  show k4_pay3 (F := Ideal) (accAt4 V c t.val) (valBlk4 V c t) (ix2 r f)
    = Cert.Spec.gatherVal (C := 64) (V c main_v0) (V c main_v2) (V c main_v14) (((cfg4.win 3).blk t).view.emb (ix2 r f))
  rw [show ((cfg4.win 3).blk t).view.emb (ix2 r f) = (ix2 ⟨_, hk⟩ f : S600064x64.Idx) from ix2_of_val
      (show win4_3.index t (0 : Fin 2) * 2048 + 1 * r.val = 2048 * (t.val / 25) + r.val by rw [(idx_facts4 t).2.2.2.2.1]; omega)
      (show win4_3.index t (1 : Fin 2) * 64 + 1 * f.val = f.val by rw [(idx_facts4 t).2.2.2.2.2.1]; omega),
    k4_pay3_apply, valBlk4_apply V c t r ⟨_, hk⟩ rfl, accAt4_last V c t r f ((flush4_3 t).mp hf) ⟨_, hk⟩ rfl]
  rfl

/-- Every output row ρ is covered by the block of point 25·(ρ / 2048) + 24. -/
theorem cover4 (i : S600064x64.Idx) : ∃ t : Fin cfg4.N, (cfg4.win 3).flush t = true ∧ i ∈ ((cfg4.win 3).blk t).view.set := by
  have hi0 : (i 0).val < 600064 := (i 0).isLt
  have hi1 : (i 1).val < 64 := (i 1).isLt
  obtain ⟨t, ht⟩ : ∃ t : Fin cfg4.N, t.val = 25 * ((i 0).val / 2048) + 24 := ⟨⟨25 * ((i 0).val / 2048) + 24, by rw [show cfg4.N = 7325 from N_4]; omega⟩, rfl⟩
  obtain ⟨-, -, -, -, e4, e5, -⟩ := idx_facts4 t
  refine ⟨t, (flush4_3 t).mpr (by rw [ht]; omega), ?_⟩
  show i ∈ ((View.whole main_v15).slice (win4_3.rect t)).set
  rw [View.set_slice_whole, Rect.mem_set_unit]
  intro a
  match a with
  | ⟨0, _⟩ =>
    show win4_3.index t (0 : Fin 2) * 2048 ≤ (i 0).val ∧ (i 0).val < win4_3.index t (0 : Fin 2) * 2048 + 2048
    rw [e4, ht]; omega
  | ⟨1, _⟩ =>
    show win4_3.index t (1 : Fin 2) * 64 ≤ (i 1).val ∧ (i 1).val < win4_3.index t (1 : Fin 2) * 64 + 64
    rw [e5]; omega

theorem gather_arr4 :
    (dat4 (F := Ideal) V c).arrAt 3 cfg4.N = Cert.Spec.gatherVal (C := 64) (V c main_v0) (V c main_v2) (V c main_v14) :=
  (dat4 (F := Ideal) V c).arrAt_eq_of_cover 3 _ (flushed4_eq V c) cover4

end Region

end Cert.KernelIdeal.Hand

end
-- ==== Proof.KI.Val5.lean ====
import proofs.«410823_j40836549050565_1_alg».proof.Proof.KI.Reg5
import proofs.«410823_j40836549050565_1_alg».proof.Proof.KI.ValScatter
import proofs.«410823_j40836549050565_1_alg».proof.Proof.LibDotRowsCols

noncomputable section

open scoped BigOperators

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.Lib.DotRowsCols Cert.Lib.OneHot

theorem rowsCols5 : RowsCols dot_S2048x2048_S2048x64_S2048x64_1_0_0_1_n_n := ⟨rfl, rfl, rfl, rfl, rfl, rfl⟩

/-- The one-hot matrix times the messages adds, at row r, the columns whose destination word is the row's word. -/
theorem k5_pay2_apply (i : grid5.Coords) (x0 : Vec Ideal S2048 .i32) (a : Vec Ideal S2048x64 .f32) (x1 : Vec Ideal S2048x64 .bf16)
    (r : Fin 2048) (f : Fin 64) :
    k5_pay2 i x0 a x1 (ix2 r f)
      = a (ix2 r f) + ∑ q : Fin 2048, (if BitVec.ofNat 32 (2048 * (i 0).val + r.val) = x0 (ix1 q) then x1 (ix2 q f) else 0) := by
  unfold k5_pay2
  simp only [shapeCast_self]
  rw [addf_apply, rowsCols5.matmul_zero_apply]
  congr 1
  refine Finset.sum_congr rfl fun q _ => ?_
  refine (congrArg (· * x1 (ix2 q f)) (hot_apply (i 0).val x0 r q)).trans ?_
  split
  · exact one_mul _
  · exact zero_mul _

theorem k5_pay1_apply (j : S2048x64.Idx) : (k5_pay1 (F := Ideal)) j = 0 := by
  unfold k5_pay1
  simp only [shapeCast_self]
  exact Ideal.ofBits_zero_f32

theorem k5_pay3_apply (a : Vec Ideal S2048x64 .f32) (b : Vec Ideal S1x64 .f32) (r : Fin 2048) (f : Fin 64) :
    k5_pay3 a b (ix2 r f) = a (ix2 r f) + b (ix2 0 f) := by
  unfold k5_pay3
  simp only [shapeCast_self]
  rw [addf_apply]
  congr 1
  exact broadcastTo_1b_ab_apply _ _ _ _

/-- The index maps at point t = 293·nb + e, decided once over the grid. -/
theorem idx_facts5 : ∀ t : Fin cfg5.N,
    (grid5.coords t 0).val = t.val / 293
    ∧ win5_0.index t 0 = t.val % 293
    ∧ win5_1.index t 0 = t.val % 293 ∧ win5_1.index t 1 = 0
    ∧ win5_2.index t 0 = 0 ∧ win5_2.index t 1 = 0
    ∧ win5_3.index t 0 = t.val / 293 ∧ win5_3.index t 1 = 0 :=
  (by decide +kernel : ∀ t : Fin grid5.N, _)

section Region
variable (V : (c : Dev nD) → (b : Ref sig .tc) → Buf (Elt Ideal) ((c : Thread nD τ).loc b))
  (c : Dev nD) (t : Fin cfg5.N) (r : Fin 2048) (f : Fin 64)

/-- A block's coordinate in its array is block index × block size + the coordinate inside the block. -/
theorem idsBlk5_apply (q : Fin 2048) (k : Fin 600064) (hk : k.val = 2048 * (t.val % 293) + q.val) :
    idsBlk5 (F := Ideal) V c t (ix1 q) = V c main_v1 (ix1 k) := by
  show V c main_v1 (((cfg5.win 0).blk t).view.emb (ix1 q)) = _
  exact congrArg (V c main_v1) (ix1_of_val
    (show win5_0.index t 0 * 2048 + 1 * q.val = k.val by rw [(idx_facts5 t).2.1, hk]; omega))

theorem msgBlk5_apply (q : Fin 2048) (k : Fin 600064) (hk : k.val = 2048 * (t.val % 293) + q.val) :
    msgBlk5 (F := Ideal) V c t (ix2 q f) = V c main_v15 (ix2 k f) := by
  show V c main_v15 (((cfg5.win 1).blk t).view.emb (ix2 q f)) = _
  exact congrArg (V c main_v15) (ix2_of_val
    (show win5_1.index t 0 * 2048 + 1 * q.val = k.val by rw [(idx_facts5 t).2.2.1, hk]; omega)
    (show win5_1.index t 1 * 64 + 1 * f.val = f.val by rw [(idx_facts5 t).2.2.2.1]; omega))

theorem biasBlk5_apply : biasBlk5 (F := Ideal) V c t (ix2 0 f) = V c main_v16 (ix2 0 f) := by
  show V c main_v16 (((cfg5.win 2).blk t).view.emb (ix2 (0 : Fin 1) f)) = _
  exact congrArg (V c main_v16) (ix2_of_val
    (show win5_2.index t 0 * 1 + 1 * 0 = 0 by rw [(idx_facts5 t).2.2.2.2.1])
    (show win5_2.index t 1 * 64 + 1 * f.val = f.val by rw [(idx_facts5 t).2.2.2.2.2.1]; omega))

/-- Point 293·nb + e restarts the sum at e = 0 and adds edge block e's 2048 contributions to row 2048·nb + r. -/
theorem accAt5_step (nb e : ℕ) (he : e < 293) (ht : 293 * nb + e < cfg5.N) :
    accAt5 (F := Ideal) V c (293 * nb + e) (ix2 r f)
      = (if e = 0 then 0 else accAt5 (F := Ideal) V c (293 * nb + e - 1) (ix2 r f))
        + ∑ q ∈ Finset.range 2048, edgeTerm (V c main_v1) (V c main_v15) (2048 * nb + r.val) f (2048 * e + q) := by
  obtain ⟨t, htv⟩ : ∃ t : Fin cfg5.N, t.val = 293 * nb + e := ⟨⟨_, ht⟩, rfl⟩
  have hm : t.val % 293 = e := by omega
  have hd : t.val / 293 = nb := by omega
  rw [← htv, ← step5_eq_accAt5 V c t (accAt5 V c (t.val - 1)) fun _ => rfl]
  unfold step5 acc5
  rw [k5_pay2_apply, (idx_facts5 t).1, hd, Finset.sum_range]
  congr 1
  · by_cases h : e = 0
    · rw [if_pos ((c5_first_iff t).mpr (hm.trans h)), if_pos h, k5_pay1_apply]
    · rw [if_neg fun e' => h (hm.symm.trans ((c5_first_iff t).mp e')), if_neg h]
  · refine Finset.sum_congr rfl fun q _ => ?_
    have hq : 2048 * e + q.val < 600064 := by have := q.isLt; omega
    rw [idsBlk5_apply V c t q ⟨_, hq⟩ (by rw [hm]), msgBlk5_apply V c t f q ⟨_, hq⟩ (by rw [hm])]
    symm
    exact ext0_eq _ ⟨_, hq⟩ _ rfl

/-- After the last edge block (e = 292) all 600064 edges have been seen. -/
theorem accAt5_last (ht : t.val % 293 = 292) :
    accAt5 (F := Ideal) V c t.val (ix2 r f)
      = ∑ n ∈ Finset.range 600064, edgeTerm (V c main_v1) (V c main_v15) (2048 * (t.val / 293) + r.val) f n := by
  have h := restartSum (M := EReal) 293 2048 (t.val / 293) (fun m => accAt5 (F := Ideal) V c m (ix2 r f))
    (edgeTerm (V c main_v1) (V c main_v15) (2048 * (t.val / 293) + r.val) f)
    (fun e he => accAt5_step V c r f _ e he (by have := t.isLt; omega)) 292 (by decide)
  rw [show 293 * (t.val / 293) + 292 = t.val from by omega] at h
  exact h

theorem flushed5_eq (hf : (cfg5.win 3).flush t = true) :
    (dat5 (F := Ideal) V c).flushed 3 t
      = ((cfg5.win 3).blk t).view.read (Elt Ideal) (Cert.Spec.scatterVal (C := 64) (V c main_v1) (V c main_v15) (V c main_v16)) := by
  show (cfg5.win 3).cut (grid5.coords t) ((dat5 (F := Ideal) V c).after 3 t) = _
  rw [after5_3]
  funext y
  obtain ⟨r, f, rfl⟩ : ∃ (r : Fin 2048) (f : Fin 64), y = ix2 r f := ⟨y 0, y 1, eq_ix2 y⟩
  have hk : 2048 * (t.val / 293) + r.val < 51200 := by
    have h1 : t.val < 7325 := t.isLt.trans_eq N_5
    have h2 := r.isLt
    omega
  show k5_pay3 (accAt5 V c t.val) (biasBlk5 V c t) (ix2 r f)
    = Cert.Spec.scatterVal (C := 64) (V c main_v1) (V c main_v15) (V c main_v16) (((cfg5.win 3).blk t).view.emb (ix2 r f))
  rw [show ((cfg5.win 3).blk t).view.emb (ix2 r f) = (ix2 ⟨_, hk⟩ f : S51200x64.Idx) from ix2_of_val
      (show win5_3.index t 0 * 2048 + 1 * r.val = 2048 * (t.val / 293) + r.val by rw [(idx_facts5 t).2.2.2.2.2.2.1]; omega)
      (show win5_3.index t 1 * 64 + 1 * f.val = f.val by rw [(idx_facts5 t).2.2.2.2.2.2.2]; omega),
    k5_pay3_apply, biasBlk5_apply, accAt5_last V c t r f ((flush5_3 t).mp hf), scatterVal_entry]

/-- Every output row ν is covered by the block of point 293·(ν / 2048) + 292. -/
theorem cover5 (i : S51200x64.Idx) : ∃ t : Fin cfg5.N, (cfg5.win 3).flush t = true ∧ i ∈ ((cfg5.win 3).blk t).view.set := by
  have hi0 : (i 0).val < 51200 := idx2_lt0 i
  have hi1 : (i 1).val < 64 := idx2_lt1 i
  obtain ⟨t, ht⟩ : ∃ t : Fin cfg5.N, t.val = 293 * ((i 0).val / 2048) + 292 := ⟨⟨293 * ((i 0).val / 2048) + 292, by rw [show cfg5.N = 7325 from N_5]; omega⟩, rfl⟩
  obtain ⟨-, -, -, -, -, -, e0, e1⟩ := idx_facts5 t
  refine ⟨t, (flush5_3 t).mpr (by rw [ht]; omega), ?_⟩
  show i ∈ ((View.whole main_v17).slice (win5_3.rect t)).set
  rw [View.set_slice_whole, Rect.mem_set_unit]
  intro a
  match a with
  | ⟨0, _⟩ =>
    show win5_3.index t 0 * 2048 ≤ (i 0).val ∧ (i 0).val < win5_3.index t 0 * 2048 + 2048
    rw [e0, ht]; omega
  | ⟨1, _⟩ =>
    show win5_3.index t 1 * 64 ≤ (i 1).val ∧ (i 1).val < win5_3.index t 1 * 64 + 64
    rw [e1]; omega

theorem scatter_arr5 :
    (dat5 (F := Ideal) V c).arrAt 3 cfg5.N = Cert.Spec.scatterVal (C := 64) (V c main_v1) (V c main_v15) (V c main_v16) :=
  (dat5 V c).arrAt_eq_of_cover 3 _ (flushed5_eq V c) cover5

end Region

end Cert.KernelIdeal.Hand

end
-- ==== Proof.KI.Val6.lean ====
import proofs.«410823_j40836549050565_1_alg».proof.Proof.KI.Reg6
import proofs.«410823_j40836549050565_1_alg».proof.Proof.LibDotRowsCols
import proofs.«410823_j40836549050565_1_alg».proof.Proof.Spec

open scoped BigOperators

namespace Cert.KernelIdeal.Hand

open Cert.KernelIdeal Cert.KernelIdeal.Gen
open Idealize.ShloMosaic Idealize.ShloMosaic.TcCoe Idealize.ShloMosaic.ValueIdx

-- At the ideal values the roundings are the identity and the product accumulates from zero: entry (r, v) is ∑ q, x0 (r, q) · x1 (q, v).
theorem pay6_apply (x0) (x1) (j) : k6_pay1 (F := Ideal) x0 x1 j = ∑ q : Fin 128, x0 (ix2 (j 0) q) * x1 (ix2 q (j 1)) := by
  simp only [k6_pay1, shapeCast_self]
  exact Cert.Lib.DotRowsCols.RowsCols.matmul_zero_apply ⟨rfl, rfl, rfl, rfl, rfl, rfl⟩ (φ₁ := .bf16) (φ₂ := .bf16) none x0 x1 j

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

-- Row r of block t, of x as of the product, is row 5000·t + r, and W's one block is W: the blocks' product is block t of x · W.
theorem flushed_core6 (X : Cert.Spec.Mat 50000 128) (W : Cert.Spec.Mat 128 128) (t : Fin cfg6.N) (j : S5000x128.Idx) :
    k6_pay1 (F := Ideal) (fun y => X (((cfg6.win 0).blk t).view.emb y)) (fun y => W (((cfg6.win 1).blk t).view.emb y)) j
      = Cert.Spec.mm X W (((cfg6.win 2).blk t).view.emb j) := by
  obtain ⟨e0, e1, e2, e3, e4, e5⟩ := idx_facts6 t
  rw [pay6_apply]
  unfold Cert.Spec.mm
  refine Finset.sum_congr rfl fun q _ => congrArg₂ (· * ·) (congrArg X (funext fun a => Fin.ext ?_)) (congrArg W (funext fun a => Fin.ext ?_))
  · match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * q.val = q.val; omega
  · match a with
    | ⟨0, _⟩ => show win6_1.index t (0 : Fin 2) * 128 + 1 * q.val = q.val; omega
    | ⟨1, _⟩ => show win6_1.index t (1 : Fin 2) * 128 + 1 * (j 1).val = win6_2.index t (1 : Fin 2) * 128 + 1 * (j 1).val; omega

section Region
variable (V : (c : Dev nD) → (b : Ref sig .tc) → Buf (Elt Ideal) ((c : Thread nD τ).loc b))

-- Row ρ lies in block ρ / 5000.
theorem cover6 (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have ht : (i 0).val / 5000 < cfg6.N := by rw [show cfg6.N = 10 from N_6]; omega
  obtain ⟨-, -, -, -, e4, e5⟩ := idx_facts6 ⟨(i 0).val / 5000, ht⟩
  refine ⟨⟨(i 0).val / 5000, ht⟩, flush6_2 _, ?_⟩
  show i ∈ ((View.whole main_v19).slice (win6_2.rect ⟨(i 0).val / 5000, ht⟩)).set
  rw [View.set_slice_whole, Rect.mem_set_unit]
  intro a
  match a with
  | ⟨0, _⟩ =>
    show win6_2.index ⟨(i 0).val / 5000, ht⟩ (0 : Fin 2) * 5000 ≤ (i 0).val ∧ (i 0).val < win6_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, ht⟩ (1 : Fin 2) * 128 ≤ (i 1).val ∧ (i 1).val < win6_2.index ⟨(i 0).val / 5000, ht⟩ (1 : Fin 2) * 128 + 128
    rw [e5]; omega

-- The ten row blocks tile the rows, and block t ends as block t of the product: the array ends as the product.
theorem dense_arr6 (c : Dev nD) : (dat6 (F := Ideal) V c).arrAt 2 cfg6.N
    = Cert.Spec.mm (N := 50000) (K := 128) (C := 128) (V c main_arg4) (V c main_arg12) :=
  (dat6 V c).arrAt_eq_of_cover 2 _ (fun t _ => funext (flushed_core6 (V c main_arg4) (V c main_arg12) t)) cover6

end Region

end Cert.KernelIdeal.Hand
-- ==== Proof.KI.Val7a.lean ====
import proofs.«410823_j40836549050565_1_alg».proof.Proof.Gen.KernelIdeal.Skeleton
import proofs.«410823_j40836549050565_1_alg».proof.Proof.LibDotRowsCols
import proofs.«410823_j40836549050565_1_alg».proof.Proof.LibOneHot

noncomputable section

open scoped BigOperators

namespace Cert.KernelIdeal.Hand

open Cert.KernelIdeal Cert.KernelIdeal.Gen
open Idealize.ShloMosaic Idealize.ShloMosaic.ValueIdx
open Cert.Lib.DotRowsCols Cert.Lib.OneHot

theorem k7_pay1_apply (j : S2048x128.Idx) : k7_pay1 (F := Ideal) j = 0 := by
  unfold k7_pay1
  rw [shapeCast_self]
  exact Ideal.ofBits_zero_f32

/-- The one-hot entry (r, q) is 1 exactly where row r's source id is the word 2048·n + q, and 1 · x = x, 0 · x = 0. -/
theorem k7_pay2_apply (i : grid7.Coords) (x0 : IVec S2048 32) (a : FVec Ideal S2048x128 .f32) (x2 : FVec Ideal S2048x128 .bf16)
    (r : Fin 2048) (f : Fin 128) :
    k7_pay2 (F := Ideal) i x0 a x2 (ix2 r f)
      = a (ix2 r f) + ∑ q : Fin 2048, if x0 (ix1 r) = BitVec.ofNat 32 (2048 * (i 1).val + q.val) then x2 (ix2 q f) else 0 := by
  unfold k7_pay2
  dsimp only
  simp only [shapeCast_self]
  rw [addf_apply]
  refine congrArg (a (ix2 r f) + ·) ?_
  refine (RowsCols.matmul_zero_apply ⟨rfl, rfl, rfl, rfl, rfl, rfl⟩ none _ _ (ix2 r f)).trans ?_
  refine Finset.sum_congr rfl fun q _ => ?_
  show FloatOps.sitofp (F := Ideal) .f32 ((IntOp.cmpi .eq (broadcastTo S2048x2048 (shapeCast S2048x1 x0 shapeCasts_S2048_S2048x1) broadcasts_S2048x1_S2048x2048 (ix2 r q))
      (broadcastTo S2048x2048 _ broadcasts_S1x2048_S2048x2048 (ix2 r q))).setWidth 32) * x2 (ix2 q f) = _
  rw [hot_word, broadcastTo_a1_ab_apply, shapeCast_a_a1_apply, broadcastTo_1b_ab_apply]
  show (if x0 (ix1 r) = IntOp.addi (IntOp.muli (BitVec.ofNat 32 (i 1).val) 2048#32) (iota .tc S1x2048 32 [1] iota_S1x2048_d1_w32 (ix2 (0 : Fin 1) q)) then (1 : EReal) else 0) * _ = _
  rw [iota_single_apply]
  show (if x0 (ix1 r) = BitVec.ofNat 32 (i 1).val * BitVec.ofNat 32 2048 + BitVec.ofNat 32 q.val then (1 : EReal) else 0) * _ = _
  rw [word_mul_add, ite_mul, one_mul, zero_mul]

theorem k7_pay3_apply (a : FVec Ideal S2048x128 .f32) (v : FVec Ideal S2048 .f32) (r : Fin 2048) (f : Fin 128) :
    k7_pay3 (F := Ideal) a v (ix2 r f) = a (ix2 r f) * v (ix1 r) := by
  unfold k7_pay3
  simp only [shapeCast_self]
  rw [truncf_apply, mulf_apply]
  refine congrArg (a (ix2 r f) * ·) ?_
  rw [broadcastTo_a1_ab_apply, shapeCast_a_a1_apply]

end Cert.KernelIdeal.Hand

end
-- ==== Proof.KI.Val7b.lean ====
import proofs.«410823_j40836549050565_1_alg».proof.Proof.KI.Reg7
import proofs.«410823_j40836549050565_1_alg».proof.Proof.KI.Val7a
import proofs.«410823_j40836549050565_1_alg».proof.Proof.Spec

noncomputable section

open scoped BigOperators

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.Lib.OneHot

/-- The index maps at point t = 25·e + n, decided once over the grid. -/
theorem idx_facts7 : ∀ t : Fin cfg7.N, win7_0.index t (0 : Fin 1) = t.val / 25 ∧ win7_1.index t (0 : Fin 1) = t.val / 25
    ∧ win7_2.index t (0 : Fin 2) = t.val % 25 ∧ win7_2.index t (1 : Fin 2) = 0
    ∧ win7_3.index t (0 : Fin 2) = t.val / 25 ∧ win7_3.index t (1 : Fin 2) = 0
    ∧ ((grid7.coords t) 1).val = t.val % 25 :=
  (by decide +kernel : ∀ t : Fin grid7.N, _)

section Region
variable (V : (c : Dev nD) → (b : Ref sig .tc) → Buf (Elt Ideal) ((c : Thread nD τ).loc b))
  (c : Dev nD) (t : Fin cfg7.N) (r : Fin 2048) (f : Fin 128)

/-- A block's coordinate in its array is block index × block size + the coordinate inside the block. -/
theorem srcBlk7_apply (k : Fin 600064) (hk : k.val = 2048 * (t.val / 25) + r.val) :
    srcBlk7 (F := Ideal) V c t (ix1 r) = V c main_v3 (ix1 k) := by
  show V c main_v3 (((cfg7.win 0).blk t).view.emb (ix1 r)) = _
  exact congrArg (V c main_v3) (ix1_of_val
    (show win7_0.index t (0 : Fin 1) * 2048 + 1 * r.val = k.val by rw [(idx_facts7 t).1, hk]; omega))

theorem valBlk7_apply (k : Fin 600064) (hk : k.val = 2048 * (t.val / 25) + r.val) :
    valBlk7 (F := Ideal) V c t (ix1 r) = V c main_v5 (ix1 k) := by
  show V c main_v5 (((cfg7.win 1).blk t).view.emb (ix1 r)) = _
  exact congrArg (V c main_v5) (ix1_of_val
    (show win7_1.index t (0 : Fin 1) * 2048 + 1 * r.val = k.val by rw [(idx_facts7 t).2.1, hk]; omega))

theorem tabBlk7_apply (q : Fin 2048) (k : Fin 51200) (hk : k.val = 2048 * (t.val % 25) + q.val) :
    tabBlk7 (F := Ideal) V c t (ix2 q f) = V c main_v20 (ix2 k f) := by
  show V c main_v20 (((cfg7.win 2).blk t).view.emb (ix2 q f)) = _
  exact congrArg (V c main_v20) (ix2_of_val
    (show win7_2.index t (0 : Fin 2) * 2048 + 1 * q.val = k.val by rw [(idx_facts7 t).2.2.1, hk]; omega)
    (show win7_2.index t (1 : Fin 2) * 128 + 1 * f.val = f.val by rw [(idx_facts7 t).2.2.2.1]; omega))

/-- Row k's entry where the word w is the word of k, zero elsewhere and past the table. -/
abbrev hit7 (w : BitVec 32) (tab : FVec Ideal S51200x128 .bf16) (f : Fin 128) : ℕ → EReal :=
  ext0 fun ν : Fin 51200 => if w = BitVec.ofNat 32 ν.val then tab (ix2 ν f) else 0

/-- Point 25·e + n restarts the sum at n = 0 and adds the hits among node block n's 2048 rows. -/
theorem accAt7_step (e n : ℕ) (hn : n < 25) (ht : 25 * e + n < cfg7.N) (k : Fin 600064) (hk : k.val = 2048 * e + r.val) :
    accAt7 (F := Ideal) V c (25 * e + n) (ix2 r f)
      = (if n = 0 then 0 else accAt7 (F := Ideal) V c (25 * e + n - 1) (ix2 r f))
        + ∑ q ∈ Finset.range 2048, hit7 (V c main_v3 (ix1 k)) (V c main_v20) f (2048 * n + q) := by
  obtain ⟨t, htv⟩ : ∃ t : Fin cfg7.N, t.val = 25 * e + n := ⟨⟨_, ht⟩, rfl⟩
  have hm : t.val % 25 = n := by omega
  have hd : t.val / 25 = e := by omega
  rw [← htv, ← step7_eq_accAt7 V c t (accAt7 V c (t.val - 1)) fun _ => rfl]
  unfold step7 acc7
  rw [k7_pay2_apply, srcBlk7_apply V c t r k (by rw [hd]; exact hk), (idx_facts7 t).2.2.2.2.2.2, hm, Finset.sum_range]
  congr 1
  · by_cases h : n = 0
    · rw [if_pos ((c7_first_iff t).mpr (hm.trans h)), if_pos h, k7_pay1_apply]
    · rw [if_neg fun e' => h (hm.symm.trans ((c7_first_iff t).mp e')), if_neg h]
  · refine Finset.sum_congr rfl fun q _ => ?_
    have hq : 2048 * n + q.val < 51200 := by have := q.isLt; omega
    rw [tabBlk7_apply V c t f q ⟨_, hq⟩ (by rw [hm])]
    symm
    exact ext0_eq _ ⟨_, hq⟩ _ rfl

/-- After the last node block (n = 24) all 51200 rows of the table have been seen. -/
theorem accAt7_last (ht : t.val % 25 = 24) (k : Fin 600064) (hk : k.val = 2048 * (t.val / 25) + r.val) :
    accAt7 (F := Ideal) V c t.val (ix2 r f)
      = (∑ ν : Fin 51200, if V c main_v3 (ix1 k) = BitVec.ofNat 32 ν.val then V c main_v20 (ix2 ν f) else 0 : EReal) := by
  have h := restartSum (M := EReal) 25 2048 (t.val / 25) (fun m => accAt7 (F := Ideal) V c m (ix2 r f)) (hit7 (V c main_v3 (ix1 k)) (V c main_v20) f)
    (fun n hn => accAt7_step V c r f _ n hn (by have := t.isLt; omega) k hk) 24 (by decide)
  rw [show 25 * (t.val / 25) + 24 = t.val from by omega] at h
  exact h.trans (sum_ext0 _)

theorem flushed7_eq (hf : (cfg7.win 3).flush t = true) :
    (dat7 (F := Ideal) V c).flushed 3 t
      = ((cfg7.win 3).blk t).view.read (Elt Ideal) (Cert.Spec.gatherVal (C := 128) (V c main_v3) (V c main_v5) (V c main_v20)) := by
  show (cfg7.win 3).cut (grid7.coords t) ((dat7 (F := Ideal) V c).after 3 t) = _
  rw [after7_3]
  funext y
  obtain ⟨r, f, rfl⟩ : ∃ (r : Fin 2048) (f : Fin 128), y = ix2 r f := ⟨y 0, y 1, eq_ix2 y⟩
  have hk : 2048 * (t.val / 25) + r.val < 600064 := by
    have h1 : t.val < 7325 := t.isLt.trans_eq N_7
    have h2 := r.isLt
    omega
  show k7_pay3 (F := Ideal) (accAt7 V c t.val) (valBlk7 V c t) (ix2 r f)
    = Cert.Spec.gatherVal (C := 128) (V c main_v3) (V c main_v5) (V c main_v20) (((cfg7.win 3).blk t).view.emb (ix2 r f))
  rw [show ((cfg7.win 3).blk t).view.emb (ix2 r f) = (ix2 ⟨_, hk⟩ f : S600064x128.Idx) from ix2_of_val
      (show win7_3.index t (0 : Fin 2) * 2048 + 1 * r.val = 2048 * (t.val / 25) + r.val by rw [(idx_facts7 t).2.2.2.2.1]; omega)
      (show win7_3.index t (1 : Fin 2) * 128 + 1 * f.val = f.val by rw [(idx_facts7 t).2.2.2.2.2.1]; omega),
    k7_pay3_apply, valBlk7_apply V c t r ⟨_, hk⟩ rfl, accAt7_last V c t r f ((flush7_3 t).mp hf) ⟨_, hk⟩ rfl]
  rfl

/-- Every output row ρ is covered by the block of point 25·(ρ / 2048) + 24. -/
theorem cover7 (i : S600064x128.Idx) : ∃ t : Fin cfg7.N, (cfg7.win 3).flush t = true ∧ i ∈ ((cfg7.win 3).blk t).view.set := by
  have hi0 : (i 0).val < 600064 := (i 0).isLt
  have hi1 : (i 1).val < 128 := (i 1).isLt
  obtain ⟨t, ht⟩ : ∃ t : Fin cfg7.N, t.val = 25 * ((i 0).val / 2048) + 24 := ⟨⟨25 * ((i 0).val / 2048) + 24, by rw [show cfg7.N = 7325 from N_7]; omega⟩, rfl⟩
  obtain ⟨-, -, -, -, e4, e5, -⟩ := idx_facts7 t
  refine ⟨t, (flush7_3 t).mpr (by rw [ht]; omega), ?_⟩
  show i ∈ ((View.whole main_v21).slice (win7_3.rect t)).set
  rw [View.set_slice_whole, Rect.mem_set_unit]
  intro a
  match a with
  | ⟨0, _⟩ =>
    show win7_3.index t (0 : Fin 2) * 2048 ≤ (i 0).val ∧ (i 0).val < win7_3.index t (0 : Fin 2) * 2048 + 2048
    rw [e4, ht]; omega
  | ⟨1, _⟩ =>
    show win7_3.index t (1 : Fin 2) * 128 ≤ (i 1).val ∧ (i 1).val < win7_3.index t (1 : Fin 2) * 128 + 128
    rw [e5]; omega

theorem gather_arr7 :
    (dat7 (F := Ideal) V c).arrAt 3 cfg7.N = Cert.Spec.gatherVal (C := 128) (V c main_v3) (V c main_v5) (V c main_v20) :=
  (dat7 (F := Ideal) V c).arrAt_eq_of_cover 3 _ (flushed7_eq V c) cover7

end Region

end Cert.KernelIdeal.Hand

end
-- ==== Proof.KI.Val8.lean ====
import proofs.«410823_j40836549050565_1_alg».proof.Proof.KI.Reg8
import proofs.«410823_j40836549050565_1_alg».proof.Proof.KI.ValScatter
import proofs.«410823_j40836549050565_1_alg».proof.Proof.LibDotRowsCols

noncomputable section

open scoped BigOperators

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.Lib.DotRowsCols Cert.Lib.OneHot

theorem rowsCols8 : RowsCols dot_S2048x2048_S2048x128_S2048x128_1_0_0_1_n_n := ⟨rfl, rfl, rfl, rfl, rfl, rfl⟩

/-- The one-hot matrix times the messages adds, at row r, the columns whose destination word is the row's word. -/
theorem k8_pay2_apply (i : grid8.Coords) (x0 : Vec Ideal S2048 .i32) (a : Vec Ideal S2048x128 .f32) (x1 : Vec Ideal S2048x128 .bf16)
    (r : Fin 2048) (f : Fin 128) :
    k8_pay2 i x0 a x1 (ix2 r f)
      = a (ix2 r f) + ∑ q : Fin 2048, (if BitVec.ofNat 32 (2048 * (i 0).val + r.val) = x0 (ix1 q) then x1 (ix2 q f) else 0) := by
  unfold k8_pay2
  simp only [shapeCast_self]
  rw [addf_apply, rowsCols8.matmul_zero_apply]
  congr 1
  refine Finset.sum_congr rfl fun q _ => ?_
  refine (congrArg (· * x1 (ix2 q f)) (hot_apply (i 0).val x0 r q)).trans ?_
  split
  · exact one_mul _
  · exact zero_mul _

theorem k8_pay1_apply (j : S2048x128.Idx) : (k8_pay1 (F := Ideal)) j = 0 := by
  unfold k8_pay1
  simp only [shapeCast_self]
  exact Ideal.ofBits_zero_f32

theorem k8_pay3_apply (a : Vec Ideal S2048x128 .f32) (b : Vec Ideal S1x128 .f32) (r : Fin 2048) (f : Fin 128) :
    k8_pay3 a b (ix2 r f) = a (ix2 r f) + b (ix2 0 f) := by
  unfold k8_pay3
  simp only [shapeCast_self]
  rw [addf_apply]
  congr 1
  exact broadcastTo_1b_ab_apply _ _ _ _

/-- The index maps at point t = 293·nb + e, decided once over the grid. -/
theorem idx_facts8 : ∀ t : Fin cfg8.N,
    (grid8.coords t 0).val = t.val / 293
    ∧ win8_0.index t 0 = t.val % 293
    ∧ win8_1.index t 0 = t.val % 293 ∧ win8_1.index t 1 = 0
    ∧ win8_2.index t 0 = 0 ∧ win8_2.index t 1 = 0
    ∧ win8_3.index t 0 = t.val / 293 ∧ win8_3.index t 1 = 0 :=
  (by decide +kernel : ∀ t : Fin grid8.N, _)

section Region
variable (V : (c : Dev nD) → (b : Ref sig .tc) → Buf (Elt Ideal) ((c : Thread nD τ).loc b))
  (c : Dev nD) (t : Fin cfg8.N) (r : Fin 2048) (f : Fin 128)

/-- A block's coordinate in its array is block index × block size + the coordinate inside the block. -/
theorem idsBlk8_apply (q : Fin 2048) (k : Fin 600064) (hk : k.val = 2048 * (t.val % 293) + q.val) :
    idsBlk8 (F := Ideal) V c t (ix1 q) = V c main_v4 (ix1 k) := by
  show V c main_v4 (((cfg8.win 0).blk t).view.emb (ix1 q)) = _
  exact congrArg (V c main_v4) (ix1_of_val
    (show win8_0.index t 0 * 2048 + 1 * q.val = k.val by rw [(idx_facts8 t).2.1, hk]; omega))

theorem msgBlk8_apply (q : Fin 2048) (k : Fin 600064) (hk : k.val = 2048 * (t.val % 293) + q.val) :
    msgBlk8 (F := Ideal) V c t (ix2 q f) = V c main_v21 (ix2 k f) := by
  show V c main_v21 (((cfg8.win 1).blk t).view.emb (ix2 q f)) = _
  exact congrArg (V c main_v21) (ix2_of_val
    (show win8_1.index t 0 * 2048 + 1 * q.val = k.val by rw [(idx_facts8 t).2.2.1, hk]; omega)
    (show win8_1.index t 1 * 128 + 1 * f.val = f.val by rw [(idx_facts8 t).2.2.2.1]; omega))

theorem biasBlk8_apply : biasBlk8 (F := Ideal) V c t (ix2 0 f) = V c main_v22 (ix2 0 f) := by
  show V c main_v22 (((cfg8.win 2).blk t).view.emb (ix2 (0 : Fin 1) f)) = _
  exact congrArg (V c main_v22) (ix2_of_val
    (show win8_2.index t 0 * 1 + 1 * 0 = 0 by rw [(idx_facts8 t).2.2.2.2.1])
    (show win8_2.index t 1 * 128 + 1 * f.val = f.val by rw [(idx_facts8 t).2.2.2.2.2.1]; omega))

/-- Point 293·nb + e restarts the sum at e = 0 and adds edge block e's 2048 contributions to row 2048·nb + r. -/
theorem accAt8_step (nb e : ℕ) (he : e < 293) (ht : 293 * nb + e < cfg8.N) :
    accAt8 (F := Ideal) V c (293 * nb + e) (ix2 r f)
      = (if e = 0 then 0 else accAt8 (F := Ideal) V c (293 * nb + e - 1) (ix2 r f))
        + ∑ q ∈ Finset.range 2048, edgeTerm (V c main_v4) (V c main_v21) (2048 * nb + r.val) f (2048 * e + q) := by
  obtain ⟨t, htv⟩ : ∃ t : Fin cfg8.N, t.val = 293 * nb + e := ⟨⟨_, ht⟩, rfl⟩
  have hm : t.val % 293 = e := by omega
  have hd : t.val / 293 = nb := by omega
  rw [← htv, ← step8_eq_accAt8 V c t (accAt8 V c (t.val - 1)) fun _ => rfl]
  unfold step8 acc8
  rw [k8_pay2_apply, (idx_facts8 t).1, hd, Finset.sum_range]
  congr 1
  · by_cases h : e = 0
    · rw [if_pos ((c8_first_iff t).mpr (hm.trans h)), if_pos h, k8_pay1_apply]
    · rw [if_neg fun e' => h (hm.symm.trans ((c8_first_iff t).mp e')), if_neg h]
  · refine Finset.sum_congr rfl fun q _ => ?_
    have hq : 2048 * e + q.val < 600064 := by have := q.isLt; omega
    rw [idsBlk8_apply V c t q ⟨_, hq⟩ (by rw [hm]), msgBlk8_apply V c t f q ⟨_, hq⟩ (by rw [hm])]
    symm
    exact ext0_eq _ ⟨_, hq⟩ _ rfl

/-- After the last edge block (e = 292) all 600064 edges have been seen. -/
theorem accAt8_last (ht : t.val % 293 = 292) :
    accAt8 (F := Ideal) V c t.val (ix2 r f)
      = ∑ n ∈ Finset.range 600064, edgeTerm (V c main_v4) (V c main_v21) (2048 * (t.val / 293) + r.val) f n := by
  have h := restartSum (M := EReal) 293 2048 (t.val / 293) (fun m => accAt8 (F := Ideal) V c m (ix2 r f))
    (edgeTerm (V c main_v4) (V c main_v21) (2048 * (t.val / 293) + r.val) f)
    (fun e he => accAt8_step V c r f _ e he (by have := t.isLt; omega)) 292 (by decide)
  rw [show 293 * (t.val / 293) + 292 = t.val from by omega] at h
  exact h

theorem flushed8_eq (hf : (cfg8.win 3).flush t = true) :
    (dat8 (F := Ideal) V c).flushed 3 t
      = ((cfg8.win 3).blk t).view.read (Elt Ideal) (Cert.Spec.scatterVal (C := 128) (V c main_v4) (V c main_v21) (V c main_v22)) := by
  show (cfg8.win 3).cut (grid8.coords t) ((dat8 (F := Ideal) V c).after 3 t) = _
  rw [after8_3]
  funext y
  obtain ⟨r, f, rfl⟩ : ∃ (r : Fin 2048) (f : Fin 128), y = ix2 r f := ⟨y 0, y 1, eq_ix2 y⟩
  have hk : 2048 * (t.val / 293) + r.val < 51200 := by
    have h1 : t.val < 7325 := t.isLt.trans_eq N_8
    have h2 := r.isLt
    omega
  show k8_pay3 (accAt8 V c t.val) (biasBlk8 V c t) (ix2 r f)
    = Cert.Spec.scatterVal (C := 128) (V c main_v4) (V c main_v21) (V c main_v22) (((cfg8.win 3).blk t).view.emb (ix2 r f))
  rw [show ((cfg8.win 3).blk t).view.emb (ix2 r f) = (ix2 ⟨_, hk⟩ f : S51200x128.Idx) from ix2_of_val
      (show win8_3.index t 0 * 2048 + 1 * r.val = 2048 * (t.val / 293) + r.val by rw [(idx_facts8 t).2.2.2.2.2.2.1]; omega)
      (show win8_3.index t 1 * 128 + 1 * f.val = f.val by rw [(idx_facts8 t).2.2.2.2.2.2.2]; omega),
    k8_pay3_apply, biasBlk8_apply, accAt8_last V c t r f ((flush8_3 t).mp hf), scatterVal_entry]

/-- Every output row ν is covered by the block of point 293·(ν / 2048) + 292. -/
theorem cover8 (i : S51200x128.Idx) : ∃ t : Fin cfg8.N, (cfg8.win 3).flush t = true ∧ i ∈ ((cfg8.win 3).blk t).view.set := by
  have hi0 : (i 0).val < 51200 := idx2_lt0 i
  have hi1 : (i 1).val < 128 := idx2_lt1 i
  obtain ⟨t, ht⟩ : ∃ t : Fin cfg8.N, t.val = 293 * ((i 0).val / 2048) + 292 := ⟨⟨293 * ((i 0).val / 2048) + 292, by rw [show cfg8.N = 7325 from N_8]; omega⟩, rfl⟩
  obtain ⟨-, -, -, -, -, -, e0, e1⟩ := idx_facts8 t
  refine ⟨t, (flush8_3 t).mpr (by rw [ht]; omega), ?_⟩
  show i ∈ ((View.whole main_v23).slice (win8_3.rect t)).set
  rw [View.set_slice_whole, Rect.mem_set_unit]
  intro a
  match a with
  | ⟨0, _⟩ =>
    show win8_3.index t 0 * 2048 ≤ (i 0).val ∧ (i 0).val < win8_3.index t 0 * 2048 + 2048
    rw [e0, ht]; omega
  | ⟨1, _⟩ =>
    show win8_3.index t 1 * 128 ≤ (i 1).val ∧ (i 1).val < win8_3.index t 1 * 128 + 128
    rw [e1]; omega

theorem scatter_arr8 :
    (dat8 (F := Ideal) V c).arrAt 3 cfg8.N = Cert.Spec.scatterVal (C := 128) (V c main_v4) (V c main_v21) (V c main_v22) :=
  (dat8 V c).arrAt_eq_of_cover 3 _ (flushed8_eq V c) cover8

end Region

end Cert.KernelIdeal.Hand

end
-- ==== Proof.KI.Val9.lean ====
import proofs.«410823_j40836549050565_1_alg».proof.Proof.KI.Reg9
import proofs.«410823_j40836549050565_1_alg».proof.Proof.LibDotRowsCols
import proofs.«410823_j40836549050565_1_alg».proof.Proof.Spec

open scoped BigOperators

namespace Cert.KernelIdeal.Hand

open Cert.KernelIdeal Cert.KernelIdeal.Gen
open Idealize.ShloMosaic Idealize.ShloMosaic.TcCoe Idealize.ShloMosaic.ValueIdx

-- At the ideal values the roundings are the identity and the product accumulates from zero: entry (r, v) is ∑ q, x0 (r, q) · x1 (q, v).
theorem pay9_apply (x0) (x1) (j) : k9_pay1 (F := Ideal) x0 x1 j = ∑ q : Fin 128, x0 (ix2 (j 0) q) * x1 (ix2 q (j 1)) := by
  simp only [k9_pay1, shapeCast_self]
  exact Cert.Lib.DotRowsCols.RowsCols.matmul_zero_apply ⟨rfl, rfl, rfl, rfl, rfl, rfl⟩ (φ₁ := .bf16) (φ₂ := .bf16) none x0 x1 j

theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

-- Row r of block t, of x as of the product, is row 5000·t + r, and W's one block is W: the blocks' product is block t of x · W.
theorem flushed_core9 (X : Cert.Spec.Mat 50000 128) (W : Cert.Spec.Mat 128 64) (t : Fin cfg9.N) (j : S5000x64.Idx) :
    k9_pay1 (F := Ideal) (fun y => X (((cfg9.win 0).blk t).view.emb y)) (fun y => W (((cfg9.win 1).blk t).view.emb y)) j
      = Cert.Spec.mm X W (((cfg9.win 2).blk t).view.emb j) := by
  obtain ⟨e0, e1, e2, e3, e4, e5⟩ := idx_facts9 t
  rw [pay9_apply]
  unfold Cert.Spec.mm
  refine Finset.sum_congr rfl fun q _ => congrArg₂ (· * ·) (congrArg X (funext fun a => Fin.ext ?_)) (congrArg W (funext fun a => Fin.ext ?_))
  · match a with
    | ⟨0, _⟩ => show win9_0.index t (0 : Fin 2) * 5000 + 1 * (j 0).val = win9_2.index t (0 : Fin 2) * 5000 + 1 * (j 0).val; omega
    | ⟨1, _⟩ => show win9_0.index t (1 : Fin 2) * 128 + 1 * q.val = q.val; omega
  · match a with
    | ⟨0, _⟩ => show win9_1.index t (0 : Fin 2) * 128 + 1 * q.val = q.val; omega
    | ⟨1, _⟩ => show win9_1.index t (1 : Fin 2) * 64 + 1 * (j 1).val = win9_2.index t (1 : Fin 2) * 64 + 1 * (j 1).val; omega

section Region
variable (V : (c : Dev nD) → (b : Ref sig .tc) → Buf (Elt Ideal) ((c : Thread nD τ).loc b))

-- Row ρ lies in block ρ / 5000.
theorem cover9 (i : S50000x64.Idx) : ∃ t : Fin cfg9.N, (cfg9.win 2).flush t = true ∧ i ∈ ((cfg9.win 2).blk t).view.set := by
  have hi0 : (i 0).val < 50000 := (i 0).isLt
  have hi1 : (i 1).val < 64 := (i 1).isLt
  have ht : (i 0).val / 5000 < cfg9.N := by rw [show cfg9.N = 10 from N_9]; omega
  obtain ⟨-, -, -, -, e4, e5⟩ := idx_facts9 ⟨(i 0).val / 5000, ht⟩
  refine ⟨⟨(i 0).val / 5000, ht⟩, flush9_2 _, ?_⟩
  show i ∈ ((View.whole main_v26).slice (win9_2.rect ⟨(i 0).val / 5000, ht⟩)).set
  rw [View.set_slice_whole, Rect.mem_set_unit]
  intro a
  match a with
  | ⟨0, _⟩ =>
    show win9_2.index ⟨(i 0).val / 5000, ht⟩ (0 : Fin 2) * 5000 ≤ (i 0).val ∧ (i 0).val < win9_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win9_2.index ⟨(i 0).val / 5000, ht⟩ (1 : Fin 2) * 64 ≤ (i 1).val ∧ (i 1).val < win9_2.index ⟨(i 0).val / 5000, ht⟩ (1 : Fin 2) * 64 + 64
    rw [e5]; omega

-- The ten row blocks tile the rows, and block t ends as block t of the product: the array ends as the product.
theorem dense_arr9 (c : Dev nD) : (dat9 (F := Ideal) V c).arrAt 2 cfg9.N
    = Cert.Spec.mm (N := 50000) (K := 128) (C := 64) (V c main_v25) (V c main_arg14) :=
  (dat9 V c).arrAt_eq_of_cover 2 _ (fun t _ => funext (flushed_core9 (V c main_v25) (V c main_arg14) t)) cover9

end Region

end Cert.KernelIdeal.Hand
-- ==== Proof.KI.Val10a.lean ====
import proofs.«410823_j40836549050565_1_alg».proof.Proof.Gen.KernelIdeal.Skeleton
import proofs.«410823_j40836549050565_1_alg».proof.Proof.LibDotRowsCols
import proofs.«410823_j40836549050565_1_alg».proof.Proof.LibOneHot

noncomputable section

open scoped BigOperators

namespace Cert.KernelIdeal.Hand

open Cert.KernelIdeal Cert.KernelIdeal.Gen
open Idealize.ShloMosaic Idealize.ShloMosaic.ValueIdx
open Cert.Lib.DotRowsCols Cert.Lib.OneHot

theorem k10_pay1_apply (j : S2048x64.Idx) : k10_pay1 (F := Ideal) j = 0 := by
  unfold k10_pay1
  rw [shapeCast_self]
  exact Ideal.ofBits_zero_f32

/-- The one-hot entry (r, q) is 1 exactly where row r's source id is the word 2048·n + q, and 1 · x = x, 0 · x = 0. -/
theorem k10_pay2_apply (i : grid10.Coords) (x0 : IVec S2048 32) (a : FVec Ideal S2048x64 .f32) (x2 : FVec Ideal S2048x64 .bf16)
    (r : Fin 2048) (f : Fin 64) :
    k10_pay2 (F := Ideal) i x0 a x2 (ix2 r f)
      = a (ix2 r f) + ∑ q : Fin 2048, if x0 (ix1 r) = BitVec.ofNat 32 (2048 * (i 1).val + q.val) then x2 (ix2 q f) else 0 := by
  unfold k10_pay2
  dsimp only
  simp only [shapeCast_self]
  rw [addf_apply]
  refine congrArg (a (ix2 r f) + ·) ?_
  refine (RowsCols.matmul_zero_apply ⟨rfl, rfl, rfl, rfl, rfl, rfl⟩ none _ _ (ix2 r f)).trans ?_
  refine Finset.sum_congr rfl fun q _ => ?_
  show FloatOps.sitofp (F := Ideal) .f32 ((IntOp.cmpi .eq (broadcastTo S2048x2048 (shapeCast S2048x1 x0 shapeCasts_S2048_S2048x1) broadcasts_S2048x1_S2048x2048 (ix2 r q))
      (broadcastTo S2048x2048 _ broadcasts_S1x2048_S2048x2048 (ix2 r q))).setWidth 32) * x2 (ix2 q f) = _
  rw [hot_word, broadcastTo_a1_ab_apply, shapeCast_a_a1_apply, broadcastTo_1b_ab_apply]
  show (if x0 (ix1 r) = IntOp.addi (IntOp.muli (BitVec.ofNat 32 (i 1).val) 2048#32) (iota .tc S1x2048 32 [1] iota_S1x2048_d1_w32 (ix2 (0 : Fin 1) q)) then (1 : EReal) else 0) * _ = _
  rw [iota_single_apply]
  show (if x0 (ix1 r) = BitVec.ofNat 32 (i 1).val * BitVec.ofNat 32 2048 + BitVec.ofNat 32 q.val then (1 : EReal) else 0) * _ = _
  rw [word_mul_add, ite_mul, one_mul, zero_mul]

theorem k10_pay3_apply (a : FVec Ideal S2048x64 .f32) (v : FVec Ideal S2048 .f32) (r : Fin 2048) (f : Fin 64) :
    k10_pay3 (F := Ideal) a v (ix2 r f) = a (ix2 r f) * v (ix1 r) := by
  unfold k10_pay3
  simp only [shapeCast_self]
  rw [truncf_apply, mulf_apply]
  refine congrArg (a (ix2 r f) * ·) ?_
  rw [broadcastTo_a1_ab_apply, shapeCast_a_a1_apply]

end Cert.KernelIdeal.Hand

end
-- ==== Proof.KI.Val10b.lean ====
import proofs.«410823_j40836549050565_1_alg».proof.Proof.KI.Reg10
import proofs.«410823_j40836549050565_1_alg».proof.Proof.KI.Val10a
import proofs.«410823_j40836549050565_1_alg».proof.Proof.Spec

noncomputable section

open scoped BigOperators

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.Lib.OneHot

/-- The index maps at point t = 25·e + n, decided once over the grid. -/
theorem idx_facts10 : ∀ t : Fin cfg10.N, win10_0.index t (0 : Fin 1) = t.val / 25 ∧ win10_1.index t (0 : Fin 1) = t.val / 25
    ∧ win10_2.index t (0 : Fin 2) = t.val % 25 ∧ win10_2.index t (1 : Fin 2) = 0
    ∧ win10_3.index t (0 : Fin 2) = t.val / 25 ∧ win10_3.index t (1 : Fin 2) = 0
    ∧ ((grid10.coords t) 1).val = t.val % 25 :=
  (by decide +kernel : ∀ t : Fin grid10.N, _)

section Region
variable (V : (c : Dev nD) → (b : Ref sig .tc) → Buf (Elt Ideal) ((c : Thread nD τ).loc b))
  (c : Dev nD) (t : Fin cfg10.N) (r : Fin 2048) (f : Fin 64)

/-- A block's coordinate in its array is block index × block size + the coordinate inside the block. -/
theorem srcBlk10_apply (k : Fin 600064) (hk : k.val = 2048 * (t.val / 25) + r.val) :
    srcBlk10 (F := Ideal) V c t (ix1 r) = V c main_v3 (ix1 k) := by
  show V c main_v3 (((cfg10.win 0).blk t).view.emb (ix1 r)) = _
  exact congrArg (V c main_v3) (ix1_of_val
    (show win10_0.index t (0 : Fin 1) * 2048 + 1 * r.val = k.val by rw [(idx_facts10 t).1, hk]; omega))

theorem valBlk10_apply (k : Fin 600064) (hk : k.val = 2048 * (t.val / 25) + r.val) :
    valBlk10 (F := Ideal) V c t (ix1 r) = V c main_v5 (ix1 k) := by
  show V c main_v5 (((cfg10.win 1).blk t).view.emb (ix1 r)) = _
  exact congrArg (V c main_v5) (ix1_of_val
    (show win10_1.index t (0 : Fin 1) * 2048 + 1 * r.val = k.val by rw [(idx_facts10 t).2.1, hk]; omega))

theorem tabBlk10_apply (q : Fin 2048) (k : Fin 51200) (hk : k.val = 2048 * (t.val % 25) + q.val) :
    tabBlk10 (F := Ideal) V c t (ix2 q f) = V c main_v27 (ix2 k f) := by
  show V c main_v27 (((cfg10.win 2).blk t).view.emb (ix2 q f)) = _
  exact congrArg (V c main_v27) (ix2_of_val
    (show win10_2.index t (0 : Fin 2) * 2048 + 1 * q.val = k.val by rw [(idx_facts10 t).2.2.1, hk]; omega)
    (show win10_2.index t (1 : Fin 2) * 64 + 1 * f.val = f.val by rw [(idx_facts10 t).2.2.2.1]; omega))

/-- Row k's entry where the word w is the word of k, zero elsewhere and past the table. -/
abbrev hit10 (w : BitVec 32) (tab : FVec Ideal S51200x64 .bf16) (f : Fin 64) : ℕ → EReal :=
  ext0 fun ν : Fin 51200 => if w = BitVec.ofNat 32 ν.val then tab (ix2 ν f) else 0

/-- Point 25·e + n restarts the sum at n = 0 and adds the hits among node block n's 2048 rows. -/
theorem accAt10_step (e n : ℕ) (hn : n < 25) (ht : 25 * e + n < cfg10.N) (k : Fin 600064) (hk : k.val = 2048 * e + r.val) :
    accAt10 (F := Ideal) V c (25 * e + n) (ix2 r f)
      = (if n = 0 then 0 else accAt10 (F := Ideal) V c (25 * e + n - 1) (ix2 r f))
        + ∑ q ∈ Finset.range 2048, hit10 (V c main_v3 (ix1 k)) (V c main_v27) f (2048 * n + q) := by
  obtain ⟨t, htv⟩ : ∃ t : Fin cfg10.N, t.val = 25 * e + n := ⟨⟨_, ht⟩, rfl⟩
  have hm : t.val % 25 = n := by omega
  have hd : t.val / 25 = e := by omega
  rw [← htv, ← step10_eq_accAt10 V c t (accAt10 V c (t.val - 1)) fun _ => rfl]
  unfold step10 acc10
  rw [k10_pay2_apply, srcBlk10_apply V c t r k (by rw [hd]; exact hk), (idx_facts10 t).2.2.2.2.2.2, hm, Finset.sum_range]
  congr 1
  · by_cases h : n = 0
    · rw [if_pos ((c10_first_iff t).mpr (hm.trans h)), if_pos h, k10_pay1_apply]
    · rw [if_neg fun e' => h (hm.symm.trans ((c10_first_iff t).mp e')), if_neg h]
  · refine Finset.sum_congr rfl fun q _ => ?_
    have hq : 2048 * n + q.val < 51200 := by have := q.isLt; omega
    rw [tabBlk10_apply V c t f q ⟨_, hq⟩ (by rw [hm])]
    symm
    exact ext0_eq _ ⟨_, hq⟩ _ rfl

/-- After the last node block (n = 24) all 51200 rows of the table have been seen. -/
theorem accAt10_last (ht : t.val % 25 = 24) (k : Fin 600064) (hk : k.val = 2048 * (t.val / 25) + r.val) :
    accAt10 (F := Ideal) V c t.val (ix2 r f)
      = (∑ ν : Fin 51200, if V c main_v3 (ix1 k) = BitVec.ofNat 32 ν.val then V c main_v27 (ix2 ν f) else 0 : EReal) := by
  have h := restartSum (M := EReal) 25 2048 (t.val / 25) (fun m => accAt10 (F := Ideal) V c m (ix2 r f)) (hit10 (V c main_v3 (ix1 k)) (V c main_v27) f)
    (fun n hn => accAt10_step V c r f _ n hn (by have := t.isLt; omega) k hk) 24 (by decide)
  rw [show 25 * (t.val / 25) + 24 = t.val from by omega] at h
  exact h.trans (sum_ext0 _)

theorem flushed10_eq (hf : (cfg10.win 3).flush t = true) :
    (dat10 (F := Ideal) V c).flushed 3 t
      = ((cfg10.win 3).blk t).view.read (Elt Ideal) (Cert.Spec.gatherVal (C := 64) (V c main_v3) (V c main_v5) (V c main_v27)) := by
  show (cfg10.win 3).cut (grid10.coords t) ((dat10 (F := Ideal) V c).after 3 t) = _
  rw [after10_3]
  funext y
  obtain ⟨r, f, rfl⟩ : ∃ (r : Fin 2048) (f : Fin 64), y = ix2 r f := ⟨y 0, y 1, eq_ix2 y⟩
  have hk : 2048 * (t.val / 25) + r.val < 600064 := by
    have h1 : t.val < 7325 := t.isLt.trans_eq N_10
    have h2 := r.isLt
    omega
  show k10_pay3 (F := Ideal) (accAt10 V c t.val) (valBlk10 V c t) (ix2 r f)
    = Cert.Spec.gatherVal (C := 64) (V c main_v3) (V c main_v5) (V c main_v27) (((cfg10.win 3).blk t).view.emb (ix2 r f))
  rw [show ((cfg10.win 3).blk t).view.emb (ix2 r f) = (ix2 ⟨_, hk⟩ f : S600064x64.Idx) from ix2_of_val
      (show win10_3.index t (0 : Fin 2) * 2048 + 1 * r.val = 2048 * (t.val / 25) + r.val by rw [(idx_facts10 t).2.2.2.2.1]; omega)
      (show win10_3.index t (1 : Fin 2) * 64 + 1 * f.val = f.val by rw [(idx_facts10 t).2.2.2.2.2.1]; omega),
    k10_pay3_apply, valBlk10_apply V c t r ⟨_, hk⟩ rfl, accAt10_last V c t r f ((flush10_3 t).mp hf) ⟨_, hk⟩ rfl]
  rfl

/-- Every output row ρ is covered by the block of point 25·(ρ / 2048) + 24. -/
theorem cover10 (i : S600064x64.Idx) : ∃ t : Fin cfg10.N, (cfg10.win 3).flush t = true ∧ i ∈ ((cfg10.win 3).blk t).view.set := by
  have hi0 : (i 0).val < 600064 := (i 0).isLt
  have hi1 : (i 1).val < 64 := (i 1).isLt
  obtain ⟨t, ht⟩ : ∃ t : Fin cfg10.N, t.val = 25 * ((i 0).val / 2048) + 24 := ⟨⟨25 * ((i 0).val / 2048) + 24, by rw [show cfg10.N = 7325 from N_10]; omega⟩, rfl⟩
  obtain ⟨-, -, -, -, e4, e5, -⟩ := idx_facts10 t
  refine ⟨t, (flush10_3 t).mpr (by rw [ht]; omega), ?_⟩
  show i ∈ ((View.whole main_v28).slice (win10_3.rect t)).set
  rw [View.set_slice_whole, Rect.mem_set_unit]
  intro a
  match a with
  | ⟨0, _⟩ =>
    show win10_3.index t (0 : Fin 2) * 2048 ≤ (i 0).val ∧ (i 0).val < win10_3.index t (0 : Fin 2) * 2048 + 2048
    rw [e4, ht]; omega
  | ⟨1, _⟩ =>
    show win10_3.index t (1 : Fin 2) * 64 ≤ (i 1).val ∧ (i 1).val < win10_3.index t (1 : Fin 2) * 64 + 64
    rw [e5]; omega

theorem gather_arr10 :
    (dat10 (F := Ideal) V c).arrAt 3 cfg10.N = Cert.Spec.gatherVal (C := 64) (V c main_v3) (V c main_v5) (V c main_v27) :=
  (dat10 (F := Ideal) V c).arrAt_eq_of_cover 3 _ (flushed10_eq V c) cover10

end Region

end Cert.KernelIdeal.Hand

end
-- ==== Proof.KI.Val11.lean ====
import proofs.«410823_j40836549050565_1_alg».proof.Proof.KI.Reg11
import proofs.«410823_j40836549050565_1_alg».proof.Proof.KI.ValScatter
import proofs.«410823_j40836549050565_1_alg».proof.Proof.LibDotRowsCols

noncomputable section

open scoped BigOperators

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)
open Cert.Lib.DotRowsCols Cert.Lib.OneHot

theorem rowsCols11 : RowsCols dot_S2048x2048_S2048x64_S2048x64_1_0_0_1_n_n := ⟨rfl, rfl, rfl, rfl, rfl, rfl⟩

/-- The one-hot matrix times the messages adds, at row r, the columns whose destination word is the row's word. -/
theorem k11_pay2_apply (i : grid11.Coords) (x0 : Vec Ideal S2048 .i32) (a : Vec Ideal S2048x64 .f32) (x1 : Vec Ideal S2048x64 .bf16)
    (r : Fin 2048) (f : Fin 64) :
    k11_pay2 i x0 a x1 (ix2 r f)
      = a (ix2 r f) + ∑ q : Fin 2048, (if BitVec.ofNat 32 (2048 * (i 0).val + r.val) = x0 (ix1 q) then x1 (ix2 q f) else 0) := by
  unfold k11_pay2
  simp only [shapeCast_self]
  rw [addf_apply, rowsCols11.matmul_zero_apply]
  congr 1
  refine Finset.sum_congr rfl fun q _ => ?_
  refine (congrArg (· * x1 (ix2 q f)) (hot_apply (i 0).val x0 r q)).trans ?_
  split
  · exact one_mul _
  · exact zero_mul _

theorem k11_pay1_apply (j : S2048x64.Idx) : (k11_pay1 (F := Ideal)) j = 0 := by
  unfold k11_pay1
  simp only [shapeCast_self]
  exact Ideal.ofBits_zero_f32

theorem k11_pay3_apply (a : Vec Ideal S2048x64 .f32) (b : Vec Ideal S1x64 .f32) (r : Fin 2048) (f : Fin 64) :
    k11_pay3 a b (ix2 r f) = a (ix2 r f) + b (ix2 0 f) := by
  unfold k11_pay3
  simp only [shapeCast_self]
  rw [addf_apply]
  congr 1
  exact broadcastTo_1b_ab_apply _ _ _ _

/-- The index maps at point t = 293·nb + e, decided once over the grid. -/
theorem idx_facts11 : ∀ t : Fin cfg11.N,
    (grid11.coords t 0).val = t.val / 293
    ∧ win11_0.index t 0 = t.val % 293
    ∧ win11_1.index t 0 = t.val % 293 ∧ win11_1.index t 1 = 0
    ∧ win11_2.index t 0 = 0 ∧ win11_2.index t 1 = 0
    ∧ win11_3.index t 0 = t.val / 293 ∧ win11_3.index t 1 = 0 :=
  (by decide +kernel : ∀ t : Fin grid11.N, _)

section Region
variable (V : (c : Dev nD) → (b : Ref sig .tc) → Buf (Elt Ideal) ((c : Thread nD τ).loc b))
  (c : Dev nD) (t : Fin cfg11.N) (r : Fin 2048) (f : Fin 64)

/-- A block's coordinate in its array is block index × block size + the coordinate inside the block. -/
theorem idsBlk11_apply (q : Fin 2048) (k : Fin 600064) (hk : k.val = 2048 * (t.val % 293) + q.val) :
    idsBlk11 (F := Ideal) V c t (ix1 q) = V c main_v4 (ix1 k) := by
  show V c main_v4 (((cfg11.win 0).blk t).view.emb (ix1 q)) = _
  exact congrArg (V c main_v4) (ix1_of_val
    (show win11_0.index t 0 * 2048 + 1 * q.val = k.val by rw [(idx_facts11 t).2.1, hk]; omega))

theorem msgBlk11_apply (q : Fin 2048) (k : Fin 600064) (hk : k.val = 2048 * (t.val % 293) + q.val) :
    msgBlk11 (F := Ideal) V c t (ix2 q f) = V c main_v28 (ix2 k f) := by
  show V c main_v28 (((cfg11.win 1).blk t).view.emb (ix2 q f)) = _
  exact congrArg (V c main_v28) (ix2_of_val
    (show win11_1.index t 0 * 2048 + 1 * q.val = k.val by rw [(idx_facts11 t).2.2.1, hk]; omega)
    (show win11_1.index t 1 * 64 + 1 * f.val = f.val by rw [(idx_facts11 t).2.2.2.1]; omega))

theorem biasBlk11_apply : biasBlk11 (F := Ideal) V c t (ix2 0 f) = V c main_v29 (ix2 0 f) := by
  show V c main_v29 (((cfg11.win 2).blk t).view.emb (ix2 (0 : Fin 1) f)) = _
  exact congrArg (V c main_v29) (ix2_of_val
    (show win11_2.index t 0 * 1 + 1 * 0 = 0 by rw [(idx_facts11 t).2.2.2.2.1])
    (show win11_2.index t 1 * 64 + 1 * f.val = f.val by rw [(idx_facts11 t).2.2.2.2.2.1]; omega))

/-- Point 293·nb + e restarts the sum at e = 0 and adds edge block e's 2048 contributions to row 2048·nb + r. -/
theorem accAt11_step (nb e : ℕ) (he : e < 293) (ht : 293 * nb + e < cfg11.N) :
    accAt11 (F := Ideal) V c (293 * nb + e) (ix2 r f)
      = (if e = 0 then 0 else accAt11 (F := Ideal) V c (293 * nb + e - 1) (ix2 r f))
        + ∑ q ∈ Finset.range 2048, edgeTerm (V c main_v4) (V c main_v28) (2048 * nb + r.val) f (2048 * e + q) := by
  obtain ⟨t, htv⟩ : ∃ t : Fin cfg11.N, t.val = 293 * nb + e := ⟨⟨_, ht⟩, rfl⟩
  have hm : t.val % 293 = e := by omega
  have hd : t.val / 293 = nb := by omega
  rw [← htv, ← step11_eq_accAt11 V c t (accAt11 V c (t.val - 1)) fun _ => rfl]
  unfold step11 acc11
  rw [k11_pay2_apply, (idx_facts11 t).1, hd, Finset.sum_range]
  congr 1
  · by_cases h : e = 0
    · rw [if_pos ((c11_first_iff t).mpr (hm.trans h)), if_pos h, k11_pay1_apply]
    · rw [if_neg fun e' => h (hm.symm.trans ((c11_first_iff t).mp e')), if_neg h]
  · refine Finset.sum_congr rfl fun q _ => ?_
    have hq : 2048 * e + q.val < 600064 := by have := q.isLt; omega
    rw [idsBlk11_apply V c t q ⟨_, hq⟩ (by rw [hm]), msgBlk11_apply V c t f q ⟨_, hq⟩ (by rw [hm])]
    symm
    exact ext0_eq _ ⟨_, hq⟩ _ rfl

/-- After the last edge block (e = 292) all 600064 edges have been seen. -/
theorem accAt11_last (ht : t.val % 293 = 292) :
    accAt11 (F := Ideal) V c t.val (ix2 r f)
      = ∑ n ∈ Finset.range 600064, edgeTerm (V c main_v4) (V c main_v28) (2048 * (t.val / 293) + r.val) f n := by
  have h := restartSum (M := EReal) 293 2048 (t.val / 293) (fun m => accAt11 (F := Ideal) V c m (ix2 r f))
    (edgeTerm (V c main_v4) (V c main_v28) (2048 * (t.val / 293) + r.val) f)
    (fun e he => accAt11_step V c r f _ e he (by have := t.isLt; omega)) 292 (by decide)
  rw [show 293 * (t.val / 293) + 292 = t.val from by omega] at h
  exact h

theorem flushed11_eq (hf : (cfg11.win 3).flush t = true) :
    (dat11 (F := Ideal) V c).flushed 3 t
      = ((cfg11.win 3).blk t).view.read (Elt Ideal) (Cert.Spec.scatterVal (C := 64) (V c main_v4) (V c main_v28) (V c main_v29)) := by
  show (cfg11.win 3).cut (grid11.coords t) ((dat11 (F := Ideal) V c).after 3 t) = _
  rw [after11_3]
  funext y
  obtain ⟨r, f, rfl⟩ : ∃ (r : Fin 2048) (f : Fin 64), y = ix2 r f := ⟨y 0, y 1, eq_ix2 y⟩
  have hk : 2048 * (t.val / 293) + r.val < 51200 := by
    have h1 : t.val < 7325 := t.isLt.trans_eq N_11
    have h2 := r.isLt
    omega
  show k11_pay3 (accAt11 V c t.val) (biasBlk11 V c t) (ix2 r f)
    = Cert.Spec.scatterVal (C := 64) (V c main_v4) (V c main_v28) (V c main_v29) (((cfg11.win 3).blk t).view.emb (ix2 r f))
  rw [show ((cfg11.win 3).blk t).view.emb (ix2 r f) = (ix2 ⟨_, hk⟩ f : S51200x64.Idx) from ix2_of_val
      (show win11_3.index t 0 * 2048 + 1 * r.val = 2048 * (t.val / 293) + r.val by rw [(idx_facts11 t).2.2.2.2.2.2.1]; omega)
      (show win11_3.index t 1 * 64 + 1 * f.val = f.val by rw [(idx_facts11 t).2.2.2.2.2.2.2]; omega),
    k11_pay3_apply, biasBlk11_apply, accAt11_last V c t r f ((flush11_3 t).mp hf), scatterVal_entry]

/-- Every output row ν is covered by the block of point 293·(ν / 2048) + 292. -/
theorem cover11 (i : S51200x64.Idx) : ∃ t : Fin cfg11.N, (cfg11.win 3).flush t = true ∧ i ∈ ((cfg11.win 3).blk t).view.set := by
  have hi0 : (i 0).val < 51200 := idx2_lt0 i
  have hi1 : (i 1).val < 64 := idx2_lt1 i
  obtain ⟨t, ht⟩ : ∃ t : Fin cfg11.N, t.val = 293 * ((i 0).val / 2048) + 292 := ⟨⟨293 * ((i 0).val / 2048) + 292, by rw [show cfg11.N = 7325 from N_11]; omega⟩, rfl⟩
  obtain ⟨-, -, -, -, -, -, e0, e1⟩ := idx_facts11 t
  refine ⟨t, (flush11_3 t).mpr (by rw [ht]; omega), ?_⟩
  show i ∈ ((View.whole main_v30).slice (win11_3.rect t)).set
  rw [View.set_slice_whole, Rect.mem_set_unit]
  intro a
  match a with
  | ⟨0, _⟩ =>
    show win11_3.index t 0 * 2048 ≤ (i 0).val ∧ (i 0).val < win11_3.index t 0 * 2048 + 2048
    rw [e0, ht]; omega
  | ⟨1, _⟩ =>
    show win11_3.index t 1 * 64 ≤ (i 1).val ∧ (i 1).val < win11_3.index t 1 * 64 + 64
    rw [e1]; omega

theorem scatter_arr11 :
    (dat11 (F := Ideal) V c).arrAt 3 cfg11.N = Cert.Spec.scatterVal (C := 64) (V c main_v4) (V c main_v28) (V c main_v29) :=
  (dat11 V c).arrAt_eq_of_cover 3 _ (flushed11_eq V c) cover11

end Region

end Cert.KernelIdeal.Hand

end
-- ==== Proof.Math.lean ====
import Mathlib.Algebra.BigOperators.Group.Finset.Basic
import Mathlib.Data.Fin.Embedding
import Mathlib.Data.EReal.Inv
import proofs.«410823_j40836549050565_1_alg».proof.Proof.Spec

noncomputable section

namespace Cert.Spec

open Idealize.ShloMosaic Idealize.ShloMosaic.ValueIdx Cert.GcnLib

/-- For n < 2^31, a 32-bit word is n's word exactly when, read signed, it is n. -/
theorem ofNat_eq_iff_toInt (n : ℕ) (hn : n < 2 ^ 31) (w : BitVec 32) : BitVec.ofNat 32 n = w ↔ w.toInt = (n : ℤ) := by
  have hto : (BitVec.ofNat 32 n).toInt = (n : ℤ) := by
    rw [BitVec.toInt_eq_toNat_cond, BitVec.toNat_ofNat]
    split <;> omega
  constructor
  · intro h; rw [← h, hto]
  · intro h; apply BitVec.eq_of_toInt_eq; rw [hto, h]

/-- A sum over the first m naturals whose terms vanish from n on is the sum over the first n. -/
theorem sum_castLE {M : Type*} [AddCommMonoid M] {n m : ℕ} (h : n ≤ m) (F : Fin m → M)
    (h0 : ∀ i : Fin m, n ≤ i.val → F i = 0) : ∑ i : Fin m, F i = ∑ i : Fin n, F (Fin.castLE h i) := by
  have e : ∑ i : Fin n, F (Fin.castLE h i) = ∑ i ∈ Finset.univ.map (Fin.castLEEmb h), F i := by
    rw [Finset.sum_map]; rfl
  rw [e]
  symm
  apply Finset.sum_subset (Finset.subset_univ _)
  intro i _ hi
  apply h0
  by_contra hlt
  apply hi
  rw [Finset.mem_map]
  exact ⟨⟨i.val, by omega⟩, Finset.mem_univ _, Fin.ext rfl⟩

theorem padIds_castLE (v : Ids 600000) (e : Fin 600000) :
    padIds v (ix1 (Fin.castLE (by decide : 600000 ≤ 600064) e)) = v (ix1 e) :=
  dif_pos (show ((ix1 (Fin.castLE (by decide : 600000 ≤ 600064) e) : (⟨1, ![600064]⟩ : Shape).Idx) 0).val < 600000 from e.isLt)

theorem padRow_castLE (v : Row 600000) (e : Fin 600000) :
    padRow v (ix1 (Fin.castLE (by decide : 600000 ≤ 600064) e)) = v (ix1 e) :=
  dif_pos (show ((ix1 (Fin.castLE (by decide : 600000 ≤ 600064) e) : (⟨1, ![600064]⟩ : Shape).Idx) 0).val < 600000 from e.isLt)

theorem padRow_pad (v : Row 600000) (ε : Fin 600064) (hε : 600000 ≤ ε.val) : padRow v (ix1 ε) = 0 :=
  dif_neg (show ¬ ((ix1 ε : (⟨1, ![600064]⟩ : Shape).Idx) 0).val < 600000 from Nat.not_lt.2 hε)

theorem padRows_top {C : ℕ} (tab : Mat 50000 C) (k : ℕ) (hk : k < 50000) (f : Fin C) :
    padRows tab (ix2 ⟨k, Nat.lt_trans hk (by decide)⟩ f) = tab (ix2 ⟨k, hk⟩ f) :=
  dif_pos (show ((ix2 (⟨k, Nat.lt_trans hk (by decide)⟩ : Fin 51200) f : (⟨2, ![51200, C]⟩ : Shape).Idx) 0).val < 50000 from hk)

/-- Exactly one of the 51200 rows has the word w as its word: the row w names, which the zero padding keeps. -/
theorem sum_onehot_padRows {C : ℕ} (tab : Mat 50000 C) (w : BitVec 32) (hw : 0 ≤ w.toInt ∧ w.toInt < 50000) (f : Fin C) :
    (∑ ν : Fin 51200, if w = BitVec.ofNat 32 ν.val then padRows tab (ix2 ν f) else 0) = tab (ix2 (rowOf w) f) := by
  have hk : w.toInt.toNat < 50000 := by omega
  have hrow : rowOf w = ⟨w.toInt.toNat, hk⟩ :=
    clampRow_wrapWord_of_lands (by decide) (by decide) w ⟨w.toInt.toNat, hk⟩ (by show w.toInt = ((w.toInt.toNat : ℕ) : ℤ); omega)
  have hcond : ∀ ν : Fin 51200, (w = BitVec.ofNat 32 ν.val) ↔ ν = ⟨w.toInt.toNat, Nat.lt_trans hk (by decide)⟩ := by
    intro ν
    rw [eq_comm, ofNat_eq_iff_toInt ν.val (by have := ν.isLt; omega) w]
    constructor
    · intro h; apply Fin.ext; show ν.val = w.toInt.toNat; omega
    · intro h; rw [h]; show w.toInt = ((w.toInt.toNat : ℕ) : ℤ); omega
  rw [Finset.sum_eq_single (⟨w.toInt.toNat, Nat.lt_trans hk (by decide)⟩ : Fin 51200)]
  · rw [if_pos ((hcond _).2 rfl), padRows_top tab _ hk f, hrow]
  · intro ν _ hne
    exact if_neg (fun h => hne ((hcond ν).1 h))
  · intro h
    exact absurd (Finset.mem_univ _) h

/-- A padded edge has weight zero, and anything times zero is zero. -/
theorem gatherVal_pad {C : ℕ} (src : Ids 600000) (vals : Row 600000) (tab : Mat 51200 C) (ε : Fin 600064)
    (hε : 600000 ≤ ε.val) (f : Fin C) : gatherVal (padIds src) (padRow vals) tab (ix2 ε f) = 0 := by
  show (∑ ν : Fin 51200, if padIds src (ix1 ε) = BitVec.ofNat 32 ν.val then tab (ix2 ν f) else 0) * padRow vals (ix1 ε) = 0
  rw [padRow_pad vals ε hε, mul_zero]

/-- On an edge proper the message is the source row's entry times the edge's weight. -/
theorem gatherVal_castLE {C : ℕ} (src : Ids 600000) (vals : Row 600000) (tab : Mat 50000 C) (e : Fin 600000)
    (hsrc : 0 ≤ (src (ix1 e)).toInt ∧ (src (ix1 e)).toInt < 50000) (f : Fin C) :
    gatherVal (padIds src) (padRow vals) (padRows tab) (ix2 (Fin.castLE (by decide : 600000 ≤ 600064) e) f)
      = tab (ix2 (rowOf (src (ix1 e))) f) * vals (ix1 e) := by
  show (∑ ν : Fin 51200, if padIds src (ix1 (Fin.castLE (by decide : 600000 ≤ 600064) e)) = BitVec.ofNat 32 ν.val then padRows tab (ix2 ν f) else 0)
      * padRow vals (ix1 (Fin.castLE (by decide : 600000 ≤ 600064) e)) = _
  rw [padIds_castLE, padRow_castLE, sum_onehot_padRows tab _ hsrc f]

/-- The padded edges contribute zero, the one-hot sums pick the reference's rows, and "word(v) = dst e" is the reference's filter. -/
theorem kconv_eq_conv {K C : ℕ} (x : Mat 50000 K) (W : Mat K C) (b : Row C) (src dst : Ids 600000) (vals : Row 600000)
    (hsrc : ∀ e : Fin 600000, 0 ≤ (src (ix1 e)).toInt ∧ (src (ix1 e)).toInt < 50000) :
    kconv x W b src dst vals = conv (mm x W) b src dst vals := by
  funext j
  obtain ⟨v, f, rfl⟩ : ∃ v f, j = ix2 v f := ⟨j 0, j 1, eq_ix2 j⟩
  show (∑ ε : Fin 600064, if BitVec.ofNat 32 v.val = padIds dst (ix1 ε)
      then gatherVal (padIds src) (padRow vals) (padRows (mm x W)) (ix2 ε f) else 0) + b (ix1 f)
    = (∑ e ∈ Finset.univ.filter (fun e : Fin 600000 => (dst (ix1 e)).toInt = (v.val : ℤ)),
      vals (ix1 e) * mm x W (ix2 (rowOf (src (ix1 e))) f)) + b (ix1 f)
  refine congrArg (fun t : EReal => t + b (ix1 f)) ?_
  rw [sum_castLE (by decide : 600000 ≤ 600064)]
  · rw [Finset.sum_filter]
    apply Finset.sum_congr rfl
    intro e _
    rw [padIds_castLE, gatherVal_castLE src vals (mm x W) e (hsrc e) f, mul_comm]
    exact if_congr (ofNat_eq_iff_toInt v.val (by have := v.isLt; omega) _) rfl rfl
  · intro ε hε
    rw [gatherVal_pad src vals _ ε hε f]
    exact ite_self _

theorem kgcn_eq_gcn (x : Mat 50000 128) (src dst : Ids 600000) (vals : Row 600000) (W0 : Mat 128 128) (b0 : Row 128)
    (W1 : Mat 128 64) (b1 : Row 64)
    (hsrc : ∀ e : Fin 600000, 0 ≤ (src (ix1 e)).toInt ∧ (src (ix1 e)).toInt < 50000) :
    kgcn x src dst vals W0 b0 W1 b1 = gcn x src dst vals W0 b0 W1 b1 := by
  unfold kgcn gcn
  rw [kconv_eq_conv x W0 b0 src dst vals hsrc, kconv_eq_conv _ W1 b1 src dst vals hsrc]

end Cert.Spec

end
-- ==== Proof.KI.Compose.lean ====
import proofs.«410823_j40836549050565_1_alg».proof.Proof.KI.RegionsP
import proofs.«410823_j40836549050565_1_alg».proof.Proof.KI.Outs
import proofs.«410823_j40836549050565_1_alg».proof.Proof.KI.Persist
import proofs.«410823_j40836549050565_1_alg».proof.Proof.KI.Glue
import proofs.«410823_j40836549050565_1_alg».proof.Proof.KI.Glue2
import proofs.«410823_j40836549050565_1_alg».proof.Proof.KI.Val0
import proofs.«410823_j40836549050565_1_alg».proof.Proof.KI.Val1b
import proofs.«410823_j40836549050565_1_alg».proof.Proof.KI.Val2
import proofs.«410823_j40836549050565_1_alg».proof.Proof.KI.Val3
import proofs.«410823_j40836549050565_1_alg».proof.Proof.KI.Val4b
import proofs.«410823_j40836549050565_1_alg».proof.Proof.KI.Val5
import proofs.«410823_j40836549050565_1_alg».proof.Proof.KI.Val6
import proofs.«410823_j40836549050565_1_alg».proof.Proof.KI.Val7b
import proofs.«410823_j40836549050565_1_alg».proof.Proof.KI.Val8
import proofs.«410823_j40836549050565_1_alg».proof.Proof.KI.Val9
import proofs.«410823_j40836549050565_1_alg».proof.Proof.KI.Val10b
import proofs.«410823_j40836549050565_1_alg».proof.Proof.KI.Val11
import proofs.«410823_j40836549050565_1_alg».proof.Proof.Spec
import proofs.«410823_j40836549050565_1_alg».proof.Proof.Math
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ)

abbrev argAt (c : Dev nD) (r : Ref sig .tc) : Buf (Elt Ideal) ((c : Thread nD τ).loc r) := m ((c : Thread nD τ).loc r)

section Regions
variable (c : Dev nD)

local notation "A[" r "]" => argAt m c r

-- Each region's output is its value at the operands it finds, and each operand is traced to where it was made.
theorem outArr0 : outsF m 13 main_v6 c = Spec.mm A[main_arg0] A[main_arg8] := by
  rw [outsF_13, dense_arr0]; dsimp only [rd]
  rw [since0 m c main_arg0 (by decide), since0 m c main_arg8 (by decide)]
theorem outArr1 : outsF m 16 main_v8 c
    = Spec.gatherVal (Spec.padIds A[main_arg1]) (Spec.padRow A[main_arg3]) (Spec.padRows (outsF m 13 main_v6 c)) := by
  rw [outsF_16, gather_arr1]; dsimp only [rd]
  rw [keep15 m _ c main_v0 (by decide), keep15 m _ c main_v2 (by decide), glue_v0, glue_v2, glue_v7]
theorem outArr2 : outsF m 18 main_v10 c
    = Spec.scatterVal (Spec.padIds A[main_arg2]) (outsF m 16 main_v8 c) (Spec.asRow A[main_arg9]) := by
  rw [outsF_18, scatter_arr2]; dsimp only [rd]
  rw [keep17 m _ c main_v1 (by decide), glue_v1, pers_v8_17, glue_v9]
theorem outArr3 : outsF m 21 main_v13 c = Spec.mm (Spec.relu (Spec.topRows (outsF m 18 main_v10 c))) A[main_arg10] := by
  rw [outsF_21, dense_arr3]; dsimp only [rd]
  rw [glue_v12, keep20 m _ c main_arg10 (by decide), since0 m c main_arg10 (by decide)]
theorem outArr4 : outsF m 24 main_v15 c
    = Spec.gatherVal (Spec.padIds A[main_arg1]) (Spec.padRow A[main_arg3]) (Spec.padRows (outsF m 21 main_v13 c)) := by
  rw [outsF_24, gather_arr4]; dsimp only [rd]
  rw [keep23 m _ c main_v0 (by decide), keep23 m _ c main_v2 (by decide), glue_v0, glue_v2, glue_v14]
theorem outArr5 : outsF m 26 main_v17 c
    = Spec.scatterVal (Spec.padIds A[main_arg2]) (outsF m 24 main_v15 c) (Spec.asRow A[main_arg11]) := by
  rw [outsF_26, scatter_arr5]; dsimp only [rd]
  rw [keep25 m _ c main_v1 (by decide), glue_v1, pers_v15_25, glue_v16]
theorem outArr6 : outsF m 28 main_v19 c = Spec.mm A[main_arg4] A[main_arg12] := by
  rw [outsF_28, dense_arr6]; dsimp only [rd]
  rw [keep27 m _ c main_arg4 (by decide), keep27 m _ c main_arg12 (by decide), since0 m c main_arg4 (by decide), since0 m c main_arg12 (by decide)]
theorem outArr7 : outsF m 31 main_v21 c
    = Spec.gatherVal (Spec.padIds A[main_arg5]) (Spec.padRow A[main_arg7]) (Spec.padRows (outsF m 28 main_v19 c)) := by
  rw [outsF_31, gather_arr7]; dsimp only [rd]
  rw [keep30 m _ c main_v3 (by decide), keep30 m _ c main_v5 (by decide), keep27 m _ c main_v3 (by decide), keep27 m _ c main_v5 (by decide),
    glue_v3, glue_v5, glue_v20]
theorem outArr8 : outsF m 33 main_v23 c
    = Spec.scatterVal (Spec.padIds A[main_arg6]) (outsF m 31 main_v21 c) (Spec.asRow A[main_arg13]) := by
  rw [outsF_33, scatter_arr8]; dsimp only [rd]
  rw [keep32 m _ c main_v4 (by decide), keep27 m _ c main_v4 (by decide), glue_v4, pers_v21_32, glue_v22]
theorem outArr9 : outsF m 36 main_v26 c = Spec.mm (Spec.relu (Spec.topRows (outsF m 33 main_v23 c))) A[main_arg14] := by
  rw [outsF_36, dense_arr9]; dsimp only [rd]
  rw [glue_v25, keep35 m _ c main_arg14 (by decide), keep27 m _ c main_arg14 (by decide), since0 m c main_arg14 (by decide)]
theorem outArr10 : outsF m 39 main_v28 c
    = Spec.gatherVal (Spec.padIds A[main_arg5]) (Spec.padRow A[main_arg7]) (Spec.padRows (outsF m 36 main_v26 c)) := by
  rw [outsF_39, gather_arr10]; dsimp only [rd]
  rw [keep38 m _ c main_v3 (by decide), keep38 m _ c main_v5 (by decide), keep27 m _ c main_v3 (by decide), keep27 m _ c main_v5 (by decide),
    glue_v3, glue_v5, glue_v27]
theorem outArr11 : outsF m 41 main_v30 c
    = Spec.scatterVal (Spec.padIds A[main_arg6]) (outsF m 39 main_v28 c) (Spec.asRow A[main_arg15]) := by
  rw [outsF_41, scatter_arr11]; dsimp only [rd]
  rw [keep40 m _ c main_v4 (by decide), keep27 m _ c main_v4 (by decide), glue_v4, pers_v28_40, glue_v29]

-- Regions 5 down to 0, and 11 down to 6, substituted into one another are the program-side embedding unfolded.
theorem embedFirst : Spec.topRows (outsF m 26 main_v17 c)
    = Spec.kgcn A[main_arg0] A[main_arg1] A[main_arg2] A[main_arg3] A[main_arg8] A[main_arg9] A[main_arg10] A[main_arg11] := by
  rw [outArr5, outArr4, outArr3, outArr2, outArr1, outArr0]
  rfl
theorem embedSecond : Spec.topRows (outsF m 41 main_v30 c)
    = Spec.kgcn A[main_arg4] A[main_arg5] A[main_arg6] A[main_arg7] A[main_arg12] A[main_arg13] A[main_arg14] A[main_arg15] := by
  rw [outArr11, outArr10, outArr9, outArr8, outArr7, outArr6]
  rfl

theorem kernel_value
    (hs1 : ∀ e : Fin 600000, 0 ≤ ((A[main_arg1] : Spec.Ids 600000) (ix1 e)).toInt ∧ ((A[main_arg1] : Spec.Ids 600000) (ix1 e)).toInt < 50000)
    (hs2 : ∀ e : Fin 600000, 0 ≤ ((A[main_arg5] : Spec.Ids 600000) (ix1 e)).toInt ∧ ((A[main_arg5] : Spec.Ids 600000) (ix1 e)).toInt < 50000) :
    V42 m (outsF m) c main_v34
      = Spec.result A[main_arg0] A[main_arg1] A[main_arg2] A[main_arg3] A[main_arg4] A[main_arg5] A[main_arg6] A[main_arg7]
          A[main_arg8] A[main_arg9] A[main_arg10] A[main_arg11] A[main_arg12] A[main_arg13] A[main_arg14] A[main_arg15] := by
  rw [glue_v34 m (outsF m) c, embedFirst, embedSecond, Spec.kgcn_eq_gcn _ _ _ _ _ _ _ _ hs1, Spec.kgcn_eq_gcn _ _ _ _ _ _ _ _ hs2]
  rfl

end Regions

end Cert.KernelIdeal.Hand

end
-- ==== Proof.Ref.lean ====
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«410823_j40836549050565_1_alg».proof.Proof.Spec
import proofs.«410823_j40836549050565_1_alg».proof.Proof.LibGraphRead
import proofs.«410823_j40836549050565_1_alg».proof.Proof.LibDotRowsCols
import proofs.«410823_j40836549050565_1_alg».proof.Proof.Gen.ReferenceIdeal.Read

noncomputable section

namespace Cert.ReferenceIdeal.Hand

open Idealize.ShloMosaic Idealize.ShloMosaic.ValueIdx Cert.GcnLib Cert.Spec

/-- A coordinate below n is the coordinate a broadcast reads along an axis of extent n. -/
theorem val_ite {n : ℕ} (e : Fin n) : e.val = if n = 1 then 0 else e.val := by
  have := e.isLt; split <;> omega

variable {α : Type} {n N C : ℕ}

theorem column_apply (hb : (⟨1, ![n]⟩ : Shape).BroadcastsInDim ⟨2, ![n, 1]⟩ ![0])
    (x : (⟨1, ![n]⟩ : Shape).Idx → α) (e : Fin n) (z : Fin 1) :
    broadcastInDim ⟨2, ![n, 1]⟩ ![0] hb x (ix2 e z) = x (ix1 e) :=
  broadcastInDim_apply _ hb x _ _ fun a => match a with | ⟨0, _⟩ => val_ite e

theorem stretch_apply (hb : (⟨2, ![n, 1]⟩ : Shape).BroadcastsInDim ⟨2, ![n, C]⟩ ![0, 1])
    (x : (⟨2, ![n, 1]⟩ : Shape).Idx → α) (e : Fin n) (f : Fin C) :
    broadcastInDim ⟨2, ![n, C]⟩ ![0, 1] hb x (ix2 e f) = x (ix2 e 0) :=
  broadcastInDim_apply _ hb x _ _ fun a => match a with | ⟨0, _⟩ => val_ite e | ⟨1, _⟩ => rfl

theorem row_apply (hb : (⟨1, ![C]⟩ : Shape).BroadcastsInDim ⟨2, ![1, C]⟩ ![1])
    (x : (⟨1, ![C]⟩ : Shape).Idx → α) (z : Fin 1) (f : Fin C) :
    broadcastInDim ⟨2, ![1, C]⟩ ![1] hb x (ix2 z f) = x (ix1 f) :=
  broadcastInDim_apply _ hb x _ _ fun a => match a with | ⟨0, _⟩ => val_ite f

theorem rows_apply (hb : (⟨2, ![1, C]⟩ : Shape).BroadcastsInDim ⟨2, ![N, C]⟩ ![0, 1])
    (x : (⟨2, ![1, C]⟩ : Shape).Idx → α) (v : Fin N) (f : Fin C) :
    broadcastInDim ⟨2, ![N, C]⟩ ![0, 1] hb x (ix2 v f) = x (ix2 0 f) :=
  broadcastInDim_apply _ hb x _ _ fun a => match a with | ⟨0, _⟩ => rfl | ⟨1, _⟩ => val_ite f

theorem lead_apply (hb : (⟨2, ![N, C]⟩ : Shape).BroadcastsInDim ⟨3, ![1, N, C]⟩ ![1, 2])
    (x : (⟨2, ![N, C]⟩ : Shape).Idx → α) (z : Fin 1) (v : Fin N) (f : Fin C) :
    broadcastInDim ⟨3, ![1, N, C]⟩ ![1, 2] hb x (ix3 z v f) = x (ix2 v f) :=
  broadcastInDim_apply _ hb x _ _ fun a => match a with | ⟨0, _⟩ => val_ite v | ⟨1, _⟩ => val_ite f

/-- Entry by entry: wrapped source words gather rows of h, weights scale them, the scatter-add sums what lands on a node, the bias is added. -/
theorem conv_stage
    (gd : GatherDims ⟨2, ![50000, C]⟩ ⟨2, ![600000, 1]⟩ ⟨2, ![600000, C]⟩)
    (hoff : gd.offsetDims = [1]) (hcoll : gd.collapsedSliceDims = [0]) (hob : gd.operandBatchingDims = [])
    (hsb : gd.startIndicesBatchingDims = []) (hsim : gd.startIndexMap = [0]) (hivd : gd.indexVectorDim = 1)
    (hss : gd.sliceSizes = ![1, C])
    (sd : ScatterDims ⟨2, ![50000, C]⟩ ⟨2, ![600000, 1]⟩ ⟨2, ![600000, C]⟩)
    (huw : sd.updateWindowDims = [1]) (hiw : sd.insertedWindowDims = [0]) (hsd : sd.scatterDimsToOperandDims = [0])
    (hiv : sd.indexVectorDim = 1)
    {hcol : (⟨1, ![600000]⟩ : Shape).BroadcastsInDim ⟨2, ![600000, 1]⟩ ![0]}
    {hs0 : (⟨0, ![]⟩ : Shape).BroadcastsInDim ⟨1, ![600000]⟩ ![]}
    {hstr : (⟨2, ![600000, 1]⟩ : Shape).BroadcastsInDim ⟨2, ![600000, C]⟩ ![0, 1]}
    {hz : (⟨0, ![]⟩ : Shape).BroadcastsInDim ⟨2, ![50000, C]⟩ ![]}
    {hrow : (⟨1, ![C]⟩ : Shape).BroadcastsInDim ⟨2, ![1, C]⟩ ![1]}
    {hrows : (⟨2, ![1, C]⟩ : Shape).BroadcastsInDim ⟨2, ![50000, C]⟩ ![0, 1]}
    (h : Mat 50000 C) (b : Row C) (src dst : Ids 600000) (vals : Row 600000) :
    addf (F := Ideal) (φ := .f32)
      (Host.scatterAdd (F := Ideal) (φ := .f32) sd
        (broadcastInDim ⟨2, ![50000, C]⟩ ![] hz (constant (F := Ideal) ⟨0, ![]⟩ .f32 0x00000000#32))
        (broadcastInDim ⟨2, ![600000, 1]⟩ ![0] hcol dst)
        (mulf (F := Ideal) (φ := .f32) (broadcastInDim ⟨2, ![600000, C]⟩ ![0, 1] hstr (broadcastInDim ⟨2, ![600000, 1]⟩ ![0] hcol vals))
          (Host.gather gd h (broadcastInDim ⟨2, ![600000, 1]⟩ ![0] hcol
            (select (cmpi .slt src (broadcastInDim ⟨1, ![600000]⟩ ![] hs0 (constantI ⟨0, ![]⟩ 32 0#32)))
              (addi src (broadcastInDim ⟨1, ![600000]⟩ ![] hs0 (constantI ⟨0, ![]⟩ 32 50000#32))) src)))))
      (broadcastInDim ⟨2, ![50000, C]⟩ ![0, 1] hrows (broadcastInDim ⟨2, ![1, C]⟩ ![1] hrow b))
    = conv h b src dst vals := by
  funext j
  obtain ⟨v, f, rfl⟩ : ∃ (v : Fin 50000) (f : Fin C), j = ix2 v f := ⟨j 0, j 1, eq_ix2 j⟩
  rw [addf_apply, rows_apply, row_apply]
  show Ideal.hostScatterAdd sd _ _ _ (ix2 v f) + _ = _
  rw [scatterAdd_rows_apply sd huw hiw hsd hiv, broadcastInDim_scalar_apply, constant_apply, Ideal.ofBits_zero_f32, zero_add]
  unfold conv
  refine congrArg (· + b (ix1 f)) (Finset.sum_congr (Finset.filter_congr fun e _ => by rw [column_apply]; exact Iff.rfl) fun e _ => ?_)
  rw [mulf_apply, stretch_apply, column_apply, gather_rows_apply (by decide : 0 < 50000) gd hoff hcoll hob hsb hsim hivd hss,
    column_apply]
  rfl

/-- The host's product of rows with columns is the specification's product. -/
theorem mm_stage {K : ℕ} (d : DotDims ⟨2, ![N, K]⟩ ⟨2, ![K, C]⟩ ⟨2, ![N, C]⟩) (hd : Cert.Lib.DotRowsCols.RowsCols d)
    (x : Mat N K) (W : Mat K C) :
    Host.dotGeneral (F := Ideal) (φ₁ := .f32) (φ₂ := .f32) d none x W = mm x W :=
  funext fun j => hd.dotGeneral_apply none x W j

/-- The maximum with the zero splat is the specification's ReLU. -/
theorem relu_stage (hz : (⟨0, ![]⟩ : Shape).BroadcastsInDim ⟨2, ![N, C]⟩ ![]) (x : Mat N C) :
    maximumf (F := Ideal) (φ := .f32) x (broadcastInDim ⟨2, ![N, C]⟩ ![] hz (constant (F := Ideal) ⟨0, ![]⟩ .f32 0x00000000#32))
    = relu x := by
  funext j
  rw [maximumf_apply, broadcastInDim_scalar_apply, constant_apply, Ideal.ofBits_zero_f32]
  rfl

/-- Two arrays, each under a new leading unit axis, concatenated along it: entry (g, v, f) is the first's (v, f) for g = 0, else the second's. -/
theorem stack_stage (hb : (⟨2, ![N, C]⟩ : Shape).BroadcastsInDim ⟨3, ![1, N, C]⟩ ![1, 2])
    (hc : Shape.Concatenates [(⟨3, ![1, N, C]⟩ : Shape), ⟨3, ![1, N, C]⟩] ⟨3, ![2, N, C]⟩ 0)
    (x y : (⟨2, ![N, C]⟩ : Shape).Idx → α) (j : (⟨3, ![2, N, C]⟩ : Shape).Idx) :
    concatenate ⟨3, ![2, N, C]⟩ 0 [⟨⟨3, ![1, N, C]⟩, broadcastInDim ⟨3, ![1, N, C]⟩ ![1, 2] hb x⟩,
      ⟨⟨3, ![1, N, C]⟩, broadcastInDim ⟨3, ![1, N, C]⟩ ![1, 2] hb y⟩] hc j
    = if (j 0).val = 0 then x (ix2 (j 1) (j 2)) else y (ix2 (j 1) (j 2)) := by
  obtain ⟨g, v, f, rfl⟩ : ∃ (g : Fin 2) (v : Fin N) (f : Fin C), j = ix3 g v f := ⟨j 0, j 1, j 2, eq_ix3 j⟩
  show _ = if g.val = 0 then x (ix2 v f) else y (ix2 v f)
  by_cases hg : g.val = 0
  · rw [if_pos hg]
    exact Eq.trans (concatenate_pair_apply_left (s₁ := ⟨3, ![1, N, C]⟩) (s₂ := ⟨3, ![1, N, C]⟩) (0 : Fin 3) _ _ hc (ix3 g v f) rfl (ix3 0 v f)
      fun b => match b with | ⟨0, _⟩ => hg.symm | ⟨1, _⟩ => rfl | ⟨2, _⟩ => rfl) (lead_apply hb x 0 v f)
  · rw [if_neg hg]
    exact Eq.trans (concatenate_pair_apply_right (s₁ := ⟨3, ![1, N, C]⟩) (s₂ := ⟨3, ![1, N, C]⟩) (0 : Fin 3) _ _ hc (ix3 g v f) rfl rfl (ix3 0 v f)
      (fun b hb0 => match b, hb0 with | ⟨0, _⟩, h0 => absurd rfl h0 | ⟨1, _⟩, _ => rfl | ⟨2, _⟩, _ => rfl)
      (by show 0 + 1 = g.val; have := g.isLt; omega)) (lead_apply hb y 0 v f)

open Cert.ReferenceIdeal Cert.ReferenceIdeal.Gen Cert.ReferenceIdeal.Read

/-- One graph's stages are, in turn, the specification's product, convolution, ReLU, product and convolution. -/
theorem embedding (x0 : Mat 50000 128) (x1 x2 : Ids 600000) (x3 : Row 600000) (x8 : Mat 128 128) (x9 : Row 128)
    (x10 : Mat 128 64) (x11 : Row 64) :
    val_main_v34 (F := Ideal) x0 x1 x2 x3 x8 x9 x10 x11 = gcn x0 x1 x2 x3 x8 x9 x10 x11 := by
  have e0 : val_main_v0 (F := Ideal) x0 x8 = mm x0 x8 := mm_stage dot_S50000x128_S128x128_S50000x128_1_0_0_1_n_n ⟨rfl, rfl, rfl, rfl, rfl, rfl⟩ x0 x8
  have e16 : val_main_v16 (F := Ideal) x0 x1 x2 x3 x8 x9 = conv (val_main_v0 (F := Ideal) x0 x8) x9 x1 x2 x3 :=
    conv_stage gather_S50000x128_S600000x1_S600000x128_1_0_n_n_0_1_1128 rfl rfl rfl rfl rfl rfl rfl
      scatter_S50000x128_S600000x1_S600000x128_1_0_0_1 rfl rfl rfl rfl _ x9 x1 x2 x3
  have e17 : val_main_v17 (F := Ideal) x0 x1 x2 x3 x8 x9 = relu (val_main_v16 (F := Ideal) x0 x1 x2 x3 x8 x9) :=
    relu_stage _ _
  have e18 : val_main_v18 (F := Ideal) x0 x1 x2 x3 x8 x9 x10 = mm (val_main_v17 (F := Ideal) x0 x1 x2 x3 x8 x9) x10 :=
    mm_stage dot_S50000x128_S128x64_S50000x64_1_0_0_1_n_n ⟨rfl, rfl, rfl, rfl, rfl, rfl⟩ _ x10
  have e34 : val_main_v34 (F := Ideal) x0 x1 x2 x3 x8 x9 x10 x11
      = conv (val_main_v18 (F := Ideal) x0 x1 x2 x3 x8 x9 x10) x11 x1 x2 x3 :=
    conv_stage gather_S50000x64_S600000x1_S600000x64_1_0_n_n_0_1_164 rfl rfl rfl rfl rfl rfl rfl
      scatter_S50000x64_S600000x1_S600000x64_1_0_0_1 rfl rfl rfl rfl _ x11 x1 x2 x3
  unfold gcn
  rw [e34, e18, e17, e16, e0]

/-- The reference's result is the specification's function of its sixteen arguments; the second graph's stages are the first's at its arguments. -/
theorem stacked : val_main_v72 (F := Ideal) = result := by
  funext x0 x1 x2 x3 x4 x5 x6 x7 x8 x9 x10 x11 x12 x13 x14 x15 j
  unfold val_main_v72 val_main_v70 val_main_v71
  rw [embedding, show val_main_v69 (F := Ideal) x4 x5 x6 x7 x12 x13 x14 x15 = _ from embedding x4 x5 x6 x7 x12 x13 x14 x15]
  exact stack_stage _ _ _ _ j

end Cert.ReferenceIdeal.Hand

end
-- ==== Proof.PreRange.lean ====
import proofs.«410823_j40836549050565_1_alg».proof.Pre_finite_inputs
import Idealize.ShloMosaic.Lib.ReduceAll
import Idealize.ShloMosaic.Lib.Affine
import Idealize.ShloMosaic.Lib.ValueIdx

noncomputable section

namespace Cert.Proof.PreRange

open Idealize.ShloMosaic Idealize.ShloMosaic.ValueIdx Cert.Pre_finite_inputs

variable [Facts]

instance : Subsingleton S_.Idx := ⟨fun a b => funext fun d => d.elim0⟩

/-- A word whose signed comparisons "≥ 0" and "< 50000" are both 1 lies in [0, 50000). -/
theorem range_of_bits {w : BitVec 32} (h : IntOp.andi (IntOp.cmpi .sge w 0#32) (IntOp.cmpi .slt w 50000#32) = 1#1) :
    0 ≤ w.toInt ∧ w.toInt < 50000 :=
  ⟨IntOp.cmpi_sge.1 (IntOp.andi_eq_one.1 h).1, IntOp.cmpi_slt.1 (IntOp.andi_eq_one.1 h).2⟩

/-- The predicate's last two conjuncts are all((s ≥ 0) ∧ (s < 50000)) for the two source-id vectors; an and that is 1 met only 1s. -/
theorem src_range {F : FTy → Type} [FloatOps F]
    {a0 : FVec F S50000x128 .f32} {a1 a2 : IVec S600000 32} {a3 : FVec F S600000 .f32}
    {a4 : FVec F S50000x128 .f32} {a5 a6 : IVec S600000 32} {a7 : FVec F S600000 .f32}
    {a8 : FVec F S128x128 .f32} {a9 : FVec F S128 .f32} {a10 : FVec F S128x64 .f32} {a11 : FVec F S64 .f32}
    {a12 : FVec F S128x128 .f32} {a13 : FVec F S128 .f32} {a14 : FVec F S128x64 .f32} {a15 : FVec F S64 .f32}
    (h : fn (F := F) a0 a1 a2 a3 a4 a5 a6 a7 a8 a9 a10 a11 a12 a13 a14 a15 = fun _ => 1#1) :
    (∀ e : Fin 600000, 0 ≤ (a1 (ix1 e)).toInt ∧ (a1 (ix1 e)).toInt < 50000)
      ∧ (∀ e : Fin 600000, 0 ≤ (a5 (ix1 e)).toInt ∧ (a5 (ix1 e)).toInt < 50000) := by
  have h0 := congrFun h ix0
  dsimp only [fn, fn_part1, fn_part2, fn_part3, fn_part4] at h0
  obtain ⟨hacc, h5⟩ := IntOp.andi_eq_one.1 h0
  obtain ⟨-, h1⟩ := IntOp.andi_eq_one.1 hacc
  exact ⟨fun e => range_of_bits (Host.reduce_andi_all _ _ _ _ _ h1 (ix1 e)),
    fun e => range_of_bits (Host.reduce_andi_all _ _ _ _ _ h5 (ix1 e))⟩

end Cert.Proof.PreRange

end
-- ==== Proof.lean ====
import proofs.«410823_j40836549050565_1_alg».proof.Defs
import proofs.«410823_j40836549050565_1_alg».proof.Proof.Gen.Kernel
import proofs.«410823_j40836549050565_1_alg».proof.Proof.Gen.KernelIdeal
import proofs.«410823_j40836549050565_1_alg».proof.Proof.Gen.ReferenceIdeal
import proofs.«410823_j40836549050565_1_alg».proof.Proof.Gen.Pre_finite_inputs
import proofs.«410823_j40836549050565_1_alg».proof.Proof.K.Run
import proofs.«410823_j40836549050565_1_alg».proof.Proof.KI.Run
import proofs.«410823_j40836549050565_1_alg».proof.Proof.KI.Compose
import proofs.«410823_j40836549050565_1_alg».proof.Proof.Ref
import proofs.«410823_j40836549050565_1_alg».proof.Proof.PreRange
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ =>
  (θ_run (Cert.Kernel.defs (F := Bits)) _ _).mono (fun _ h c => (h c).2) (Cert.Kernel.Hand.run_main (F := Bits) m ρ)

theorem frame_ki : Cert.frame_KernelIdeal := fun m ρ _ =>
  (θ_run (Cert.KernelIdeal.defs (F := Ideal)) _ _).mono (fun _ h c => (h c).2) (Cert.KernelIdeal.Hand.run_main (F := Ideal) m ρ)

theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- Both results are the specification's function of the arguments: the witness is the reference's result term. -/
theorem algebraic : Cert.algebraic_KernelIdeal_ReferenceIdeal := by
  intro m ρ m' ρ' hpre hagree
  refine ⟨_, ?_, Cert.ReferenceIdeal.Value.run (F := Ideal) m' ρ'⟩
  refine (θ_run (Cert.KernelIdeal.defs (F := Ideal)) _ _).mono (fun _ h c => ⟨(h c).1.trans ?_, (h c).2⟩)
    (Cert.KernelIdeal.Hand.run_main (F := Ideal) m ρ)
  have hr := Cert.Proof.PreRange.src_range (hpre c)
  obtain ⟨h0, h1, h2, h3, h4, h5, h6, h7, h8, h9, h10, h11, h12, h13, h14, h15⟩ := hagree c
  rw [Cert.ReferenceIdeal.Read.val_main_v72_eq m' c, Cert.ReferenceIdeal.Hand.stacked,
    h0, h1, h2, h3, h4, h5, h6, h7, h8, h9, h10, h11, h12, h13, h14, h15]
  exact Cert.KernelIdeal.Hand.kernel_value m c hr.1 hr.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
